-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S200000x2 : Shape := ⟨2, ![200000, 2]⟩
abbrev S128x16 : Shape := ⟨2, ![128, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_
  bcast_S_S200000x2 : S_.BroadcastsInDim S200000x2 (![] : Fin 0 → Fin S200000x2.rank)
  reducesTo_S200000x2_S_d0_1 : S200000x2.ReducesTo [0, 1] S_

variable [Facts]

def fn_part2 {F : FTy → Type} [FloatOps F] (main_arg1 : IVec S2x320000 32) (main_arg2 : IVec S200000x2 32) (main_v33 : IVec S_ 1) : IVec S_ 1 :=
  let main_c_12 : IVec S_ 32 := constantI S_ 32 0#32
  let main_v34 : IVec S2x320000 32 := broadcastInDim S2x320000 ![] bcast_S_S2x320000 main_c_12
  let main_v35 : IVec S2x320000 1 := cmpi .sge main_arg1 main_v34
  let main_c_13 : IVec S_ 32 := constantI S_ 32 9999#32
  let main_v36 : IVec S2x320000 32 := broadcastInDim S2x320000 ![] bcast_S_S2x320000 main_c_13
  let main_v37 : IVec S2x320000 1 := cmpi .sle main_arg1 main_v36
  let main_v38 : IVec S2x320000 1 := andi main_v35 main_v37
  let main_c_14 : IVec S_ 1 := constantI S_ 1 1#1
  let main_v39 : IVec S_ 1 := (fun x v => Host.reduce IntOp.andi x v reducesTo_S2x320000_S_d0_1 h_S_) main_v38 main_c_14
  let main_v40 : IVec S_ 1 := andi main_v33 main_v39
  let main_c_15 : IVec S_ 32 := constantI S_ 32 0#32
  let main_v41 : IVec S200000x2 32 := broadcastInDim S200000x2 ![] bcast_S_S200000x2 main_c_15
  let main_v42 : IVec S200000x2 1 := cmpi .sge main_arg2 main_v41
  let main_c_16 : IVec S_ 32 := constantI S_ 32 9999#32
  let main_v43 : IVec S200000x2 32 := broadcastInDim S200000x2 ![] bcast_S_S200000x2 main_c_16
  let main_v44 : IVec S200000x2 1 := cmpi .sle main_arg2 main_v43
  let main_v45 : IVec S200000x2 1 := andi main_v42 main_v44
  let main_c_17 : IVec S_ 1 := constantI S_ 1 1#1
  let main_v46 : IVec S_ 1 := (fun x v => Host.reduce IntOp.andi x v reducesTo_S200000x2_S_d0_1 h_S_) main_v45 main_c_17
  let main_v47 : IVec S_ 1 := andi main_v40 main_v46
  main_v47

def fn_part1 {F : FTy → Type} [FloatOps F] (main_arg1 : IVec S2x320000 32) (main_arg2 : IVec S200000x2 32) (main_arg6 : FVec F S8 .f32) (main_arg7 : FVec F S8x1 .f32) (main_arg8 : FVec F S1 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg7
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg2 main_v33

def fn {F : FTy → Type} [FloatOps F] (main_arg0 : FVec F S10000x128 .f32) (main_arg1 : IVec S2x320000 32) (main_arg2 : IVec S200000x2 32) (main_arg3 : FVec F S128x16 .f32) (main_arg4 : FVec F S16 .f32) (main_arg5 : FVec F S16x8 .f32) (main_arg6 : FVec F S8 .f32) (main_arg7 : FVec F S8x1 .f32) (main_arg8 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg5
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg1 main_arg2 main_arg6 main_arg7 main_arg8 main_v13 main_v16
-- ==== Kernel.lean ====
abbrev S10000x128 : Shape := ⟨2, ![10000, 128]⟩
abbrev S2x320000 : Shape := ⟨2, ![2, 320000]⟩
abbrev S200000x2 : Shape := ⟨2, ![200000, 2]⟩
abbrev S128x16 : Shape := ⟨2, ![128, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩
abbrev S1x1 : Shape := ⟨2, ![1, 1]⟩
abbrev S32x10000 : Shape := ⟨2, ![32, 10000]⟩
abbrev S2x10112 : Shape := ⟨2, ![2, 10112]⟩
abbrev S10000 : Shape := ⟨1, ![10000]⟩
abbrev S1x16 : Shape := ⟨2, ![1, 16]⟩
abbrev S1x10000 : Shape := ⟨2, ![1, 10000]⟩
abbrev S10000x1 : Shape := ⟨2, ![10000, 1]⟩
abbrev S16x1 : Shape := ⟨2, ![16, 1]⟩
abbrev S128x1 : Shape := ⟨2, ![128, 1]⟩
abbrev S2x200000 : Shape := ⟨2, ![2, 200000]⟩
abbrev S2x200064 : Shape := ⟨2, ![2, 200064]⟩
abbrev S200000 : Shape := ⟨1, ![200000]⟩
abbrev S2x6400 : Shape := ⟨2, ![2, 6400]⟩
abbrev S6256 : Shape := ⟨1, ![6256]⟩
abbrev S2x6144 : Shape := ⟨2, ![2, 6144]⟩
abbrev S6064 : Shape := ⟨1, ![6064]⟩
abbrev S192 : Shape := ⟨1, ![192]⟩

abbrev nBuf : Table → Nat
  | .hbm => 35
  | .local .tc .vmem => 19
  | .local .scVector .vmem => 11
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S200000x2, .i32⟩
  | .hbm, ⟨3, _⟩ => ⟨S128x16, .f32⟩
  | .hbm, ⟨4, _⟩ => ⟨S16, .f32⟩
  | .hbm, ⟨5, _⟩ => ⟨S16x8, .f32⟩
  | .hbm, ⟨6, _⟩ => ⟨S8, .f32⟩
  | .hbm, ⟨7, _⟩ => ⟨S8x1, .f32⟩
  | .hbm, ⟨8, _⟩ => ⟨S1, .f32⟩
  | .hbm, ⟨9, _⟩ => ⟨S8, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S1x1, .f32⟩
  | .hbm, ⟨15, _⟩ => ⟨S1, .f32⟩
  | .hbm, ⟨16, _⟩ => ⟨S1, .f32⟩
  | .hbm, ⟨17, _⟩ => ⟨S1x1, .f32⟩
  | .hbm, ⟨18, _⟩ => ⟨S32x10000, .f32⟩
  | .hbm, ⟨19, _⟩ => ⟨S10000x1, .f32⟩
  | .hbm, ⟨20, _⟩ => ⟨S1x10000, .f32⟩
  | .hbm, ⟨21, _⟩ => ⟨S1x10000, .f32⟩
  | .hbm, ⟨22, _⟩ => ⟨S1x10000, .f32⟩
  | .hbm, ⟨23, _⟩ => ⟨S10000, .f32⟩
  | .hbm, ⟨24, _⟩ => ⟨S32x10000, .f32⟩
  | .hbm, ⟨25, _⟩ => ⟨S1x10000, .f32⟩
  | .hbm, ⟨26, _⟩ => ⟨S10000, .f32⟩
  | .hbm, ⟨27, _⟩ => ⟨S32x10000, .f32⟩
  | .hbm, ⟨28, _⟩ => ⟨S1x10000, .f32⟩
  | .hbm, ⟨29, _⟩ => ⟨S2x200000, .i32⟩
  | .hbm, ⟨30, _⟩ => ⟨S_, .i32⟩
  | .hbm, ⟨31, _⟩ => ⟨S_, .i32⟩
  | .hbm, ⟨32, _⟩ => ⟨S2x200064, .i32⟩
  | .hbm, ⟨33, _⟩ => ⟨S10000, .f32⟩
  | .hbm, ⟨34, _⟩ => ⟨S200000, .f32⟩
  | .local .tc .vmem, ⟨0, _⟩ => ⟨S10000x128, .f32⟩
  | .local .tc .vmem, ⟨1, _⟩ => ⟨S128x16, .f32⟩
  | .local .tc .vmem, ⟨2, _⟩ => ⟨S16x8, .f32⟩
  | .local .tc .vmem, ⟨3, _⟩ => ⟨S8x1, .f32⟩
  | .local .tc .vmem, ⟨4, _⟩ => ⟨S10000x1, .f32⟩
  | .local .tc .vmem, ⟨5, _⟩ => ⟨S32x10000, .f32⟩
  | .local .tc .vmem, ⟨6, _⟩ => ⟨S1x10000, .f32⟩
  | .local .tc .vmem, ⟨7, _⟩ => ⟨S1x10000, .f32⟩
  | .local .tc .vmem, ⟨8, _⟩ => ⟨S1x10000, .f32⟩
  | .local .tc .vmem, ⟨9, _⟩ => ⟨S32x10000, .f32⟩
  | .local .tc .vmem, ⟨10, _⟩ => ⟨S1x10000, .f32⟩
  | .local .tc .vmem, ⟨11, _⟩ => ⟨S1x10000, .f32⟩
  | .local .tc .vmem, ⟨12, _⟩ => ⟨S1x1, .f32⟩
  | .local .tc .vmem, ⟨13, _⟩ => ⟨S1x10000, .f32⟩
  | .local .tc .vmem, ⟨14, _⟩ => ⟨S32x10000, .f32⟩
  | .local .tc .vmem, ⟨15, _⟩ => ⟨S1x10000, .f32⟩
  | .local .tc .vmem, ⟨16, _⟩ => ⟨S1x10000, .f32⟩
  | .local .tc .vmem, ⟨17, _⟩ => ⟨S1x1, .f32⟩
  | .local .tc .vmem, ⟨18, _⟩ => ⟨S1x10000, .f32⟩
  | .local .scVector .vmem, ⟨0, _⟩ => ⟨S2x10112, .i32⟩
  | .local .scVector .vmem, ⟨1, _⟩ => ⟨S10000, .f32⟩
  | .local .scVector .vmem, ⟨2, _⟩ => ⟨S10000, .f32⟩
  | .local .scVector .vmem, ⟨3, _⟩ => ⟨S2x10112, .i32⟩
  | .local .scVector .vmem, ⟨4, _⟩ => ⟨S10000, .f32⟩
  | .local .scVector .vmem, ⟨5, _⟩ => ⟨S10000, .f32⟩
  | .local .scVector .vmem, ⟨6, _⟩ => ⟨S2x10112, .i32⟩
  | .local .scVector .vmem, ⟨7, _⟩ => ⟨S10000, .f32⟩
  | .local .scVector .vmem, ⟨8, _⟩ => ⟨S10000, .f32⟩
  | .local .scVector .vmem, ⟨9, _⟩ => ⟨S2x6400, .i32⟩
  | .local .scVector .vmem, ⟨10, _⟩ => ⟨S6256, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => false
  | ⟨28, _⟩ => false
  | ⟨29, _⟩ => false
  | ⟨30, _⟩ => false
  | ⟨31, _⟩ => false
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_arg1_scv : Ref sig .scVector := ⟨.hbm, 1, rfl⟩
abbrev main_v8_scv : Ref sig .scVector := ⟨.hbm, 18, rfl⟩
abbrev main_v12_scv : Ref sig .scVector := ⟨.hbm, 23, rfl⟩
abbrev main_v13_scv : Ref sig .scVector := ⟨.hbm, 24, rfl⟩
abbrev main_v15_scv : Ref sig .scVector := ⟨.hbm, 26, rfl⟩
abbrev main_v16_scv : Ref sig .scVector := ⟨.hbm, 27, rfl⟩
abbrev main_v20_scv : Ref sig .scVector := ⟨.hbm, 33, rfl⟩
abbrev main_v19_scv : Ref sig .scVector := ⟨.hbm, 32, rfl⟩
abbrev main_v21_scv : Ref sig .scVector := ⟨.hbm, 34, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc4_stg0_0 : Ref sig .tc := ⟨.vmem, 9, rfl⟩
abbrev cc4_stg1_0 : Ref sig .tc := ⟨.vmem, 10, rfl⟩
abbrev cc4_stg2_0 : Ref sig .tc := ⟨.vmem, 11, rfl⟩
abbrev cc4_stg3_0 : Ref sig .tc := ⟨.vmem, 12, rfl⟩
abbrev cc4_stg4_0 : Ref sig .tc := ⟨.vmem, 13, rfl⟩
abbrev cc6_stg0_0 : Ref sig .tc := ⟨.vmem, 14, rfl⟩
abbrev cc6_stg1_0 : Ref sig .tc := ⟨.vmem, 15, rfl⟩
abbrev cc6_stg2_0 : Ref sig .tc := ⟨.vmem, 16, rfl⟩
abbrev cc6_stg3_0 : Ref sig .tc := ⟨.vmem, 17, rfl⟩
abbrev cc6_stg4_0 : Ref sig .tc := ⟨.vmem, 18, rfl⟩
abbrev cc0_scratch0 : Ref sig .scVector := ⟨.vmem, 0, rfl⟩
abbrev cc0_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc3_scratch2 : Ref sig .scVector := ⟨.vmem, 4, rfl⟩
abbrev cc5_scratch0 : Ref sig .scVector := ⟨.vmem, 5, rfl⟩
abbrev cc5_scratch1 : Ref sig .scVector := ⟨.vmem, 6, rfl⟩
abbrev cc5_scratch2 : Ref sig .scVector := ⟨.vmem, 7, rfl⟩
abbrev cc7_scratch0 : Ref sig .scVector := ⟨.vmem, 8, rfl⟩
abbrev cc7_scratch1 : Ref sig .scVector := ⟨.vmem, 9, rfl⟩
abbrev cc7_scratch2 : Ref sig .scVector := ⟨.vmem, 10, rfl⟩
abbrev cc1_sem0_0 : DmaSem sig := 2
abbrev cc1_sem1_0 : DmaSem sig := 3
abbrev cc1_sem2_0 : DmaSem sig := 4
abbrev cc1_sem3_0 : DmaSem sig := 5
abbrev cc1_sem4_0 : DmaSem sig := 6
abbrev cc2_sem0_0 : DmaSem sig := 7
abbrev cc2_sem1_0 : DmaSem sig := 8
abbrev cc2_sem2_0 : DmaSem sig := 9
abbrev cc2_sem3_0 : DmaSem sig := 10
abbrev cc4_sem0_0 : DmaSem sig := 14
abbrev cc4_sem1_0 : DmaSem sig := 15
abbrev cc4_sem2_0 : DmaSem sig := 16
abbrev cc4_sem3_0 : DmaSem sig := 17
abbrev cc4_sem4_0 : DmaSem sig := 18
abbrev cc6_sem0_0 : DmaSem sig := 22
abbrev cc6_sem1_0 : DmaSem sig := 23
abbrev cc6_sem2_0 : DmaSem sig := 24
abbrev cc6_sem3_0 : DmaSem sig := 25
abbrev cc6_sem4_0 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c128_i32 : BitVec 32 := 128#32
  let v3 : BitVec 32 := Scalar.remsi v2 c128_i32
  let v4 : BitVec 32 := Scalar.subi v2 v3
  v4
def k0_off1 (i : grid0.Coords) : Fin 2 → Nat :=
  let c0_i32_5_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c128_i32 : BitVec 32 := 128#32
  let v3 : BitVec 32 := Scalar.remsi v2 c128_i32
  let v4 : BitVec 32 := Scalar.subi v2 v3
  let v5 : BitVec 32 := v4
  ![0, v5.toNat]
@[reducible] def k0_t1_loop : Scf.Loop 32 :=
  let c0_i32 : BitVec 32 := 0#32
  let c625_i32 : BitVec 32 := 625#32
  let v6 : BitVec 32 := Scalar.addi c0_i32 c625_i32
  let c1_i32 : BitVec 32 := 1#32
  ⟨c0_i32, v6, c1_i32⟩
def k0_off2 (k0_t1 : Fin k0_t1_loop.trips) : Fin 1 → Nat :=
  let c0_i32 : BitVec 32 := 0#32
  let c1_i32 : BitVec 32 := 1#32
  let arg6 : BitVec 32 := Scf.iv c0_i32 c1_i32 k0_t1
  let c16_i32 : BitVec 32 := 16#32
  let v10 : BitVec 32 := Scalar.muli arg6 c16_i32
  let v11 : Index := Scalar.indexCast v10
  ![v11.toNat]
@[reducible] def k0_t2_loop : Scf.Loop 32 :=
  let c0_i32_1 : BitVec 32 := 0#32
  let c625_i32_2 : BitVec 32 := 625#32
  let v8 : BitVec 32 := Scalar.addi c0_i32_1 c625_i32_2
  let c1_i32_3 : BitVec 32 := 1#32
  ⟨c0_i32_1, v8, c1_i32_3⟩
def k0_off3 (i : grid0.Coords) (k0_t2 : Fin k0_t2_loop.trips) : Fin 2 → Nat :=
  let c1_i32_5 : BitVec 32 := 1#32
  let v11 : Index := Scalar.indexCast c1_i32_5
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c128_i32 : BitVec 32 := 128#32
  let v3 : BitVec 32 := Scalar.remsi v2 c128_i32
  let c0_i32_1 : BitVec 32 := 0#32
  let c1_i32_3 : BitVec 32 := 1#32
  let arg6 : BitVec 32 := Scf.iv c0_i32_1 c1_i32_3 k0_t2
  let c16_i32 : BitVec 32 := 16#32
  let v9 : BitVec 32 := Scalar.muli arg6 c16_i32
  let v10 : BitVec 32 := Scalar.addi v3 v9
  let v12 : Index := Scalar.indexCast v10
  ![1, v12.toNat]

def k0_chk1 (v13 : IVec S16 32) : Prop :=
  (∀ a x, ((![v13] : Fin 1 → IVec S16 32) a x).toNat < S10000.size a)
instance k0_chk1.dec : ∀ (v13 : IVec S16 32), Decidable (k0_chk1 v13) := fun v13 => decidable_of_iff' _ (Iff.of_eq (k0_chk1.eq_1 v13))
theorem k0_idx1_inb : ∀ (v13 : IVec S16 32) (k0_hw1 : k0_chk1 v13), ∀ a x, ((![v13] : Fin 1 → IVec S16 32) a x).toNat < S10000.size a := fun v13 k0_hw1 => k0_hw1
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r1 : BitVec 32 := 0#32
  ![v1.toNat, 0]
abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S10000x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := .none

abbrev stage2_0 : Fin 1 → Memref sig .tc .vmem S32x10000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x10000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x10000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x10000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev grid3 : Pipeline.Grid := ⟨2, ![2, 16], ![false, false]⟩

def k3_mult1 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c128_i32 : BitVec 32 := 128#32
  let v3 : BitVec 32 := Scalar.remsi v2 c128_i32
  let v4 : BitVec 32 := Scalar.subi v2 v3
  v4
def k3_off1 (i : grid3.Coords) : Fin 2 → Nat :=
  let c0_i32_5_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c128_i32 : BitVec 32 := 128#32
  let v3 : BitVec 32 := Scalar.remsi v2 c128_i32
  let v4 : BitVec 32 := Scalar.subi v2 v3
  let v5 : BitVec 32 := v4
  ![0, v5.toNat]
@[reducible] def k3_t1_loop : Scf.Loop 32 :=
  let c0_i32 : BitVec 32 := 0#32
  let c625_i32 : BitVec 32 := 625#32
  let v6 : BitVec 32 := Scalar.addi c0_i32 c625_i32
  let c1_i32 : BitVec 32 := 1#32
  ⟨c0_i32, v6, c1_i32⟩
def k3_off2 (k3_t1 : Fin k3_t1_loop.trips) : Fin 1 → Nat :=
  let c0_i32 : BitVec 32 := 0#32
  let c1_i32 : BitVec 32 := 1#32
  let arg8 : BitVec 32 := Scf.iv c0_i32 c1_i32 k3_t1
  let c16_i32 : BitVec 32 := 16#32
  let v9 : BitVec 32 := Scalar.muli arg8 c16_i32
  let v10 : Index := Scalar.indexCast v9
  ![v10.toNat]
@[reducible] def k3_t2_loop : Scf.Loop 32 :=
  let c0_i32_1 : BitVec 32 := 0#32
  let c625_i32_2 : BitVec 32 := 625#32
  let v7 : BitVec 32 := Scalar.addi c0_i32_1 c625_i32_2
  let c1_i32_3 : BitVec 32 := 1#32
  ⟨c0_i32_1, v7, c1_i32_3⟩
def k3_off3 (i : grid3.Coords) (k3_t2 : Fin k3_t2_loop.trips) : Fin 2 → Nat :=
  let c0_i32_5 : BitVec 32 := 0#32
  let v10 : Index := Scalar.indexCast c0_i32_5
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c128_i32 : BitVec 32 := 128#32
  let v3 : BitVec 32 := Scalar.remsi v2 c128_i32
  let c0_i32_1 : BitVec 32 := 0#32
  let c1_i32_3 : BitVec 32 := 1#32
  let arg8 : BitVec 32 := Scf.iv c0_i32_1 c1_i32_3 k3_t2
  let c16_i32 : BitVec 32 := 16#32
  let v8 : BitVec 32 := Scalar.muli arg8 c16_i32
  let v9 : BitVec 32 := Scalar.addi v3 v8
  let v11 : Index := Scalar.indexCast v9
  ![0, v11.toNat]
def k3_off4 (i : grid3.Coords) (k3_t2 : Fin k3_t2_loop.trips) : Fin 2 → Nat :=
  let c1_i32_6 : BitVec 32 := 1#32
  let v13 : Index := Scalar.indexCast c1_i32_6
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c128_i32 : BitVec 32 := 128#32
  let v3 : BitVec 32 := Scalar.remsi v2 c128_i32
  let c0_i32_1 : BitVec 32 := 0#32
  let c1_i32_3 : BitVec 32 := 1#32
  let arg8 : BitVec 32 := Scf.iv c0_i32_1 c1_i32_3 k3_t2
  let c16_i32 : BitVec 32 := 16#32
  let v8 : BitVec 32 := Scalar.muli arg8 c16_i32
  let v9 : BitVec 32 := Scalar.addi v3 v8
  let v14 : Index := Scalar.indexCast v9
  ![1, v14.toNat]

def k3_chk1 (v12 : IVec S16 32) : Prop :=
  (∀ a x, ((![v12] : Fin 1 → IVec S16 32) a x).toNat < S10000.size a)
instance k3_chk1.dec : ∀ (v12 : IVec S16 32), Decidable (k3_chk1 v12) := fun v12 => decidable_of_iff' _ (Iff.of_eq (k3_chk1.eq_1 v12))
theorem k3_idx1_inb : ∀ (v12 : IVec S16 32) (k3_hw1 : k3_chk1 v12), ∀ a x, ((![v12] : Fin 1 → IVec S16 32) a x).toNat < S10000.size a := fun v12 k3_hw1 => k3_hw1

def k3_chk2 (v15 : IVec S16 32) : Prop :=
  (∀ a x, ((![v15] : Fin 1 → IVec S16 32) a x).toNat < S10000.size a)
instance k3_chk2.dec : ∀ (v15 : IVec S16 32), Decidable (k3_chk2 v15) := fun v15 => decidable_of_iff' _ (Iff.of_eq (k3_chk2.eq_1 v15))
theorem k3_idx2_inb : ∀ (v15 : IVec S16 32) (k3_hw2 : k3_chk2 v15), ∀ a x, ((![v15] : Fin 1 → IVec S16 32) a x).toNat < S10000.size a := fun v15 k3_hw2 => k3_hw2
def k3_off5 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r2 : BitVec 32 := 0#32
  ![v1.toNat, 0]
abbrev grid4 : Pipeline.Grid := .none

abbrev stage4_0 : Fin 1 → Memref sig .tc .vmem S32x10000 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S1x10000 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x10000 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x10000 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev grid5 : Pipeline.Grid := ⟨2, ![2, 16], ![false, false]⟩

def k5_mult1 (i : grid5.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c128_i32 : BitVec 32 := 128#32
  let v3 : BitVec 32 := Scalar.remsi v2 c128_i32
  let v4 : BitVec 32 := Scalar.subi v2 v3
  v4
def k5_off1 (i : grid5.Coords) : Fin 2 → Nat :=
  let c0_i32_5_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c128_i32 : BitVec 32 := 128#32
  let v3 : BitVec 32 := Scalar.remsi v2 c128_i32
  let v4 : BitVec 32 := Scalar.subi v2 v3
  let v5 : BitVec 32 := v4
  ![0, v5.toNat]
@[reducible] def k5_t1_loop : Scf.Loop 32 :=
  let c0_i32 : BitVec 32 := 0#32
  let c625_i32 : BitVec 32 := 625#32
  let v6 : BitVec 32 := Scalar.addi c0_i32 c625_i32
  let c1_i32 : BitVec 32 := 1#32
  ⟨c0_i32, v6, c1_i32⟩
def k5_off2 (k5_t1 : Fin k5_t1_loop.trips) : Fin 1 → Nat :=
  let c0_i32 : BitVec 32 := 0#32
  let c1_i32 : BitVec 32 := 1#32
  let arg8 : BitVec 32 := Scf.iv c0_i32 c1_i32 k5_t1
  let c16_i32 : BitVec 32 := 16#32
  let v9 : BitVec 32 := Scalar.muli arg8 c16_i32
  let v10 : Index := Scalar.indexCast v9
  ![v10.toNat]
@[reducible] def k5_t2_loop : Scf.Loop 32 :=
  let c0_i32_1 : BitVec 32 := 0#32
  let c625_i32_2 : BitVec 32 := 625#32
  let v7 : BitVec 32 := Scalar.addi c0_i32_1 c625_i32_2
  let c1_i32_3 : BitVec 32 := 1#32
  ⟨c0_i32_1, v7, c1_i32_3⟩
def k5_off3 (i : grid5.Coords) (k5_t2 : Fin k5_t2_loop.trips) : Fin 2 → Nat :=
  let c0_i32_5 : BitVec 32 := 0#32
  let v10 : Index := Scalar.indexCast c0_i32_5
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c128_i32 : BitVec 32 := 128#32
  let v3 : BitVec 32 := Scalar.remsi v2 c128_i32
  let c0_i32_1 : BitVec 32 := 0#32
  let c1_i32_3 : BitVec 32 := 1#32
  let arg8 : BitVec 32 := Scf.iv c0_i32_1 c1_i32_3 k5_t2
  let c16_i32 : BitVec 32 := 16#32
  let v8 : BitVec 32 := Scalar.muli arg8 c16_i32
  let v9 : BitVec 32 := Scalar.addi v3 v8
  let v11 : Index := Scalar.indexCast v9
  ![0, v11.toNat]
def k5_off4 (i : grid5.Coords) (k5_t2 : Fin k5_t2_loop.trips) : Fin 2 → Nat :=
  let c1_i32_6 : BitVec 32 := 1#32
  let v13 : Index := Scalar.indexCast c1_i32_6
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c128_i32 : BitVec 32 := 128#32
  let v3 : BitVec 32 := Scalar.remsi v2 c128_i32
  let c0_i32_1 : BitVec 32 := 0#32
  let c1_i32_3 : BitVec 32 := 1#32
  let arg8 : BitVec 32 := Scf.iv c0_i32_1 c1_i32_3 k5_t2
  let c16_i32 : BitVec 32 := 16#32
  let v8 : BitVec 32 := Scalar.muli arg8 c16_i32
  let v9 : BitVec 32 := Scalar.addi v3 v8
  let v14 : Index := Scalar.indexCast v9
  ![1, v14.toNat]

def k5_chk1 (v12 : IVec S16 32) : Prop :=
  (∀ a x, ((![v12] : Fin 1 → IVec S16 32) a x).toNat < S10000.size a)
instance k5_chk1.dec : ∀ (v12 : IVec S16 32), Decidable (k5_chk1 v12) := fun v12 => decidable_of_iff' _ (Iff.of_eq (k5_chk1.eq_1 v12))
theorem k5_idx1_inb : ∀ (v12 : IVec S16 32) (k5_hw1 : k5_chk1 v12), ∀ a x, ((![v12] : Fin 1 → IVec S16 32) a x).toNat < S10000.size a := fun v12 k5_hw1 => k5_hw1

def k5_chk2 (v15 : IVec S16 32) : Prop :=
  (∀ a x, ((![v15] : Fin 1 → IVec S16 32) a x).toNat < S10000.size a)
instance k5_chk2.dec : ∀ (v15 : IVec S16 32), Decidable (k5_chk2 v15) := fun v15 => decidable_of_iff' _ (Iff.of_eq (k5_chk2.eq_1 v15))
theorem k5_idx2_inb : ∀ (v15 : IVec S16 32) (k5_hw2 : k5_chk2 v15), ∀ a x, ((![v15] : Fin 1 → IVec S16 32) a x).toNat < S10000.size a := fun v15 k5_hw2 => k5_hw2
def k5_off5 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r2 : BitVec 32 := 0#32
  ![v1.toNat, 0]
abbrev grid6 : Pipeline.Grid := .none

abbrev stage6_0 : Fin 1 → Memref sig .tc .vmem S32x10000 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S1x10000 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S1x10000 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S1x10000 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev grid7 : Pipeline.Grid := ⟨2, ![2, 16], ![false, false]⟩

def k7_mult1 (i : grid7.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6256_i32 : BitVec 32 := 6256#32
  let v2 : BitVec 32 := Scalar.muli v1 c6256_i32
  let c128_i32 : BitVec 32 := 128#32
  let v3 : BitVec 32 := Scalar.remsi v2 c128_i32
  let v4 : BitVec 32 := Scalar.subi v2 v3
  v4
def k7_cond1 (i : grid7.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v6 : BitVec 1 := Scalar.cmpi .slt v1 c31_i32
  let v7 : BitVec 32 := Scalar.extui v6
  let c0_i32 : BitVec 32 := 0#32
  let v8 : BitVec 1 := Scalar.cmpi .ne v7 c0_i32
  v8

def k7_off1 (i : grid7.Coords) : Fin 2 → Nat :=
  let c0_i32_10_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6256_i32 : BitVec 32 := 6256#32
  let v2 : BitVec 32 := Scalar.muli v1 c6256_i32
  let c128_i32 : BitVec 32 := 128#32
  let v3 : BitVec 32 := Scalar.remsi v2 c128_i32
  let v4 : BitVec 32 := Scalar.subi v2 v3
  let v5 : BitVec 32 := v4
  ![0, v5.toNat]
def k7_cond2 (i : grid7.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_0 : BitVec 32 := 31#32
  let v9 : BitVec 1 := Scalar.cmpi .eq v1 c31_i32_0
  let v10 : BitVec 32 := Scalar.extui v9
  let c0_i32_1 : BitVec 32 := 0#32
  let v11 : BitVec 1 := Scalar.cmpi .ne v10 c0_i32_1
  v11

def k7_off2 (i : grid7.Coords) : Fin 2 → Nat :=
  let c0_i32_10_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6256_i32 : BitVec 32 := 6256#32
  let v2 : BitVec 32 := Scalar.muli v1 c6256_i32
  let c128_i32 : BitVec 32 := 128#32
  let v3 : BitVec 32 := Scalar.remsi v2 c128_i32
  let v4 : BitVec 32 := Scalar.subi v2 v3
  let v5 : BitVec 32 := v4
  ![0, v5.toNat]
@[reducible] def k7_t1_loop : Scf.Loop 32 :=
  let c0_i32_2 : BitVec 32 := 0#32
  let c379_i32 : BitVec 32 := 379#32
  let v12 : BitVec 32 := Scalar.addi c0_i32_2 c379_i32
  let c1_i32 : BitVec 32 := 1#32
  ⟨c0_i32_2, v12, c1_i32⟩
def k7_off3 (i : grid7.Coords) (k7_t1 : Fin k7_t1_loop.trips) : Fin 2 → Nat :=
  let c0_i32_8 : BitVec 32 := 0#32
  let v21 : Index := Scalar.indexCast c0_i32_8
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6256_i32 : BitVec 32 := 6256#32
  let v2 : BitVec 32 := Scalar.muli v1 c6256_i32
  let c128_i32 : BitVec 32 := 128#32
  let v3 : BitVec 32 := Scalar.remsi v2 c128_i32
  let c0_i32_2 : BitVec 32 := 0#32
  let c1_i32 : BitVec 32 := 1#32
  let arg8 : BitVec 32 := Scf.iv c0_i32_2 c1_i32 k7_t1
  let c16_i32 : BitVec 32 := 16#32
  let v19 : BitVec 32 := Scalar.muli arg8 c16_i32
  let v20 : BitVec 32 := Scalar.addi v3 v19
  let v22 : Index := Scalar.indexCast v20
  ![0, v22.toNat]
def k7_off4 (i : grid7.Coords) (k7_t1 : Fin k7_t1_loop.trips) : Fin 2 → Nat :=
  let c1_i32_9 : BitVec 32 := 1#32
  let v24 : Index := Scalar.indexCast c1_i32_9
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6256_i32 : BitVec 32 := 6256#32
  let v2 : BitVec 32 := Scalar.muli v1 c6256_i32
  let c128_i32 : BitVec 32 := 128#32
  let v3 : BitVec 32 := Scalar.remsi v2 c128_i32
  let c0_i32_2 : BitVec 32 := 0#32
  let c1_i32 : BitVec 32 := 1#32
  let arg8 : BitVec 32 := Scf.iv c0_i32_2 c1_i32 k7_t1
  let c16_i32 : BitVec 32 := 16#32
  let v19 : BitVec 32 := Scalar.muli arg8 c16_i32
  let v20 : BitVec 32 := Scalar.addi v3 v19
  let v25 : Index := Scalar.indexCast v20
  ![1, v25.toNat]

def k7_chk1 (v23 : IVec S16 32) : Prop :=
  (∀ a x, ((![v23] : Fin 1 → IVec S16 32) a x).toNat < S10000.size a)
instance k7_chk1.dec : ∀ (v23 : IVec S16 32), Decidable (k7_chk1 v23) := fun v23 => decidable_of_iff' _ (Iff.of_eq (k7_chk1.eq_1 v23))
theorem k7_idx1_inb : ∀ (v23 : IVec S16 32) (k7_hw1 : k7_chk1 v23), ∀ a x, ((![v23] : Fin 1 → IVec S16 32) a x).toNat < S10000.size a := fun v23 k7_hw1 => k7_hw1

def k7_chk2 (v26 : IVec S16 32) : Prop :=
  (∀ a x, ((![v26] : Fin 1 → IVec S16 32) a x).toNat < S10000.size a)
instance k7_chk2.dec : ∀ (v26 : IVec S16 32), Decidable (k7_chk2 v26) := fun v26 => decidable_of_iff' _ (Iff.of_eq (k7_chk2.eq_1 v26))
theorem k7_idx2_inb : ∀ (v26 : IVec S16 32) (k7_hw2 : k7_chk2 v26), ∀ a x, ((![v26] : Fin 1 → IVec S16 32) a x).toNat < S10000.size a := fun v26 k7_hw2 => k7_hw2
def k7_off5 (k7_t1 : Fin k7_t1_loop.trips) : Fin 1 → Nat :=
  let c0_i32_2 : BitVec 32 := 0#32
  let c1_i32 : BitVec 32 := 1#32
  let arg8 : BitVec 32 := Scf.iv c0_i32_2 c1_i32 k7_t1
  let c16_i32_10 : BitVec 32 := 16#32
  let v30 : BitVec 32 := Scalar.muli arg8 c16_i32_10
  let v31 : Index := Scalar.indexCast v30
  ![v31.toNat]
def k7_cond3 (i : grid7.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_4 : BitVec 32 := 31#32
  let v13 : BitVec 1 := Scalar.cmpi .slt v1 c31_i32_4
  let v14 : BitVec 32 := Scalar.extui v13
  let c0_i32_5 : BitVec 32 := 0#32
  let v15 : BitVec 1 := Scalar.cmpi .ne v14 c0_i32_5
  v15

@[reducible] def k7_t2_loop : Scf.Loop 32 :=
  let c379_i32_8 : BitVec 32 := 379#32
  let c12_i32 : BitVec 32 := 12#32
  let v19 : BitVec 32 := Scalar.addi c379_i32_8 c12_i32
  let c1_i32_9 : BitVec 32 := 1#32
  ⟨c379_i32_8, v19, c1_i32_9⟩
def k7_off6 (i : grid7.Coords) (k7_t2 : Fin k7_t2_loop.trips) : Fin 2 → Nat :=
  let c0_i32_11 : BitVec 32 := 0#32
  let v22 : Index := Scalar.indexCast c0_i32_11
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6256_i32 : BitVec 32 := 6256#32
  let v2 : BitVec 32 := Scalar.muli v1 c6256_i32
  let c128_i32 : BitVec 32 := 128#32
  let v3 : BitVec 32 := Scalar.remsi v2 c128_i32
  let c379_i32_8 : BitVec 32 := 379#32
  let c1_i32_9 : BitVec 32 := 1#32
  let arg8 : BitVec 32 := Scf.iv c379_i32_8 c1_i32_9 k7_t2
  let c16_i32 : BitVec 32 := 16#32
  let v20 : BitVec 32 := Scalar.muli arg8 c16_i32
  let v21 : BitVec 32 := Scalar.addi v3 v20
  let v23 : Index := Scalar.indexCast v21
  ![0, v23.toNat]
def k7_off7 (i : grid7.Coords) (k7_t2 : Fin k7_t2_loop.trips) : Fin 2 → Nat :=
  let c1_i32_12 : BitVec 32 := 1#32
  let v25 : Index := Scalar.indexCast c1_i32_12
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6256_i32 : BitVec 32 := 6256#32
  let v2 : BitVec 32 := Scalar.muli v1 c6256_i32
  let c128_i32 : BitVec 32 := 128#32
  let v3 : BitVec 32 := Scalar.remsi v2 c128_i32
  let c379_i32_8 : BitVec 32 := 379#32
  let c1_i32_9 : BitVec 32 := 1#32
  let arg8 : BitVec 32 := Scf.iv c379_i32_8 c1_i32_9 k7_t2
  let c16_i32 : BitVec 32 := 16#32
  let v20 : BitVec 32 := Scalar.muli arg8 c16_i32
  let v21 : BitVec 32 := Scalar.addi v3 v20
  let v26 : Index := Scalar.indexCast v21
  ![1, v26.toNat]

def k7_chk3 (i : grid7.Coords) (v24 : IVec S16 32) : Prop :=
  (∀ (k7_h3 : k7_cond3 i = 1#1), ∀ a x, ((![v24] : Fin 1 → IVec S16 32) a x).toNat < S10000.size a)
instance k7_chk3.dec : ∀ (i : grid7.Coords) (v24 : IVec S16 32), Decidable (k7_chk3 i v24) := fun i v24 => decidable_of_iff' _ (Iff.of_eq (k7_chk3.eq_1 i v24))
theorem k7_idx3_inb : ∀ (i : grid7.Coords) (v24 : IVec S16 32) (k7_hw3 : k7_chk3 i v24), ∀ (k7_h3 : k7_cond3 i = 1#1), ∀ a x, ((![v24] : Fin 1 → IVec S16 32) a x).toNat < S10000.size a := fun i v24 k7_hw3 k7_h3 => k7_hw3 k7_h3

def k7_chk4 (i : grid7.Coords) (v27 : IVec S16 32) : Prop :=
  (∀ (k7_h3 : k7_cond3 i = 1#1), ∀ a x, ((![v27] : Fin 1 → IVec S16 32) a x).toNat < S10000.size a)
instance k7_chk4.dec : ∀ (i : grid7.Coords) (v27 : IVec S16 32), Decidable (k7_chk4 i v27) := fun i v27 => decidable_of_iff' _ (Iff.of_eq (k7_chk4.eq_1 i v27))
theorem k7_idx4_inb : ∀ (i : grid7.Coords) (v27 : IVec S16 32) (k7_hw4 : k7_chk4 i v27), ∀ (k7_h3 : k7_cond3 i = 1#1), ∀ a x, ((![v27] : Fin 1 → IVec S16 32) a x).toNat < S10000.size a := fun i v27 k7_hw4 k7_h3 => k7_hw4 k7_h3
def k7_off8 (k7_t2 : Fin k7_t2_loop.trips) : Fin 1 → Nat :=
  let c379_i32_8 : BitVec 32 := 379#32
  let c1_i32_9 : BitVec 32 := 1#32
  let arg8 : BitVec 32 := Scf.iv c379_i32_8 c1_i32_9 k7_t2
  let c16_i32_13 : BitVec 32 := 16#32
  let v31 : BitVec 32 := Scalar.muli arg8 c16_i32_13
  let v32 : Index := Scalar.indexCast v31
  ![v32.toNat]
def k7_off9 (i : grid7.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6256_i32 : BitVec 32 := 6256#32
  let v2 : BitVec 32 := Scalar.muli v1 c6256_i32
  ![v2.toNat]
def k7_cond4 (i : grid7.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_6 : BitVec 32 := 31#32
  let v16 : BitVec 1 := Scalar.cmpi .slt v1 c31_i32_6
  let v17 : BitVec 32 := Scalar.extui v16
  let c0_i32_7 : BitVec 32 := 0#32
  let v18 : BitVec 1 := Scalar.cmpi .ne v17 c0_i32_7
  v18

def k7_off10 (i : grid7.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6256_i32 : BitVec 32 := 6256#32
  let v2 : BitVec 32 := Scalar.muli v1 c6256_i32
  let c6064_i32 : BitVec 32 := 6064#32
  let v19 : BitVec 32 := Scalar.addi v2 c6064_i32
  ![v19.toNat]
abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))

class Facts₀ : Prop where
  bcast_S_S1 : S_.BroadcastsInDim S1 (![] : Fin 0 → Fin S1.rank)
  shapeCasts_S1_S1x1 : S1.ShapeCasts S1x1
  h_S16 : 0 < S16.numel
  h_S1x16 : 0 < S1x16.numel
  shapeCasts_S1x16_S16 : S1x16.ShapeCasts S16
  h_S10000 : 0 < S10000.numel
  squeezes_S1x10000_S10000 : S1x10000.Squeezes S10000
  inb_S128x16_S128x16_0_0 : ∀ a, (![0, 0] : Fin 2 → Nat) a + S128x16.size a ≤ S128x16.size a
  h_S128x16 : 0 < S128x16.numel
  inb_S16x8_S16x8_0_0 : ∀ a, (![0, 0] : Fin 2 → Nat) a + S16x8.size a ≤ S16x8.size a
  h_S16x8 : 0 < S16x8.numel
  inb_S8x1_S8x1_0_0 : ∀ a, (![0, 0] : Fin 2 → Nat) a + S8x1.size a ≤ S8x1.size a
  h_S8x1 : 0 < S8x1.numel
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S1x10000 : S10000x1.ShapeCasts S1x10000
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  reduces_S32x10000_S10000 : S32x10000.Reduces [0] S10000
  shapeCasts_S10000_S1x10000 : S10000.ShapeCasts S1x10000
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  shapeCasts_S1x10000_S10000 : S1x10000.ShapeCasts S10000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x10000 : S1x1.Broadcasts S1x10000
  transposes_S200000x2_S2x200000_1_0 : S200000x2.Transposes [1, 0] S2x200000
  pads_S2x200000_S2x200064_000_0640 : S2x200000.Pads (![0, 0] : Fin 2 → Nat) ![0, 64] ![0, 0] S2x200064
  h_S_ : 0 < S_.numel
  inb_S2x6400_S2x6400_0_0 : ∀ a, (![0, 0] : Fin 2 → Nat) a + S2x6400.size a ≤ S2x6400.size a
  inb_S2x6400_S2x6144_0_0 : ∀ a, (![0, 0] : Fin 2 → Nat) a + S2x6144.size a ≤ S2x6400.size a
  inb_S6256_S6064_0 : ∀ a, (![0] : Fin 1 → Nat) a + S6064.size a ≤ S6256.size a
  inb_S6256_S192_6064 : ∀ a, (![6064] : Fin 1 → Nat) a + S192.size a ≤ S6256.size a
  dot_S16_S16x8_S8_0_0_n_1_n_n_wf : DotDims.WF S16 S16x8 S8 [0] [0] [] [1] [] []
  dot_S8_S8x1_S1_0_0_n_1_n_n_wf : DotDims.WF S8 S8x1 S1 [0] [0] [] [1] [] []
  dot_S16x8_S8x1_S16x1_1_0_0_1_n_n_wf : DotDims.WF S16x8 S8x1 S16x1 [1] [0] [0] [1] [] []
  dot_S128x16_S16x1_S128x1_1_0_0_1_n_n_wf : DotDims.WF S128x16 S16x1 S128x1 [1] [0] [0] [1] [] []
  dot_S10000x128_S128x1_S10000x1_1_0_0_1_n_n_wf : DotDims.WF S10000x128 S128x1 S10000x1 [1] [0] [0] [1] [] []
  hcc0_scoped0 : 0 + S_.numel ≤ 32
  hcc0_scoped1 : 1 + S_.numel ≤ 32
  hcc3_scoped0 : 11 + S_.numel ≤ 32
  hcc3_scoped1 : 12 + S_.numel ≤ 32
  hcc3_scoped2 : 13 + S_.numel ≤ 32
  hcc5_scoped0 : 19 + S_.numel ≤ 32
  hcc5_scoped1 : 20 + S_.numel ≤ 32
  hcc5_scoped2 : 21 + S_.numel ≤ 32
  hcc7_scoped0 : 27 + S_.numel ≤ 32
  hcc7_scoped1 : 28 + S_.numel ≤ 32
  hcc7_scoped2 : 29 + S_.numel ≤ 32
  hcc7_scoped3 : 30 + S_.numel ≤ 32
  hcc7_scoped4 : 31 + S_.numel ≤ 32
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 128 ∣ (k0_mult1 i).toNat
  k0_off1_inb : ∀ i : grid0.Coords, ∀ a, (k0_off1 i) a + S2x10112.size a ≤ S2x320000.size a
  k0_t1_ok : k0_t1_loop.OK
  k0_off2_inb : ∀ k0_t1 : Fin k0_t1_loop.trips, ∀ a, (k0_off2 k0_t1) a + S16.size a ≤ S10000.size a
  k0_t2_ok : k0_t2_loop.OK
  k0_off3_inb : ∀ (i : grid0.Coords) (k0_t2 : Fin k0_t2_loop.trips), ∀ a, (k0_off3 i k0_t2) a + S1x16.size a ≤ S2x10112.size a
  k0_off4_inb : ∀ i : grid0.Coords, ∀ a, (k0_off4 i) a + S1x10000.size a ≤ S32x10000.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage2_0 : ∀ j, (stage2_0 j).IsWhole
  hstage2_1 : ∀ j, (stage2_1 j).IsWhole
  hstage2_2 : ∀ j, (stage2_2 j).IsWhole
  hstage2_3 : ∀ j, (stage2_3 j).IsWhole
  hcore3 : grid3.bound 0 ≤ τ.nSC
  hsub3 : grid3.bound 1 ≤ τ.nSub
  k3_mult1_dvd : ∀ i : grid3.Coords, 128 ∣ (k3_mult1 i).toNat
  k3_off1_inb : ∀ i : grid3.Coords, ∀ a, (k3_off1 i) a + S2x10112.size a ≤ S2x320000.size a
  k3_t1_ok : k3_t1_loop.OK
  k3_off2_inb : ∀ k3_t1 : Fin k3_t1_loop.trips, ∀ a, (k3_off2 k3_t1) a + S16.size a ≤ S10000.size a
  k3_t2_ok : k3_t2_loop.OK
  k3_off3_inb : ∀ (i : grid3.Coords) (k3_t2 : Fin k3_t2_loop.trips), ∀ a, (k3_off3 i k3_t2) a + S1x16.size a ≤ S2x10112.size a
  k3_off4_inb : ∀ (i : grid3.Coords) (k3_t2 : Fin k3_t2_loop.trips), ∀ a, (k3_off4 i k3_t2) a + S1x16.size a ≤ S2x10112.size a
  k3_off5_inb : ∀ i : grid3.Coords, ∀ a, (k3_off5 i) a + S1x10000.size a ≤ S32x10000.size a
  hstage4_0 : ∀ j, (stage4_0 j).IsWhole
  hstage4_1 : ∀ j, (stage4_1 j).IsWhole
  hstage4_2 : ∀ j, (stage4_2 j).IsWhole
  hstage4_3 : ∀ j, (stage4_3 j).IsWhole
  hstage4_4 : ∀ j, (stage4_4 j).IsWhole
  hcore5 : grid5.bound 0 ≤ τ.nSC
  hsub5 : grid5.bound 1 ≤ τ.nSub
  k5_mult1_dvd : ∀ i : grid5.Coords, 128 ∣ (k5_mult1 i).toNat
  k5_off1_inb : ∀ i : grid5.Coords, ∀ a, (k5_off1 i) a + S2x10112.size a ≤ S2x320000.size a
  k5_t1_ok : k5_t1_loop.OK
  k5_off2_inb : ∀ k5_t1 : Fin k5_t1_loop.trips, ∀ a, (k5_off2 k5_t1) a + S16.size a ≤ S10000.size a
  k5_t2_ok : k5_t2_loop.OK
  k5_off3_inb : ∀ (i : grid5.Coords) (k5_t2 : Fin k5_t2_loop.trips), ∀ a, (k5_off3 i k5_t2) a + S1x16.size a ≤ S2x10112.size a
  k5_off4_inb : ∀ (i : grid5.Coords) (k5_t2 : Fin k5_t2_loop.trips), ∀ a, (k5_off4 i k5_t2) a + S1x16.size a ≤ S2x10112.size a
  k5_off5_inb : ∀ i : grid5.Coords, ∀ a, (k5_off5 i) a + S1x10000.size a ≤ S32x10000.size a
  hstage6_0 : ∀ j, (stage6_0 j).IsWhole
  hstage6_1 : ∀ j, (stage6_1 j).IsWhole
  hstage6_2 : ∀ j, (stage6_2 j).IsWhole
  hstage6_3 : ∀ j, (stage6_3 j).IsWhole
  hstage6_4 : ∀ j, (stage6_4 j).IsWhole
  hcore7 : grid7.bound 0 ≤ τ.nSC
  hsub7 : grid7.bound 1 ≤ τ.nSub
  k7_mult1_dvd : ∀ i : grid7.Coords, 128 ∣ (k7_mult1 i).toNat
  k7_off1_inb : ∀ i : grid7.Coords, ∀ (k7_h1 : k7_cond1 i = 1#1), ∀ a, (k7_off1 i) a + S2x6400.size a ≤ S2x200064.size a
  k7_off2_inb : ∀ i : grid7.Coords, ∀ (k7_h2 : k7_cond2 i = 1#1), ∀ a, (k7_off2 i) a + S2x6144.size a ≤ S2x200064.size a
  k7_t1_ok : k7_t1_loop.OK
  k7_off3_inb : ∀ (i : grid7.Coords) (k7_t1 : Fin k7_t1_loop.trips), ∀ a, (k7_off3 i k7_t1) a + S1x16.size a ≤ S2x6400.size a
  k7_off4_inb : ∀ (i : grid7.Coords) (k7_t1 : Fin k7_t1_loop.trips), ∀ a, (k7_off4 i k7_t1) a + S1x16.size a ≤ S2x6400.size a
  k7_off5_inb : ∀ k7_t1 : Fin k7_t1_loop.trips, ∀ a, (k7_off5 k7_t1) a + S16.size a ≤ S6256.size a
  k7_t2_ok : ∀ i : grid7.Coords, ∀ (k7_h3 : k7_cond3 i = 1#1), k7_t2_loop.OK
  k7_off6_inb : ∀ (i : grid7.Coords) (k7_t2 : Fin k7_t2_loop.trips), ∀ (k7_h3 : k7_cond3 i = 1#1), ∀ a, (k7_off6 i k7_t2) a + S1x16.size a ≤ S2x6400.size a
  k7_off7_inb : ∀ (i : grid7.Coords) (k7_t2 : Fin k7_t2_loop.trips), ∀ (k7_h3 : k7_cond3 i = 1#1), ∀ a, (k7_off7 i k7_t2) a + S1x16.size a ≤ S2x6400.size a
  k7_off8_inb : ∀ (i : grid7.Coords) (k7_t2 : Fin k7_t2_loop.trips), ∀ (k7_h3 : k7_cond3 i = 1#1), ∀ a, (k7_off8 k7_t2) a + S16.size a ≤ S6256.size a
  k7_off9_inb : ∀ i : grid7.Coords, ∀ a, (k7_off9 i) a + S6064.size a ≤ S200000.size a
  k7_off10_inb : ∀ i : grid7.Coords, ∀ (k7_h4 : k7_cond4 i = 1#1), ∀ a, (k7_off10 i) a + S192.size a ≤ S200000.size a

variable [Facts₀]

abbrev cc0_scoped0 : DmaSems sig S_ := SemArray.consecutive 0 S_ hcc0_scoped0
abbrev cc0_scoped1 : DmaSems sig S_ := SemArray.consecutive 1 S_ hcc0_scoped1
abbrev cc3_scoped0 : DmaSems sig S_ := SemArray.consecutive 11 S_ hcc3_scoped0
abbrev cc3_scoped1 : DmaSems sig S_ := SemArray.consecutive 12 S_ hcc3_scoped1
abbrev cc3_scoped2 : DmaSems sig S_ := SemArray.consecutive 13 S_ hcc3_scoped2
abbrev cc5_scoped0 : DmaSems sig S_ := SemArray.consecutive 19 S_ hcc5_scoped0
abbrev cc5_scoped1 : DmaSems sig S_ := SemArray.consecutive 20 S_ hcc5_scoped1
abbrev cc5_scoped2 : DmaSems sig S_ := SemArray.consecutive 21 S_ hcc5_scoped2
abbrev cc7_scoped0 : DmaSems sig S_ := SemArray.consecutive 27 S_ hcc7_scoped0
abbrev cc7_scoped1 : DmaSems sig S_ := SemArray.consecutive 28 S_ hcc7_scoped1
abbrev cc7_scoped2 : DmaSems sig S_ := SemArray.consecutive 29 S_ hcc7_scoped2
abbrev cc7_scoped3 : DmaSems sig S_ := SemArray.consecutive 30 S_ hcc7_scoped3
abbrev cc7_scoped4 : DmaSems sig S_ := SemArray.consecutive 31 S_ hcc7_scoped4
def dot_S16_S16x8_S8_0_0_n_1_n_n : DotDims S16 S16x8 S8 where
  lhsContracting := [0]
  rhsContracting := [0]
  lhsNonContracting := []
  rhsNonContracting := [1]
  lhsBatch := []
  rhsBatch := []
  wf := dot_S16_S16x8_S8_0_0_n_1_n_n_wf
def dot_S8_S8x1_S1_0_0_n_1_n_n : DotDims S8 S8x1 S1 where
  lhsContracting := [0]
  rhsContracting := [0]
  lhsNonContracting := []
  rhsNonContracting := [1]
  lhsBatch := []
  rhsBatch := []
  wf := dot_S8_S8x1_S1_0_0_n_1_n_n_wf
def dot_S16x8_S8x1_S16x1_1_0_0_1_n_n : DotDims S16x8 S8x1 S16x1 where
  lhsContracting := [1]
  rhsContracting := [0]
  lhsNonContracting := [0]
  rhsNonContracting := [1]
  lhsBatch := []
  rhsBatch := []
  wf := dot_S16x8_S8x1_S16x1_1_0_0_1_n_n_wf
def dot_S128x16_S16x1_S128x1_1_0_0_1_n_n : DotDims S128x16 S16x1 S128x1 where
  lhsContracting := [1]
  rhsContracting := [0]
  lhsNonContracting := [0]
  rhsNonContracting := [1]
  lhsBatch := []
  rhsBatch := []
  wf := dot_S128x16_S16x1_S128x1_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win1_0 : Pipeline.Window sig grid1 :=
  Pipeline.Window.whole (Memref.whole main_arg0) false false (stage1_0 0) (sem1_0 0) (Memref.isWhole_whole _) (hstage1_0 0)

abbrev win1_1 : Pipeline.Window sig grid1 :=
  Pipeline.Window.whole (Memref.whole main_arg3) false false (stage1_1 0) (sem1_1 0) (Memref.isWhole_whole _) (hstage1_1 0)

abbrev win1_2 : Pipeline.Window sig grid1 :=
  Pipeline.Window.whole (Memref.whole main_arg5) false false (stage1_2 0) (sem1_2 0) (Memref.isWhole_whole _) (hstage1_2 0)

abbrev win1_3 : Pipeline.Window sig grid1 :=
  Pipeline.Window.whole (Memref.whole main_arg7) false false (stage1_3 0) (sem1_3 0) (Memref.isWhole_whole _) (hstage1_3 0)

abbrev win1_4 : Pipeline.Window sig grid1 :=
  Pipeline.Window.whole (Memref.whole main_v9) true false (stage1_4 0) (sem1_4 0) (Memref.isWhole_whole _) (hstage1_4 0)

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.whole (Memref.whole main_v8) false false (stage2_0 0) (sem2_0 0) (Memref.isWhole_whole _) (hstage2_0 0)

abbrev win2_1 : Pipeline.Window sig grid2 :=
  Pipeline.Window.whole (Memref.whole main_v10) false false (stage2_1 0) (sem2_1 0) (Memref.isWhole_whole _) (hstage2_1 0)

abbrev win2_2 : Pipeline.Window sig grid2 :=
  Pipeline.Window.whole (Memref.whole main_v11_0) true false (stage2_2 0) (sem2_2 0) (Memref.isWhole_whole _) (hstage2_2 0)

abbrev win2_3 : Pipeline.Window sig grid2 :=
  Pipeline.Window.whole (Memref.whole main_v11_1) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win4_0 : Pipeline.Window sig grid4 :=
  Pipeline.Window.whole (Memref.whole main_v13) false false (stage4_0 0) (sem4_0 0) (Memref.isWhole_whole _) (hstage4_0 0)

abbrev win4_1 : Pipeline.Window sig grid4 :=
  Pipeline.Window.whole (Memref.whole main_v11_0) false false (stage4_1 0) (sem4_1 0) (Memref.isWhole_whole _) (hstage4_1 0)

abbrev win4_2 : Pipeline.Window sig grid4 :=
  Pipeline.Window.whole (Memref.whole main_v11_1) false false (stage4_2 0) (sem4_2 0) (Memref.isWhole_whole _) (hstage4_2 0)

abbrev win4_3 : Pipeline.Window sig grid4 :=
  Pipeline.Window.whole (Memref.whole main_v4) false false (stage4_3 0) (sem4_3 0) (Memref.isWhole_whole _) (hstage4_3 0)

abbrev win4_4 : Pipeline.Window sig grid4 :=
  Pipeline.Window.whole (Memref.whole main_v14) true false (stage4_4 0) (sem4_4 0) (Memref.isWhole_whole _) (hstage4_4 0)

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win6_0 : Pipeline.Window sig grid6 :=
  Pipeline.Window.whole (Memref.whole main_v16) false false (stage6_0 0) (sem6_0 0) (Memref.isWhole_whole _) (hstage6_0 0)

abbrev win6_1 : Pipeline.Window sig grid6 :=
  Pipeline.Window.whole (Memref.whole main_v14) false false (stage6_1 0) (sem6_1 0) (Memref.isWhole_whole _) (hstage6_1 0)

abbrev win6_2 : Pipeline.Window sig grid6 :=
  Pipeline.Window.whole (Memref.whole main_v11_1) false false (stage6_2 0) (sem6_2 0) (Memref.isWhole_whole _) (hstage6_2 0)

abbrev win6_3 : Pipeline.Window sig grid6 :=
  Pipeline.Window.whole (Memref.whole main_v7) false false (stage6_3 0) (sem6_3 0) (Memref.isWhole_whole _) (hstage6_3 0)

abbrev win6_4 : Pipeline.Window sig grid6 :=
  Pipeline.Window.whole (Memref.whole main_v17) true false (stage6_4 0) (sem6_4 0) (Memref.isWhole_whole _) (hstage6_4 0)

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S200000x2 : Shape := ⟨2, ![200000, 2]⟩
abbrev S128x16 : Shape := ⟨2, ![128, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S10000x16 : Shape := ⟨2, ![10000, 16]⟩
abbrev S330000x16 : Shape := ⟨2, ![330000, 16]⟩
abbrev S1x16 : Shape := ⟨2, ![1, 16]⟩
abbrev S10000x8 : Shape := ⟨2, ![10000, 8]⟩
abbrev S330000x8 : Shape := ⟨2, ![330000, 8]⟩
abbrev S1x8 : Shape := ⟨2, ![1, 8]⟩
abbrev S10000x1 : Shape := ⟨2, ![10000, 1]⟩
abbrev S1x1 : Shape := ⟨2, ![1, 1]⟩
abbrev S200000x2x1 : Shape := ⟨3, ![200000, 2, 1]⟩
abbrev S200000x1x1 : Shape := ⟨3, ![200000, 1, 1]⟩
abbrev S200000x1 : Shape := ⟨2, ![200000, 1]⟩
abbrev S1x200000 : Shape := ⟨2, ![1, 200000]⟩
abbrev S200000 : Shape := ⟨1, ![200000]⟩

abbrev nBuf : Space → Nat
  | .hbm => 189
  | .vmem => 0
  | .smem => 0
  | _ => 0

abbrev hbmTy0_0 (i : Nat) : BufTy := match i % 128 with
  | 0 => ⟨S10000x128, .f32⟩
  | 1 => ⟨S2x320000, .i32⟩
  | 2 => ⟨S200000x2, .i32⟩
  | 3 => ⟨S128x16, .f32⟩
  | 4 => ⟨S16, .f32⟩
  | 5 => ⟨S16x8, .f32⟩
  | 6 => ⟨S8, .f32⟩
  | 7 => ⟨S8x1, .f32⟩
  | 8 => ⟨S1, .f32⟩
  | 9 => ⟨S1x320000, .i32⟩
  | 10 => ⟨S320000, .i32⟩
  | 11 => ⟨S1x320000, .i32⟩
  | 12 => ⟨S320000, .i32⟩
  | 13 => ⟨S10000, .i32⟩
  | 14 => ⟨S330000, .i32⟩
  | 15 => ⟨S330000, .i32⟩
  | 16 => ⟨S_, .f32⟩
  | 17 => ⟨S330000, .f32⟩
  | 18 => ⟨S_, .f32⟩
  | 19 => ⟨S10000, .f32⟩
  | 20 => ⟨S_, .i32⟩
  | 21 => ⟨S330000, .i32⟩
  | 22 => ⟨S330000, .i1⟩
  | 23 => ⟨S_, .i32⟩
  | 24 => ⟨S330000, .i32⟩
  | 25 => ⟨S330000, .i32⟩
  | 26 => ⟨S330000, .i32⟩
  | 27 => ⟨S330000x1, .i32⟩
  | 28 => ⟨S10000, .f32⟩
  | 29 => ⟨S_, .f32⟩
  | 30 => ⟨S10000, .f32⟩
  | 31 => ⟨S10000, .i1⟩
  | 32 => ⟨S_, .f32⟩
  | 33 => ⟨S10000, .f32⟩
  | 34 => ⟨S10000, .f32⟩
  | 35 => ⟨S_, .f32⟩
  | 36 => ⟨S_, .f32⟩
  | 37 => ⟨S10000, .f32⟩
  | 38 => ⟨S10000, .f32⟩
  | 39 => ⟨S_, .i32⟩
  | 40 => ⟨S330000, .i32⟩
  | 41 => ⟨S330000, .i1⟩
  | 42 => ⟨S_, .i32⟩
  | 43 => ⟨S330000, .i32⟩
  | 44 => ⟨S330000, .i32⟩
  | 45 => ⟨S330000, .i32⟩
  | 46 => ⟨S330000x1, .i32⟩
  | 47 => ⟨S330000, .f32⟩
  | 48 => ⟨S_, .i32⟩
  | 49 => ⟨S330000, .i32⟩
  | 50 => ⟨S330000, .i1⟩
  | 51 => ⟨S_, .i32⟩
  | 52 => ⟨S330000, .i32⟩
  | 53 => ⟨S330000, .i32⟩
  | 54 => ⟨S330000, .i32⟩
  | 55 => ⟨S330000x1, .i32⟩
  | 56 => ⟨S330000, .f32⟩
  | 57 => ⟨S330000, .f32⟩
  | 58 => ⟨S10000x16, .f32⟩
  | 59 => ⟨S_, .i32⟩
  | 60 => ⟨S330000, .i32⟩
  | 61 => ⟨S330000, .i1⟩
  | 62 => ⟨S_, .i32⟩
  | 63 => ⟨S330000, .i32⟩
  | 64 => ⟨S330000, .i32⟩
  | 65 => ⟨S330000, .i32⟩
  | 66 => ⟨S330000x1, .i32⟩
  | 67 => ⟨S330000x16, .f32⟩
  | 68 => ⟨S330000x1, .f32⟩
  | 69 => ⟨S330000x16, .f32⟩
  | 70 => ⟨S330000x16, .f32⟩
  | 71 => ⟨S_, .f32⟩
  | 72 => ⟨S10000x16, .f32⟩
  | 73 => ⟨S_, .i32⟩
  | 74 => ⟨S330000, .i32⟩
  | 75 => ⟨S330000, .i1⟩
  | 76 => ⟨S_, .i32⟩
  | 77 => ⟨S330000, .i32⟩
  | 78 => ⟨S330000, .i32⟩
  | 79 => ⟨S330000, .i32⟩
  | 80 => ⟨S330000x1, .i32⟩
  | 81 => ⟨S10000x16, .f32⟩
  | 82 => ⟨S1x16, .f32⟩
  | 83 => ⟨S10000x16, .f32⟩
  | 84 => ⟨S10000x16, .f32⟩
  | 85 => ⟨S1x320000, .i32⟩
  | 86 => ⟨S320000, .i32⟩
  | 87 => ⟨S1x320000, .i32⟩
  | 88 => ⟨S320000, .i32⟩
  | 89 => ⟨S10000, .i32⟩
  | 90 => ⟨S330000, .i32⟩
  | 91 => ⟨S330000, .i32⟩
  | 92 => ⟨S_, .f32⟩
  | 93 => ⟨S330000, .f32⟩
  | 94 => ⟨S_, .f32⟩
  | 95 => ⟨S10000, .f32⟩
  | 96 => ⟨S_, .i32⟩
  | 97 => ⟨S330000, .i32⟩
  | 98 => ⟨S330000, .i1⟩
  | 99 => ⟨S_, .i32⟩
  | 100 => ⟨S330000, .i32⟩
  | 101 => ⟨S330000, .i32⟩
  | 102 => ⟨S330000, .i32⟩
  | 103 => ⟨S330000x1, .i32⟩
  | 104 => ⟨S10000, .f32⟩
  | 105 => ⟨S_, .f32⟩
  | 106 => ⟨S10000, .f32⟩
  | 107 => ⟨S10000, .i1⟩
  | 108 => ⟨S_, .f32⟩
  | 109 => ⟨S10000, .f32⟩
  | 110 => ⟨S10000, .f32⟩
  | 111 => ⟨S_, .f32⟩
  | 112 => ⟨S_, .f32⟩
  | 113 => ⟨S10000, .f32⟩
  | 114 => ⟨S10000, .f32⟩
  | 115 => ⟨S_, .i32⟩
  | 116 => ⟨S330000, .i32⟩
  | 117 => ⟨S330000, .i1⟩
  | 118 => ⟨S_, .i32⟩
  | 119 => ⟨S330000, .i32⟩
  | 120 => ⟨S330000, .i32⟩
  | 121 => ⟨S330000, .i32⟩
  | 122 => ⟨S330000x1, .i32⟩
  | 123 => ⟨S330000, .f32⟩
  | 124 => ⟨S_, .i32⟩
  | 125 => ⟨S330000, .i32⟩
  | 126 => ⟨S330000, .i1⟩
  | 127 => ⟨S_, .i32⟩
  | _ => ⟨S10000x128, .f32⟩

abbrev hbmTy0_1 (i : Nat) : BufTy := match i % 128 with
  | 0 => ⟨S330000, .i32⟩
  | 1 => ⟨S330000, .i32⟩
  | 2 => ⟨S330000, .i32⟩
  | 3 => ⟨S330000x1, .i32⟩
  | 4 => ⟨S330000, .f32⟩
  | 5 => ⟨S330000, .f32⟩
  | 6 => ⟨S10000x8, .f32⟩
  | 7 => ⟨S_, .i32⟩
  | 8 => ⟨S330000, .i32⟩
  | 9 => ⟨S330000, .i1⟩
  | 10 => ⟨S_, .i32⟩
  | 11 => ⟨S330000, .i32⟩
  | 12 => ⟨S330000, .i32⟩
  | 13 => ⟨S330000, .i32⟩
  | 14 => ⟨S330000x1, .i32⟩
  | 15 => ⟨S330000x8, .f32⟩
  | 16 => ⟨S330000x1, .f32⟩
  | 17 => ⟨S330000x8, .f32⟩
  | 18 => ⟨S330000x8, .f32⟩
  | 19 => ⟨S_, .f32⟩
  | 20 => ⟨S10000x8, .f32⟩
  | 21 => ⟨S_, .i32⟩
  | 22 => ⟨S330000, .i32⟩
  | 23 => ⟨S330000, .i1⟩
  | 24 => ⟨S_, .i32⟩
  | 25 => ⟨S330000, .i32⟩
  | 26 => ⟨S330000, .i32⟩
  | 27 => ⟨S330000, .i32⟩
  | 28 => ⟨S330000x1, .i32⟩
  | 29 => ⟨S10000x8, .f32⟩
  | 30 => ⟨S1x8, .f32⟩
  | 31 => ⟨S10000x8, .f32⟩
  | 32 => ⟨S10000x8, .f32⟩
  | 33 => ⟨S10000x1, .f32⟩
  | 34 => ⟨S1x1, .f32⟩
  | 35 => ⟨S10000x1, .f32⟩
  | 36 => ⟨S10000x1, .f32⟩
  | 37 => ⟨S10000x1, .f32⟩
  | 38 => ⟨S10000x1, .f32⟩
  | 39 => ⟨S_, .f32⟩
  | 40 => ⟨S10000x1, .f32⟩
  | 41 => ⟨S10000x1, .f32⟩
  | 42 => ⟨S_, .f32⟩
  | 43 => ⟨S10000x1, .f32⟩
  | 44 => ⟨S10000x1, .f32⟩
  | 45 => ⟨S_, .i32⟩
  | 46 => ⟨S200000x2, .i32⟩
  | 47 => ⟨S200000x2, .i1⟩
  | 48 => ⟨S_, .i32⟩
  | 49 => ⟨S200000x2, .i32⟩
  | 50 => ⟨S200000x2, .i32⟩
  | 51 => ⟨S200000x2, .i32⟩
  | 52 => ⟨S200000x2x1, .i32⟩
  | 53 => ⟨S200000x2x1, .f32⟩
  | 54 => ⟨S200000x1x1, .f32⟩
  | 55 => ⟨S200000x1, .f32⟩
  | 56 => ⟨S200000x1x1, .f32⟩
  | 57 => ⟨S200000x1, .f32⟩
  | 58 => ⟨S200000x1, .f32⟩
  | 59 => ⟨S1x200000, .f32⟩
  | 60 => ⟨S200000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_c_16 : Ref sig .tc := ⟨.hbm, 96, rfl⟩
abbrev main_v67 : Ref sig .tc := ⟨.hbm, 97, rfl⟩
abbrev main_v68 : Ref sig .tc := ⟨.hbm, 98, rfl⟩
abbrev main_c_17 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_18 : Ref sig .tc := ⟨.hbm, 105, rfl⟩
abbrev main_v74 : Ref sig .tc := ⟨.hbm, 106, rfl⟩
abbrev main_v75 : Ref sig .tc := ⟨.hbm, 107, rfl⟩
abbrev main_cst_19 : Ref sig .tc := ⟨.hbm, 108, rfl⟩
abbrev main_v76 : Ref sig .tc := ⟨.hbm, 109, rfl⟩
abbrev main_v77 : Ref sig .tc := ⟨.hbm, 110, rfl⟩
abbrev main_cst_20 : Ref sig .tc := ⟨.hbm, 111, rfl⟩
abbrev main_call1_v0 : Ref sig .tc := ⟨.hbm, 112, rfl⟩
abbrev main_call1_v1 : Ref sig .tc := ⟨.hbm, 113, rfl⟩
abbrev main_v78 : Ref sig .tc := ⟨.hbm, 114, rfl⟩
abbrev main_c_21 : Ref sig .tc := ⟨.hbm, 115, rfl⟩
abbrev main_v79 : Ref sig .tc := ⟨.hbm, 116, rfl⟩
abbrev main_v80 : Ref sig .tc := ⟨.hbm, 117, rfl⟩
abbrev main_c_22 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_23 : Ref sig .tc := ⟨.hbm, 124, rfl⟩
abbrev main_v86 : Ref sig .tc := ⟨.hbm, 125, rfl⟩
abbrev main_v87 : Ref sig .tc := ⟨.hbm, 126, rfl⟩
abbrev main_c_24 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_25 : Ref sig .tc := ⟨.hbm, 135, rfl⟩
abbrev main_v95 : Ref sig .tc := ⟨.hbm, 136, rfl⟩
abbrev main_v96 : Ref sig .tc := ⟨.hbm, 137, rfl⟩
abbrev main_c_26 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_27 : Ref sig .tc := ⟨.hbm, 147, rfl⟩
abbrev main_v105 : Ref sig .tc := ⟨.hbm, 148, rfl⟩
abbrev main_c_28 : Ref sig .tc := ⟨.hbm, 149, rfl⟩
abbrev main_v106 : Ref sig .tc := ⟨.hbm, 150, rfl⟩
abbrev main_v107 : Ref sig .tc := ⟨.hbm, 151, rfl⟩
abbrev main_c_29 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_30 : Ref sig .tc := ⟨.hbm, 167, rfl⟩
abbrev main_v122 : Ref sig .tc := ⟨.hbm, 168, rfl⟩
abbrev main_v123 : Ref sig .tc := ⟨.hbm, 169, rfl⟩
abbrev main_cst_31 : Ref sig .tc := ⟨.hbm, 170, rfl⟩
abbrev main_v124 : Ref sig .tc := ⟨.hbm, 171, rfl⟩
abbrev main_v125 : Ref sig .tc := ⟨.hbm, 172, rfl⟩
abbrev main_c_32 : Ref sig .tc := ⟨.hbm, 173, rfl⟩
abbrev main_v126 : Ref sig .tc := ⟨.hbm, 174, rfl⟩
abbrev main_v127 : Ref sig .tc := ⟨.hbm, 175, rfl⟩
abbrev main_c_33 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x16_0_1 : S330000x1.BroadcastsInDim S330000x16 (![0, 1] : Fin 2 → Fin S330000x16.rank)
  bcast_S_S10000x16 : S_.BroadcastsInDim S10000x16 (![] : Fin 0 → Fin S10000x16.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S330000x1_S330000x8_0_1 : S330000x1.BroadcastsInDim S330000x8 (![0, 1] : Fin 2 → Fin S330000x8.rank)
  bcast_S_S10000x8 : S_.BroadcastsInDim S10000x8 (![] : Fin 0 → Fin S10000x8.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  bcast_S_S200000x2 : S_.BroadcastsInDim S200000x2 (![] : Fin 0 → Fin S200000x2.rank)
  bcast_S200000x2_S200000x2x1_0_1 : S200000x2.BroadcastsInDim S200000x2x1 (![0, 1] : Fin 2 → Fin S200000x2x1.rank)
  slices_S200000x2x1_S200000x1x1_0_0_0 : S200000x2x1.Slices ![0, 0, 0] S200000x1x1
  shapeCasts_S200000x1x1_S200000x1 : S200000x1x1.ShapeCasts S200000x1
  slices_S200000x2x1_S200000x1x1_0_1_0 : S200000x2x1.Slices ![0, 1, 0] S200000x1x1
  transposes_S200000x1_S1x200000_1_0 : S200000x1.Transposes [1, 0] S1x200000
  shapeCasts_S1x200000_S200000 : S1x200000.ShapeCasts S200000
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x128_S128x16_S10000x16_1_0_0_1_n_n_wf : DotDims.WF S10000x128 S128x16 S10000x16 [1] [0] [0] [1] [] []
  gather_S10000x16_S330000x1_S330000x16_1_0_n_n_0_1_116_wf : GatherDims.WF S10000x16 S330000x1 S330000x16 [1] [0] [] [0] [] 1 ![1, 16]
  scatter_S10000x16_S330000x1_S330000x16_1_0_0_1_wf : ScatterDims.WF S10000x16 S330000x1 S330000x16 [1] [0] [0] 1
  dot_S10000x16_S16x8_S10000x8_1_0_0_1_n_n_wf : DotDims.WF S10000x16 S16x8 S10000x8 [1] [0] [0] [1] [] []
  gather_S10000x8_S330000x1_S330000x8_1_0_n_n_0_1_18_wf : GatherDims.WF S10000x8 S330000x1 S330000x8 [1] [0] [] [0] [] 1 ![1, 8]
  scatter_S10000x8_S330000x1_S330000x8_1_0_0_1_wf : ScatterDims.WF S10000x8 S330000x1 S330000x8 [1] [0] [0] 1
  dot_S10000x8_S8x1_S10000x1_1_0_0_1_n_n_wf : DotDims.WF S10000x8 S8x1 S10000x1 [1] [0] [0] [1] [] []
  gather_S10000x1_S200000x2x1_S200000x2x1_2_0_n_n_0_2_11_wf : GatherDims.WF S10000x1 S200000x2x1 S200000x2x1 [2] [0] [] [0] [] 2 ![1, 1]

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S10000x16_S330000x1_S330000x16_1_0_n_n_0_1_116 : GatherDims S10000x16 S330000x1 S330000x16 where
  offsetDims := [1]
  collapsedSliceDims := [0]
  operandBatchingDims := []
  startIndicesBatchingDims := []
  startIndexMap := [0]
  indexVectorDim := 1
  sliceSizes := ![1, 16]
  wf := gather_S10000x16_S330000x1_S330000x16_1_0_n_n_0_1_116_wf
def scatter_S10000x16_S330000x1_S330000x16_1_0_0_1 : ScatterDims S10000x16 S330000x1 S330000x16 where
  updateWindowDims := [1]
  insertedWindowDims := [0]
  scatterDimsToOperandDims := [0]
  indexVectorDim := 1
  wf := scatter_S10000x16_S330000x1_S330000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def gather_S10000x8_S330000x1_S330000x8_1_0_n_n_0_1_18 : GatherDims S10000x8 S330000x1 S330000x8 where
  offsetDims := [1]
  collapsedSliceDims := [0]
  operandBatchingDims := []
  startIndicesBatchingDims := []
  startIndexMap := [0]
  indexVectorDim := 1
  sliceSizes := ![1, 8]
  wf := gather_S10000x8_S330000x1_S330000x8_1_0_n_n_0_1_18_wf
def scatter_S10000x8_S330000x1_S330000x8_1_0_0_1 : ScatterDims S10000x8 S330000x1 S330000x8 where
  updateWindowDims := [1]
  insertedWindowDims := [0]
  scatterDimsToOperandDims := [0]
  indexVectorDim := 1
  wf := scatter_S10000x8_S330000x1_S330000x8_1_0_0_1_wf
def dot_S10000x8_S8x1_S10000x1_1_0_0_1_n_n : DotDims S10000x8 S8x1 S10000x1 where
  lhsContracting := [1]
  rhsContracting := [0]
  lhsNonContracting := [0]
  rhsNonContracting := [1]
  lhsBatch := []
  rhsBatch := []
  wf := dot_S10000x8_S8x1_S10000x1_1_0_0_1_n_n_wf
def gather_S10000x1_S200000x2x1_S200000x2x1_2_0_n_n_0_2_11 : GatherDims S10000x1 S200000x2x1 S200000x2x1 where
  offsetDims := [2]
  collapsedSliceDims := [0]
  operandBatchingDims := []
  startIndicesBatchingDims := []
  startIndexMap := [0]
  indexVectorDim := 2
  sliceSizes := ![1, 1]
  wf := gather_S10000x1_S200000x2x1_S200000x2x1_2_0_n_n_0_2_11_wf

class Facts : Prop extends Facts₀ where

variable [Facts]
-- ==== Proof.Spec.lean ====
import Idealize.ShloMosaic.PureOps.Ideal

noncomputable section

namespace Cert.Spec

open Finset

structure Inp where
  x : Fin 10000 → Fin 128 → ℝ
  src : Fin 320000 → Fin 10000
  dst : Fin 320000 → Fin 10000
  pa : Fin 200000 → Fin 10000
  pb : Fin 200000 → Fin 10000
  W1 : Fin 128 → Fin 16 → ℝ
  b1 : Fin 16 → ℝ
  W2 : Fin 16 → Fin 8 → ℝ
  b2 : Fin 8 → ℝ
  Wl : Fin 8 → ℝ
  bl : ℝ

variable (I : Inp)

def into (i : Fin 10000) : Finset (Fin 320000) := univ.filter fun e => I.dst e = i

def deg (i : Fin 10000) : ℝ := ((into I i).card : ℝ) + 1
theorem deg_pos (i : Fin 10000) : 0 < deg I i := by unfold deg; positivity
def dinv (i : Fin 10000) : ℝ := (Real.sqrt (deg I i))⁻¹
def sig (t : ℝ) : ℝ := 1 / (1 + Real.exp (-t))

def kB (k : Fin 128) : ℝ := ∑ a, I.W1 k a * ∑ b, I.W2 a b * I.Wl b
def ku (n : Fin 10000) : ℝ := ∑ k, I.x n k * kB I k
def kut (n : Fin 10000) : ℝ := ku I n * dinv I n
def kp1 (i : Fin 10000) : ℝ := ∑ e ∈ into I i, kut I (I.src e)
def kk1 : ℝ := (∑ b, (∑ a, I.b1 a * I.W2 a b) * I.Wl b) + 0
def kgt (i : Fin 10000) : ℝ := (dinv I i * (kp1 I i + kut I i) + kk1 I) * dinv I i
def kp2 (i : Fin 10000) : ℝ := ∑ e ∈ into I i, kgt I (I.src e)
def kk2 : ℝ := (∑ b, I.b2 b * I.Wl b) + I.bl
def kval (i : Fin 10000) : ℝ := dinv I i * (kp2 I i + kgt I i) + kk2 I
def kout (p : Fin 200000) : ℝ := sig (kval I (I.pa p)) * sig (kval I (I.pb p))

def rhw1 (n : Fin 10000) (a : Fin 16) : ℝ := ∑ k, I.x n k * I.W1 k a
def rout1 (i : Fin 10000) (a : Fin 16) : ℝ :=
  ((∑ e ∈ into I i, rhw1 I (I.src e) a * (dinv I (I.src e) * dinv I (I.dst e))) + rhw1 I i a * (dinv I i * dinv I i)) + I.b1 a
def rhw2 (n : Fin 10000) (b : Fin 8) : ℝ := ∑ a, rout1 I n a * I.W2 a b
def rout2 (i : Fin 10000) (b : Fin 8) : ℝ :=
  ((∑ e ∈ into I i, rhw2 I (I.src e) b * (dinv I (I.src e) * dinv I (I.dst e))) + rhw2 I i b * (dinv I i * dinv I i)) + I.b2 b
def rval (i : Fin 10000) : ℝ := (∑ b, rout2 I i b * I.Wl b) + I.bl
def rout (p : Fin 200000) : ℝ := sig (rval I (I.pa p)) * sig (rval I (I.pb p))

end Cert.Spec

end
-- ==== Proof.Algebra.lean ====
import proofs.«211345_g12773232738731_cont_fleet_1243_15_alg».proof.Proof.Spec
import Mathlib.Algebra.BigOperators.Ring.Finset
import Mathlib.Algebra.BigOperators.Fin
import Mathlib.Tactic.Ring

noncomputable section

namespace Cert.Spec

open Finset

variable (I : Inp)

theorem dst_of_mem_into {i : Fin 10000} {e : Fin 320000} (he : e ∈ into I i) : I.dst e = i :=
  (Finset.mem_filter.mp he).2

theorem assoc3 {α β : Type} [Fintype α] [Fintype β] (x : α → ℝ) (W : α → β → ℝ) (c : β → ℝ) :
    ∑ a, (∑ k, x k * W k a) * c a = ∑ k, x k * ∑ a, W k a * c a := by
  simp only [Finset.sum_mul, Finset.mul_sum]
  rw [Finset.sum_comm]
  exact Finset.sum_congr rfl fun k _ => Finset.sum_congr rfl fun a _ => by ring

theorem contract {ι : Type} [Fintype ι] (h : Fin 10000 → ι → ℝ) (bias w : ι → ℝ) (i : Fin 10000) :
    ∑ c, (((∑ e ∈ into I i, h (I.src e) c * (dinv I (I.src e) * dinv I (I.dst e)))
        + h i c * (dinv I i * dinv I i)) + bias c) * w c
      = dinv I i * ((∑ e ∈ into I i, (∑ c, h (I.src e) c * w c) * dinv I (I.src e))
          + (∑ c, h i c * w c) * dinv I i) + ∑ c, bias c * w c := by
  have h1 : ∀ c, (∑ e ∈ into I i, h (I.src e) c * (dinv I (I.src e) * dinv I (I.dst e)))
      = ∑ e ∈ into I i, h (I.src e) c * (dinv I (I.src e) * dinv I i) := by
    intro c
    refine Finset.sum_congr rfl fun e he => ?_
    rw [dst_of_mem_into I he]
  have hA : ∑ c, (∑ e ∈ into I i, h (I.src e) c * (dinv I (I.src e) * dinv I i)) * w c
      = dinv I i * ∑ e ∈ into I i, (∑ c, h (I.src e) c * w c) * dinv I (I.src e) := by
    simp only [Finset.sum_mul, Finset.mul_sum]
    rw [Finset.sum_comm]
    exact Finset.sum_congr rfl fun e _ => Finset.sum_congr rfl fun c _ => by ring
  have hB : ∑ c, (h i c * (dinv I i * dinv I i)) * w c
      = dinv I i * ((∑ c, h i c * w c) * dinv I i) := by
    simp only [Finset.sum_mul, Finset.mul_sum]
    exact Finset.sum_congr rfl fun c _ => by ring
  simp only [h1, add_mul, Finset.sum_add_distrib]
  rw [hA, hB]
  ring

theorem ku_eq (n : Fin 10000) : ∑ a, rhw1 I n a * (∑ b, I.W2 a b * I.Wl b) = ku I n :=
  assoc3 (I.x n) I.W1 (fun a => ∑ b, I.W2 a b * I.Wl b)

theorem kk1_eq : ∑ a, I.b1 a * (∑ b, I.W2 a b * I.Wl b) = kk1 I := by
  unfold kk1
  rw [add_zero]
  exact (assoc3 I.b1 I.W2 I.Wl).symm

theorem rhw2_Wl (n : Fin 10000) :
    ∑ b, rhw2 I n b * I.Wl b = dinv I n * (kp1 I n + kut I n) + kk1 I := by
  have h0 : ∑ b, rhw2 I n b * I.Wl b = ∑ a, rout1 I n a * ∑ b, I.W2 a b * I.Wl b :=
    assoc3 (rout1 I n) I.W2 I.Wl
  rw [h0]
  have h1 := contract I (rhw1 I) I.b1 (fun a => ∑ b, I.W2 a b * I.Wl b) n
  simp only [ku_eq, kk1_eq] at h1
  unfold rout1
  rw [h1]
  rfl

theorem kgt_eq (n : Fin 10000) : (∑ b, rhw2 I n b * I.Wl b) * dinv I n = kgt I n := by
  rw [rhw2_Wl]; rfl

theorem rval_eq_kval (i : Fin 10000) : rval I i = kval I i := by
  have h1 := contract I (rhw2 I) I.b2 I.Wl i
  simp only [kgt_eq] at h1
  unfold rval rout2
  rw [h1]
  unfold kval kp2 kk2
  ring

theorem kout_eq_rout : kout I = rout I := by
  funext p
  unfold kout rout
  rw [rval_eq_kval, rval_eq_kval]

end Cert.Spec

end
-- ==== Proof.RefValueOps.lean ====
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.RefOps

open Idealize.ShloMosaic Idealize.ShloMosaic.ValueIdx

section Take
variable {α : Type}

abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

abbrev rowsDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (a : Fin C) :
    Host.gather (rowsDims N E C wf) x idx (ix2 e a)
      = x (ix2 ⟨min (idx (ix2 e (0 : Fin 1))).toInt.toNat (N - 1), by omega⟩ a) := by
  unfold Host.gather
  congr 1
  funext b
  refine Fin.ext ?_
  match b with
  | ⟨0, _⟩ =>
    show (rowsDims N E C wf).start (ix2 e a) idx 0 + (rowsDims N E C wf).batchCoord (ix2 e a) 0
      + (rowsDims N E C wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e a) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e a) idx 1 + (rowsDims N E C wf).batchCoord (ix2 e a) 1
      + (rowsDims N E C wf).offCoord (ix2 e a) 1 = _
    rw [GatherDims.batchCoord_eq_zero _ _ _ List.not_mem_nil]
    have hst : (rowsDims N E C wf).start (ix2 e a) idx 1 = 0 := by
      unfold GatherDims.start
      rw [dif_neg (show ¬ (1 : Fin 2) ∈ (rowsDims N E C wf).startIndexMap from (by decide : (1 : Fin 2) ∉ ([0] : List (Fin 2))))]
    rw [hst]
    have hk : (1 : Fin 2) ∈ (rowsDims N E C wf).sKept := by
      rw [GatherDims.mem_sKept]; exact ⟨(by decide : (1 : Fin 2) ∉ ([0] : List (Fin 2))), List.not_mem_nil⟩
    unfold GatherDims.offCoord
    rw [dif_pos hk]
    simp only [Nat.zero_add, Nat.add_zero]
    rfl

abbrev pairsDims (N P K : Nat) (wf : GatherDims.WF ⟨2, ![N, 1]⟩ ⟨3, ![P, K, 1]⟩ ⟨3, ![P, K, 1]⟩ [2] [0] [] [0] [] 2 ![1, 1]) :
    GatherDims ⟨2, ![N, 1]⟩ ⟨3, ![P, K, 1]⟩ ⟨3, ![P, K, 1]⟩ where
  offsetDims := [2]
  collapsedSliceDims := [0]
  operandBatchingDims := []
  startIndicesBatchingDims := []
  startIndexMap := [0]
  indexVectorDim := 2
  sliceSizes := ![1, 1]
  wf := wf

theorem pairs_apply {N P K w : Nat} (hN : 0 < N)
    (wf : GatherDims.WF ⟨2, ![N, 1]⟩ ⟨3, ![P, K, 1]⟩ ⟨3, ![P, K, 1]⟩ [2] [0] [] [0] [] 2 ![1, 1])
    (x : (⟨2, ![N, 1]⟩ : Shape).Idx → α) (idx : IVec ⟨3, ![P, K, 1]⟩ w) (p : Fin P) (k : Fin K) :
    Host.gather (pairsDims N P K wf) x idx (ix3 p k (0 : Fin 1))
      = x (ix2 ⟨min (idx (ix3 p k (0 : Fin 1))).toInt.toNat (N - 1), by omega⟩ (0 : Fin 1)) := by
  unfold Host.gather
  congr 1
  funext b
  refine Fin.ext ?_
  match b with
  | ⟨0, _⟩ =>
    show (pairsDims N P K wf).start (ix3 p k 0) idx 0 + (pairsDims N P K wf).batchCoord (ix3 p k 0) 0
      + (pairsDims N P K wf).offCoord (ix3 p k 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pairsDims N P K wf).startIndexMap from List.mem_singleton.mpr rfl)]
    have hsi : (pairsDims N P K wf).siIdx (ix3 p k 0) ⟨List.idxOf (0 : Fin 2) (pairsDims N P K wf).startIndexMap,
        List.idxOf_lt_length_iff.2 (List.mem_singleton.mpr rfl)⟩ = ix3 p k (0 : Fin 1) := by
      funext b; refine Fin.ext ?_
      match b with
      | ⟨0, _⟩ => rfl
      | ⟨1, _⟩ => rfl
      | ⟨2, _⟩ => rfl
    rw [hsi]
    rfl
  | ⟨1, _⟩ =>
    show (pairsDims N P K wf).start (ix3 p k 0) idx 1 + (pairsDims N P K wf).batchCoord (ix3 p k 0) 1
      + (pairsDims N P K wf).offCoord (ix3 p k 0) 1 = _
    rw [GatherDims.batchCoord_eq_zero _ _ _ List.not_mem_nil]
    have hst : (pairsDims N P K wf).start (ix3 p k 0) idx 1 = 0 := by
      unfold GatherDims.start
      rw [dif_neg (show ¬ (1 : Fin 2) ∈ (pairsDims N P K wf).startIndexMap from (by decide : (1 : Fin 2) ∉ ([0] : List (Fin 2))))]
    rw [hst]
    have hk : (1 : Fin 2) ∈ (pairsDims N P K wf).sKept := by
      rw [GatherDims.mem_sKept]; exact ⟨(by decide : (1 : Fin 2) ∉ ([0] : List (Fin 2))), List.not_mem_nil⟩
    unfold GatherDims.offCoord
    rw [dif_pos hk]
    simp only [Nat.zero_add, Nat.add_zero]
    rfl

end Take

section Scatter

abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_resultIdx {N E w : Nat} (wf : ScatterDims.WF ⟨1, ![N]⟩ ⟨2, ![E, 1]⟩ ⟨1, ![E]⟩ [] [0] [0] 1)
    (idx : IVec ⟨2, ![E, 1]⟩ w) (e : Fin E) (h0 : 0 ≤ (idx (ix2 e (0 : Fin 1))).toInt)
    (h : (idx (ix2 e (0 : Fin 1))).toInt.toNat < N) :
    (scat1Dims N E wf).resultIdx? (ix1 e) idx = some (ix1 ⟨(idx (ix2 e (0 : Fin 1))).toInt.toNat, h⟩) := by
  have hs : ∀ a, (scat1Dims N E wf).start (ix1 e) idx a = (idx (ix2 e (0 : Fin 1))).toInt := by
    intro a
    obtain rfl : a = 0 := Subsingleton.elim _ _
    unfold ScatterDims.start
    rw [dif_pos (show (0 : Fin 1) ∈ (scat1Dims N E wf).scatterDimsToOperandDims from List.mem_singleton.mpr rfl)]
    have hsi : (scat1Dims N E wf).siIdx (ix1 e) ⟨List.idxOf (0 : Fin 1) (scat1Dims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : ∀ a, (scat1Dims N E wf).window (ix1 e) a = 0 := by
    intro a
    obtain rfl : a = 0 := Subsingleton.elim _ _
    unfold ScatterDims.window
    rw [dif_neg (show ¬ (0 : Fin 1) ∈ (scat1Dims N E wf).sKept from
      (by decide : (0 : Fin 1) ∉ ((List.finRange 1).filter (fun a => decide (a ∉ ([0] : List (Fin 1)))))))]
  have hall : ∀ a, 0 ≤ (scat1Dims N E wf).start (ix1 e) idx a + ((scat1Dims N E wf).window (ix1 e) a : Int)
      ∧ (scat1Dims N E wf).start (ix1 e) idx a + ((scat1Dims N E wf).window (ix1 e) a : Int) < ((⟨1, ![N]⟩ : Shape).size a : Int) := by
    intro a
    rw [hs, hw]
    obtain rfl : a = 0 := Subsingleton.elim _ _
    show 0 ≤ _ + ((0 : Nat) : Int) ∧ _ + ((0 : Nat) : Int) < (N : Int)
    omega
  unfold ScatterDims.resultIdx?
  rw [dif_pos hall]
  congr 1
  funext a
  refine Fin.ext ?_
  obtain rfl : a = 0 := Subsingleton.elim _ _
  show ((scat1Dims N E wf).start (ix1 e) idx 0 + ((scat1Dims N E wf).window (ix1 e) 0 : Int)).toNat = _
  rw [hs, hw]
  simp only [Nat.cast_zero, add_zero]
  rfl

abbrev scat2Dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scat2_resultIdx {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) (h0 : 0 ≤ (idx (ix2 e (0 : Fin 1))).toInt)
    (h : (idx (ix2 e (0 : Fin 1))).toInt.toNat < N) :
    (scat2Dims N E C wf).resultIdx? (ix2 e c) idx = some (ix2 ⟨(idx (ix2 e (0 : Fin 1))).toInt.toNat, h⟩ c) := by
  have hs0 : (scat2Dims N E C wf).start (ix2 e c) idx 0 = (idx (ix2 e (0 : Fin 1))).toInt := by
    unfold ScatterDims.start
    rw [dif_pos (show (0 : Fin 2) ∈ (scat2Dims N E C wf).scatterDimsToOperandDims from List.mem_singleton.mpr rfl)]
    have hsi : (scat2Dims N E C wf).siIdx (ix2 e c) ⟨List.idxOf (0 : Fin 2) (scat2Dims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (scat2Dims N E C wf).start (ix2 e c) idx 1 = 0 := by
    unfold ScatterDims.start
    rw [dif_neg (show ¬ (1 : Fin 2) ∈ (scat2Dims N E C wf).scatterDimsToOperandDims from
      (by decide : (1 : Fin 2) ∉ ([0] : List (Fin 2))))]
  have hw0 : (scat2Dims N E C wf).window (ix2 e c) 0 = 0 := by
    unfold ScatterDims.window
    rw [dif_neg (show ¬ (0 : Fin 2) ∈ (scat2Dims N E C wf).sKept from
      (by decide : (0 : Fin 2) ∉ ((List.finRange 2).filter (fun a => decide (a ∉ ([0] : List (Fin 2)))))))]
  have hw1 : (scat2Dims N E C wf).window (ix2 e c) 1 = c.val := by
    unfold ScatterDims.window
    rw [dif_pos (show (1 : Fin 2) ∈ (scat2Dims N E C wf).sKept from
      (by decide : (1 : Fin 2) ∈ ((List.finRange 2).filter (fun a => decide (a ∉ ([0] : List (Fin 2)))))))]
    rfl
  have hall : ∀ a, 0 ≤ (scat2Dims N E C wf).start (ix2 e c) idx a + ((scat2Dims N E C wf).window (ix2 e c) a : Int)
      ∧ (scat2Dims N E C wf).start (ix2 e c) idx a + ((scat2Dims N E C wf).window (ix2 e c) a : Int)
        < ((⟨2, ![N, C]⟩ : Shape).size a : Int) := by
    intro a
    match a with
    | ⟨0, _⟩ =>
      show 0 ≤ (scat2Dims N E C wf).start (ix2 e c) idx 0 + ((scat2Dims N E C wf).window (ix2 e c) 0 : Int)
        ∧ (scat2Dims N E C wf).start (ix2 e c) idx 0 + ((scat2Dims N E C wf).window (ix2 e c) 0 : Int) < (N : Int)
      rw [hs0, hw0]; omega
    | ⟨1, _⟩ =>
      show 0 ≤ (scat2Dims N E C wf).start (ix2 e c) idx 1 + ((scat2Dims N E C wf).window (ix2 e c) 1 : Int)
        ∧ (scat2Dims N E C wf).start (ix2 e c) idx 1 + ((scat2Dims N E C wf).window (ix2 e c) 1 : Int) < (C : Int)
      rw [hs1, hw1]; have := c.isLt; omega
  unfold ScatterDims.resultIdx?
  rw [dif_pos hall]
  congr 1
  funext a
  refine Fin.ext ?_
  match a with
  | ⟨0, _⟩ =>
    show ((scat2Dims N E C wf).start (ix2 e c) idx 0 + ((scat2Dims N E C wf).window (ix2 e c) 0 : Int)).toNat = _
    rw [hs0, hw0]
    simp only [Nat.cast_zero, add_zero]
  | ⟨1, _⟩ =>
    show ((scat2Dims N E C wf).start (ix2 e c) idx 1 + ((scat2Dims N E C wf).window (ix2 e c) 1 : Int)).toNat = _
    rw [hs1, hw1]
    simp only [zero_add, Int.toNat_natCast]

def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem scatterAdd1_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (pos : Fin E → Fin N)
    (hpos : ∀ e, 0 ≤ (idx (ix2 e (0 : Fin 1))).toInt ∧ (idx (ix2 e (0 : Fin 1))).toInt.toNat = (pos e).val) (i : Fin N) :
    Host.scatterAdd (F := Ideal) (φ := .f32) (scat1Dims N E wf) x idx upd (ix1 i)
      = x (ix1 i) + ∑ e ∈ Finset.univ.filter (fun e : Fin E => pos e = i), upd (ix1 e) := by
  classical
  show x (ix1 i) + ∑ j ∈ Finset.univ.filter (fun j => (scat1Dims N E wf).resultIdx? j idx = some (ix1 i)), upd j = _
  congr 1
  have key : ∀ e : Fin E, (scat1Dims N E wf).resultIdx? (ix1 e) idx = some (ix1 i) ↔ pos e = i := by
    intro e
    rw [scat1_resultIdx wf idx e (hpos _).1 (by rw [(hpos _).2]; exact (pos _).isLt)]
    constructor
    · intro hh
      have h1 := congrFun (Option.some.inj hh) 0
      exact Fin.ext ((hpos e).2.symm.trans (congrArg Fin.val h1))
    · intro h1
      congr 1
      funext b
      obtain rfl : b = 0 := Subsingleton.elim _ _
      exact Fin.ext ((hpos e).2.trans (congrArg Fin.val h1))
  rw [Finset.sum_filter, sum_idx1, Finset.sum_filter]
  refine Finset.sum_congr rfl fun e _ => ?_
  by_cases h : pos e = i
  · rw [if_pos h, if_pos ((key e).2 h)]
  · rw [if_neg h, if_neg (fun hh => h ((key e).1 hh))]

theorem scatterAdd2_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (pos : Fin E → Fin N)
    (hpos : ∀ e, 0 ≤ (idx (ix2 e (0 : Fin 1))).toInt ∧ (idx (ix2 e (0 : Fin 1))).toInt.toNat = (pos e).val)
    (i : Fin N) (a : Fin C) :
    Host.scatterAdd (F := Ideal) (φ := .f32) (scat2Dims N E C wf) x idx upd (ix2 i a)
      = x (ix2 i a) + ∑ e ∈ Finset.univ.filter (fun e : Fin E => pos e = i), upd (ix2 e a) := by
  classical
  show x (ix2 i a) + ∑ j ∈ Finset.univ.filter (fun j => (scat2Dims N E C wf).resultIdx? j idx = some (ix2 i a)), upd j = _
  congr 1
  have key : ∀ (e : Fin E) (c : Fin C), (scat2Dims N E C wf).resultIdx? (ix2 e c) idx = some (ix2 i a) ↔ pos e = i ∧ c = a := by
    intro e c
    rw [scat2_resultIdx wf idx e c (hpos _).1 (by rw [(hpos _).2]; exact (pos _).isLt)]
    constructor
    · intro hh
      have h1 := congrFun (Option.some.inj hh) 0
      have h2 := congrFun (Option.some.inj hh) 1
      exact ⟨Fin.ext ((hpos e).2.symm.trans (congrArg Fin.val h1)), h2⟩
    · rintro ⟨h1, rfl⟩
      congr 1
      funext b
      match b with
      | ⟨0, _⟩ => exact Fin.ext ((hpos e).2.trans (congrArg Fin.val h1))
      | ⟨1, _⟩ => rfl
  rw [Finset.sum_filter, sum_idx2, Finset.sum_filter]
  refine Finset.sum_congr rfl fun e _ => ?_
  by_cases h : pos e = i
  · rw [if_pos h, Finset.sum_eq_single a]
    · rw [if_pos ((key e a).2 ⟨h, rfl⟩)]
    · intro c _ hc; rw [if_neg (fun hh => hc ((key e c).1 hh).2)]
    · intro ha; exact absurd (Finset.mem_univ a) ha
  · rw [if_neg h]
    exact Finset.sum_eq_zero fun c _ => if_neg (fun hh => h ((key e c).1 hh).1)

end Scatter

section Concat
variable {α : Type}

theorem concat1_left {E₁ E₂ : Nat} (h : Shape.Concatenates [(⟨1, ![E₁]⟩ : Shape), ⟨1, ![E₂]⟩] ⟨1, ![E₁ + E₂]⟩ 0)
    (a : (⟨1, ![E₁]⟩ : Shape).Idx → α) (b : (⟨1, ![E₂]⟩ : Shape).Idx → α) (e : Fin E₁) :
    concatenate ⟨1, ![E₁ + E₂]⟩ 0 [⟨⟨1, ![E₁]⟩, a⟩, ⟨⟨1, ![E₂]⟩, b⟩] h (ix1 (Fin.castAdd E₂ e)) = a (ix1 e) :=
  concatenate_pair_apply_left 0 a b h _ rfl (ix1 e) (fun c => by obtain rfl : c = 0 := Subsingleton.elim _ _; rfl)

theorem concat1_right {E₁ E₂ : Nat} (h : Shape.Concatenates [(⟨1, ![E₁]⟩ : Shape), ⟨1, ![E₂]⟩] ⟨1, ![E₁ + E₂]⟩ 0)
    (a : (⟨1, ![E₁]⟩ : Shape).Idx → α) (b : (⟨1, ![E₂]⟩ : Shape).Idx → α) (n : Fin E₂) :
    concatenate ⟨1, ![E₁ + E₂]⟩ 0 [⟨⟨1, ![E₁]⟩, a⟩, ⟨⟨1, ![E₂]⟩, b⟩] h (ix1 (Fin.natAdd E₁ n)) = b (ix1 n) :=
  concatenate_pair_apply_right 0 a b h _ rfl rfl (ix1 n)
    (fun c hc => absurd (Subsingleton.elim _ _) hc)
    (by show n.val + E₁ = E₁ + n.val; omega)

end Concat

section Words

theorem toInt_of_small {w : BitVec 32} (h : w.toNat < 10000) : 0 ≤ w.toInt ∧ w.toInt.toNat = w.toNat := by
  have e := StableHlo.Predicate.toInt_eq_toNat_of_lt (a := w) (by omega)
  rw [e]; exact ⟨Int.natCast_nonneg _, Int.toNat_natCast _⟩

theorem wrap_id (w : BitVec 32) (h : w.toNat < 10000) :
    Scalar.select (IntOp.cmpi .slt w 0#32) (IntOp.addi w 10000#32) w = w := by
  have hn : ¬ IntOp.cmpi .slt w 0#32 = 1#1 := by
    intro hh
    have := (StableHlo.Predicate.slt_iff_toNat (a := w) (b := 0#32) (by omega) (by decide)).1 hh
    exact absurd this (Nat.not_lt_zero _)
  rw [eq_zero_of_ne_one hn, select_zero]

theorem toNat_ofNat_small (n : Nat) (h : n < 10000) : (BitVec.ofNat 32 n).toNat = n := by
  rw [BitVec.toNat_ofNat]; exact Nat.mod_eq_of_lt (by omega)

theorem min_pred_of_lt {k N : Nat} (h : k < N) : min k (N - 1) = k := by omega

end Words

section Literals

theorem ofBits_neg_half : Ideal.ofBits .f32 0xBF000000#32 = ((-(1 / 2) : ℝ) : EReal) := by
  simp [Ideal.ofBits, Ideal.ieee, -EReal.coe_mul, -EReal.coe_neg]; norm_num

theorem pow_neg_half (d : ℝ) (hd : 0 < d) :
    Ideal.pow (d : EReal) (Ideal.ofBits .f32 0xBF000000#32) = (((Real.sqrt d)⁻¹ : ℝ) : EReal) := by
  rw [ofBits_neg_half, Ideal.pow_coe_coe]
  congr 1
  show d ^ (-(1 / 2) : ℝ) = _
  rw [Real.rpow_neg hd.le, Real.sqrt_eq_rpow]

theorem cmp_ogt_zero (d : ℝ) (hd : 0 < d) : Ideal.cmp .ogt (d : EReal) (Ideal.ofBits .f32 0x00000000#32) = 1#1 := by
  rw [Ideal.ofBits_zero_f32]
  show BitVec.ofBool (decide ((0 : EReal) < (d : EReal))) = 1#1
  rw [decide_eq_true (by exact_mod_cast hd)]
  rfl

end Literals

section Sums

theorem coe_sum {ι : Type} (s : Finset ι) (f : ι → ℝ) : ((∑ i ∈ s, f i : ℝ) : EReal) = ∑ i ∈ s, (f i : EReal) := by
  classical
  refine Finset.induction_on s ?_ (fun a s ha ih => ?_)
  · simp
  · rw [Finset.sum_insert ha, Finset.sum_insert ha, EReal.coe_add, ih]

def catPos {E₁ N : Nat} (p : Fin E₁ → Fin N) : Fin (E₁ + N) → Fin N := Fin.addCases p id

theorem catPos_left {E₁ N : Nat} (p : Fin E₁ → Fin N) (e : Fin E₁) : catPos p (Fin.castAdd N e) = p e :=
  Fin.addCases_left e
theorem catPos_right {E₁ N : Nat} (p : Fin E₁ → Fin N) (n : Fin N) : catPos p (Fin.natAdd E₁ n) = n :=
  Fin.addCases_right n

theorem sum_filter_catPos {E₁ N : Nat} (dst : Fin E₁ → Fin N) (f : Fin (E₁ + N) → ℝ) (i : Fin N) :
    ∑ e ∈ Finset.univ.filter (fun e => catPos dst e = i), f e
      = (∑ e ∈ Finset.univ.filter (fun e => dst e = i), f (Fin.castAdd N e)) + f (Fin.natAdd E₁ i) := by
  classical
  rw [Finset.sum_filter, Fin.sum_univ_add, Finset.sum_filter]
  congr 1
  · exact Finset.sum_congr rfl fun e _ => by rw [catPos_left]
  · simp only [catPos_right]
    rw [Finset.sum_ite_eq' Finset.univ i (fun n => f (Fin.natAdd E₁ n)), if_pos (Finset.mem_univ i)]

end Sums

end Cert.RefOps

end
-- ==== Proof.RefValueIdx.lean ====
import proofs.«211345_g12773232738731_cont_fleet_1243_15_alg».proof.Proof.RefRead
import proofs.«211345_g12773232738731_cont_fleet_1243_15_alg».proof.Proof.RefValueOps
import proofs.«211345_g12773232738731_cont_fleet_1243_15_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.RefOps
open scoped BigOperators

abbrev X0 := (⟨S10000x128, .f32⟩ : BufTy).Contents (Elt Ideal)
abbrev X1 := (⟨S2x320000, .i32⟩ : BufTy).Contents (Elt Ideal)
abbrev X2 := (⟨S200000x2, .i32⟩ : BufTy).Contents (Elt Ideal)
abbrev X3 := (⟨S128x16, .f32⟩ : BufTy).Contents (Elt Ideal)
abbrev X4 := (⟨S16, .f32⟩ : BufTy).Contents (Elt Ideal)
abbrev X5 := (⟨S16x8, .f32⟩ : BufTy).Contents (Elt Ideal)
abbrev X6 := (⟨S8, .f32⟩ : BufTy).Contents (Elt Ideal)
abbrev X7 := (⟨S8x1, .f32⟩ : BufTy).Contents (Elt Ideal)
abbrev X8 := (⟨S1, .f32⟩ : BufTy).Contents (Elt Ideal)

theorem coe_toReal_of_real {x : EReal} (h : ∃ r : ℝ, x = (r : EReal)) : ((x.toReal : ℝ) : EReal) = x := by
  obtain ⟨r, rfl⟩ := h; rw [EReal.toReal_coe]

variable (x1 : X1) (hr1 : ∀ i, (x1 i).toNat < 10000)

def srcOf : Fin 320000 → Fin 10000 := fun e => ⟨(x1 (ix2 (0 : Fin 2) e)).toNat, hr1 _⟩
def dstOf : Fin 320000 → Fin 10000 := fun e => ⟨(x1 (ix2 (1 : Fin 2) e)).toNat, hr1 _⟩

def inpOf (x0 : X0) (x1 : X1) (x2 : X2) (x3 : X3) (x4 : X4) (x5 : X5) (x6 : X6) (x7 : X7) (x8 : X8)
    (hr1 : ∀ i, (x1 i).toNat < 10000) (hr2 : ∀ i, (x2 i).toNat < 10000) : Cert.Spec.Inp where
  x n k := (x0 (ix2 n k) : EReal).toReal
  src := srcOf x1 hr1
  dst := dstOf x1 hr1
  pa p := ⟨(x2 (ix2 p (0 : Fin 2))).toNat, hr2 _⟩
  pb p := ⟨(x2 (ix2 p (1 : Fin 2))).toNat, hr2 _⟩
  W1 k a := (x3 (ix2 k a) : EReal).toReal
  b1 a := (x4 (ix1 a) : EReal).toReal
  W2 a b := (x5 (ix2 a b) : EReal).toReal
  b2 b := (x6 (ix1 b) : EReal).toReal
  Wl b := (x7 (ix2 b (0 : Fin 1)) : EReal).toReal
  bl := (x8 (ix1 (0 : Fin 1)) : EReal).toReal

theorem v1_at (e : Fin 320000) : val_main_v1 (F := Ideal) x1 (ix1 e) = x1 (ix2 (0 : Fin 2) e) := by
  rw [val_main_v1_apply, val_main_v0_apply]
  congr 1
  funext a
  match a with
  | ⟨0, _⟩ => rfl
  | ⟨1, _⟩ => exact Fin.ext (Nat.mod_eq_of_lt e.isLt)

theorem v3_at (e : Fin 320000) : val_main_v3 (F := Ideal) x1 (ix1 e) = x1 (ix2 (1 : Fin 2) e) := by
  rw [val_main_v3_apply, val_main_v2_apply]
  congr 1
  funext a
  match a with
  | ⟨0, _⟩ => rfl
  | ⟨1, _⟩ => exact Fin.ext (Nat.mod_eq_of_lt e.isLt)

theorem cat_src (e' : Fin (320000 + 10000)) :
    (val_main_v5 (F := Ideal) x1 (ix1 e')).toNat = (catPos (srcOf x1 hr1) e').val := by
  refine Fin.addCases (fun e => ?_) (fun n => ?_) e'
  · rw [catPos_left]
    have h' : val_main_v5 (F := Ideal) x1 (ix1 (Fin.castAdd 10000 e)) = val_main_v1 (F := Ideal) x1 (ix1 e) :=
      concat1_left (E₁ := 320000) (E₂ := 10000) concatenates_S320000_S10000_S330000_d0 _ _ e
    rw [h', v1_at]; rfl
  · rw [catPos_right]
    have h' : val_main_v5 (F := Ideal) x1 (ix1 (Fin.natAdd 320000 n)) = val_main_v4 (F := Ideal) (ix1 n) :=
      concat1_right (E₁ := 320000) (E₂ := 10000) concatenates_S320000_S10000_S330000_d0 _ _ n
    rw [h', val_main_v4_apply]; exact toNat_ofNat_small _ n.isLt

theorem cat_dst (e' : Fin (320000 + 10000)) :
    (val_main_v6 (F := Ideal) x1 (ix1 e')).toNat = (catPos (dstOf x1 hr1) e').val := by
  refine Fin.addCases (fun e => ?_) (fun n => ?_) e'
  · rw [catPos_left]
    have h' : val_main_v6 (F := Ideal) x1 (ix1 (Fin.castAdd 10000 e)) = val_main_v3 (F := Ideal) x1 (ix1 e) :=
      concat1_left (E₁ := 320000) (E₂ := 10000) concatenates_S320000_S10000_S330000_d0 _ _ e
    rw [h', v3_at]; rfl
  · rw [catPos_right]
    have h' : val_main_v6 (F := Ideal) x1 (ix1 (Fin.natAdd 320000 n)) = val_main_v4 (F := Ideal) (ix1 n) :=
      concat1_right (E₁ := 320000) (E₂ := 10000) concatenates_S320000_S10000_S330000_d0 _ _ n
    rw [h', val_main_v4_apply]; exact toNat_ofNat_small _ n.isLt

include hr1 in
theorem col_dst (e' : Fin (320000 + 10000)) :
    val_main_v14 (F := Ideal) x1 (ix2 e' (0 : Fin 1)) = val_main_v6 (F := Ideal) x1 (ix1 e') := by
  rw [val_main_v14_apply]
  have hi : idx_main_v14 (ix2 e' (0 : Fin 1)) = ix1 e' := by
    funext a; match a with | ⟨0, _⟩ => rfl
  rw [hi, val_main_v13_apply, val_main_v10_apply, val_main_v12_apply, val_main_v9_apply, val_main_c_apply,
    val_main_v11_apply, val_main_c_1_apply]
  exact wrap_id _ (by rw [cat_dst x1 hr1]; exact (catPos _ _).isLt)

include hr1 in
theorem col_src (e' : Fin (320000 + 10000)) :
    val_main_v26 (F := Ideal) x1 (ix2 e' (0 : Fin 1)) = val_main_v5 (F := Ideal) x1 (ix1 e') := by
  rw [val_main_v26_apply]
  have hi : idx_main_v26 (ix2 e' (0 : Fin 1)) = ix1 e' := by
    funext a; match a with | ⟨0, _⟩ => rfl
  rw [hi, val_main_v25_apply, val_main_v22_apply, val_main_v24_apply, val_main_v21_apply, val_main_c_5_apply,
    val_main_v23_apply, val_main_c_6_apply]
  exact wrap_id _ (by rw [cat_src x1 hr1]; exact (catPos _ _).isLt)

theorem dst_pos (e' : Fin (320000 + 10000)) :
    0 ≤ (val_main_v14 (F := Ideal) x1 (ix2 e' (0 : Fin 1))).toInt
      ∧ (val_main_v14 (F := Ideal) x1 (ix2 e' (0 : Fin 1))).toInt.toNat = (catPos (dstOf x1 hr1) e').val := by
  rw [col_dst x1 hr1]
  have h := toInt_of_small (w := val_main_v6 (F := Ideal) x1 (ix1 e')) (by rw [cat_dst x1 hr1]; exact (catPos _ _).isLt)
  exact ⟨h.1, h.2.trans (cat_dst x1 hr1 e')⟩

theorem src_start (e' : Fin (320000 + 10000)) :
    min (val_main_v26 (F := Ideal) x1 (ix2 e' (0 : Fin 1))).toInt.toNat (10000 - 1) = (catPos (srcOf x1 hr1) e').val := by
  rw [col_src x1 hr1]
  have h := toInt_of_small (w := val_main_v5 (F := Ideal) x1 (ix1 e')) (by rw [cat_src x1 hr1]; exact (catPos _ _).isLt)
  rw [h.2, cat_src x1 hr1]
  exact min_pred_of_lt (catPos _ _).isLt

theorem dst_start (e' : Fin (320000 + 10000)) :
    min (val_main_v14 (F := Ideal) x1 (ix2 e' (0 : Fin 1))).toInt.toNat (10000 - 1) = (catPos (dstOf x1 hr1) e').val := by
  rw [(dst_pos x1 hr1 e').2]
  exact min_pred_of_lt (catPos _ _).isLt

theorem v33_eq : val_main_v33 (F := Ideal) x1 = val_main_v14 (F := Ideal) x1 := rfl
theorem v42_eq : val_main_v42 (F := Ideal) x1 = val_main_v26 (F := Ideal) x1 := rfl
theorem v53_eq : val_main_v53 (F := Ideal) x1 = val_main_v14 (F := Ideal) x1 := rfl
theorem v72_eq : val_main_v72 (F := Ideal) x1 = val_main_v14 (F := Ideal) x1 := rfl
theorem v84_eq : val_main_v84 (F := Ideal) x1 = val_main_v26 (F := Ideal) x1 := rfl
theorem v91_eq : val_main_v91 (F := Ideal) x1 = val_main_v14 (F := Ideal) x1 := rfl
theorem v100_eq : val_main_v100 (F := Ideal) x1 = val_main_v26 (F := Ideal) x1 := rfl
theorem v111_eq : val_main_v111 (F := Ideal) x1 = val_main_v14 (F := Ideal) x1 := rfl

end Cert.ReferenceIdeal.RefValue

end
-- ==== Proof.RefValueConv.lean ====
import proofs.«211345_g12773232738731_cont_fleet_1243_15_alg».proof.Proof.RefValueOps

noncomputable section

open scoped BigOperators

namespace Cert.RefOps

open Idealize.ShloMosaic Idealize.ShloMosaic.ValueIdx

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  rw [Ideal.ofBits_zero_f32]; rfl

theorem conv_apply {N E₁ C : Nat} (hN : 0 < N)
    (wfS : ScatterDims.WF ⟨2, ![N, C]⟩ ⟨2, ![E₁ + N, 1]⟩ ⟨2, ![E₁ + N, C]⟩ [1] [0] [0] 1)
    (wfG : GatherDims.WF ⟨2, ![N, C]⟩ ⟨2, ![E₁ + N, 1]⟩ ⟨2, ![E₁ + N, C]⟩ [1] [0] [] [0] [] 1 ![1, C])
    (z hw bias : (⟨2, ![N, C]⟩ : Shape).Idx → EReal) (srcI dstI : IVec ⟨2, ![E₁ + N, 1]⟩ 32)
    (nrm : (⟨2, ![E₁ + N, C]⟩ : Shape).Idx → EReal)
    (H : Fin N → Fin C → ℝ) (β : Fin C → ℝ) (ν : Fin (E₁ + N) → ℝ) (src dst : Fin E₁ → Fin N)
    (hz : ∀ j, z j = 0) (hhw : ∀ n a, hw (ix2 n a) = ((H n a : ℝ) : EReal))
    (hb : ∀ n a, bias (ix2 n a) = ((β a : ℝ) : EReal))
    (hn : ∀ e a, nrm (ix2 e a) = ((ν e : ℝ) : EReal))
    (hs : ∀ e, min (srcI (ix2 e (0 : Fin 1))).toInt.toNat (N - 1) = (catPos src e).val)
    (hd : ∀ e, 0 ≤ (dstI (ix2 e (0 : Fin 1))).toInt ∧ (dstI (ix2 e (0 : Fin 1))).toInt.toNat = (catPos dst e).val)
    (i : Fin N) (a : Fin C) :
    addf (F := Ideal) (φ := .f32) (Host.scatterAdd (F := Ideal) (φ := .f32) (scat2Dims N (E₁ + N) C wfS) z dstI
        (mulf (F := Ideal) (φ := .f32) (Host.gather (rowsDims N (E₁ + N) C wfG) hw srcI) nrm)) bias (ix2 i a)
      = ((((∑ e ∈ Finset.univ.filter (fun e => dst e = i), H (src e) a * ν (Fin.castAdd N e))
          + H i a * ν (Fin.natAdd E₁ i)) + β a : ℝ) : EReal) := by
  show Host.scatterAdd (F := Ideal) (φ := .f32) (scat2Dims N (E₁ + N) C wfS) z dstI
        (mulf (F := Ideal) (φ := .f32) (Host.gather (rowsDims N (E₁ + N) C wfG) hw srcI) nrm) (ix2 i a) + bias (ix2 i a) = _
  rw [scatterAdd2_apply wfS z dstI _ (catPos dst) hd i a, hz, zero_add, hb]
  have hm : ∀ e : Fin (E₁ + N), mulf (F := Ideal) (φ := .f32) (Host.gather (rowsDims N (E₁ + N) C wfG) hw srcI) nrm (ix2 e a)
      = ((H (catPos src e) a * ν e : ℝ) : EReal) := by
    intro e
    show Host.gather (rowsDims N (E₁ + N) C wfG) hw srcI (ix2 e a) * nrm (ix2 e a) = _
    rw [rows_apply hN wfG hw srcI e a, hn]
    have hi : (⟨min (srcI (ix2 e (0 : Fin 1))).toInt.toNat (N - 1), by omega⟩ : Fin N) = catPos src e := Fin.ext (hs e)
    rw [hi, hhw, ← EReal.coe_mul]
  rw [Finset.sum_congr rfl (fun e _ => hm e), ← coe_sum, sum_filter_catPos dst (fun e => H (catPos src e) a * ν e) i]
  simp only [catPos_left, catPos_right]
  rw [← EReal.coe_add]

end Cert.RefOps

end
-- ==== Proof.RefValueDeg.lean ====
import proofs.«211345_g12773232738731_cont_fleet_1243_15_alg».proof.Proof.RefValueIdx
import proofs.«211345_g12773232738731_cont_fleet_1243_15_alg».proof.Proof.RefValueConv

noncomputable section

namespace Cert.ReferenceIdeal.RefValue

open Cert.ReferenceIdeal Cert.ReferenceIdeal.Gen Cert.ReferenceIdeal.Read Idealize.ShloMosaic Idealize.ShloMosaic.ValueIdx Cert.RefOps
open scoped BigOperators

variable (x0 : X0) (x1 : X1) (x2 : X2) (x3 : X3) (x4 : X4) (x5 : X5) (x6 : X6) (x7 : X7) (x8 : X8)
variable (hr1 : ∀ i, (x1 i).toNat < 10000) (hr2 : ∀ i, (x2 i).toNat < 10000)

theorem deg_at (i : Fin 10000) : val_main_v15 (F := Ideal) x1 (ix1 i) = ((Cert.Spec.deg (inpOf x0 x1 x2 x3 x4 x5 x6 x7 x8 hr1 hr2) i : ℝ) : EReal) := by
  unfold val_main_v15
  refine (scatterAdd1_apply (N := 10000) (E := 320000 + 10000) scatter_S10000_S330000x1_S330000_n_0_0_1_wf
    _ _ _ (catPos (dstOf x1 hr1)) (dst_pos x1 hr1) i).trans ?_
  have h1 : ∀ e' : Fin (320000 + 10000), val_main_v7 (F := Ideal) (ix1 e') = ((1 : ℝ) : EReal) := by
    intro e'; rw [val_main_v7_apply, val_main_cst_apply]; exact ofBits_one
  rw [Finset.sum_congr rfl (fun e' _ => h1 e'), ← coe_sum, sum_filter_catPos (dstOf x1 hr1) (fun _ => (1 : ℝ)) i,
    val_main_v8_apply, val_main_cst_0_apply]
  show Ideal.ofBits .f32 0x00000000#32 + _ = _
  rw [Ideal.ofBits_zero_f32, zero_add, Finset.sum_const, nsmul_eq_mul, mul_one]
  rfl

theorem dinv_at (i : Fin 10000) : val_main_v20 (F := Ideal) x1 (ix1 i) = ((Cert.Spec.dinv (inpOf x0 x1 x2 x3 x4 x5 x6 x7 x8 hr1 hr2) i : ℝ) : EReal) := by
  rw [val_main_v20_apply, val_main_v17_apply, val_main_v19_apply, deg_at x0 x1 x2 x3 x4 x5 x6 x7 x8 hr1 hr2, val_main_v16_apply,
    val_main_cst_2_apply, val_main_v18_apply, val_main_cst_3_apply]
  show Scalar.select (Ideal.cmp .ogt _ (Ideal.ofBits .f32 0x00000000#32))
    (Ideal.pow _ (Ideal.ofBits .f32 0xBF000000#32)) _ = _
  rw [cmp_ogt_zero _ (Cert.Spec.deg_pos _ i), select_one, pow_neg_half _ (Cert.Spec.deg_pos _ i)]
  rfl

theorem norm_at (e' : Fin (320000 + 10000)) :
    val_main_v35 (F := Ideal) x1 (ix1 e')
      = ((Cert.Spec.dinv (inpOf x0 x1 x2 x3 x4 x5 x6 x7 x8 hr1 hr2) (catPos (srcOf x1 hr1) e') * Cert.Spec.dinv (inpOf x0 x1 x2 x3 x4 x5 x6 x7 x8 hr1 hr2) (catPos (dstOf x1 hr1) e') : ℝ) : EReal) := by
  have h27 : val_main_v27 (F := Ideal) x1 (ix1 e') = val_main_v20 (F := Ideal) x1 (ix1 (catPos (srcOf x1 hr1) e')) := by
    unfold val_main_v27
    refine (take1_apply (N := 10000) (E := 320000 + 10000) (by decide)
      gather_S10000_S330000x1_S330000_n_0_n_n_0_1_1_wf _ _ e').trans ?_
    exact congrArg (fun k => val_main_v20 (F := Ideal) x1 (ix1 k)) (Fin.ext (src_start x1 hr1 e'))
  have h34 : val_main_v34 (F := Ideal) x1 (ix1 e') = val_main_v20 (F := Ideal) x1 (ix1 (catPos (dstOf x1 hr1) e')) := by
    unfold val_main_v34
    rw [v33_eq]
    refine (take1_apply (N := 10000) (E := 320000 + 10000) (by decide)
      gather_S10000_S330000x1_S330000_n_0_n_n_0_1_1_wf _ _ e').trans ?_
    exact congrArg (fun k => val_main_v20 (F := Ideal) x1 (ix1 k)) (Fin.ext (dst_start x1 hr1 e'))
  rw [val_main_v35_apply, h27, h34, dinv_at x0 x1 x2 x3 x4 x5 x6 x7 x8 hr1 hr2, dinv_at x0 x1 x2 x3 x4 x5 x6 x7 x8 hr1 hr2]
  exact (EReal.coe_mul _ _).symm

theorem v93_eq : val_main_v93 (F := Ideal) x1 = val_main_v35 (F := Ideal) x1 := rfl

end Cert.ReferenceIdeal.RefValue

end
-- ==== Proof.RefValueLayer.lean ====
import proofs.«211345_g12773232738731_cont_fleet_1243_15_alg».proof.Proof.RefValueDeg

noncomputable section

namespace Cert.ReferenceIdeal.RefValue

open Cert.ReferenceIdeal Cert.ReferenceIdeal.Gen Cert.ReferenceIdeal.Read Idealize.ShloMosaic Idealize.ShloMosaic.ValueIdx Cert.RefOps
open scoped BigOperators

variable (x0 : X0) (x1 : X1) (x2 : X2) (x3 : X3) (x4 : X4) (x5 : X5) (x6 : X6) (x7 : X7) (x8 : X8)
variable (hr1 : ∀ i, (x1 i).toNat < 10000) (hr2 : ∀ i, (x2 i).toNat < 10000)
variable (hf0 : ∀ i, ∃ r : ℝ, x0 i = (r : EReal)) (hf3 : ∀ i, ∃ r : ℝ, x3 i = (r : EReal))
  (hf4 : ∀ i, ∃ r : ℝ, x4 i = (r : EReal)) (hf5 : ∀ i, ∃ r : ℝ, x5 i = (r : EReal)) (hf6 : ∀ i, ∃ r : ℝ, x6 i = (r : EReal))
  (hf7 : ∀ i, ∃ r : ℝ, x7 i = (r : EReal)) (hf8 : ∀ i, ∃ r : ℝ, x8 i = (r : EReal))

theorem dot_real {K : Nat} (l r : Fin K → EReal) (L R : Fin K → ℝ) (hl : ∀ k, l k = ((L k : ℝ) : EReal))
    (hr : ∀ k, r k = ((R k : ℝ) : EReal)) : ∑ k, l k * r k = ((∑ k, L k * R k : ℝ) : EReal) := by
  rw [coe_sum]
  exact Finset.sum_congr rfl fun k _ => by rw [hl, hr, EReal.coe_mul]

include hf0 hf3 in
theorem hw1_at (n : Fin 10000) (a : Fin 16) :
    val_main_v36 (F := Ideal) x0 x3 (ix2 n a) = ((Cert.Spec.rhw1 (inpOf x0 x1 x2 x3 x4 x5 x6 x7 x8 hr1 hr2) n a : ℝ) : EReal) := by
  rw [val_main_v36_apply]
  refine (dot_real (fun k => x0 (lidx_main_v36 (ix2 n a) k)) (fun k => x3 (ridx_main_v36 (ix2 n a) k))
    (fun k => (inpOf x0 x1 x2 x3 x4 x5 x6 x7 x8 hr1 hr2).x n k) (fun k => (inpOf x0 x1 x2 x3 x4 x5 x6 x7 x8 hr1 hr2).W1 k a) (fun k => ?_) (fun k => ?_)).trans rfl
  · have hi : lidx_main_v36 (ix2 n a) k = ix2 n k := by
      funext b; match b with | ⟨0, _⟩ => rfl | ⟨1, _⟩ => rfl
    rw [hi]; exact (coe_toReal_of_real (hf0 _)).symm
  · have hi : ridx_main_v36 (ix2 n a) k = ix2 k a := by
      funext b; match b with | ⟨0, _⟩ => rfl | ⟨1, _⟩ => rfl
    rw [hi]; exact (coe_toReal_of_real (hf3 _)).symm

include hf0 hf3 hf4 in
theorem out1_at (i : Fin 10000) (a : Fin 16) :
    val_main_v57 (F := Ideal) x0 x1 x3 x4 (ix2 i a) = ((Cert.Spec.rout1 (inpOf x0 x1 x2 x3 x4 x5 x6 x7 x8 hr1 hr2) i a : ℝ) : EReal) := by
  unfold val_main_v57 val_main_v54 val_main_v46 val_main_v43
  rw [v53_eq, v42_eq]
  refine (conv_apply (N := 10000) (E₁ := 320000) (C := 16) (by decide)
    scatter_S10000x16_S330000x1_S330000x16_1_0_0_1_wf gather_S10000x16_S330000x1_S330000x16_1_0_n_n_0_1_116_wf
    (val_main_v47 (F := Ideal)) (val_main_v36 (F := Ideal) x0 x3) (val_main_v56 (F := Ideal) x4)
    (val_main_v26 (F := Ideal) x1) (val_main_v14 (F := Ideal) x1) (val_main_v45 (F := Ideal) x1)
    (Cert.Spec.rhw1 (inpOf x0 x1 x2 x3 x4 x5 x6 x7 x8 hr1 hr2)) ((inpOf x0 x1 x2 x3 x4 x5 x6 x7 x8 hr1 hr2).b1)
    (fun e' => Cert.Spec.dinv (inpOf x0 x1 x2 x3 x4 x5 x6 x7 x8 hr1 hr2) (catPos (srcOf x1 hr1) e') * Cert.Spec.dinv (inpOf x0 x1 x2 x3 x4 x5 x6 x7 x8 hr1 hr2) (catPos (dstOf x1 hr1) e'))
    (srcOf x1 hr1) (dstOf x1 hr1) ?hz ?hhw ?hb ?hn (src_start x1 hr1) (dst_pos x1 hr1) i a).trans ?_
  case hz => intro j; rw [val_main_v47_apply, val_main_cst_11_apply]; exact Ideal.ofBits_zero_f32
  case hhw => exact hw1_at x0 x1 x2 x3 x4 x5 x6 x7 x8 hr1 hr2 hf0 hf3
  case hb =>
    intro n c
    rw [val_main_v56_apply, val_main_v55_apply]
    have hi : idx_main_v55 (idx_main_v56 (ix2 n c)) = ix1 c := by
      funext b; match b with | ⟨0, _⟩ => rfl
    rw [hi]; exact (coe_toReal_of_real (hf4 _)).symm
  case hn =>
    intro e c
    rw [val_main_v45_apply, val_main_v44_apply]
    have hi : idx_main_v44 (idx_main_v45 (ix2 e c)) = ix1 e := by
      funext b; match b with | ⟨0, _⟩ => rfl
    rw [hi]; exact norm_at x0 x1 x2 x3 x4 x5 x6 x7 x8 hr1 hr2 e
  simp only [catPos_left, catPos_right]
  rfl

include hf0 hf3 hf4 hf5 in
theorem hw2_at (n : Fin 10000) (b : Fin 8) :
    val_main_v94 (F := Ideal) x0 x1 x3 x4 x5 (ix2 n b) = ((Cert.Spec.rhw2 (inpOf x0 x1 x2 x3 x4 x5 x6 x7 x8 hr1 hr2) n b : ℝ) : EReal) := by
  rw [val_main_v94_apply]
  refine (dot_real (fun k => val_main_v57 (F := Ideal) x0 x1 x3 x4 (lidx_main_v94 (ix2 n b) k))
    (fun k => x5 (ridx_main_v94 (ix2 n b) k))
    (fun k => Cert.Spec.rout1 (inpOf x0 x1 x2 x3 x4 x5 x6 x7 x8 hr1 hr2) n k) (fun k => (inpOf x0 x1 x2 x3 x4 x5 x6 x7 x8 hr1 hr2).W2 k b) (fun k => ?_) (fun k => ?_)).trans rfl
  · have hi : lidx_main_v94 (ix2 n b) k = ix2 n k := by
      funext c; match c with | ⟨0, _⟩ => rfl | ⟨1, _⟩ => rfl
    rw [hi]; exact out1_at x0 x1 x2 x3 x4 x5 x6 x7 x8 hr1 hr2 hf0 hf3 hf4 n k
  · have hi : ridx_main_v94 (ix2 n b) k = ix2 k b := by
      funext c; match c with | ⟨0, _⟩ => rfl | ⟨1, _⟩ => rfl
    rw [hi]; exact (coe_toReal_of_real (hf5 _)).symm

include hf0 hf3 hf4 hf5 hf6 in
theorem out2_at (i : Fin 10000) (b : Fin 8) :
    val_main_v115 (F := Ideal) x0 x1 x3 x4 x5 x6 (ix2 i b) = ((Cert.Spec.rout2 (inpOf x0 x1 x2 x3 x4 x5 x6 x7 x8 hr1 hr2) i b : ℝ) : EReal) := by
  unfold val_main_v115 val_main_v112 val_main_v104 val_main_v101
  rw [v111_eq, v100_eq]
  refine (conv_apply (N := 10000) (E₁ := 320000) (C := 8) (by decide)
    scatter_S10000x8_S330000x1_S330000x8_1_0_0_1_wf gather_S10000x8_S330000x1_S330000x8_1_0_n_n_0_1_18_wf
    (val_main_v105 (F := Ideal)) (val_main_v94 (F := Ideal) x0 x1 x3 x4 x5) (val_main_v114 (F := Ideal) x6)
    (val_main_v26 (F := Ideal) x1) (val_main_v14 (F := Ideal) x1) (val_main_v103 (F := Ideal) x1)
    (Cert.Spec.rhw2 (inpOf x0 x1 x2 x3 x4 x5 x6 x7 x8 hr1 hr2)) ((inpOf x0 x1 x2 x3 x4 x5 x6 x7 x8 hr1 hr2).b2)
    (fun e' => Cert.Spec.dinv (inpOf x0 x1 x2 x3 x4 x5 x6 x7 x8 hr1 hr2) (catPos (srcOf x1 hr1) e') * Cert.Spec.dinv (inpOf x0 x1 x2 x3 x4 x5 x6 x7 x8 hr1 hr2) (catPos (dstOf x1 hr1) e'))
    (srcOf x1 hr1) (dstOf x1 hr1) ?hz ?hhw ?hb ?hn (src_start x1 hr1) (dst_pos x1 hr1) i b).trans ?_
  case hz => intro j; rw [val_main_v105_apply, val_main_cst_27_apply]; exact Ideal.ofBits_zero_f32
  case hhw => exact hw2_at x0 x1 x2 x3 x4 x5 x6 x7 x8 hr1 hr2 hf0 hf3 hf4 hf5
  case hb =>
    intro n c
    rw [val_main_v114_apply, val_main_v113_apply]
    have hi : idx_main_v113 (idx_main_v114 (ix2 n c)) = ix1 c := by
      funext d; match d with | ⟨0, _⟩ => rfl
    rw [hi]; exact (coe_toReal_of_real (hf6 _)).symm
  case hn =>
    intro e c
    rw [val_main_v103_apply, val_main_v102_apply]
    have hi : idx_main_v102 (idx_main_v103 (ix2 e c)) = ix1 e := by
      funext d; match d with | ⟨0, _⟩ => rfl
    rw [hi, v93_eq]; exact norm_at x0 x1 x2 x3 x4 x5 x6 x7 x8 hr1 hr2 e
  simp only [catPos_left, catPos_right]
  rfl

end Cert.ReferenceIdeal.RefValue

end
-- ==== Proof.RefValue.lean ====
import proofs.«211345_g12773232738731_cont_fleet_1243_15_alg».proof.Proof.RefValueLayer

noncomputable section

namespace Cert.ReferenceIdeal.RefValue

open Cert.ReferenceIdeal Cert.ReferenceIdeal.Gen Cert.ReferenceIdeal.Read Idealize.ShloMosaic Idealize.ShloMosaic.ValueIdx Cert.RefOps
open scoped BigOperators

variable (x0 : X0) (x1 : X1) (x2 : X2) (x3 : X3) (x4 : X4) (x5 : X5) (x6 : X6) (x7 : X7) (x8 : X8)
variable (hr1 : ∀ i, (x1 i).toNat < 10000) (hr2 : ∀ i, (x2 i).toNat < 10000)
variable (hf0 : ∀ i, ∃ r : ℝ, x0 i = (r : EReal)) (hf3 : ∀ i, ∃ r : ℝ, x3 i = (r : EReal))
  (hf4 : ∀ i, ∃ r : ℝ, x4 i = (r : EReal)) (hf5 : ∀ i, ∃ r : ℝ, x5 i = (r : EReal)) (hf6 : ∀ i, ∃ r : ℝ, x6 i = (r : EReal))
  (hf7 : ∀ i, ∃ r : ℝ, x7 i = (r : EReal)) (hf8 : ∀ i, ∃ r : ℝ, x8 i = (r : EReal))

include hf0 hf3 hf4 hf5 hf6 hf7 hf8 in
theorem val_at (i : Fin 10000) :
    val_main_v119 (F := Ideal) x0 x1 x3 x4 x5 x6 x7 x8 (ix2 i (0 : Fin 1)) = ((Cert.Spec.rval (inpOf x0 x1 x2 x3 x4 x5 x6 x7 x8 hr1 hr2) i : ℝ) : EReal) := by
  rw [val_main_v119_apply, val_main_v116_apply, val_main_v118_apply, val_main_v117_apply]
  have hi : idx_main_v117 (idx_main_v118 (ix2 i (0 : Fin 1))) = ix1 (0 : Fin 1) := by
    funext b; match b with | ⟨0, _⟩ => rfl
  have h8 : x8 (ix1 (0 : Fin 1)) = (((inpOf x0 x1 x2 x3 x4 x5 x6 x7 x8 hr1 hr2).bl : ℝ) : EReal) := (coe_toReal_of_real (hf8 _)).symm
  rw [hi, h8, dot_real (fun k => val_main_v115 (F := Ideal) x0 x1 x3 x4 x5 x6 (lidx_main_v116 (ix2 i (0 : Fin 1)) k))
    (fun k => x7 (ridx_main_v116 (ix2 i (0 : Fin 1)) k))
    (fun k => Cert.Spec.rout2 (inpOf x0 x1 x2 x3 x4 x5 x6 x7 x8 hr1 hr2) i k) (fun k => (inpOf x0 x1 x2 x3 x4 x5 x6 x7 x8 hr1 hr2).Wl k) (fun k => ?_) (fun k => ?_)]
  · show ((_ : ℝ) : EReal) + ((_ : ℝ) : EReal) = _
    rw [← EReal.coe_add]; rfl
  · have hl : lidx_main_v116 (ix2 i (0 : Fin 1)) k = ix2 i k := by
      funext c; match c with | ⟨0, _⟩ => rfl | ⟨1, _⟩ => rfl
    rw [hl]; exact out2_at x0 x1 x2 x3 x4 x5 x6 x7 x8 hr1 hr2 hf0 hf3 hf4 hf5 hf6 i k
  · have hr : ridx_main_v116 (ix2 i (0 : Fin 1)) k = ix2 k (0 : Fin 1) := by
      funext c; match c with | ⟨0, _⟩ => rfl | ⟨1, _⟩ => rfl
    rw [hr]; exact (coe_toReal_of_real (hf7 _)).symm

include hf0 hf3 hf4 hf5 hf6 hf7 hf8 in
theorem sig_at (i : Fin 10000) :
    val_main_v125 (F := Ideal) x0 x1 x3 x4 x5 x6 x7 x8 (ix2 i (0 : Fin 1)) = ((Cert.Spec.sig (Cert.Spec.rval (inpOf x0 x1 x2 x3 x4 x5 x6 x7 x8 hr1 hr2) i) : ℝ) : EReal) := by
  rw [val_main_v125_apply, val_main_v124_apply, val_main_cst_31_apply, val_main_v123_apply, val_main_v122_apply,
    val_main_cst_30_apply, val_main_v121_apply, val_main_v120_apply,
    val_at x0 x1 x2 x3 x4 x5 x6 x7 x8 hr1 hr2 hf0 hf3 hf4 hf5 hf6 hf7 hf8 i]
  show Ideal.div (Ideal.ofBits .f32 0x3F800000#32)
    (Ideal.ofBits .f32 0x3F800000#32 + Ideal.exp (-((Cert.Spec.rval (inpOf x0 x1 x2 x3 x4 x5 x6 x7 x8 hr1 hr2) i : ℝ) : EReal))) = _
  have hpos : (1 : ℝ) + Real.exp (-(Cert.Spec.rval (inpOf x0 x1 x2 x3 x4 x5 x6 x7 x8 hr1 hr2) i)) ≠ 0 :=
    (add_pos zero_lt_one (Real.exp_pos _)).ne'
  rw [ofBits_one, ← EReal.coe_neg, Ideal.exp_coe, ← EReal.coe_add, Ideal.div_coe hpos, ← EReal.coe_mul]
  unfold Cert.Spec.sig
  rw [one_mul]

theorem pair_at (p : Fin 200000) (k : Fin 2) :
    val_main_v132 (F := Ideal) x0 x1 x2 x3 x4 x5 x6 x7 x8 (ix3 p k (0 : Fin 1))
      = val_main_v125 (F := Ideal) x0 x1 x3 x4 x5 x6 x7 x8 (ix2 (⟨(x2 (ix2 p k)).toNat, hr2 _⟩ : Fin 10000) (0 : Fin 1)) := by
  unfold val_main_v132
  refine (pairs_apply (N := 10000) (P := 200000) (K := 2) (by decide)
    gather_S10000x1_S200000x2x1_S200000x2x1_2_0_n_n_0_2_11_wf _ _ p k).trans ?_
  refine congrArg (fun n : Fin 10000 => val_main_v125 (F := Ideal) x0 x1 x3 x4 x5 x6 x7 x8 (ix2 n (0 : Fin 1))) (Fin.ext ?_)
  show min (val_main_v131 (F := Ideal) x2 (ix3 p k (0 : Fin 1))).toInt.toNat (10000 - 1) = (x2 (ix2 p k)).toNat
  rw [val_main_v131_apply]
  have hi : idx_main_v131 (ix3 p k (0 : Fin 1)) = ix2 p k := by
    funext b; match b with | ⟨0, _⟩ => rfl | ⟨1, _⟩ => rfl
  rw [hi, val_main_v130_apply, val_main_v127_apply, val_main_v129_apply, val_main_v126_apply, val_main_c_32_apply,
    val_main_v128_apply, val_main_c_33_apply, wrap_id _ (hr2 _), (toInt_of_small (hr2 _)).2]
  exact min_pred_of_lt (hr2 _)

include hf0 hf3 hf4 hf5 hf6 hf7 hf8 in
theorem result_at (p : Fin 200000) :
    val_main_v139 (F := Ideal) x0 x1 x2 x3 x4 x5 x6 x7 x8 (ix1 p) = ((Cert.Spec.rout (inpOf x0 x1 x2 x3 x4 x5 x6 x7 x8 hr1 hr2) p : ℝ) : EReal) := by
  rw [val_main_v139_apply, val_main_v138_apply, val_main_v137_apply, val_main_v134_apply, val_main_v133_apply,
    val_main_v136_apply, val_main_v135_apply]
  have e0 : idx_main_v133 (idx_main_v134 (idx_main_v138 (idx_main_v139 (ix1 p)))) = ix3 p (0 : Fin 2) (0 : Fin 1) := by
    funext b
    match b with
    | ⟨0, _⟩ => exact Fin.ext (by have := p.isLt; show ((p.val % 200000) * 1 + 0) / 1 = p.val; omega)
    | ⟨1, _⟩ => rfl
    | ⟨2, _⟩ => rfl
  have e1 : idx_main_v135 (idx_main_v136 (idx_main_v138 (idx_main_v139 (ix1 p)))) = ix3 p (1 : Fin 2) (0 : Fin 1) := by
    funext b
    match b with
    | ⟨0, _⟩ => exact Fin.ext (by have := p.isLt; show ((p.val % 200000) * 1 + 0) / 1 = p.val; omega)
    | ⟨1, _⟩ => rfl
    | ⟨2, _⟩ => rfl
  rw [e0, e1, pair_at x0 x1 x2 x3 x4 x5 x6 x7 x8 hr2, pair_at x0 x1 x2 x3 x4 x5 x6 x7 x8 hr2,
    sig_at x0 x1 x2 x3 x4 x5 x6 x7 x8 hr1 hr2 hf0 hf3 hf4 hf5 hf6 hf7 hf8, sig_at x0 x1 x2 x3 x4 x5 x6 x7 x8 hr1 hr2 hf0 hf3 hf4 hf5 hf6 hf7 hf8]
  show ((_ : ℝ) : EReal) * ((_ : ℝ) : EReal) = _
  rw [← EReal.coe_mul]; rfl

theorem result_eq
    (hfin : (∀ i, ∃ r : ℝ, x0 i = (r : EReal)) ∧ (∀ i, ∃ r : ℝ, x3 i = (r : EReal)) ∧ (∀ i, ∃ r : ℝ, x4 i = (r : EReal)) ∧
      (∀ i, ∃ r : ℝ, x5 i = (r : EReal)) ∧ (∀ i, ∃ r : ℝ, x6 i = (r : EReal)) ∧ (∀ i, ∃ r : ℝ, x7 i = (r : EReal)) ∧
      (∀ i, ∃ r : ℝ, x8 i = (r : EReal))) :
    val_main_v139 (F := Ideal) x0 x1 x2 x3 x4 x5 x6 x7 x8
      = fun j => ((Cert.Spec.rout (inpOf x0 x1 x2 x3 x4 x5 x6 x7 x8 hr1 hr2) (j 0) : ℝ) : EReal) := by
  funext j
  obtain ⟨p, rfl⟩ : ∃ p : Fin 200000, j = ix1 p := ⟨j 0, eq_ix1 j⟩
  exact result_at x0 x1 x2 x3 x4 x5 x6 x7 x8 hr1 hr2 hfin.1 hfin.2.1 hfin.2.2.1 hfin.2.2.2.1 hfin.2.2.2.2.1 hfin.2.2.2.2.2.1 hfin.2.2.2.2.2.2 p

end Cert.ReferenceIdeal.RefValue

end
-- ==== Proof.RefValuePre.lean ====
import proofs.«211345_g12773232738731_cont_fleet_1243_15_alg».proof.Pre_input_domain
import proofs.«211345_g12773232738731_cont_fleet_1243_15_alg».proof.Proof.Gen.Pre_input_domain
import Idealize.ShloMosaic.Lib.ReduceAll
import Idealize.ShloMosaic.Lib.ValueIdx
import Idealize.ShloMosaic.PureOps.Ideal.Laws

noncomputable section

namespace Cert.InputDomain

open Idealize.ShloMosaic Idealize.ShloMosaic.ValueIdx Cert.Pre_input_domain Cert.Pre_input_domain.Gen

instance : Subsingleton S_.Idx := ⟨fun a b => funext fun d => d.elim0⟩

theorem ofBool_one {b : Bool} (h : BitVec.ofBool b = 1#1) : b = true := by
  cases b
  · exact absurd h (by decide)
  · rfl

theorem toNat_lt_of_signed (w : BitVec 32) (h1 : IntOp.cmpi .sge w 0#32 = 1#1) (h2 : IntOp.cmpi .sle w 9999#32 = 1#1) :
    w.toNat < 10000 := by
  have e1 : (0#32 : BitVec 32).sle w = true := ofBool_one h1
  have e2 : w.sle 9999#32 = true := ofBool_one h2
  simp only [BitVec.sle, decide_eq_true_eq] at e1 e2
  have h0 : (0#32 : BitVec 32).toInt = 0 := by decide
  have h9 : (9999#32 : BitVec 32).toInt = 9999 := by decide
  rw [h0] at e1; rw [h9] at e2
  rw [BitVec.toInt_eq_toNat_cond] at e1 e2
  have := w.isLt
  split at e1 <;> omega

theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have e : Ideal.ofBits .f32 0x7F800000#32 = ⊤ := by simp [Ideal.ofBits, Ideal.ieee]
  change Ideal.cmp .olt (max x (-x)) (Ideal.ofBits .f32 0x7F800000#32) = 1#1 at h
  rw [e] at h
  have h' : max x (-x) < ⊤ := of_decide_eq_true (ofBool_one h)
  induction x using EReal.rec with
  | bot => simp at h'
  | coe r => exact ⟨r, rfl⟩
  | top => simp at h'

variable {F : FTy → Type} [FloatOps F]

theorem pre_range (a0 : FVec F S10000x128 .f32) (a1 : IVec S2x320000 32) (a2 : IVec S200000x2 32)
    (a3 : FVec F S128x16 .f32) (a4 : FVec F S16 .f32) (a5 : FVec F S16x8 .f32) (a6 : FVec F S8 .f32)
    (a7 : FVec F S8x1 .f32) (a8 : FVec F S1 .f32)
    (h : Cert.Pre_input_domain.fn (F := F) a0 a1 a2 a3 a4 a5 a6 a7 a8 = fun _ => 1#1) :
    (∀ i, (a1 i).toNat < 10000) ∧ (∀ i, (a2 i).toNat < 10000) := by
  have h0 := congrFun h ix0
  dsimp only [Cert.Pre_input_domain.fn, Cert.Pre_input_domain.fn_part1, Cert.Pre_input_domain.fn_part2] at h0
  obtain ⟨h40, h46⟩ := IntOp.andi_eq_one.1 h0
  obtain ⟨_, h39⟩ := IntOp.andi_eq_one.1 h40
  refine ⟨fun i => ?_, fun i => ?_⟩
  · have hi := Host.reduce_andi_all _ _ _ _ ix0 h39 i
    obtain ⟨c1, c2⟩ := IntOp.andi_eq_one.1 hi
    exact toNat_lt_of_signed _ c1 c2
  · have hi := Host.reduce_andi_all _ _ _ _ ix0 h46 i
    obtain ⟨c1, c2⟩ := IntOp.andi_eq_one.1 hi
    exact toNat_lt_of_signed _ c1 c2

theorem pre_fin (a0 : FVec Ideal S10000x128 .f32) (a1 : IVec S2x320000 32) (a2 : IVec S200000x2 32)
    (a3 : FVec Ideal S128x16 .f32) (a4 : FVec Ideal S16 .f32) (a5 : FVec Ideal S16x8 .f32) (a6 : FVec Ideal S8 .f32)
    (a7 : FVec Ideal S8x1 .f32) (a8 : FVec Ideal S1 .f32)
    (h : Cert.Pre_input_domain.fn (F := Ideal) a0 a1 a2 a3 a4 a5 a6 a7 a8 = fun _ => 1#1) :
    (∀ i, ∃ r : ℝ, a0 i = (r : EReal)) ∧ (∀ i, ∃ r : ℝ, a3 i = (r : EReal)) ∧ (∀ i, ∃ r : ℝ, a4 i = (r : EReal)) ∧
    (∀ i, ∃ r : ℝ, a5 i = (r : EReal)) ∧ (∀ i, ∃ r : ℝ, a6 i = (r : EReal)) ∧ (∀ i, ∃ r : ℝ, a7 i = (r : EReal)) ∧
    (∀ i, ∃ r : ℝ, a8 i = (r : EReal)) := by
  have h0 := congrFun h ix0
  dsimp only [Cert.Pre_input_domain.fn, Cert.Pre_input_domain.fn_part1, Cert.Pre_input_domain.fn_part2] at h0
  obtain ⟨h40, _⟩ := IntOp.andi_eq_one.1 h0
  obtain ⟨h33, _⟩ := IntOp.andi_eq_one.1 h40
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fun i => real_of_abs_lt _ (Host.reduce_andi_all _ _ _ _ ix0 h3 i),
    fun i => real_of_abs_lt _ (Host.reduce_andi_all _ _ _ _ ix0 h7 i),
    fun i => real_of_abs_lt _ (Host.reduce_andi_all _ _ _ _ ix0 h12 i),
    fun i => real_of_abs_lt _ (Host.reduce_andi_all _ _ _ _ ix0 h17 i),
    fun i => real_of_abs_lt _ (Host.reduce_andi_all _ _ _ _ ix0 h22 i),
    fun i => real_of_abs_lt _ (Host.reduce_andi_all _ _ _ _ ix0 h27 i),
    fun i => real_of_abs_lt _ (Host.reduce_andi_all _ _ _ _ ix0 h32 i)⟩

end Cert.InputDomain

end
-- ==== Proof.RefClaims.lean ====
import proofs.«211345_g12773232738731_cont_fleet_1243_15_alg».proof.Defs
import proofs.«211345_g12773232738731_cont_fleet_1243_15_alg».proof.Proof.RefRun
import proofs.«211345_g12773232738731_cont_fleet_1243_15_alg».proof.Proof.RefRead
import proofs.«211345_g12773232738731_cont_fleet_1243_15_alg».proof.Proof.RefValue
import proofs.«211345_g12773232738731_cont_fleet_1243_15_alg».proof.Proof.RefValuePre

noncomputable section

namespace Cert.Proof.RefClaims

open Cert Cert.ReferenceIdeal Cert.ReferenceIdeal.Gen Cert.ReferenceIdeal.Read Cert.ReferenceIdeal.RefValue Cert.InputDomain
open Idealize.ShloMosaic Idealize.ShloMosaic.TcCoe Idealize.SL.Sem Idealize.ShloMosaic.StableHlo Idealize.ShloMosaic.ValueIdx

def outOf (I : Cert.Spec.Inp) : (⟨S200000, .f32⟩ : BufTy).Contents (Elt Ideal) :=
  fun j => ((Cert.Spec.rout I (j 0) : ℝ) : EReal)

theorem inpOf_congr {x0 y0 : X0} {x1 y1 : X1} {x2 y2 : X2} {x3 y3 : X3} {x4 y4 : X4} {x5 y5 : X5} {x6 y6 : X6}
    {x7 y7 : X7} {x8 y8 : X8} (h0 : x0 = y0) (h1 : x1 = y1) (h2 : x2 = y2) (h3 : x3 = y3) (h4 : x4 = y4) (h5 : x5 = y5)
    (h6 : x6 = y6) (h7 : x7 = y7) (h8 : x8 = y8)
    (hr1 : ∀ i, (x1 i).toNat < 10000) (hr2 : ∀ i, (x2 i).toNat < 10000)
    (hr1' : ∀ i, (y1 i).toNat < 10000) (hr2' : ∀ i, (y2 i).toNat < 10000) :
    inpOf x0 x1 x2 x3 x4 x5 x6 x7 x8 hr1 hr2 = inpOf y0 y1 y2 y3 y4 y5 y6 y7 y8 hr1' hr2' := by
  subst h0 h1 h2 h3 h4 h5 h6 h7 h8
  rfl

theorem frame_ri : Cert.frame_ReferenceIdeal :=
  fun m ρ _ => (θ_run Cert.ReferenceIdeal.defs _ _).mono (fun _ h c => (h c).2)
    (Cert.ReferenceIdeal.Value.run (F := Ideal) m ρ)

theorem ref_run_at (m' : (ℓ : Loc nD τ sig) → Buf (Elt Ideal) ℓ) (ρ' : Dev nD → PrngReg)
    (x0 : Dev nD → X0) (x1 : Dev nD → X1) (x2 : Dev nD → X2) (x3 : Dev nD → X3) (x4 : Dev nD → X4)
    (x5 : Dev nD → X5) (x6 : Dev nD → X6) (x7 : Dev nD → X7) (x8 : Dev nD → X8)
    (hag : ∀ c : Dev nD, m' ((c.tc : Thread nD τ).loc main_arg0) = x0 c ∧ m' ((c.tc : Thread nD τ).loc main_arg1) = x1 c ∧ m' ((c.tc : Thread nD τ).loc main_arg2) = x2 c
      ∧ m' ((c.tc : Thread nD τ).loc main_arg3) = x3 c ∧ m' ((c.tc : Thread nD τ).loc main_arg4) = x4 c ∧ m' ((c.tc : Thread nD τ).loc main_arg5) = x5 c
      ∧ m' ((c.tc : Thread nD τ).loc main_arg6) = x6 c ∧ m' ((c.tc : Thread nD τ).loc main_arg7) = x7 c ∧ m' ((c.tc : Thread nD τ).loc main_arg8) = x8 c)
    (hpre : ∀ c : Dev nD, Cert.Pre_input_domain.fn (F := Ideal) (x0 c) (x1 c) (x2 c) (x3 c) (x4 c) (x5 c) (x6 c) (x7 c) (x8 c)
      = fun _ => 1#1) :
    θ_run (Cert.ReferenceIdeal.defs (F := Ideal)) (onTc (τ := Cert.ReferenceIdeal.τ) (Cert.ReferenceIdeal.main (F := Ideal)))
      ⟨m', fun _ => 0, ρ'⟩ (fun r => ∀ c : Dev nD,
        r.2.mem ((c.tc : Thread nD τ).loc main_v139)
          = outOf (inpOf (x0 c) (x1 c) (x2 c) (x3 c) (x4 c) (x5 c) (x6 c) (x7 c) (x8 c)
              (pre_range (F := Ideal) (x0 c) (x1 c) (x2 c) (x3 c) (x4 c) (x5 c) (x6 c) (x7 c) (x8 c) (hpre c)).1
              (pre_range (F := Ideal) (x0 c) (x1 c) (x2 c) (x3 c) (x4 c) (x5 c) (x6 c) (x7 c) (x8 c) (hpre c)).2)
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)
        ∧ r.2.mem ((c.tc : Thread nD τ).loc main_arg8) = m' ((c.tc : Thread nD τ).loc main_arg8)) :=
  (θ_run Cert.ReferenceIdeal.defs _ _).mono (fun r h c => by
    refine ⟨?_, (h c).2⟩
    rw [(h c).1, Cert.ReferenceIdeal.Read.val_main_v139_eq]
    obtain ⟨h0, h1, h2, h3, h4, h5, h6, h7, h8⟩ := hag c
    rw [h0, h1, h2, h3, h4, h5, h6, h7, h8]
    exact result_eq (x0 c) (x1 c) (x2 c) (x3 c) (x4 c) (x5 c) (x6 c) (x7 c) (x8 c) _ _
      (pre_fin (x0 c) (x1 c) (x2 c) (x3 c) (x4 c) (x5 c) (x6 c) (x7 c) (x8 c) (hpre c)))
    (Cert.ReferenceIdeal.Value.run (F := Ideal) m' ρ')

theorem ref_run (m' : (ℓ : Loc nD τ sig) → Buf (Elt Ideal) ℓ) (ρ' : Dev nD → PrngReg) (hpre : Cert.Pre_ReferenceIdeal m') :
    θ_run (Cert.ReferenceIdeal.defs (F := Ideal)) (onTc (τ := Cert.ReferenceIdeal.τ) (Cert.ReferenceIdeal.main (F := Ideal)))
      ⟨m', fun _ => 0, ρ'⟩ (fun r => ∀ c : Dev nD,
        r.2.mem ((c.tc : Thread nD τ).loc main_v139)
          = outOf (inpOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
              (pre_range (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (hpre c)).1
              (pre_range (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (hpre c)).2)
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)
        ∧ r.2.mem ((c.tc : Thread nD τ).loc main_arg8) = m' ((c.tc : Thread nD τ).loc main_arg8)) :=
  ref_run_at m' ρ' (fun c => m' ((c.tc : Thread nD τ).loc main_arg0)) (fun c => m' ((c.tc : Thread nD τ).loc main_arg1)) (fun c => m' ((c.tc : Thread nD τ).loc main_arg2))
    (fun c => m' ((c.tc : Thread nD τ).loc main_arg3)) (fun c => m' ((c.tc : Thread nD τ).loc main_arg4)) (fun c => m' ((c.tc : Thread nD τ).loc main_arg5))
    (fun c => m' ((c.tc : Thread nD τ).loc main_arg6)) (fun c => m' ((c.tc : Thread nD τ).loc main_arg7)) (fun c => m' ((c.tc : Thread nD τ).loc main_arg8))
    (fun _ => ⟨rfl, rfl, rfl, rfl, rfl, rfl, rfl, rfl, rfl⟩) hpre

end Cert.Proof.RefClaims

end
-- ==== Proof.RefHalf.lean ====
import proofs.«211345_g12773232738731_cont_fleet_1243_15_alg».proof.Proof.RefClaims

noncomputable section

namespace Cert.Proof.RefClaims

open Cert Cert.ReferenceIdeal.RefValue Cert.InputDomain
open Idealize.ShloMosaic Idealize.ShloMosaic.TcCoe Idealize.SL.Sem

theorem ker_range (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ((m ((c.tc : Thread Cert.KernelIdeal.nD Cert.KernelIdeal.τ).loc Cert.KernelIdeal.main_arg1) : X1) i).toNat < 10000) ∧ (∀ i, ((m ((c.tc : Thread Cert.KernelIdeal.nD Cert.KernelIdeal.τ).loc Cert.KernelIdeal.main_arg2) : X2) i).toNat < 10000) :=
  pre_range (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c)

def kerInp (m : (ℓ : Loc Cert.KernelIdeal.nD Cert.KernelIdeal.τ Cert.KernelIdeal.sig) → Buf (Elt Ideal) ℓ)
    (hpre : Cert.Pre_KernelIdeal m) (c : Dev Cert.KernelIdeal.nD) : Cert.Spec.Inp :=
  inpOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (ker_range m hpre c).1 (ker_range m hpre c).2

theorem ref_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v139) = outOf (kerInp m hpre c)
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  ref_run_at m' g' (fun c => m ((c.tc : Thread Cert.KernelIdeal.nD Cert.KernelIdeal.τ).loc Cert.KernelIdeal.main_arg0)) (fun c => m ((c.tc : Thread Cert.KernelIdeal.nD Cert.KernelIdeal.τ).loc Cert.KernelIdeal.main_arg1)) (fun c => m ((c.tc : Thread Cert.KernelIdeal.nD Cert.KernelIdeal.τ).loc Cert.KernelIdeal.main_arg2)) (fun c => m ((c.tc : Thread Cert.KernelIdeal.nD Cert.KernelIdeal.τ).loc Cert.KernelIdeal.main_arg3)) (fun c => m ((c.tc : Thread Cert.KernelIdeal.nD Cert.KernelIdeal.τ).loc Cert.KernelIdeal.main_arg4)) (fun c => m ((c.tc : Thread Cert.KernelIdeal.nD Cert.KernelIdeal.τ).loc Cert.KernelIdeal.main_arg5)) (fun c => m ((c.tc : Thread Cert.KernelIdeal.nD Cert.KernelIdeal.τ).loc Cert.KernelIdeal.main_arg6)) (fun c => m ((c.tc : Thread Cert.KernelIdeal.nD Cert.KernelIdeal.τ).loc Cert.KernelIdeal.main_arg7)) (fun c => m ((c.tc : Thread Cert.KernelIdeal.nD Cert.KernelIdeal.τ).loc Cert.KernelIdeal.main_arg8))
    hagree hpre

end Cert.Proof.RefClaims

end
-- ==== Proof.HandKernelIdeal.Common.lean ====
import proofs.«211345_g12773232738731_cont_fleet_1243_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«211345_g12773232738731_cont_fleet_1243_15_alg».proof.Proof.Gen.KernelIdeal
import proofs.«211345_g12773232738731_cont_fleet_1243_15_alg».proof.Proof.Gen.KernelIdeal.Skeleton
import proofs.«211345_g12773232738731_cont_fleet_1243_15_alg».proof.Proof.Gen.KernelIdeal.Launch
import proofs.«211345_g12773232738731_cont_fleet_1243_15_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_eq (q : Fin 4) : (K (F := F)).nCore q = 2 := by
  match q with | 0 => rfl | 1 => rfl | 2 => rfl | 3 => rfl
theorem nSub_eq (q : Fin 4) : (K (F := F)).nSub q = 16 := by
  match q with | 0 => rfl | 1 => rfl | 2 => rfl | 3 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

abbrev MM (F : FTy → Type) : Type := MT nD τ sig (HIx 4) (Elt F) ℕ UU ℕ

abbrev EH : Emb UH (MM F) := embL
def EP : Emb UP (MM F) :=
  ((Emb.inl : Emb UP (UP × Counters)).trans (Emb.inr : Emb (UP × Counters) UU)).trans
    (uEmb (nD := nD) (sig := sig) (Ix := HIx 4) (Val := Elt F) (Name := ℕ) (U := UU) (Lvl := ℕ)).toEmb

instance EP_landsIn : (EP : Emb UP (MM F)).LandsIn (upEmb : UEmb _ (MM F)) := by unfold EP; infer_instance

end Cert.KernelIdeal.Hand

end
-- ==== Proof.HandKernelIdeal.Tile0.lean ====
import proofs.«211345_g12773232738731_cont_fleet_1243_15_alg».proof.Proof.HandKernelIdeal.Common
import Idealize.ShloMosaic.Lib.ValueIdx

noncomputable section

namespace Cert.KernelIdeal.Hand.Tile0

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev eiV : Memref sig .scVector .hbm S2x320000 .i32 := Memref.whole main_arg1_scv
abbrev outV : Memref sig .scVector .hbm S32x10000 .f32 := Memref.whole main_v8_scv
abbrev sI : Memref sig .scVector .vmem S2x10112 .i32 := Memref.whole cc0_scratch0
abbrev sA : Memref sig .scVector .vmem S10000 .f32 := Memref.whole cc0_scratch1

abbrev eiLoc (d : Dev nD) : Loc nD τ sig := (SparseCore.T d).loc main_arg1
abbrev degOut (d : Dev nD) : Loc nD τ sig := (SparseCore.T d).loc main_v8

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

abbrev eiSl (L : grid0.Coords) : Memref sig .scVector .hbm S2x10112 .i32 :=
  (eiV).slice (Rect.unit (s := S2x320000) (k0_off1 L) S2x10112.size (k0_off1_inb L)) (fun _ => rfl)

abbrev outSl (L : grid0.Coords) : Memref sig .scVector .hbm S10000 .f32 :=
  ((outV).slice (Rect.unit (s := S32x10000) (k0_off4 L) S1x10000.size (k0_off4_inb L)) (fun _ => rfl)).squeeze S10000 squeezes_S1x10000_S10000

theorem hdiv : 32 ∣ S32x10000.size 0 := ⟨1, rfl⟩
abbrev row (w : Fin 32) : Rect S32x10000 := Rect.part (s := S32x10000) (a₀ := 0) hdiv w
abbrev rowSet (w : Fin 32) : Finset S32x10000.Idx := ((outV).view.slice (row w)).set
def rowSetN (w : ℕ) : Finset S32x10000.Idx := if h : w < 32 then rowSet ⟨w, h⟩ else ∅

section Value

variable (ei : (d : Dev nD) → Buf (Elt F) (eiLoc d))

def scr (d : Dev nD) (L : grid0.Coords) : Vec F S2x10112 .i32 := (eiSl L).view.read (Elt F) (ei d)

def idxv (d : Dev nD) (L : grid0.Coords) (k : Fin k0_t2_loop.trips) : IVec S16 32 :=
  shapeCast S16 ((sI).view.readAt (Elt F) (Rect.unit (s := S2x10112) (k0_off3 L k) S1x16.size (k0_off3_inb L k)).toLoadRect (scr ei d L)) shapeCasts_S1x16_S16

def accStep (acc : Vec F S10000 .f32) (v : IVec S16 32) : Vec F S10000 .f32 :=
  if h : k0_chk1 v then storeIdx acc ![v] (k0_pay2 (F := F)) (fun _ => 1#1) true (k0_idx1_inb v h) else acc

def accAt (d : Dev nD) (L : grid0.Coords) : ℕ → Vec F S10000 .f32
  | 0 => broadcast S10000 (Scalar.ofBits .f32 0x00000000#32 : F .f32)
  | k + 1 => if h : k < k0_t2_loop.trips then accStep (accAt d L k) (idxv ei d L ⟨k, h⟩) else accAt d L k

def coordsW (w : Fin 32) : grid0.Coords :=
  coordsV ⟨w.val % 2, Nat.mod_lt _ (by decide)⟩ ⟨w.val / 2, by have := w.isLt; show w.val / 2 < 16; omega⟩

def accRow (d : Dev nD) (w n : ℕ) : Elt F .f32 :=
  if h : w < 32 ∧ n < 10000 then
    accAt ei d (coordsW ⟨w, h.1⟩) k0_t2_loop.trips (fun a => ⟨n, by rw [Fin.eq_zero a]; exact h.2⟩)
  else (Scalar.ofBits .f32 0x00000000#32 : F .f32)

def val0 (d : Dev nD) : Buf (Elt F) (degOut d) := fun j => accRow ei d (j 0).val (j 1).val

theorem val0_apply (d : Dev nD) (j : S32x10000.Idx) :
    val0 ei d j = accAt ei d (coordsW ⟨(j 0).val, (j 0).isLt⟩) k0_t2_loop.trips (fun a => ⟨(j 1).val, by rw [Fin.eq_zero a]; exact (j 1).isLt⟩) := by
  unfold val0 accRow
  exact dif_pos ⟨(j 0).isLt, (j 1).isLt⟩

end Value

section Pay

variable (ei : (d : Dev nD) → Buf (Elt F) (eiLoc d))

def st0 (d : Dev nD) (c : Fin ((K (F := F)).nCore 0)) : sProp (MM F) :=
  iprop((eiLoc d ↦{Transfers.shareTokN fullShare c.val} ei d)
    ∗ bigSep Finset.univ fun i : Fin ((K (F := F)).nSub 0) => iprop(∃ f, degOut d ↦[rowSetN (2 * i.val + c.val)]{fullShare} f))
def dn0 (d : Dev nD) (c : Fin ((K (F := F)).nCore 0)) : sProp (MM F) :=
  iprop((eiLoc d ↦{Transfers.shareTokN fullShare c.val} ei d)
    ∗ bigSep Finset.univ fun i : Fin ((K (F := F)).nSub 0) => degOut d ↦[rowSetN (2 * i.val + c.val)]{fullShare} val0 ei d)
def go0 (d : Dev nD) (c : Fin ((K (F := F)).nCore 0)) (i : Fin ((K (F := F)).nSub 0)) : sProp (MM F) :=
  iprop((eiLoc d ↦{Transfers.shareTokN (Transfers.shareTokN fullShare c.val) i.val} ei d)
    ∗ ∃ f, degOut d ↦[rowSetN (2 * i.val + c.val)]{fullShare} f)
def td0 (d : Dev nD) (c : Fin ((K (F := F)).nCore 0)) (i : Fin ((K (F := F)).nSub 0)) : sProp (MM F) :=
  iprop((eiLoc d ↦{Transfers.shareTokN (Transfers.shareTokN fullShare c.val) i.val} ei d)
    ∗ degOut d ↦[rowSetN (2 * i.val + c.val)]{fullShare} val0 ei d)

instance st0_storable (d : Dev nD) (c : Fin ((K (F := F)).nCore 0)) : BI.Storable (upEmb : UEmb _ (MM F)) (st0 ei d c) := by
  unfold st0; infer_instance
instance dn0_storable (d : Dev nD) (c : Fin ((K (F := F)).nCore 0)) : BI.Storable (upEmb : UEmb _ (MM F)) (dn0 ei d c) := by
  unfold dn0; infer_instance
instance go0_storable (d : Dev nD) (c : Fin ((K (F := F)).nCore 0)) (i : Fin ((K (F := F)).nSub 0)) : BI.Storable (upEmb : UEmb _ (MM F)) (go0 ei d c i) := by
  unfold go0; infer_instance
instance td0_storable (d : Dev nD) (c : Fin ((K (F := F)).nCore 0)) (i : Fin ((K (F := F)).nSub 0)) : BI.Storable (upEmb : UEmb _ (MM F)) (td0 ei d c i) := by
  unfold td0; infer_instance

end Pay

section Tile

variable (ei : (d : Dev nD) → Buf (Elt F) (eiLoc d))
variable (d : Dev nD) (L : grid0.Coords)

abbrev thr (d : Dev nD) (L : grid0.Coords) : Thread nD τ := V d (cV L) (jV L)

abbrev cell0 (d : Dev nD) (L : grid0.Coords) : GSem nD τ sig := (thr d L, .dma cc0_scoped0.sem)
abbrev cell1 (d : Dev nD) (L : grid0.Coords) : GSem nD τ sig := (thr d L, .dma cc0_scoped1.sem)

omit [FloatOps F] in
theorem ownSems0_V :
    (ownSems0 (thr d L) : sProp (MM F))
      = iprop(semVal (cell0 d L) 0 ∗ semVal (cell1 d L) 0
          ∗ bigSep (((ownCells (thr d L)).erase (cell0 d L)).erase (cell1 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩)]

omit [FloatOps F] in
theorem ownBufs_V :
    (ownBufs (thr d L) : sProp (MM F))
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

abbrev wL (L : grid0.Coords) : ℕ := 2 * (L 1).val + (L 0).val
omit [FloatOps F] in
theorem wL_lt : wL L < 32 := by
  have h0 : (L 0).val < 2 := (L 0).isLt
  have h1 : (L 1).val < 16 := (L 1).isLt
  unfold wL; omega
abbrev wF (L : grid0.Coords) : Fin 32 := ⟨wL L, wL_lt L⟩
abbrev rowK (L : grid0.Coords) : Rect S32x10000 := Rect.unit (s := S32x10000) (k0_off4 L) S1x10000.size (k0_off4_inb L)

omit [FloatOps F] in
theorem rowK_eq : rowK L = row (wF L) := by
  unfold rowK row Rect.part Rect.block
  congr 1 <;> funext a
  · rw [k0_off4_eq]
    match a with
    | 0 => simp [Shape.partIx, Shape.partSize]
    | 1 => simp [Shape.partIx, Shape.partSize]
  · match a with
    | 0 => simp [Shape.partSize]
    | 1 => simp [Shape.partSize]

omit [FloatOps F] in
theorem set_outSl : (outSl L).view.set = rowSet (wF L) := by
  show (((outV).view.slice (rowK L)).reshape S10000 squeezes_S1x10000_S10000.numel_eq).set = ((outV).view.slice (row (wF L))).set
  rw [View.set_reshape]
  exact rowK_eq L ▸ rfl

omit [FloatOps F] in
theorem pts_outSl (f : Buf (Elt F) (degOut d)) :
    ((outSl L).view.loc (thr d L) ↦[(outSl L).view.set]{fullShare} f : sProp (MM F)) = degOut d ↦[rowSet (wF L)]{fullShare} f := by
  rw [set_outSl]
omit [FloatOps F] in
theorem pts_ei (q : PosShare TreeShare) (f : Buf (Elt F) (eiLoc d)) :
    ((eiV).view.loc (thr d L) ↦{q} f : sProp (MM F)) = eiLoc d ↦{q} f := by
  simp only [Memref.view_whole, View.set_whole]
omit [FloatOps F] in
theorem pts_sI (f : Buf (Elt F) ((thr d L).loc cc0_scratch0)) :
    ((sI).view.loc (thr d L) ↦[(sI).view.set]{fullShare} f : sProp (MM F)) = (thr d L).loc cc0_scratch0 ↦{fullShare} f := by
  simp only [Memref.view_whole, View.set_whole]
omit [FloatOps F] in
theorem pts_sA (f : Buf (Elt F) ((thr d L).loc cc0_scratch1)) :
    ((sA).view.loc (thr d L) ↦[(sA).view.set]{fullShare} f : sProp (MM F)) = (thr d L).loc cc0_scratch1 ↦{fullShare} f := by
  simp only [Memref.view_whole, View.set_whole]

section Loops

variable (ei : (d : Dev nD) → Buf (Elt F) (eiLoc d))
variable (d : Dev nD) (L : grid0.Coords)

omit [FloatOps F] in
theorem trips1 : k0_t1_loop.trips = 625 := by decide
omit [FloatOps F] in
theorem trips2 : k0_t2_loop.trips = 625 := by decide

abbrev zRect (k : Fin k0_t1_loop.trips) : Rect S10000 := Rect.unit (s := S10000) (k0_off2 k) S16.size (k0_off2_inb k)

def zf (f₀ : Vec F S10000 .f32) : ℕ → Vec F S10000 .f32
  | 0 => f₀
  | k + 1 => if h : k < k0_t1_loop.trips then (sA).view.writes (Elt F) (zf f₀ k) [⟨zRect ⟨k, h⟩, k0_pay1 (F := F)⟩] else zf f₀ k

theorem zf_succ (f₀ : Vec F S10000 .f32) (k : Fin k0_t1_loop.trips) :
    zf f₀ (k.val + 1) = (sA).view.writes (Elt F) (zf f₀ k.val) [⟨zRect k, k0_pay1 (F := F)⟩] := by
  rw [zf]; exact dif_pos k.isLt

theorem zf_lt (f₀ : Vec F S10000 .f32) : ∀ k, k ≤ k0_t1_loop.trips → ∀ j : S10000.Idx, (j 0).val < 16 * k →
    zf f₀ k j = (Scalar.ofBits .f32 0x00000000#32 : F .f32)
  | 0, _, j, hj => absurd hj (by omega)
  | k + 1, hk, j, hj => by
    have h : k < k0_t1_loop.trips := hk
    rw [zf_succ f₀ ⟨k, h⟩]
    by_cases hm : j ∈ (zRect ⟨k, h⟩).set
    · obtain ⟨x, rfl⟩ := (zRect ⟨k, h⟩).exists_idx_of_mem hm
      exact View.read_writes_cons_emb (sA).view (zf f₀ k) (zRect ⟨k, h⟩) (k0_pay1 (F := F)) [] x
    · have hn : ∀ p ∈ [(⟨zRect ⟨k, h⟩, k0_pay1 (F := F)⟩ : View.Piece (Elt F) S10000 .f32)], j ∉ p.1.set := by
        intro p hp; rw [List.mem_singleton] at hp; subst hp; exact hm
      refine (View.read_writes_apply_of_forall_not_mem (sA).view (zf f₀ k) j _ hn).trans ?_
      refine zf_lt f₀ k (Nat.le_of_lt h) j ?_
      by_contra hge
      apply hm
      rw [Rect.mem_set_unit]
      intro a
      obtain rfl : a = 0 := Subsingleton.elim _ _
      rw [k0_off2_eq]
      show 16 * k ≤ (j 0).val ∧ (j 0).val < 16 * k + 16
      omega

theorem zf_final (f₀ : Vec F S10000 .f32) : zf f₀ k0_t1_loop.trips = broadcast S10000 (Scalar.ofBits .f32 0x00000000#32 : F .f32) := by
  funext j
  refine zf_lt f₀ _ le_rfl j ?_
  have hj : (j 0).val < 10000 := (j 0).isLt
  rw [trips1]; omega

theorem accAt_succ (k : Fin k0_t2_loop.trips) : accAt ei d L (k.val + 1) = accStep (accAt ei d L k.val) (idxv ei d L k) := by
  rw [accAt]; exact dif_pos k.isLt

theorem scr_lands (X : Vec F S2x10112 .i32) : (sI).view.writes (Elt F) (sI).view.junk [⟨Rect.whole S2x10112, X⟩] = X := by
  rw [View.writes_singleton]; exact Memref.write_access_whole_univ (Elt F) cc0_scratch0 _ X

theorem sA_read (f : Vec F S10000 .f32) : ((sA).access (Rect.whole S10000)).read (Elt F) f = f :=
  Memref.read_access_whole (Elt F) cc0_scratch1 f
theorem sA_write (f w : Vec F S10000 .f32) : ((sA).access (Rect.whole S10000)).write (Elt F) f w Finset.univ = w :=
  Memref.write_access_whole_univ (Elt F) cc0_scratch1 f w

omit [FloatOps F] in
theorem pts_sA_access (f : Buf (Elt F) ((thr d L).loc cc0_scratch1)) :
    (((sA).access (Rect.whole S10000)).loc (thr d L) ↦[((sA).access (Rect.whole S10000)).set]{fullShare} f : sProp (MM F))
      = (sA).view.loc (thr d L) ↦[(sA).view.set]{fullShare} f :=
  congrArg (fun S : Finset S10000.Idx => ((sA).view.loc (thr d L) ↦[S]{fullShare} f : sProp (MM F)))
    ((Memref.set_access_whole cc0_scratch1).trans (View.set_whole cc0_scratch1).symm)

theorem chk_idxv (hrange : ∀ (d : Dev nD) j, (ei d j).toNat < 10000) (k : Fin k0_t2_loop.trips) : k0_chk1 (idxv ei d L k) := by
  intro a x
  obtain rfl : a = 0 := Subsingleton.elim _ _
  exact hrange d _

def inv1 (f₀ : Vec F S10000 .f32) (k : ℕ) (_ : PUnit) : sProp (MM F) :=
  (sA).view.loc (thr d L) ↦[(sA).view.set]{fullShare} zf f₀ k

def inv2 (k : ℕ) (_ : PUnit) : sProp (MM F) :=
  iprop(((sI).view.loc (thr d L) ↦[(sI).view.set]{fullShare} scr ei d L)
    ∗ (sA).view.loc (thr d L) ↦[(sA).view.set]{fullShare} accAt ei d L k)

omit [FloatOps F] in
theorem outSl_emb (y : S10000.Idx) :
    ((outSl L).view.emb y 0).val = wL L ∧ ((outSl L).view.emb y 1).val = (y 0).val := by
  have hz := Shape.rowMajor_reshapeEquiv squeezes_S1x10000_S10000.numel_eq y
  rw [Shape.rowMajor_val_two, Shape.rowMajor_val_one] at hz
  have hz' : ((Shape.reshapeEquiv squeezes_S1x10000_S10000.numel_eq y) 0).val * 10000
      + ((Shape.reshapeEquiv squeezes_S1x10000_S10000.numel_eq y) 1).val = (y 0).val := hz
  have h0 : ((Shape.reshapeEquiv squeezes_S1x10000_S10000.numel_eq y) 0).val < 1 := ((Shape.reshapeEquiv squeezes_S1x10000_S10000.numel_eq y) 0).isLt
  have e0 : ((outSl L).view.emb y 0).val = k0_off4 L 0 + 1 * ((Shape.reshapeEquiv squeezes_S1x10000_S10000.numel_eq y) 0).val := rfl
  have e1 : ((outSl L).view.emb y 1).val = k0_off4 L 1 + 1 * ((Shape.reshapeEquiv squeezes_S1x10000_S10000.numel_eq y) 1).val := rfl
  rw [k0_off4_eq] at e0 e1
  have e0' : ((outSl L).view.emb y 0).val = (2 * (L 1).val + (L 0).val) + 1 * ((Shape.reshapeEquiv squeezes_S1x10000_S10000.numel_eq y) 0).val := e0
  have e1' : ((outSl L).view.emb y 1).val = 0 + 1 * ((Shape.reshapeEquiv squeezes_S1x10000_S10000.numel_eq y) 1).val := e1
  constructor
  · rw [e0']; unfold wL; omega
  · rw [e1']; omega

omit [FloatOps F] in
theorem coordsW_wF : coordsW (wF L) = L := by
  have h0 : (L 0).val < 2 := (L 0).isLt
  have h1 : (L 1).val < 16 := (L 1).isLt
  funext a
  match a with
  | 0 => exact Fin.ext (show (2 * (L 1).val + (L 0).val) % 2 = (L 0).val by omega)
  | 1 => exact Fin.ext (show (2 * (L 1).val + (L 0).val) / 2 = (L 1).val by omega)

theorem out_lands (fo : Buf (Elt F) (degOut d)) (X : Vec F S10000 .f32) (y : S10000.Idx) :
    (outSl L).view.writes (Elt F) fo [⟨Rect.whole S10000, X⟩] ((outSl L).view.emb y) = X y := by
  have h := View.read_writes_cons_emb (outSl L).view fo (Rect.whole S10000) X [] y
  rw [Rect.emb_whole_apply] at h
  exact ((View.read_apply _ _).trans (cast_eq _ _)).symm.trans h

theorem val0_row (y : S10000.Idx) : val0 ei d ((outSl L).view.emb y) = accAt ei d L k0_t2_loop.trips y := by
  obtain ⟨h0, h1⟩ := outSl_emb L y
  rw [val0_apply, show (⟨((outSl L).view.emb y 0).val, ((outSl L).view.emb y 0).isLt⟩ : Fin 32) = wF L from Fin.ext h0, coordsW_wF]
  congr 1
  funext a
  obtain rfl : a = 0 := Subsingleton.elim _ _
  exact Fin.ext h1

theorem out_val (fo : Buf (Elt F) (degOut d)) :
    ∀ i ∈ rowSet (wF L), (outSl L).view.writes (Elt F) fo [⟨Rect.whole S10000, accAt ei d L k0_t2_loop.trips⟩] i = val0 ei d i := by
  intro i hi
  rw [← set_outSl] at hi
  obtain ⟨y, -, rfl⟩ := Finset.mem_map.mp hi
  rw [val0_row]
  exact out_lands d L fo _ y

omit [FloatOps F] in
theorem k0_off1_eq' : ∀ i : grid0.Coords,
    k0_off1 i = ![0, (20000 * (i 1).val + 10000 * (i 0).val) - (20000 * (i 1).val + 10000 * (i 0).val) % 128] := by decide +kernel

theorem idxv_apply (k : Fin k0_t2_loop.trips) (x : S16.Idx) :
    ∃ j : S2x320000.Idx, (j 0).val = 1 ∧ (j 1).val = 10000 * wL L + 16 * k.val + (x 0).val ∧ idxv ei d L k x = ei d j := by
  have hz := Shape.rowMajor_reshapeEquiv shapeCasts_S1x16_S16 x
  rw [Shape.rowMajor_val_two, Shape.rowMajor_val_one] at hz
  have hz' : ((Shape.reshapeEquiv shapeCasts_S1x16_S16 x) 0).val * 16 + ((Shape.reshapeEquiv shapeCasts_S1x16_S16 x) 1).val = (x 0).val := hz
  have hz0 : ((Shape.reshapeEquiv shapeCasts_S1x16_S16 x) 0).val < 1 := ((Shape.reshapeEquiv shapeCasts_S1x16_S16 x) 0).isLt
  have h0 : (L 0).val < 2 := (L 0).isLt
  have h1 : (L 1).val < 16 := (L 1).isLt
  have hk : k.val < 625 := trips2 ▸ k.isLt
  refine ⟨(eiSl L).view.emb ((Rect.unit (s := S2x10112) (k0_off3 L k) S1x16.size (k0_off3_inb L k)).emb (Shape.reshapeEquiv shapeCasts_S1x16_S16 x)), ?_, ?_, rfl⟩
  · show k0_off1 L 0 + 1 * (k0_off3 L k 0 + 1 * ((Shape.reshapeEquiv shapeCasts_S1x16_S16 x) 0).val) = 1
    rw [k0_off1_eq', k0_off3_eq]
    show 0 + 1 * (1 + 1 * ((Shape.reshapeEquiv shapeCasts_S1x16_S16 x) 0).val) = 1
    omega
  · show k0_off1 L 1 + 1 * (k0_off3 L k 1 + 1 * ((Shape.reshapeEquiv shapeCasts_S1x16_S16 x) 1).val) = _
    rw [k0_off1_eq', k0_off3_eq]
    show ((20000 * (L 1).val + 10000 * (L 0).val) - (20000 * (L 1).val + 10000 * (L 0).val) % 128)
        + 1 * (((20000 * (L 1).val + 10000 * (L 0).val) % 128 + 16 * k.val) + 1 * ((Shape.reshapeEquiv shapeCasts_S1x16_S16 x) 1).val)
      = 10000 * (2 * (L 1).val + (L 0).val) + 16 * k.val + (x 0).val
    omega

theorem accAt_zero : accAt ei d L 0 = broadcast S10000 (Scalar.ofBits .f32 0x00000000#32 : F .f32) := rfl

omit [FloatOps F] in
theorem wL_coordsW (w : Fin 32) : wL (coordsW w) = w.val := by
  show 2 * (w.val / 2) + w.val % 2 = w.val
  omega

theorem idxv_ix (w : Fin 32) (k : Fin 625) (l : Fin 16) :
    idxv ei d (coordsW w) (Fin.cast trips2.symm k) (ValueIdx.ix1 l)
      = ei d (ValueIdx.ix2 (1 : Fin 2) (⟨10000 * w.val + 16 * k.val + l.val, by have := w.isLt; have := k.isLt; have := l.isLt; omega⟩ : Fin 320000)) := by
  obtain ⟨j, h0, h1, e⟩ := idxv_apply ei d (coordsW w) (Fin.cast trips2.symm k) (ValueIdx.ix1 l)
  rw [e, ValueIdx.eq_ix2 j]
  rw [wL_coordsW] at h1
  congr 2
  · exact Fin.ext h0
  · exact Fin.ext h1

theorem val0_ix (w : Fin 32) (i : Fin 10000) :
    val0 ei d (ValueIdx.ix2 w i) = accAt ei d (coordsW w) k0_t2_loop.trips (ValueIdx.ix1 i) := by
  rw [val0_apply]
  exact congrArg (accAt ei d (coordsW w) k0_t2_loop.trips) (funext fun a => match a with | ⟨0, _⟩ => rfl)

end Loops

omit [FloatOps F] in
theorem rowSetN_wL (L : grid0.Coords) : rowSetN (wL L) = rowSet (wF L) := dif_pos (wL_lt L)

theorem tile_body (hrange : ∀ (d : Dev nD) j, (ei d j).toNat < 10000) (q : PosShare TreeShare)
    (O : CellTallies nD τ sig (HIx 4)) (W : Waits sig (HIx 4)) (hO : ∀ g, O g none = 0) :
    (iprop(levAts (K (F := F)).L (K (F := F)).lev
        ∗ ((eiLoc d ↦{q} ei d) ∗ ∃ f, degOut d ↦[rowSetN (wL L)]{fullShare} f)
        ∗ scopedBufs (thr d L) ∗ scopedSems0 (thr d L) ∗ owes (thr d L) O W) : sProp (MM F))
      ⊢ wp frame (wpE (defs₀ (F := F)) 𝒱₀ (thr d L) none) Set.univ
          (cc0__sc_degree L eiV (Memref.isWhole_whole _) outV (Memref.isWhole_whole _)
            sI (Memref.isWhole_whole _) sA (Memref.isWhole_whole _) cc0_scoped0 cc0_scoped1)
          fun _ => iprop(((eiLoc d ↦{q} ei d) ∗ degOut d ↦[rowSetN (wL L)]{fullShare} val0 ei d)
            ∗ scopedBufs (thr d L) ∗ scopedSems0 (thr d L)
            ∗ ∃ W', ⌜∀ p ∈ W', p ∈ W ∨ p.2 = none⌝ ∗ owes (thr d L) O W') := by
  rw [rowSetN_wL]
  simp only [cc0__sc_degree_eq_skeleton]; unfold cc0__sc_degree_skel
  rw [(K (F := F)).scopedBufs_V facts d (cV L) (jV L), SparseCore.Cfg.scopedSems0_V (Val := Elt F) d (cV L) (jV L), ownSems0_V, ownBufs_V]
  iintro ⟨#Hlv, ⟨Hei, %fo, Ho⟩, ⟨⟨%fs, Hs⟩, ⟨%fa, Ha⟩, Hbufs⟩, ⟨Hsem0, Hsem1, Hsems⟩, HO⟩
  ihave Hmw := ((K (F := F)).mayWaits_none (thr := thr d L) hO) $$ Hlv
  ihave Hei' := (Entails.of_eq (pts_ei (F := F) d L q _).symm) $$ Hei
  ihave Ho' := (Entails.of_eq (pts_outSl (F := F) d L _).symm) $$ Ho
  ihave Hs' := (Entails.of_eq (pts_sI (F := F) d L _).symm) $$ Hs
  ihave Ha' := (Entails.of_eq (pts_sA (F := F) d L _).symm) $$ Ha
  sl_exec
  rw [show tile_body.sl.dma0 ei d L = scr ei d L from rfl, scr_lands]
  sl_for (inv1 d L fa) $$ [Ha']
  case region =>
    intro k _
    unfold inv1
    iintro Ha
    sl_exec
    rw [zf_succ]
    sl_step
    iexact Ha
  · unfold inv1; iexact Ha'
  iintro %_ HI
  unfold inv1
  rw [zf_final]
  sl_for (inv2 ei d L) $$ [Hs' HI]
  case region =>
    intro k _
    unfold inv2
    iintro ⟨Hs, Ha⟩
    sl_exec
    rw [show tile_body.sl.v13 ei d L k = idxv ei d L k from rfl]
    have hchk : k0_chk1 (idxv ei d L k) := chk_idxv ei d L hrange k
    rw [wp_assume_of _ _ _ _ hchk]
    ihave Ha' := (Entails.of_eq (pts_sA_access (F := F) d L _).symm) $$ Ha
    iapply (SparseCore.wp_vectorStoreIdx 𝒱₀ (thr d L) none Set.univ (base := sA)) $$ Ha'
    iintro Ha'
    rw [sA_read, sA_write]
    ihave Ha := (Entails.of_eq (pts_sA_access (F := F) d L _)) $$ Ha'
    rw [accAt_succ, accStep, dif_pos hchk]
    sl_step
    isplitl [Hs]; · iexact Hs
    iexact Ha
  · unfold inv2; isplitl [Hs']; · iexact Hs'
    iexact HI
  iintro %_ HI
  unfold inv2
  icases HI with ⟨Hs, Ha⟩
  sl_exec
  rw [show tile_body.sl.dma0_1 ei d L = accAt ei d L k0_t2_loop.trips from rfl]
  sl_step
  ihave Ho := (Entails.of_eq ((pts_outSl (F := F) d L _).trans (pointsTo_congr (out_val ei d L fo)))) $$ Ho'
  isplitl [Hei' Ho]
  · isplitl [Hei']; · iapply (Entails.of_eq (pts_ei (F := F) d L q _)); iexact Hei'
    iexact Ho
  isplitl [Hs Ha Hbufs]
  · isplitl [Hs]; · iexists _; iapply (Entails.of_eq (pts_sI (F := F) d L _)); iexact Hs
    isplitl [Ha]; · iexists _; iapply (Entails.of_eq (pts_sA (F := F) d L _)); iexact Ha
    iexact Hbufs
  isplitl [Hsem0 Hsem1 Hsems]
  · isplitl [Hsem0]; · iexact Hsem0
    isplitl [Hsem1]; · iexact Hsem1
    iexact Hsems
  iexists (insert (SemLoc.dma cc0_scoped1.sem, (default : HIx 4)) (insert (SemLoc.dma cc0_scoped0.sem, (default : HIx 4)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Tile

section Obl

theorem defs₀_vector (c : Fin τ.nSC) (s : Fin τ.nSub) :
    defs₀ (F := F) (.scVector c s) 0 ()
      = SparseCore.onTile hcore0 hsub0 (fun c s => cc0__sc_degree (coordsV c s)
          eiV (Memref.isWhole_whole _) outV (Memref.isWhole_whole _) sI (Memref.isWhole_whole _) sA (Memref.isWhole_whole _)
          cc0_scoped0 cc0_scoped1) ⟨⟩ c s := rfl

omit [FloatOps F] in
theorem obl_post {thr : Thread nD τ} {A B C : sProp (MM F)} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem rowSet_eq (w : Fin 32) : rowSet w = (row w).set := by
  show ((View.whole (main_v8_scv : Ref sig .scVector)).slice (row w)).set = _
  rw [View.set_slice]; exact Finset.map_refl

omit [FloatOps F] in
theorem rowSetN_of_lt {w : ℕ} (h : w < 32) : rowSetN w = (row ⟨w, h⟩).set := by
  unfold rowSetN; rw [dif_pos h, rowSet_eq]

omit [FloatOps F] in
theorem rows_disjoint : ∀ p ∈ (Finset.univ : Finset (Fin 2 × Fin 16)), ∀ p' ∈ (Finset.univ : Finset (Fin 2 × Fin 16)), p ≠ p' →
    Disjoint (rowSetN (2 * p.2.val + p.1.val)) (rowSetN (2 * p'.2.val + p'.1.val)) := by
  intro p _ p' _ hne
  have h1 := p.1.isLt; have h2 := p.2.isLt; have h1' := p'.1.isLt; have h2' := p'.2.isLt
  rw [rowSetN_of_lt (w := 2 * p.2.val + p.1.val) (by omega), rowSetN_of_lt (w := 2 * p'.2.val + p'.1.val) (by omega)]
  refine Rect.part_disjoint hdiv fun e => hne ?_
  have e' : 2 * p.2.val + p.1.val = 2 * p'.2.val + p'.1.val := congrArg Fin.val e
  exact Prod.ext (Fin.ext (by omega)) (Fin.ext (by omega))

omit [FloatOps F] in
theorem rows_cover : (Finset.univ : Finset (Fin 2 × Fin 16)).biUnion (fun p => rowSetN (2 * p.2.val + p.1.val)) = Finset.univ := by
  ext j
  simp only [Finset.mem_biUnion, Finset.mem_univ, true_and, iff_true]
  obtain ⟨w, hw⟩ := Rect.exists_mem_part hdiv j
  have hlt := w.isLt
  refine ⟨(⟨w.val % 2, by omega⟩, ⟨w.val / 2, by omega⟩), ?_⟩
  show j ∈ rowSetN (2 * (w.val / 2) + w.val % 2)
  rw [show 2 * (w.val / 2) + w.val % 2 = w.val by omega, rowSetN_of_lt hlt]
  exact hw

omit [FloatOps F] in
theorem out_rows (d : Dev nD) (f : Buf (Elt F) (degOut d)) :
    (degOut d ↦{fullShare} f : sProp (MM F))
      = bigSep Finset.univ fun c : Fin 2 => bigSep Finset.univ fun i : Fin 16 => degOut d ↦[rowSetN (2 * i.val + c.val)]{fullShare} f := by
  rw [← bigSep_univ_prod (fun p : Fin 2 × Fin 16 => (degOut d ↦[rowSetN (2 * p.2.val + p.1.val)]{fullShare} f : sProp (MM F))),
    ← pointsTo_biUnion Finset.univ (ℓ := degOut d) (fun p : Fin 2 × Fin 16 => rowSetN (2 * p.2.val + p.1.val)) rows_disjoint, rows_cover]

omit [FloatOps F] in
theorem row_ex (d : Dev nD) (f : Buf (Elt F) (degOut d)) (S : Finset S32x10000.Idx) :
    (degOut d ↦[S]{fullShare} f : sProp (MM F)) ⊢ iprop(∃ f, degOut d ↦[S]{fullShare} f) := by
  iintro H; iexists f; iexact H

omit [FloatOps F] in
theorem rows_ex (d : Dev nD) (f : Buf (Elt F) (degOut d)) :
    (bigSep Finset.univ fun c : Fin 2 => bigSep Finset.univ fun i : Fin 16 => (degOut d ↦[rowSetN (2 * i.val + c.val)]{fullShare} f : sProp (MM F)))
      ⊢ bigSep Finset.univ fun c : Fin 2 => bigSep Finset.univ fun i : Fin 16 => iprop(∃ f, degOut d ↦[rowSetN (2 * i.val + c.val)]{fullShare} f) :=
  bigSep_mono fun c _ => bigSep_mono fun i _ => row_ex d f _

end Obl

section Interface

variable (ei : (d : Dev nD) → Buf (Elt F) (eiLoc d)) (hrange : ∀ (d : Dev nD) j, (ei d j).toNat < 10000)

include hrange in
theorem tile0 (d : Dev nD) (c : Fin ((K (F := F)).nCore 0)) (i : Fin ((K (F := F)).nSub 0))
    (O : CellTallies nD τ sig (HIx 4)) (W : Waits sig (HIx 4)) (hO : ∀ g, O g none = 0) :
    iprop(levAts (K (F := F)).L (K (F := F)).lev ∗ go0 ei d c i ∗ scopedBufs (V d ((K (F := F)).core 0 c) ((K (F := F)).sub 0 i))
        ∗ scopedSems0 (V d ((K (F := F)).core 0 c) ((K (F := F)).sub 0 i)) ∗ owes (V d ((K (F := F)).core 0 c) ((K (F := F)).sub 0 i)) O W)
      ⊢ wp frame (wpE (D (F := F)) 𝒱 (V d ((K (F := F)).core 0 c) ((K (F := F)).sub 0 i)) (some v₀)) Set.univ
          (D (F := F) (.scVector ((K (F := F)).core 0 c) ((K (F := F)).sub 0 i)) ((K (F := F)).body 0) ((K (F := F)).args 0)) fun _ =>
            iprop(td0 ei d c i ∗ scopedBufs (V d ((K (F := F)).core 0 c) ((K (F := F)).sub 0 i)) ∗ scopedSems0 (V d ((K (F := F)).core 0 c) ((K (F := F)).sub 0 i))
              ∗ ∃ W', ⌜∀ p ∈ W', p ∈ W ∨ p.2 = none ∨ p.2 = some (0 : Fin 4)⌝ ∗ owes (V d ((K (F := F)).core 0 c) ((K (F := F)).sub 0 i)) O W') := by
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body ei d (coordsV ⟨_, hc.1⟩ ⟨_, hc.2⟩) hrange _ O W hO).trans (wp_mono frame _ _ fun _ => obl_post)

theorem split0 (d : Dev nD) (c : Fin ((K (F := F)).nCore 0)) :
    st0 ei d c ⊢ |={Set.univ}=> iprop((bigSep Finset.univ fun i : Fin ((K (F := F)).nSub 0) => go0 ei d c i)
      ∗ ((bigSep Finset.univ fun i : Fin ((K (F := F)).nSub 0) => td0 ei d c i) -∗ dn0 ei d c)) := by
  unfold st0 go0 td0 dn0
  rw [bigSep_sep', bigSep_sep']
  iintro ⟨Hei, Hrows⟩
  ihave H := (Transfers.pointsTo_toks_split (Transfers.shareTokN fullShare c.val) 16) $$ Hei
  icases H with ⟨Hrem, Htoks⟩
  imodintro
  isplitl [Htoks Hrows]
  · isplitl [Htoks]; · iexact Htoks
    iexact Hrows
  iintro ⟨Htoks, Hrows⟩
  isplitl [Hrem Htoks]
  · iapply (Transfers.pointsTo_toks_join (Transfers.shareTokN fullShare c.val) 16)
    isplitl [Hrem]; · iexact Hrem
    iexact Htoks
  iexact Hrows

theorem call0 (d : Dev nD) :
    iprop((eiLoc d ↦{fullShare} ei d) ∗ ∃ f, degOut d ↦{fullShare} f)
      ⊢ |={Set.univ}=> iprop((bigSep Finset.univ fun c : Fin ((K (F := F)).nCore 0) => st0 ei d c)
        ∗ ((bigSep Finset.univ fun c : Fin ((K (F := F)).nCore 0) => dn0 ei d c) -∗ iprop((eiLoc d ↦{fullShare} ei d) ∗ degOut d ↦{fullShare} val0 ei d))) := by
  unfold st0 dn0
  rw [bigSep_sep', bigSep_sep']
  iintro ⟨Hei, %f, Ho⟩
  ihave H := (Transfers.pointsTo_toks_split fullShare 2) $$ Hei
  icases H with ⟨Hrem, Htoks⟩
  ihave Ho' := ((Entails.of_eq (out_rows (F := F) d f)).trans (rows_ex d f)) $$ Ho
  imodintro
  isplitl [Htoks Ho']
  · isplitl [Htoks]; · iexact Htoks
    iexact Ho'
  iintro ⟨Htoks, Hrows⟩
  isplitl [Hrem Htoks]
  · iapply (Transfers.pointsTo_toks_join fullShare 2)
    isplitl [Hrem]; · iexact Hrem
    iexact Htoks
  iapply (Entails.of_eq (out_rows (F := F) d (val0 ei d)).symm)
  iexact Hrows

end Interface

end Cert.KernelIdeal.Hand.Tile0

end
-- ==== Proof.HandKernelIdeal.Tile1.lean ====
import proofs.«211345_g12773232738731_cont_fleet_1243_15_alg».proof.Proof.HandKernelIdeal.Common

set_option backward.isDefEq.respectTransparency.types false

noncomputable section

namespace Cert.KernelIdeal.Hand.Tile1

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev qI : Fin 4 := 1

local notation "vW" => (Memref.whole Cert.KernelIdeal.main_v12_scv : Memref Cert.KernelIdeal.sig Kind.scVector Space.hbm Cert.KernelIdeal.S10000 EltTy.f32)
local notation "eW" => (Memref.whole Cert.KernelIdeal.main_arg1_scv : Memref Cert.KernelIdeal.sig Kind.scVector Space.hbm Cert.KernelIdeal.S2x320000 EltTy.i32)
local notation "oW" => (Memref.whole Cert.KernelIdeal.main_v13_scv : Memref Cert.KernelIdeal.sig Kind.scVector Space.hbm Cert.KernelIdeal.S32x10000 EltTy.f32)
local notation "s0W" => (Memref.whole Cert.KernelIdeal.cc3_scratch0 : Memref Cert.KernelIdeal.sig Kind.scVector Space.vmem Cert.KernelIdeal.S10000 EltTy.f32)
local notation "s1W" => (Memref.whole Cert.KernelIdeal.cc3_scratch1 : Memref Cert.KernelIdeal.sig Kind.scVector Space.vmem Cert.KernelIdeal.S2x10112 EltTy.i32)
local notation "s2W" => (Memref.whole Cert.KernelIdeal.cc3_scratch2 : Memref Cert.KernelIdeal.sig Kind.scVector Space.vmem Cert.KernelIdeal.S10000 EltTy.f32)

abbrev valLoc (d : Dev nD) : Loc nD τ sig := (SparseCore.T d).loc main_v12
abbrev eiLoc (d : Dev nD) : Loc nD τ sig := (SparseCore.T d).loc main_arg1
abbrev sctOut (d : Dev nD) : Loc nD τ sig := (SparseCore.T d).loc main_v13

def coordsV (c : Fin (grid3.bound 0)) (s : Fin (grid3.bound 1)) : grid3.Coords :=
  fun | 0 => c | 1 => s | ⟨_ + 2, h⟩ => absurd h (Nat.not_lt.2 (Nat.le_add_left _ _))

abbrev LL (c : Fin ((K (F := F)).nCore qI)) (i : Fin ((K (F := F)).nSub qI)) : grid3.Coords :=
  coordsV ⟨((K (F := F)).core qI c).val, c.isLt⟩ ⟨((K (F := F)).sub qI i).val, i.isLt⟩

abbrev eiWin (L : grid3.Coords) : Memref sig .scVector .hbm S2x10112 .i32 :=
  (eW).slice (Rect.unit (s := S2x320000) (k3_off1 L) S2x10112.size (k3_off1_inb L)) (fun _ => rfl)
abbrev outRow (L : grid3.Coords) : Memref sig .scVector .hbm S10000 .f32 :=
  ((oW).slice (Rect.unit (s := S32x10000) (k3_off5 L) S1x10000.size (k3_off5_inb L)) (fun _ => rfl)).squeeze S10000 squeezes_S1x10000_S10000
abbrev rowSet (L : grid3.Coords) : Finset S32x10000.Idx := (outRow L).view.set

section Value

variable (vals : (d : Dev nD) → Buf (Elt F) (valLoc d)) (ei : (d : Dev nD) → Buf (Elt F) (eiLoc d))
variable [FloatOps F]

def idxBuf (d : Dev nD) (L : grid3.Coords) : Vec F S2x10112 .i32 := (eiWin L).view.read (Elt F) (ei d)

def srcV (d : Dev nD) (L : grid3.Coords) (k : Fin k3_t2_loop.trips) : Vec F S16 .i32 :=
  shapeCast S16 ((s1W).view.readAt (Elt F) (Rect.unit (s := S2x10112) (k3_off3 L k) S1x16.size (k3_off3_inb L k)).toLoadRect (idxBuf ei d L)) shapeCasts_S1x16_S16
def dstV (d : Dev nD) (L : grid3.Coords) (k : Fin k3_t2_loop.trips) : Vec F S16 .i32 :=
  shapeCast S16 ((s1W).view.readAt (Elt F) (Rect.unit (s := S2x10112) (k3_off4 L k) S1x16.size (k3_off4_inb L k)).toLoadRect (idxBuf ei d L)) shapeCasts_S1x16_S16

def step (d : Dev nD) (g : Vec F S10000 .f32) (sv dv : Vec F S16 .i32) : Vec F S10000 .f32 :=
  if h : k3_chk1 sv ∧ k3_chk2 dv then
    storeIdx g ![dv] (loadIdx (vals d) ![sv] (k3_idx1_inb sv h.1)) (fun _ => 1#1) true (k3_idx2_inb dv h.2)
  else g

def zeroV : Vec F S10000 .f32 := fun _ => Scalar.ofBits .f32 0x00000000#32

def accAt (d : Dev nD) (L : grid3.Coords) : ℕ → Vec F S10000 .f32
  | 0 => zeroV
  | k + 1 => if h : k < k3_t2_loop.trips then step vals d (accAt d L k) (srcV ei d L ⟨k, h⟩) (dstV ei d L ⟨k, h⟩) else accAt d L k

def tileOfRow (r : ℕ) : grid3.Coords := coordsV ⟨r % 2, Nat.mod_lt _ (by decide)⟩ ⟨(r / 2) % 16, Nat.mod_lt _ (by decide)⟩

def rowIx (x : Fin 10000) : S10000.Idx := fun a => match a with | ⟨0, _⟩ => x

def val1 (d : Dev nD) : Buf (Elt F) (sctOut d) :=
  fun (j : S32x10000.Idx) => accAt vals ei d (tileOfRow (j 0).val) k3_t2_loop.trips (rowIx (j 1))

end Value

section Pay

variable (vals : (d : Dev nD) → Buf (Elt F) (valLoc d)) (ei : (d : Dev nD) → Buf (Elt F) (eiLoc d))
variable (hrange : ∀ (d : Dev nD) (j : S2x320000.Idx), (ei d j : BitVec 32).toNat < 10000)
variable [FloatOps F]

abbrev shC (c : Fin ((K (F := F)).nCore qI)) : PosShare TreeShare := Transfers.shareTok fullShare ((K (F := F)).nCore qI) c
abbrev shT (c : Fin ((K (F := F)).nCore qI)) (i : Fin ((K (F := F)).nSub qI)) : PosShare TreeShare :=
  Transfers.shareTok (shC (F := F) c) ((K (F := F)).nSub qI) i

def go1 (d : Dev nD) (c : Fin ((K (F := F)).nCore qI)) (i : Fin ((K (F := F)).nSub qI)) : sProp (MM F) :=
  iprop((valLoc d ↦{shT (F := F) c i} vals d) ∗ (eiLoc d ↦{shT (F := F) c i} ei d) ∗ ∃ f, sctOut d ↦[rowSet (LL (F := F) c i)]{fullShare} f)
def td1 (d : Dev nD) (c : Fin ((K (F := F)).nCore qI)) (i : Fin ((K (F := F)).nSub qI)) : sProp (MM F) :=
  iprop((valLoc d ↦{shT (F := F) c i} vals d) ∗ (eiLoc d ↦{shT (F := F) c i} ei d) ∗ sctOut d ↦[rowSet (LL (F := F) c i)]{fullShare} val1 vals ei d)
def st1 (d : Dev nD) (c : Fin ((K (F := F)).nCore qI)) : sProp (MM F) :=
  iprop((valLoc d ↦{shC (F := F) c} vals d) ∗ (eiLoc d ↦{shC (F := F) c} ei d)
    ∗ bigSep Finset.univ fun i : Fin ((K (F := F)).nSub qI) => iprop(∃ f, sctOut d ↦[rowSet (LL (F := F) c i)]{fullShare} f))
def dn1 (d : Dev nD) (c : Fin ((K (F := F)).nCore qI)) : sProp (MM F) :=
  iprop((valLoc d ↦{shC (F := F) c} vals d) ∗ (eiLoc d ↦{shC (F := F) c} ei d)
    ∗ bigSep Finset.univ fun i : Fin ((K (F := F)).nSub qI) => sctOut d ↦[rowSet (LL (F := F) c i)]{fullShare} val1 vals ei d)

instance go1_storable (d : Dev nD) (c : Fin ((K (F := F)).nCore qI)) (i : Fin ((K (F := F)).nSub qI)) :
    BI.Storable (upEmb : UEmb _ (MM F)) (go1 vals ei d c i) := by unfold go1; infer_instance
instance td1_storable (d : Dev nD) (c : Fin ((K (F := F)).nCore qI)) (i : Fin ((K (F := F)).nSub qI)) :
    BI.Storable (upEmb : UEmb _ (MM F)) (td1 vals ei d c i) := by unfold td1; infer_instance
instance st1_storable (d : Dev nD) (c : Fin ((K (F := F)).nCore qI)) :
    BI.Storable (upEmb : UEmb _ (MM F)) (st1 vals ei d c) := by unfold st1; infer_instance
instance dn1_storable (d : Dev nD) (c : Fin ((K (F := F)).nCore qI)) :
    BI.Storable (upEmb : UEmb _ (MM F)) (dn1 vals ei d c) := by unfold dn1; infer_instance

end Pay

section Tile

variable (vals : (d : Dev nD) → Buf (Elt F) (valLoc d)) (ei : (d : Dev nD) → Buf (Elt F) (eiLoc d))
variable (hrange : ∀ (d : Dev nD) (j : S2x320000.Idx), (ei d j : BitVec 32).toNat < 10000)
variable [FloatOps F]
variable (d : Dev nD) (L : grid3.Coords)

abbrev cV (L : grid3.Coords) : Fin τ.nSC := (L 0).castLE hcore3
abbrev jV (L : grid3.Coords) : Fin τ.nSub := (L 1).castLE hsub3

abbrev cell0 (d : Dev nD) (c : Fin τ.nSC) (i : Fin τ.nSub) : GSem nD τ sig := (V d c i, .dma cc3_scoped0.sem)
abbrev cell1 (d : Dev nD) (c : Fin τ.nSC) (i : Fin τ.nSub) : GSem nD τ sig := (V d c i, .dma cc3_scoped1.sem)
abbrev cell2 (d : Dev nD) (c : Fin τ.nSC) (i : Fin τ.nSub) : GSem nD τ sig := (V d c i, .dma cc3_scoped2.sem)

omit [FloatOps F] in
theorem ownSems0_V :
    (ownSems0 (V d (cV L) (jV L)) : sProp (MM F))
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L)))
              fun g => semVal g 0) := by
  unfold SparseCore.Cfg.ownSems0
  rw [SparseCore.bigSep_erase' ((mem_ownCells (g := cell0 d (cV L) (jV L))).mpr ⟨rfl, by
      show (SemLoc.dma cc3_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc3_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc3_scoped2.sem : SemLoc sig).isScoped .scVector = true; decide⟩⟩⟩)]

omit [FloatOps F] in
theorem ownBufs_V :
    (ownBufs (V d (cV L) (jV L)) : sProp (MM F))
      = iprop((∃ f, (V d (cV L) (jV L)).loc cc3_scratch0 ↦{fullShare} f) ∗ (∃ f, (V d (cV L) (jV L)).loc cc3_scratch1 ↦{fullShare} f)
          ∗ (∃ f, (V d (cV L) (jV L)).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
    SparseCore.Cfg.mem_ownRefs_of_owner (p := Proc.scVector (cV L) (jV L)) (b := (Proc.scVector (cV L) (jV L)).devRef cc3_scratch2) rfl⟩⟩)]

omit [FloatOps F] in
theorem pts_v (q : PosShare TreeShare) (f : Buf (Elt F) (valLoc d)) :
    ((vW).view.loc (V d (cV L) (jV L)) ↦{q} f : sProp (MM F)) = valLoc d ↦{q} f := rfl
omit [FloatOps F] in
theorem pts_e (q : PosShare TreeShare) (f : Buf (Elt F) (eiLoc d)) :
    ((eW).view.loc (V d (cV L) (jV L)) ↦{q} f : sProp (MM F)) = eiLoc d ↦{q} f := rfl
omit [FloatOps F] in
theorem pts_o (f : Buf (Elt F) (sctOut d)) :
    ((outRow L).view.loc (V d (cV L) (jV L)) ↦[(outRow L).view.set]{fullShare} f : sProp (MM F)) = sctOut d ↦[rowSet L]{fullShare} f := rfl
omit [FloatOps F] in
theorem pts_s0 (f : Buf (Elt F) ((V d (cV L) (jV L)).loc cc3_scratch0)) :
    ((s0W).view.loc (V d (cV L) (jV L)) ↦{fullShare} f : sProp (MM F)) = (V d (cV L) (jV L)).loc cc3_scratch0 ↦{fullShare} f := rfl
omit [FloatOps F] in
theorem pts_s1 (f : Buf (Elt F) ((V d (cV L) (jV L)).loc cc3_scratch1)) :
    ((s1W).view.loc (V d (cV L) (jV L)) ↦{fullShare} f : sProp (MM F)) = (V d (cV L) (jV L)).loc cc3_scratch1 ↦{fullShare} f := rfl
omit [FloatOps F] in
theorem pts_s2 (f : Buf (Elt F) ((V d (cV L) (jV L)).loc cc3_scratch2)) :
    ((s2W).view.loc (V d (cV L) (jV L)) ↦{fullShare} f : sProp (MM F)) = (V d (cV L) (jV L)).loc cc3_scratch2 ↦{fullShare} f := rfl

omit [FloatOps F] in
theorem trips1 : k3_t1_loop.trips = 625 := by decide
omit [FloatOps F] in
theorem trips2 : k3_t2_loop.trips = 625 := by decide

omit [FloatOps F] in
theorem pts_s2_acc (r : Rect S10000) (f : Buf (Elt F) ((V d (cV L) (jV L)).loc cc3_scratch2)) :
    (((s2W).access r).loc (V d (cV L) (jV L)) ↦{fullShare} f : sProp (MM F)) = (s2W).view.loc (V d (cV L) (jV L)) ↦{fullShare} f := rfl
omit [FloatOps F] in
theorem pts_s0_acc (f : Buf (Elt F) ((V d (cV L) (jV L)).loc cc3_scratch0)) :
    (((s0W).access (Rect.whole S10000)).loc (V d (cV L) (jV L)) ↦{fullShare} f : sProp (MM F)) = (s0W).view.loc (V d (cV L) (jV L)) ↦{fullShare} f := rfl
omit [FloatOps F] in
theorem pts_s2_accset (f : Buf (Elt F) ((V d (cV L) (jV L)).loc cc3_scratch2)) :
    (((s2W).access (Rect.whole S10000)).loc (V d (cV L) (jV L)) ↦[((s2W).access (Rect.whole S10000)).set]{fullShare} f : sProp (MM F))
      = (s2W).view.loc (V d (cV L) (jV L)) ↦{fullShare} f := by
  have h : ((s2W).access (Rect.whole S10000)).set = Finset.univ := Memref.set_access_whole cc3_scratch2
  rw [h]

omit [FloatOps F] in
theorem s0_landed (f0 X : Buf (Elt F) ((V d (cV L) (jV L)).loc cc3_scratch0)) :
    ((s0W).view.loc (V d (cV L) (jV L)) ↦{fullShare} View.write (Elt F) (s0W).view f0 X Finset.univ : sProp (MM F))
      = (s0W).view.loc (V d (cV L) (jV L)) ↦{fullShare} X :=
  congrArg (fun c => ((s0W).view.loc (V d (cV L) (jV L)) ↦{fullShare} c : sProp (MM F))) (View.write_whole_univ cc3_scratch0 f0 X)
omit [FloatOps F] in
theorem s1_landed (f1 X : Buf (Elt F) ((V d (cV L) (jV L)).loc cc3_scratch1)) :
    ((s1W).view.loc (V d (cV L) (jV L)) ↦{fullShare} View.write (Elt F) (s1W).view f1 X Finset.univ : sProp (MM F))
      = (s1W).view.loc (V d (cV L) (jV L)) ↦{fullShare} X :=
  congrArg (fun c => ((s1W).view.loc (V d (cV L) (jV L)) ↦{fullShare} c : sProp (MM F))) (View.write_whole_univ cc3_scratch1 f1 X)

abbrev zRect (k : Fin k3_t1_loop.trips) : Rect S10000 := Rect.unit (s := S10000) (k3_off2 k) S16.size (k3_off2_inb k)

omit [FloatOps F] in
theorem mem_zRect (k : Fin k3_t1_loop.trips) (j : S10000.Idx) :
    j ∈ ((s2W).access (zRect k)).set ↔ 16 * k.val ≤ (j 0).val ∧ (j 0).val < 16 * k.val + 16 := by
  rw [show ((s2W).access (zRect k)).set = (zRect k).set from View.set_slice_whole _ _, Rect.mem_set_unit]
  constructor
  · intro h
    have h0 := h 0
    rw [k3_off2_eq] at h0
    exact h0
  · intro h a
    obtain rfl : a = 0 := Subsingleton.elim _ _
    rw [k3_off2_eq]
    exact h

theorem zero_step (k : Fin k3_t1_loop.trips) (g : Buf (Elt F) ((V d (cV L) (jV L)).loc cc3_scratch2))
    (hg : ∀ j : S10000.Idx, (j 0).val < 16 * k.val → g j = zeroV (F := F) j) :
    ∀ j : S10000.Idx, (j 0).val < 16 * (k.val + 1) →
      ((s2W).access (zRect k)).write (Elt F) g (k3_pay1 (F := F)) Finset.univ j = zeroV (F := F) j := by
  intro j hj
  by_cases hin : j ∈ ((s2W).access (zRect k)).set
  · obtain ⟨x, -, rfl⟩ := Finset.mem_map.mp hin
    rw [View.write_emb_of_mem _ _ (Finset.mem_univ x)]
    rfl
  · rw [View.write_of_not_mem _ _ _ (by rwa [View.setOn_univ])]
    apply hg
    rw [mem_zRect] at hin
    omega

omit [FloatOps F] in
theorem src_eq (k : Fin k3_t2_loop.trips) (x : S16.Idx) :
    srcV ei d L k x = ei d ((eiWin L).view.emb ((Rect.unit (s := S2x10112) (k3_off3 L k) S1x16.size (k3_off3_inb L k)).toLoadRect.idx
      (Shape.reshapeEquiv shapeCasts_S1x16_S16 x))) := rfl
omit [FloatOps F] in
theorem dst_eq (k : Fin k3_t2_loop.trips) (x : S16.Idx) :
    dstV ei d L k x = ei d ((eiWin L).view.emb ((Rect.unit (s := S2x10112) (k3_off4 L k) S1x16.size (k3_off4_inb L k)).toLoadRect.idx
      (Shape.reshapeEquiv shapeCasts_S1x16_S16 x))) := rfl

omit [FloatOps F] in
include hrange in
theorem chk1_of (k : Fin k3_t2_loop.trips) : k3_chk1 (srcV ei d L k) := by
  intro a x
  obtain rfl : a = 0 := Subsingleton.elim _ _
  show (srcV ei d L k x).toNat < 10000
  rw [src_eq]
  exact hrange d _
omit [FloatOps F] in
include hrange in
theorem chk2_of (k : Fin k3_t2_loop.trips) : k3_chk2 (dstV ei d L k) := by
  intro a x
  obtain rfl : a = 0 := Subsingleton.elim _ _
  show (dstV ei d L k x).toNat < 10000
  rw [dst_eq]
  exact hrange d _

theorem acc_step (k : Fin k3_t2_loop.trips) (h1 : k3_chk1 (srcV ei d L k)) (h2 : k3_chk2 (dstV ei d L k)) :
    ((s2W).access (Rect.whole S10000)).write (Elt F) (accAt vals ei d L k.val)
        (storeIdx (((s2W).access (Rect.whole S10000)).read (Elt F) (accAt vals ei d L k.val)) ![dstV ei d L k]
          (loadIdx (((s0W).access (Rect.whole S10000)).read (Elt F) (vals d)) ![srcV ei d L k] (k3_idx1_inb _ h1))
          (fun _ => 1#1) true (k3_idx2_inb _ h2)) Finset.univ
      = accAt vals ei d L (k.val + 1) := by
  refine (Memref.write_access_whole_univ (Elt F) (cc3_scratch2 : Ref sig .scVector) _ _).trans ?_
  have e2 : ((s2W).access (Rect.whole S10000)).read (Elt F) (accAt vals ei d L k.val) = accAt vals ei d L k.val :=
    Memref.read_access_whole (Elt F) (cc3_scratch2 : Ref sig .scVector) _
  have e0 : ((s0W).access (Rect.whole S10000)).read (Elt F) (vals d) = vals d :=
    Memref.read_access_whole (Elt F) (cc3_scratch0 : Ref sig .scVector) _
  rw [e2, e0]
  conv_rhs => rw [accAt]
  rw [dif_pos k.isLt]
  unfold step
  rw [dif_pos ⟨h1, h2⟩]

omit [FloatOps F] in
theorem tileOfRow_eq : tileOfRow (2 * (L 1).val + (L 0).val) = L := by
  have h0 : (L 0).val < 2 := (L 0).isLt
  have h1 : (L 1).val < 16 := (L 1).isLt
  funext a
  match a with
  | ⟨0, _⟩ => exact Fin.ext (by show (2 * (L 1).val + (L 0).val) % 2 = (L 0).val; omega)
  | ⟨1, _⟩ => exact Fin.ext (by show ((2 * (L 1).val + (L 0).val) / 2) % 16 = (L 1).val; omega)

omit [FloatOps F] in
theorem outRow_emb (x : S10000.Idx) :
    ((outRow L).view.emb x 0).val = 2 * (L 1).val + (L 0).val ∧ ((outRow L).view.emb x 1).val = (x 0).val := by
  have e : (outRow L).view.emb x
      = (Rect.unit (s := S32x10000) (k3_off5 L) S1x10000.size (k3_off5_inb L)).emb (Shape.reshapeEquiv squeezes_S1x10000_S10000.numel_eq x) := rfl
  have h0 : k3_off5 L 0 = 2 * (L 1).val + (L 0).val := by rw [k3_off5_eq]; rfl
  have h1 : k3_off5 L 1 = 0 := by rw [k3_off5_eq]; rfl
  rw [e, Shape.reshapeEquiv_cons_one]
  constructor
  · rw [Rect.emb_apply]
    show k3_off5 L 0 + 1 * 0 = _
    omega
  · rw [Rect.emb_apply]
    show k3_off5 L 1 + 1 * (x 0).val = _
    omega

omit [FloatOps F] in
theorem ent' {P R : sProp (MM F)} (h : Idealize.SL.BI.Entails P R) : P ⊢ R := h

theorem val1_apply (j : S32x10000.Idx) :
    val1 vals ei d j = accAt vals ei d (tileOfRow (j 0).val) k3_t2_loop.trips (rowIx (j 1)) := rfl

omit [FloatOps F] in
theorem writes_whole_emb (v : View sig Kind.scVector Space.hbm S10000 EltTy.f32) (f : v.ty.Contents (Elt F))
    (A : S10000.Idx → Elt F EltTy.f32) (x : S10000.Idx) :
    v.writes (Elt F) f [⟨Rect.whole S10000, A⟩] (v.emb x) = _root_.cast (congrArg (Elt F) v.elt_eq.symm) (A x) := by
  have hx : (Rect.whole S10000).emb x = x := Rect.emb_whole_apply S10000 x
  have h := View.write_emb_of_mem (v := v.slice (Rect.whole S10000)) (Val := Elt F) f A (M := Finset.univ) (x := x) (Finset.mem_univ x)
  have he : (v.slice (Rect.whole S10000)).emb x = v.emb x := congrArg v.emb hx
  rw [he] at h
  exact h

theorem out_row_c (fo : Buf (Elt F) (sctOut d)) (x : S10000.Idx) :
    (outRow L).view.writes (Elt F) fo [⟨Rect.whole S10000, accAt vals ei d L k3_t2_loop.trips⟩] ((outRow L).view.emb x)
      = accAt vals ei d L k3_t2_loop.trips x :=
    (writes_whole_emb (F := F) (outRow L).view fo (accAt vals ei d L k3_t2_loop.trips) x).trans (cast_eq _ _)

theorem out_row_d (x : S10000.Idx) :
    accAt vals ei d L k3_t2_loop.trips x = val1 vals ei d ((outRow L).view.emb x) := by
  obtain ⟨e0, e1⟩ := outRow_emb L x
  generalize (outRow L).view.emb x = y at e0 e1 ⊢
  rw [val1_apply, e0, tileOfRow_eq]
  congr 1
  funext a
  match a with
  | ⟨0, _⟩ => exact Fin.ext e1.symm

theorem out_row (fo : Buf (Elt F) (sctOut d)) (X : Vec F S10000 .f32) (hX : X = accAt vals ei d L k3_t2_loop.trips) :
    ∀ j ∈ rowSet L, (outRow L).view.writes (Elt F) fo [⟨Rect.whole S10000, X⟩] j = val1 vals ei d j := by
  intro j hj
  obtain ⟨x, -, rfl⟩ := Finset.mem_map.mp hj
  subst hX
  exact (out_row_c vals ei d L fo x).trans (out_row_d vals ei d L x)

def inv1 (k : ℕ) (_ : PUnit) : sProp (MM F) :=
  iprop(∃ g : Buf (Elt F) ((V d (cV L) (jV L)).loc cc3_scratch2), ⌜∀ j : S10000.Idx, (j 0).val < 16 * k → g j = zeroV (F := F) j⌝
    ∗ (s2W).view.loc (V d (cV L) (jV L)) ↦{fullShare} g)

def inv2 (k : ℕ) (_ : PUnit) : sProp (MM F) :=
  iprop(((s0W).view.loc (V d (cV L) (jV L)) ↦{fullShare} vals d)
    ∗ ((s1W).view.loc (V d (cV L) (jV L)) ↦{fullShare} idxBuf ei d L)
    ∗ (s2W).view.loc (V d (cV L) (jV L)) ↦{fullShare} accAt vals ei d L k)

include hrange in
theorem tile_body (hF : (K (F := F)).Facts) (q : PosShare TreeShare) (O : CellTallies nD τ sig (HIx 4)) (W : Waits sig (HIx 4)) (hO : ∀ g, O g none = 0) :
    (iprop(levAts (K (F := F)).L (K (F := F)).lev
        ∗ ((valLoc d ↦{q} vals d) ∗ (eiLoc d ↦{q} ei d) ∗ ∃ f, sctOut d ↦[rowSet L]{fullShare} f)
        ∗ scopedBufs (V d (cV L) (jV L)) ∗ scopedSems0 (V d (cV L) (jV L)) ∗ owes (V d (cV L) (jV L)) O W) : sProp (MM F))
      ⊢ wp frame (wpE (defs₀ (F := F)) 𝒱₀ (V d (cV L) (jV L)) none) Set.univ
          (cc3__sc_scatter L vW (Memref.isWhole_whole _) eW (Memref.isWhole_whole _) oW (Memref.isWhole_whole _)
            s0W (Memref.isWhole_whole _) s1W (Memref.isWhole_whole _) s2W (Memref.isWhole_whole _) cc3_scoped0 cc3_scoped1 cc3_scoped2)
          fun _ => iprop(((valLoc d ↦{q} vals d) ∗ (eiLoc d ↦{q} ei d) ∗ sctOut d ↦[rowSet L]{fullShare} val1 vals ei d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__sc_scatter_eq_skeleton]; unfold cc3__sc_scatter_skel
  rw [(K (F := F)).scopedBufs_V (Ix := HIx 4) (Name := ℕ) (U := UU) (Lvl := ℕ) (Val := Elt F) hF d (cV L) (jV L),
    SparseCore.Cfg.scopedSems0_V (Ix := HIx 4) (Name := ℕ) (U := UU) (Lvl := ℕ) (Val := Elt F) d (cV L) (jV L), ownSems0_V, ownBufs_V]
  iintro ⟨#Hlv, ⟨Hv, He, ⟨%fo, Ho⟩⟩, ⟨⟨%f0, Hs0⟩, ⟨%f1, Hs1⟩, ⟨%f2, Hs2⟩, Hbufs⟩, ⟨Hsem0, Hsem1, Hsem2, Hsems⟩, HO⟩
  ihave Hmw := ((K (F := F)).mayWaits_none (thr := V d (cV L) (jV L)) hO) $$ Hlv
  ihave Hv' := (Entails.of_eq (pts_v (F := F) d L q _).symm) $$ Hv
  ihave He' := (Entails.of_eq (pts_e (F := F) d L q _).symm) $$ He
  ihave Ho' := (Entails.of_eq (pts_o (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  sl_exec
  ihave Hs0 := (Entails.of_eq (s0_landed (F := F) d L _ _)) $$ Hs0'
  ihave Hs1 := (Entails.of_eq (s1_landed (F := F) d L _ _)) $$ Hs1'
  sl_for (inv1 (F := F) d L) $$ [Hs2']
  case region =>
    intro k _
    unfold inv1
    iintro ⟨%g, %hg, Hs2⟩
    delta tile_body.sl.prog.body_1
    simp only [k3_t1_body, Prog.lift, Prog.bind_op, Prog.bind_ret, Prog.pure_eq_ret]
    iapply (wp_load 𝒱₀ (V d (cV L) (jV L)) none Set.univ (m := s2W) (S := Finset.univ) (Finset.subset_univ _)) $$ Hs2; iintro Hs2
    ihave Hs2a := (Entails.of_eq (pts_s2_acc (F := F) d L (zRect k) _).symm) $$ Hs2
    iapply (wp_store 𝒱₀ (V d (cV L) (jV L)) none Set.univ (m := s2W) (r := zRect k) (Mk := Finset.univ) (S := Finset.univ) (Finset.subset_univ _)) $$ Hs2a; iintro Hs2a
    rw [wp_ret]; imodintro
    iexists _; isplitr
    · ipureintro; exact zero_step (F := F) d L k g hg
    · iapply (Entails.of_eq (pts_s2_acc (F := F) d L (zRect k) _)); iexact Hs2a
  · unfold inv1
    iexists f2; isplitr
    · ipureintro; intro j hj; omega
    · iexact Hs2'
  iintro %_ HI
  unfold inv1
  icases HI with ⟨%g, %hg, Hs2⟩
  obtain rfl : g = zeroV (F := F) := funext fun (j : S10000.Idx) => hg j (by
    have h : Scf.trips k3_t1_loop.lb k3_t1_loop.ub k3_t1_loop.st = 625 := trips1
    rw [h]; exact (j 0).isLt)
  sl_for (inv2 vals ei d L) $$ [Hs0 Hs1 Hs2]
  case region =>
    intro k _
    unfold inv2
    iintro ⟨Hs0, Hs1, Hs2⟩
    delta tile_body.sl.prog.body_2
    simp only [k3_t2_body, Prog.lift, Prog.bind_op, Prog.bind_ret, Prog.pure_eq_ret]
    iapply (wp_load 𝒱₀ (V d (cV L) (jV L)) none Set.univ (m := s1W) (S := Finset.univ) (Finset.subset_univ _)) $$ Hs1; iintro Hs1
    iapply (wp_assume 𝒱₀ (V d (cV L) (jV L)) none Set.univ (chk1_of ei hrange d L k))
    iapply (wp_load 𝒱₀ (V d (cV L) (jV L)) none Set.univ (m := s1W) (S := Finset.univ) (Finset.subset_univ _)) $$ Hs1; iintro Hs1
    iapply (wp_assume 𝒱₀ (V d (cV L) (jV L)) none Set.univ (chk2_of ei hrange d L k))
    ihave Hs0a := (Entails.of_eq (pts_s0_acc (F := F) d L _).symm) $$ Hs0
    iapply (SparseCore.wp_vectorLoadIdx 𝒱₀ (V d (cV L) (jV L)) none Set.univ (base := s0W) (S := Finset.univ) (q := fullShare) (Finset.subset_univ _)) $$ Hs0a; iintro Hs0a
    ihave Hs2a := (Entails.of_eq (pts_s2_accset (F := F) d L _).symm) $$ Hs2
    iapply (SparseCore.wp_vectorStoreIdx 𝒱₀ (V d (cV L) (jV L)) none Set.univ (base := s2W)) $$ Hs2a; iintro Hs2a
    rw [wp_ret]; imodintro
    isplitl [Hs0a]; · iapply (Entails.of_eq (pts_s0_acc (F := F) d L _)); iexact Hs0a
    isplitl [Hs1]; · iexact Hs1
    irw [← acc_step vals ei d L k (chk1_of ei hrange d L k) (chk2_of ei hrange d L k)]
    iapply (Entails.of_eq (pts_s2_accset (F := F) d L _))
    iexact Hs2a
  · unfold inv2
    isplitl [Hs0]; · iexact Hs0
    isplitl [Hs1]; · iexact Hs1
    iexact Hs2
  iintro %_ HI
  unfold inv2
  icases HI with ⟨Hs0, Hs1, Hs2⟩
  sl_exec
  rw [wp_ret]; imodintro
  isplitl [Hv' He' Ho']
  · isplitl [Hv']; · iapply (Entails.of_eq (pts_v (F := F) d L q _)); iexact Hv'
    isplitl [He']; · iapply (Entails.of_eq (pts_e (F := F) d L q _)); iexact He'
    ihave Ho2 := (Entails.of_eq (pts_o (F := F) d L _)) $$ Ho'
    ihave Ho3 := (Entails.of_eq (pointsTo_congr (out_row vals ei d L fo _ rfl))) $$ Ho2
    iexact Ho3
  isplitl [Hs0 Hs1 Hs2 Hbufs]
  · isplitl [Hs0]; · iexists _; iapply (Entails.of_eq (pts_s0 (F := F) d L _)); iexact Hs0
    isplitl [Hs1]; · iexists _; iapply (Entails.of_eq (pts_s1 (F := F) d L _)); iexact Hs1
    isplitl [Hs2]; · iexists _; iapply (Entails.of_eq (pts_s2 (F := F) d L _)); iexact Hs2
    iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc3_scoped2.sem, none) (insert (SemLoc.dma cc3_scoped1.sem, none) (insert (SemLoc.dma cc3_scoped0.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

end Tile

section Iface

variable (vals : (d : Dev nD) → Buf (Elt F) (valLoc d)) (ei : (d : Dev nD) → Buf (Elt F) (eiLoc d))
variable (hrange : ∀ (d : Dev nD) (j : S2x320000.Idx), (ei d j : BitVec 32).toNat < 10000)
variable [FloatOps F]

theorem defs₀_vector (c : Fin τ.nSC) (s : Fin τ.nSub) :
    defs₀ (F := F) (.scVector c s) 3 ()
      = SparseCore.onTile hcore3 hsub3 (fun c s => cc3__sc_scatter (coordsV c s)
          vW (Memref.isWhole_whole _) eW (Memref.isWhole_whole _) oW (Memref.isWhole_whole _)
          s0W (Memref.isWhole_whole _) s1W (Memref.isWhole_whole _) s2W (Memref.isWhole_whole _) cc3_scoped0 cc3_scoped1 cc3_scoped2) ⟨⟩ c s := rfl

omit [FloatOps F] in
theorem obl_post {thr : Thread nD τ} {A B C : sProp (MM F)} {O : CellTallies nD τ sig (HIx 4)} {W : Waits sig (HIx 4)} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some qI⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

include hrange in
theorem tile1 (d : Dev nD) (c : Fin ((K (F := F)).nCore qI)) (i : Fin ((K (F := F)).nSub qI))
    (O : CellTallies nD τ sig (HIx 4)) (W : Waits sig (HIx 4)) (hO : ∀ g, O g none = 0) :
    iprop(levAts (K (F := F)).L (K (F := F)).lev ∗ go1 vals ei d c i
        ∗ scopedBufs (V d ((K (F := F)).core qI c) ((K (F := F)).sub qI i)) ∗ scopedSems0 (V d ((K (F := F)).core qI c) ((K (F := F)).sub qI i))
        ∗ owes (V d ((K (F := F)).core qI c) ((K (F := F)).sub qI i)) O W)
      ⊢ wp frame (wpE (D (F := F)) 𝒱 (V d ((K (F := F)).core qI c) ((K (F := F)).sub qI i)) (some v₀)) Set.univ
          (D (F := F) (.scVector ((K (F := F)).core qI c) ((K (F := F)).sub qI i)) ((K (F := F)).body qI) ((K (F := F)).args qI)) fun _ =>
            iprop(td1 vals ei d c i ∗ scopedBufs (V d ((K (F := F)).core qI c) ((K (F := F)).sub qI i)) ∗ scopedSems0 (V d ((K (F := F)).core qI c) ((K (F := F)).sub qI i))
              ∗ ∃ W', ⌜∀ p ∈ W', p ∈ W ∨ p.2 = none ∨ p.2 = some qI⌝ ∗ owes (V d ((K (F := F)).core qI c) ((K (F := F)).sub qI i)) O W') := by
  change _ ⊢ wp _ _ _ (Pipeline.liftProg (defs₀ (F := F) (.scVector ((K (F := F)).core qI c) ((K (F := F)).sub qI i)) 3 ())) _
  refine BI.Entails.trans ?_ (Pipeline.wp_liftProg (D (F := F)) (Pipeline.defs_kernel pcfgs defs₀) 𝒱₀ _ Set.univ none _ _)
  have hc : ((K (F := F)).core qI c).val < grid3.bound 0 ∧ ((K (F := F)).sub qI i).val < grid3.bound 1 := ⟨c.isLt, i.isLt⟩
  rw [defs₀_vector]; simp only [SparseCore.onTile, hc, and_self, ↓reduceDIte]
  unfold go1 td1
  exact (tile_body vals ei hrange d (LL (F := F) c i) facts (shT (F := F) c i) O W hO).trans (wp_mono frame _ _ fun _ => obl_post)

theorem split1 (d : Dev nD) (c : Fin ((K (F := F)).nCore qI)) :
    st1 vals ei d c ⊢ |={Set.univ}=> iprop((bigSep Finset.univ fun i : Fin ((K (F := F)).nSub qI) => go1 vals ei d c i)
      ∗ ((bigSep Finset.univ fun i : Fin ((K (F := F)).nSub qI) => td1 vals ei d c i) -∗ dn1 vals ei d c)) := by
  unfold st1 go1 td1 dn1
  rw [bigSep_sep', bigSep_sep', bigSep_sep', bigSep_sep']
  iintro ⟨Hv, He, Ho⟩
  ihave Hv2 := (Transfers.pointsTo_toks_split (shC (F := F) c) ((K (F := F)).nSub qI)) $$ Hv
  icases Hv2 with ⟨Hvd, Hvt⟩
  ihave He2 := (Transfers.pointsTo_toks_split (shC (F := F) c) ((K (F := F)).nSub qI)) $$ He
  icases He2 with ⟨Hed, Het⟩
  imodintro
  isplitl [Hvt Het Ho]
  · isplitl [Hvt]; · iexact Hvt
    isplitl [Het]; · iexact Het
    iexact Ho
  iintro ⟨Hvt, Het, Ho⟩
  isplitl [Hvd Hvt]
  · iapply (Transfers.pointsTo_toks_join (shC (F := F) c) ((K (F := F)).nSub qI))
    isplitl [Hvd]; · iexact Hvd
    iexact Hvt
  isplitl [Hed Het]
  · iapply (Transfers.pointsTo_toks_join (shC (F := F) c) ((K (F := F)).nSub qI))
    isplitl [Hed]; · iexact Hed
    iexact Het
  iexact Ho

omit [FloatOps F] in
theorem mem_rowSet (L : grid3.Coords) (j : S32x10000.Idx) : j ∈ rowSet L ↔ (j 0).val = 2 * (L 1).val + (L 0).val := by
  have h0 : k3_off5 L 0 = 2 * (L 1).val + (L 0).val := by rw [k3_off5_eq]; rfl
  have h1 : k3_off5 L 1 = 0 := by rw [k3_off5_eq]; rfl
  have hs : rowSet L = (Rect.unit (s := S32x10000) (k3_off5 L) S1x10000.size (k3_off5_inb L)).set := by
    show (((oW).view.slice (Rect.unit (s := S32x10000) (k3_off5 L) S1x10000.size (k3_off5_inb L))).reshape S10000 squeezes_S1x10000_S10000.numel_eq).set = _
    rw [View.set_reshape]; exact View.set_slice_whole _ _
  rw [hs, Rect.mem_set_unit]
  constructor
  · intro h
    have := h 0
    change k3_off5 L 0 ≤ (j 0).val ∧ (j 0).val < k3_off5 L 0 + 1 at this
    omega
  · intro h a
    match a with
    | ⟨0, _⟩ =>
      show k3_off5 L 0 ≤ (j 0).val ∧ (j 0).val < k3_off5 L 0 + 1
      omega
    | ⟨1, _⟩ =>
      have := (j 1).isLt
      show k3_off5 L 1 ≤ (j 1).val ∧ (j 1).val < k3_off5 L 1 + 10000
      change (j 1).val < 10000 at this
      omega

omit [FloatOps F] in
theorem rows_disjoint : ∀ t ∈ (Finset.univ : Finset (Fin ((K (F := F)).nCore qI) × Fin ((K (F := F)).nSub qI))), ∀ t' ∈ (Finset.univ : Finset (Fin ((K (F := F)).nCore qI) × Fin ((K (F := F)).nSub qI))),
    t ≠ t' → Disjoint (rowSet (LL (F := F) t.1 t.2)) (rowSet (LL (F := F) t'.1 t'.2)) := by
  intro t _ t' _ hne
  refine Finset.disjoint_left.mpr fun j hj hj' => hne ?_
  rw [mem_rowSet] at hj hj'
  have a0 : ((LL (F := F) t.1 t.2) 0).val = t.1.val := rfl
  have a1 : ((LL (F := F) t.1 t.2) 1).val = t.2.val := rfl
  have b0 : ((LL (F := F) t'.1 t'.2) 0).val = t'.1.val := rfl
  have b1 : ((LL (F := F) t'.1 t'.2) 1).val = t'.2.val := rfl
  have c0 : t.1.val < 2 := lt_of_lt_of_eq t.1.isLt (nCore_eq qI)
  have c0' : t'.1.val < 2 := lt_of_lt_of_eq t'.1.isLt (nCore_eq qI)
  rw [a0, a1] at hj; rw [b0, b1] at hj'
  exact Prod.ext (Fin.ext (by omega)) (Fin.ext (by omega))

omit [FloatOps F] in
theorem rows_cover : (Finset.univ : Finset (Fin ((K (F := F)).nCore qI) × Fin ((K (F := F)).nSub qI))).biUnion (fun t => rowSet (LL (F := F) t.1 t.2)) = Finset.univ := by
  refine Finset.eq_univ_iff_forall.mpr fun j => Finset.mem_biUnion.mpr ?_
  have hj : (j 0).val < 32 := (j 0).isLt
  refine ⟨(⟨(j 0).val % 2, by rw [nCore_eq]; omega⟩, ⟨(j 0).val / 2, by rw [nSub_eq]; omega⟩), Finset.mem_univ _, ?_⟩
  rw [mem_rowSet]
  show (j 0).val = 2 * ((j 0).val / 2) + (j 0).val % 2
  omega

omit [FloatOps F] in
theorem out_rows (d : Dev nD) (f : Buf (Elt F) (sctOut d)) :
    (sctOut d ↦{fullShare} f : sProp (MM F))
      = bigSep Finset.univ fun c : Fin ((K (F := F)).nCore qI) => bigSep Finset.univ fun i : Fin ((K (F := F)).nSub qI) =>
          sctOut d ↦[rowSet (LL (F := F) c i)]{fullShare} f := by
  have h : (sctOut d ↦[(Finset.univ : Finset (Fin ((K (F := F)).nCore qI) × Fin ((K (F := F)).nSub qI))).biUnion fun t => rowSet (LL (F := F) t.1 t.2)]{fullShare} f : sProp (MM F)) = _ :=
    pointsTo_biUnion (ℓ := sctOut d) Finset.univ (fun t : Fin ((K (F := F)).nCore qI) × Fin ((K (F := F)).nSub qI) => rowSet (LL (F := F) t.1 t.2)) (rows_disjoint (F := F))
  rw [rows_cover] at h
  exact h.trans (bigSep_univ_prod _)

omit [FloatOps F] in
theorem rows_ex (d : Dev nD) (f : Buf (Elt F) (sctOut d)) :
    (bigSep Finset.univ fun c : Fin ((K (F := F)).nCore qI) => bigSep Finset.univ fun i : Fin ((K (F := F)).nSub qI) =>
        (sctOut d ↦[rowSet (LL (F := F) c i)]{fullShare} f : sProp (MM F)))
      ⊢ bigSep Finset.univ fun c : Fin ((K (F := F)).nCore qI) => bigSep Finset.univ fun i : Fin ((K (F := F)).nSub qI) =>
        iprop(∃ f, sctOut d ↦[rowSet (LL (F := F) c i)]{fullShare} f) :=
  bigSep_mono fun c _ => bigSep_mono fun i _ => exists_intro (Φ := fun f => (sctOut d ↦[rowSet (LL (F := F) c i)]{fullShare} f : sProp (MM F))) f

theorem call1 (d : Dev nD) :
    iprop((valLoc d ↦{fullShare} vals d) ∗ (eiLoc d ↦{fullShare} ei d) ∗ ∃ f, sctOut d ↦{fullShare} f)
      ⊢ |={Set.univ}=> iprop((bigSep Finset.univ fun c : Fin ((K (F := F)).nCore qI) => st1 vals ei d c)
        ∗ ((bigSep Finset.univ fun c : Fin ((K (F := F)).nCore qI) => dn1 vals ei d c)
          -∗ iprop((valLoc d ↦{fullShare} vals d) ∗ (eiLoc d ↦{fullShare} ei d) ∗ sctOut d ↦{fullShare} val1 vals ei d))) := by
  unfold st1 dn1
  rw [bigSep_sep', bigSep_sep', bigSep_sep', bigSep_sep']
  iintro ⟨Hv, He, %f, Ho⟩
  ihave Hv2 := (Transfers.pointsTo_toks_split fullShare ((K (F := F)).nCore qI)) $$ Hv
  icases Hv2 with ⟨Hvd, Hvt⟩
  ihave He2 := (Transfers.pointsTo_toks_split fullShare ((K (F := F)).nCore qI)) $$ He
  icases He2 with ⟨Hed, Het⟩
  ihave Ho2 := (Entails.of_eq (out_rows (F := F) d f)) $$ Ho
  imodintro
  isplitl [Hvt Het Ho2]
  · isplitl [Hvt]; · iexact Hvt
    isplitl [Het]; · iexact Het
    iapply (rows_ex (F := F) d f)
    iexact Ho2
  iintro ⟨Hvt, Het, Ho⟩
  isplitl [Hvd Hvt]
  · iapply (Transfers.pointsTo_toks_join fullShare ((K (F := F)).nCore qI))
    isplitl [Hvd]; · iexact Hvd
    iexact Hvt
  isplitl [Hed Het]
  · iapply (Transfers.pointsTo_toks_join fullShare ((K (F := F)).nCore qI))
    isplitl [Hed]; · iexact Hed
    iexact Het
  iapply (Entails.of_eq (out_rows (F := F) d (val1 vals ei d)).symm)
  iexact Ho

end Iface

end Cert.KernelIdeal.Hand.Tile1

end
-- ==== Proof.HandKernelIdeal.Tile2.lean ====
import proofs.«211345_g12773232738731_cont_fleet_1243_15_alg».proof.Proof.HandKernelIdeal.Common

set_option backward.isDefEq.respectTransparency.types false

noncomputable section

namespace Cert.KernelIdeal.Hand.Tile2

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev qI : Fin 4 := 2

local notation "vW" => (Memref.whole Cert.KernelIdeal.main_v15_scv : Memref Cert.KernelIdeal.sig Kind.scVector Space.hbm Cert.KernelIdeal.S10000 EltTy.f32)
local notation "eW" => (Memref.whole Cert.KernelIdeal.main_arg1_scv : Memref Cert.KernelIdeal.sig Kind.scVector Space.hbm Cert.KernelIdeal.S2x320000 EltTy.i32)
local notation "oW" => (Memref.whole Cert.KernelIdeal.main_v16_scv : Memref Cert.KernelIdeal.sig Kind.scVector Space.hbm Cert.KernelIdeal.S32x10000 EltTy.f32)
local notation "s0W" => (Memref.whole Cert.KernelIdeal.cc5_scratch0 : Memref Cert.KernelIdeal.sig Kind.scVector Space.vmem Cert.KernelIdeal.S10000 EltTy.f32)
local notation "s1W" => (Memref.whole Cert.KernelIdeal.cc5_scratch1 : Memref Cert.KernelIdeal.sig Kind.scVector Space.vmem Cert.KernelIdeal.S2x10112 EltTy.i32)
local notation "s2W" => (Memref.whole Cert.KernelIdeal.cc5_scratch2 : Memref Cert.KernelIdeal.sig Kind.scVector Space.vmem Cert.KernelIdeal.S10000 EltTy.f32)

abbrev valLoc (d : Dev nD) : Loc nD τ sig := (SparseCore.T d).loc main_v15
abbrev eiLoc (d : Dev nD) : Loc nD τ sig := (SparseCore.T d).loc main_arg1
abbrev sctOut (d : Dev nD) : Loc nD τ sig := (SparseCore.T d).loc main_v16

def coordsV (c : Fin (grid5.bound 0)) (s : Fin (grid5.bound 1)) : grid5.Coords :=
  fun | 0 => c | 1 => s | ⟨_ + 2, h⟩ => absurd h (Nat.not_lt.2 (Nat.le_add_left _ _))

abbrev LL (c : Fin ((K (F := F)).nCore qI)) (i : Fin ((K (F := F)).nSub qI)) : grid5.Coords :=
  coordsV ⟨((K (F := F)).core qI c).val, c.isLt⟩ ⟨((K (F := F)).sub qI i).val, i.isLt⟩

abbrev eiWin (L : grid5.Coords) : Memref sig .scVector .hbm S2x10112 .i32 :=
  (eW).slice (Rect.unit (s := S2x320000) (k5_off1 L) S2x10112.size (k5_off1_inb L)) (fun _ => rfl)
abbrev outRow (L : grid5.Coords) : Memref sig .scVector .hbm S10000 .f32 :=
  ((oW).slice (Rect.unit (s := S32x10000) (k5_off5 L) S1x10000.size (k5_off5_inb L)) (fun _ => rfl)).squeeze S10000 squeezes_S1x10000_S10000
abbrev rowSet (L : grid5.Coords) : Finset S32x10000.Idx := (outRow L).view.set

section Value

variable (vals : (d : Dev nD) → Buf (Elt F) (valLoc d)) (ei : (d : Dev nD) → Buf (Elt F) (eiLoc d))
variable [FloatOps F]

def idxBuf (d : Dev nD) (L : grid5.Coords) : Vec F S2x10112 .i32 := (eiWin L).view.read (Elt F) (ei d)

def srcV (d : Dev nD) (L : grid5.Coords) (k : Fin k5_t2_loop.trips) : Vec F S16 .i32 :=
  shapeCast S16 ((s1W).view.readAt (Elt F) (Rect.unit (s := S2x10112) (k5_off3 L k) S1x16.size (k5_off3_inb L k)).toLoadRect (idxBuf ei d L)) shapeCasts_S1x16_S16
def dstV (d : Dev nD) (L : grid5.Coords) (k : Fin k5_t2_loop.trips) : Vec F S16 .i32 :=
  shapeCast S16 ((s1W).view.readAt (Elt F) (Rect.unit (s := S2x10112) (k5_off4 L k) S1x16.size (k5_off4_inb L k)).toLoadRect (idxBuf ei d L)) shapeCasts_S1x16_S16

def step (d : Dev nD) (g : Vec F S10000 .f32) (sv dv : Vec F S16 .i32) : Vec F S10000 .f32 :=
  if h : k5_chk1 sv ∧ k5_chk2 dv then
    storeIdx g ![dv] (loadIdx (vals d) ![sv] (k5_idx1_inb sv h.1)) (fun _ => 1#1) true (k5_idx2_inb dv h.2)
  else g

def zeroV : Vec F S10000 .f32 := fun _ => Scalar.ofBits .f32 0x00000000#32

def accAt (d : Dev nD) (L : grid5.Coords) : ℕ → Vec F S10000 .f32
  | 0 => zeroV
  | k + 1 => if h : k < k5_t2_loop.trips then step vals d (accAt d L k) (srcV ei d L ⟨k, h⟩) (dstV ei d L ⟨k, h⟩) else accAt d L k

def tileOfRow (r : ℕ) : grid5.Coords := coordsV ⟨r % 2, Nat.mod_lt _ (by decide)⟩ ⟨(r / 2) % 16, Nat.mod_lt _ (by decide)⟩

def rowIx (x : Fin 10000) : S10000.Idx := fun a => match a with | ⟨0, _⟩ => x

def val2 (d : Dev nD) : Buf (Elt F) (sctOut d) :=
  fun (j : S32x10000.Idx) => accAt vals ei d (tileOfRow (j 0).val) k5_t2_loop.trips (rowIx (j 1))

end Value

section Pay

variable (vals : (d : Dev nD) → Buf (Elt F) (valLoc d)) (ei : (d : Dev nD) → Buf (Elt F) (eiLoc d))
variable (hrange : ∀ (d : Dev nD) (j : S2x320000.Idx), (ei d j : BitVec 32).toNat < 10000)
variable [FloatOps F]

abbrev shC (c : Fin ((K (F := F)).nCore qI)) : PosShare TreeShare := Transfers.shareTok fullShare ((K (F := F)).nCore qI) c
abbrev shT (c : Fin ((K (F := F)).nCore qI)) (i : Fin ((K (F := F)).nSub qI)) : PosShare TreeShare :=
  Transfers.shareTok (shC (F := F) c) ((K (F := F)).nSub qI) i

def go2 (d : Dev nD) (c : Fin ((K (F := F)).nCore qI)) (i : Fin ((K (F := F)).nSub qI)) : sProp (MM F) :=
  iprop((valLoc d ↦{shT (F := F) c i} vals d) ∗ (eiLoc d ↦{shT (F := F) c i} ei d) ∗ ∃ f, sctOut d ↦[rowSet (LL (F := F) c i)]{fullShare} f)
def td2 (d : Dev nD) (c : Fin ((K (F := F)).nCore qI)) (i : Fin ((K (F := F)).nSub qI)) : sProp (MM F) :=
  iprop((valLoc d ↦{shT (F := F) c i} vals d) ∗ (eiLoc d ↦{shT (F := F) c i} ei d) ∗ sctOut d ↦[rowSet (LL (F := F) c i)]{fullShare} val2 vals ei d)
def st2 (d : Dev nD) (c : Fin ((K (F := F)).nCore qI)) : sProp (MM F) :=
  iprop((valLoc d ↦{shC (F := F) c} vals d) ∗ (eiLoc d ↦{shC (F := F) c} ei d)
    ∗ bigSep Finset.univ fun i : Fin ((K (F := F)).nSub qI) => iprop(∃ f, sctOut d ↦[rowSet (LL (F := F) c i)]{fullShare} f))
def dn2 (d : Dev nD) (c : Fin ((K (F := F)).nCore qI)) : sProp (MM F) :=
  iprop((valLoc d ↦{shC (F := F) c} vals d) ∗ (eiLoc d ↦{shC (F := F) c} ei d)
    ∗ bigSep Finset.univ fun i : Fin ((K (F := F)).nSub qI) => sctOut d ↦[rowSet (LL (F := F) c i)]{fullShare} val2 vals ei d)

instance go2_storable (d : Dev nD) (c : Fin ((K (F := F)).nCore qI)) (i : Fin ((K (F := F)).nSub qI)) :
    BI.Storable (upEmb : UEmb _ (MM F)) (go2 vals ei d c i) := by unfold go2; infer_instance
instance td2_storable (d : Dev nD) (c : Fin ((K (F := F)).nCore qI)) (i : Fin ((K (F := F)).nSub qI)) :
    BI.Storable (upEmb : UEmb _ (MM F)) (td2 vals ei d c i) := by unfold td2; infer_instance
instance st2_storable (d : Dev nD) (c : Fin ((K (F := F)).nCore qI)) :
    BI.Storable (upEmb : UEmb _ (MM F)) (st2 vals ei d c) := by unfold st2; infer_instance
instance dn2_storable (d : Dev nD) (c : Fin ((K (F := F)).nCore qI)) :
    BI.Storable (upEmb : UEmb _ (MM F)) (dn2 vals ei d c) := by unfold dn2; infer_instance

end Pay

section Tile

variable (vals : (d : Dev nD) → Buf (Elt F) (valLoc d)) (ei : (d : Dev nD) → Buf (Elt F) (eiLoc d))
variable (hrange : ∀ (d : Dev nD) (j : S2x320000.Idx), (ei d j : BitVec 32).toNat < 10000)
variable [FloatOps F]
variable (d : Dev nD) (L : grid5.Coords)

abbrev cV (L : grid5.Coords) : Fin τ.nSC := (L 0).castLE hcore5
abbrev jV (L : grid5.Coords) : Fin τ.nSub := (L 1).castLE hsub5

abbrev cell0 (d : Dev nD) (c : Fin τ.nSC) (i : Fin τ.nSub) : GSem nD τ sig := (V d c i, .dma cc5_scoped0.sem)
abbrev cell1 (d : Dev nD) (c : Fin τ.nSC) (i : Fin τ.nSub) : GSem nD τ sig := (V d c i, .dma cc5_scoped1.sem)
abbrev cell2 (d : Dev nD) (c : Fin τ.nSC) (i : Fin τ.nSub) : GSem nD τ sig := (V d c i, .dma cc5_scoped2.sem)

omit [FloatOps F] in
theorem ownSems0_V :
    (ownSems0 (V d (cV L) (jV L)) : sProp (MM F))
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L)))
              fun g => semVal g 0) := by
  unfold SparseCore.Cfg.ownSems0
  rw [SparseCore.bigSep_erase' ((mem_ownCells (g := cell0 d (cV L) (jV L))).mpr ⟨rfl, by
      show (SemLoc.dma cc5_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc5_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc5_scoped2.sem : SemLoc sig).isScoped .scVector = true; decide⟩⟩⟩)]

omit [FloatOps F] in
theorem ownBufs_V :
    (ownBufs (V d (cV L) (jV L)) : sProp (MM F))
      = iprop((∃ f, (V d (cV L) (jV L)).loc cc5_scratch0 ↦{fullShare} f) ∗ (∃ f, (V d (cV L) (jV L)).loc cc5_scratch1 ↦{fullShare} f)
          ∗ (∃ f, (V d (cV L) (jV L)).loc cc5_scratch2 ↦{fullShare} f)
          ∗ bigSep ((((ownRefs (τ := τ) (.scVector (cV L) (jV L))).erase ((Proc.scVector (cV L) (jV L)).devRef cc5_scratch0)).erase
              ((Proc.scVector (cV L) (jV L)).devRef cc5_scratch1)).erase ((Proc.scVector (cV L) (jV L)).devRef cc5_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc5_scratch0) rfl)).trans ?_
  rw [SparseCore.bigSep_erase' (Finset.mem_erase.mpr ⟨fun e => absurd (Proc.devRef_injective _ e) (show (cc5_scratch1 : Ref sig .scVector) ≠ cc5_scratch0 by decide),
    SparseCore.Cfg.mem_ownRefs_of_owner (p := Proc.scVector (cV L) (jV L)) (b := (Proc.scVector (cV L) (jV L)).devRef cc5_scratch1) rfl⟩),
    SparseCore.bigSep_erase' (Finset.mem_erase.mpr ⟨fun e => absurd (Proc.devRef_injective _ e) (show (cc5_scratch2 : Ref sig .scVector) ≠ cc5_scratch1 by decide),
      Finset.mem_erase.mpr ⟨fun e => absurd (Proc.devRef_injective _ e) (show (cc5_scratch2 : Ref sig .scVector) ≠ cc5_scratch0 by decide),
    SparseCore.Cfg.mem_ownRefs_of_owner (p := Proc.scVector (cV L) (jV L)) (b := (Proc.scVector (cV L) (jV L)).devRef cc5_scratch2) rfl⟩⟩)]

omit [FloatOps F] in
theorem pts_v (q : PosShare TreeShare) (f : Buf (Elt F) (valLoc d)) :
    ((vW).view.loc (V d (cV L) (jV L)) ↦{q} f : sProp (MM F)) = valLoc d ↦{q} f := rfl
omit [FloatOps F] in
theorem pts_e (q : PosShare TreeShare) (f : Buf (Elt F) (eiLoc d)) :
    ((eW).view.loc (V d (cV L) (jV L)) ↦{q} f : sProp (MM F)) = eiLoc d ↦{q} f := rfl
omit [FloatOps F] in
theorem pts_o (f : Buf (Elt F) (sctOut d)) :
    ((outRow L).view.loc (V d (cV L) (jV L)) ↦[(outRow L).view.set]{fullShare} f : sProp (MM F)) = sctOut d ↦[rowSet L]{fullShare} f := rfl
omit [FloatOps F] in
theorem pts_s0 (f : Buf (Elt F) ((V d (cV L) (jV L)).loc cc5_scratch0)) :
    ((s0W).view.loc (V d (cV L) (jV L)) ↦{fullShare} f : sProp (MM F)) = (V d (cV L) (jV L)).loc cc5_scratch0 ↦{fullShare} f := rfl
omit [FloatOps F] in
theorem pts_s1 (f : Buf (Elt F) ((V d (cV L) (jV L)).loc cc5_scratch1)) :
    ((s1W).view.loc (V d (cV L) (jV L)) ↦{fullShare} f : sProp (MM F)) = (V d (cV L) (jV L)).loc cc5_scratch1 ↦{fullShare} f := rfl
omit [FloatOps F] in
theorem pts_s2 (f : Buf (Elt F) ((V d (cV L) (jV L)).loc cc5_scratch2)) :
    ((s2W).view.loc (V d (cV L) (jV L)) ↦{fullShare} f : sProp (MM F)) = (V d (cV L) (jV L)).loc cc5_scratch2 ↦{fullShare} f := rfl

omit [FloatOps F] in
theorem trips1 : k5_t1_loop.trips = 625 := by decide
omit [FloatOps F] in
theorem trips2 : k5_t2_loop.trips = 625 := by decide

omit [FloatOps F] in
theorem pts_s2_acc (r : Rect S10000) (f : Buf (Elt F) ((V d (cV L) (jV L)).loc cc5_scratch2)) :
    (((s2W).access r).loc (V d (cV L) (jV L)) ↦{fullShare} f : sProp (MM F)) = (s2W).view.loc (V d (cV L) (jV L)) ↦{fullShare} f := rfl
omit [FloatOps F] in
theorem pts_s0_acc (f : Buf (Elt F) ((V d (cV L) (jV L)).loc cc5_scratch0)) :
    (((s0W).access (Rect.whole S10000)).loc (V d (cV L) (jV L)) ↦{fullShare} f : sProp (MM F)) = (s0W).view.loc (V d (cV L) (jV L)) ↦{fullShare} f := rfl
omit [FloatOps F] in
theorem pts_s2_accset (f : Buf (Elt F) ((V d (cV L) (jV L)).loc cc5_scratch2)) :
    (((s2W).access (Rect.whole S10000)).loc (V d (cV L) (jV L)) ↦[((s2W).access (Rect.whole S10000)).set]{fullShare} f : sProp (MM F))
      = (s2W).view.loc (V d (cV L) (jV L)) ↦{fullShare} f := by
  have h : ((s2W).access (Rect.whole S10000)).set = Finset.univ := Memref.set_access_whole cc5_scratch2
  rw [h]

omit [FloatOps F] in
theorem s0_landed (f0 X : Buf (Elt F) ((V d (cV L) (jV L)).loc cc5_scratch0)) :
    ((s0W).view.loc (V d (cV L) (jV L)) ↦{fullShare} View.write (Elt F) (s0W).view f0 X Finset.univ : sProp (MM F))
      = (s0W).view.loc (V d (cV L) (jV L)) ↦{fullShare} X :=
  congrArg (fun c => ((s0W).view.loc (V d (cV L) (jV L)) ↦{fullShare} c : sProp (MM F))) (View.write_whole_univ cc5_scratch0 f0 X)
omit [FloatOps F] in
theorem s1_landed (f1 X : Buf (Elt F) ((V d (cV L) (jV L)).loc cc5_scratch1)) :
    ((s1W).view.loc (V d (cV L) (jV L)) ↦{fullShare} View.write (Elt F) (s1W).view f1 X Finset.univ : sProp (MM F))
      = (s1W).view.loc (V d (cV L) (jV L)) ↦{fullShare} X :=
  congrArg (fun c => ((s1W).view.loc (V d (cV L) (jV L)) ↦{fullShare} c : sProp (MM F))) (View.write_whole_univ cc5_scratch1 f1 X)

abbrev zRect (k : Fin k5_t1_loop.trips) : Rect S10000 := Rect.unit (s := S10000) (k5_off2 k) S16.size (k5_off2_inb k)

omit [FloatOps F] in
theorem mem_zRect (k : Fin k5_t1_loop.trips) (j : S10000.Idx) :
    j ∈ ((s2W).access (zRect k)).set ↔ 16 * k.val ≤ (j 0).val ∧ (j 0).val < 16 * k.val + 16 := by
  rw [show ((s2W).access (zRect k)).set = (zRect k).set from View.set_slice_whole _ _, Rect.mem_set_unit]
  constructor
  · intro h
    have h0 := h 0
    rw [k5_off2_eq] at h0
    exact h0
  · intro h a
    obtain rfl : a = 0 := Subsingleton.elim _ _
    rw [k5_off2_eq]
    exact h

theorem zero_step (k : Fin k5_t1_loop.trips) (g : Buf (Elt F) ((V d (cV L) (jV L)).loc cc5_scratch2))
    (hg : ∀ j : S10000.Idx, (j 0).val < 16 * k.val → g j = zeroV (F := F) j) :
    ∀ j : S10000.Idx, (j 0).val < 16 * (k.val + 1) →
      ((s2W).access (zRect k)).write (Elt F) g (k5_pay1 (F := F)) Finset.univ j = zeroV (F := F) j := by
  intro j hj
  by_cases hin : j ∈ ((s2W).access (zRect k)).set
  · obtain ⟨x, -, rfl⟩ := Finset.mem_map.mp hin
    rw [View.write_emb_of_mem _ _ (Finset.mem_univ x)]
    rfl
  · rw [View.write_of_not_mem _ _ _ (by rwa [View.setOn_univ])]
    apply hg
    rw [mem_zRect] at hin
    omega

omit [FloatOps F] in
theorem src_eq (k : Fin k5_t2_loop.trips) (x : S16.Idx) :
    srcV ei d L k x = ei d ((eiWin L).view.emb ((Rect.unit (s := S2x10112) (k5_off3 L k) S1x16.size (k5_off3_inb L k)).toLoadRect.idx
      (Shape.reshapeEquiv shapeCasts_S1x16_S16 x))) := rfl
omit [FloatOps F] in
theorem dst_eq (k : Fin k5_t2_loop.trips) (x : S16.Idx) :
    dstV ei d L k x = ei d ((eiWin L).view.emb ((Rect.unit (s := S2x10112) (k5_off4 L k) S1x16.size (k5_off4_inb L k)).toLoadRect.idx
      (Shape.reshapeEquiv shapeCasts_S1x16_S16 x))) := rfl

omit [FloatOps F] in
include hrange in
theorem chk1_of (k : Fin k5_t2_loop.trips) : k5_chk1 (srcV ei d L k) := by
  intro a x
  obtain rfl : a = 0 := Subsingleton.elim _ _
  show (srcV ei d L k x).toNat < 10000
  rw [src_eq]
  exact hrange d _
omit [FloatOps F] in
include hrange in
theorem chk2_of (k : Fin k5_t2_loop.trips) : k5_chk2 (dstV ei d L k) := by
  intro a x
  obtain rfl : a = 0 := Subsingleton.elim _ _
  show (dstV ei d L k x).toNat < 10000
  rw [dst_eq]
  exact hrange d _

theorem acc_step (k : Fin k5_t2_loop.trips) (h1 : k5_chk1 (srcV ei d L k)) (h2 : k5_chk2 (dstV ei d L k)) :
    ((s2W).access (Rect.whole S10000)).write (Elt F) (accAt vals ei d L k.val)
        (storeIdx (((s2W).access (Rect.whole S10000)).read (Elt F) (accAt vals ei d L k.val)) ![dstV ei d L k]
          (loadIdx (((s0W).access (Rect.whole S10000)).read (Elt F) (vals d)) ![srcV ei d L k] (k5_idx1_inb _ h1))
          (fun _ => 1#1) true (k5_idx2_inb _ h2)) Finset.univ
      = accAt vals ei d L (k.val + 1) := by
  refine (Memref.write_access_whole_univ (Elt F) (cc5_scratch2 : Ref sig .scVector) _ _).trans ?_
  have e2 : ((s2W).access (Rect.whole S10000)).read (Elt F) (accAt vals ei d L k.val) = accAt vals ei d L k.val :=
    Memref.read_access_whole (Elt F) (cc5_scratch2 : Ref sig .scVector) _
  have e0 : ((s0W).access (Rect.whole S10000)).read (Elt F) (vals d) = vals d :=
    Memref.read_access_whole (Elt F) (cc5_scratch0 : Ref sig .scVector) _
  rw [e2, e0]
  conv_rhs => rw [accAt]
  rw [dif_pos k.isLt]
  unfold step
  rw [dif_pos ⟨h1, h2⟩]

omit [FloatOps F] in
theorem tileOfRow_eq : tileOfRow (2 * (L 1).val + (L 0).val) = L := by
  have h0 : (L 0).val < 2 := (L 0).isLt
  have h1 : (L 1).val < 16 := (L 1).isLt
  funext a
  match a with
  | ⟨0, _⟩ => exact Fin.ext (by show (2 * (L 1).val + (L 0).val) % 2 = (L 0).val; omega)
  | ⟨1, _⟩ => exact Fin.ext (by show ((2 * (L 1).val + (L 0).val) / 2) % 16 = (L 1).val; omega)

omit [FloatOps F] in
theorem outRow_emb (x : S10000.Idx) :
    ((outRow L).view.emb x 0).val = 2 * (L 1).val + (L 0).val ∧ ((outRow L).view.emb x 1).val = (x 0).val := by
  have e : (outRow L).view.emb x
      = (Rect.unit (s := S32x10000) (k5_off5 L) S1x10000.size (k5_off5_inb L)).emb (Shape.reshapeEquiv squeezes_S1x10000_S10000.numel_eq x) := rfl
  have h0 : k5_off5 L 0 = 2 * (L 1).val + (L 0).val := by rw [k5_off5_eq]; rfl
  have h1 : k5_off5 L 1 = 0 := by rw [k5_off5_eq]; rfl
  rw [e, Shape.reshapeEquiv_cons_one]
  constructor
  · rw [Rect.emb_apply]
    show k5_off5 L 0 + 1 * 0 = _
    omega
  · rw [Rect.emb_apply]
    show k5_off5 L 1 + 1 * (x 0).val = _
    omega

omit [FloatOps F] in
theorem ent' {P R : sProp (MM F)} (h : Idealize.SL.BI.Entails P R) : P ⊢ R := h

theorem val2_apply (j : S32x10000.Idx) :
    val2 vals ei d j = accAt vals ei d (tileOfRow (j 0).val) k5_t2_loop.trips (rowIx (j 1)) := rfl

omit [FloatOps F] in
theorem writes_whole_emb (v : View sig Kind.scVector Space.hbm S10000 EltTy.f32) (f : v.ty.Contents (Elt F))
    (A : S10000.Idx → Elt F EltTy.f32) (x : S10000.Idx) :
    v.writes (Elt F) f [⟨Rect.whole S10000, A⟩] (v.emb x) = _root_.cast (congrArg (Elt F) v.elt_eq.symm) (A x) := by
  have hx : (Rect.whole S10000).emb x = x := Rect.emb_whole_apply S10000 x
  have h := View.write_emb_of_mem (v := v.slice (Rect.whole S10000)) (Val := Elt F) f A (M := Finset.univ) (x := x) (Finset.mem_univ x)
  have he : (v.slice (Rect.whole S10000)).emb x = v.emb x := congrArg v.emb hx
  rw [he] at h
  exact h

theorem out_row_c (fo : Buf (Elt F) (sctOut d)) (x : S10000.Idx) :
    (outRow L).view.writes (Elt F) fo [⟨Rect.whole S10000, accAt vals ei d L k5_t2_loop.trips⟩] ((outRow L).view.emb x)
      = accAt vals ei d L k5_t2_loop.trips x :=
    (writes_whole_emb (F := F) (outRow L).view fo (accAt vals ei d L k5_t2_loop.trips) x).trans (cast_eq _ _)

theorem out_row_d (x : S10000.Idx) :
    accAt vals ei d L k5_t2_loop.trips x = val2 vals ei d ((outRow L).view.emb x) := by
  obtain ⟨e0, e1⟩ := outRow_emb L x
  generalize (outRow L).view.emb x = y at e0 e1 ⊢
  rw [val2_apply, e0, tileOfRow_eq]
  congr 1
  funext a
  match a with
  | ⟨0, _⟩ => exact Fin.ext e1.symm

theorem out_row (fo : Buf (Elt F) (sctOut d)) (X : Vec F S10000 .f32) (hX : X = accAt vals ei d L k5_t2_loop.trips) :
    ∀ j ∈ rowSet L, (outRow L).view.writes (Elt F) fo [⟨Rect.whole S10000, X⟩] j = val2 vals ei d j := by
  intro j hj
  obtain ⟨x, -, rfl⟩ := Finset.mem_map.mp hj
  subst hX
  exact (out_row_c vals ei d L fo x).trans (out_row_d vals ei d L x)

def inv1 (k : ℕ) (_ : PUnit) : sProp (MM F) :=
  iprop(∃ g : Buf (Elt F) ((V d (cV L) (jV L)).loc cc5_scratch2), ⌜∀ j : S10000.Idx, (j 0).val < 16 * k → g j = zeroV (F := F) j⌝
    ∗ (s2W).view.loc (V d (cV L) (jV L)) ↦{fullShare} g)

def inv2 (k : ℕ) (_ : PUnit) : sProp (MM F) :=
  iprop(((s0W).view.loc (V d (cV L) (jV L)) ↦{fullShare} vals d)
    ∗ ((s1W).view.loc (V d (cV L) (jV L)) ↦{fullShare} idxBuf ei d L)
    ∗ (s2W).view.loc (V d (cV L) (jV L)) ↦{fullShare} accAt vals ei d L k)

include hrange in
theorem tile_body (hF : (K (F := F)).Facts) (q : PosShare TreeShare) (O : CellTallies nD τ sig (HIx 4)) (W : Waits sig (HIx 4)) (hO : ∀ g, O g none = 0) :
    (iprop(levAts (K (F := F)).L (K (F := F)).lev
        ∗ ((valLoc d ↦{q} vals d) ∗ (eiLoc d ↦{q} ei d) ∗ ∃ f, sctOut d ↦[rowSet L]{fullShare} f)
        ∗ scopedBufs (V d (cV L) (jV L)) ∗ scopedSems0 (V d (cV L) (jV L)) ∗ owes (V d (cV L) (jV L)) O W) : sProp (MM F))
      ⊢ wp frame (wpE (defs₀ (F := F)) 𝒱₀ (V d (cV L) (jV L)) none) Set.univ
          (cc5__sc_scatter L vW (Memref.isWhole_whole _) eW (Memref.isWhole_whole _) oW (Memref.isWhole_whole _)
            s0W (Memref.isWhole_whole _) s1W (Memref.isWhole_whole _) s2W (Memref.isWhole_whole _) cc5_scoped0 cc5_scoped1 cc5_scoped2)
          fun _ => iprop(((valLoc d ↦{q} vals d) ∗ (eiLoc d ↦{q} ei d) ∗ sctOut d ↦[rowSet L]{fullShare} val2 vals ei d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc5__sc_scatter_eq_skeleton]; unfold cc5__sc_scatter_skel
  rw [(K (F := F)).scopedBufs_V (Ix := HIx 4) (Name := ℕ) (U := UU) (Lvl := ℕ) (Val := Elt F) hF d (cV L) (jV L),
    SparseCore.Cfg.scopedSems0_V (Ix := HIx 4) (Name := ℕ) (U := UU) (Lvl := ℕ) (Val := Elt F) d (cV L) (jV L), ownSems0_V, ownBufs_V]
  iintro ⟨#Hlv, ⟨Hv, He, ⟨%fo, Ho⟩⟩, ⟨⟨%f0, Hs0⟩, ⟨%f1, Hs1⟩, ⟨%f2, Hs2⟩, Hbufs⟩, ⟨Hsem0, Hsem1, Hsem2, Hsems⟩, HO⟩
  ihave Hmw := ((K (F := F)).mayWaits_none (thr := V d (cV L) (jV L)) hO) $$ Hlv
  ihave Hv' := (Entails.of_eq (pts_v (F := F) d L q _).symm) $$ Hv
  ihave He' := (Entails.of_eq (pts_e (F := F) d L q _).symm) $$ He
  ihave Ho' := (Entails.of_eq (pts_o (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  sl_exec
  ihave Hs0 := (Entails.of_eq (s0_landed (F := F) d L _ _)) $$ Hs0'
  ihave Hs1 := (Entails.of_eq (s1_landed (F := F) d L _ _)) $$ Hs1'
  sl_for (inv1 (F := F) d L) $$ [Hs2']
  case region =>
    intro k _
    unfold inv1
    iintro ⟨%g, %hg, Hs2⟩
    delta tile_body.sl.prog.body_1
    simp only [k5_t1_body, Prog.lift, Prog.bind_op, Prog.bind_ret, Prog.pure_eq_ret]
    iapply (wp_load 𝒱₀ (V d (cV L) (jV L)) none Set.univ (m := s2W) (S := Finset.univ) (Finset.subset_univ _)) $$ Hs2; iintro Hs2
    ihave Hs2a := (Entails.of_eq (pts_s2_acc (F := F) d L (zRect k) _).symm) $$ Hs2
    iapply (wp_store 𝒱₀ (V d (cV L) (jV L)) none Set.univ (m := s2W) (r := zRect k) (Mk := Finset.univ) (S := Finset.univ) (Finset.subset_univ _)) $$ Hs2a; iintro Hs2a
    rw [wp_ret]; imodintro
    iexists _; isplitr
    · ipureintro; exact zero_step (F := F) d L k g hg
    · iapply (Entails.of_eq (pts_s2_acc (F := F) d L (zRect k) _)); iexact Hs2a
  · unfold inv1
    iexists f2; isplitr
    · ipureintro; intro j hj; omega
    · iexact Hs2'
  iintro %_ HI
  unfold inv1
  icases HI with ⟨%g, %hg, Hs2⟩
  obtain rfl : g = zeroV (F := F) := funext fun (j : S10000.Idx) => hg j (by
    have h : Scf.trips k5_t1_loop.lb k5_t1_loop.ub k5_t1_loop.st = 625 := trips1
    rw [h]; exact (j 0).isLt)
  sl_for (inv2 vals ei d L) $$ [Hs0 Hs1 Hs2]
  case region =>
    intro k _
    unfold inv2
    iintro ⟨Hs0, Hs1, Hs2⟩
    delta tile_body.sl.prog.body_2
    simp only [k5_t2_body, Prog.lift, Prog.bind_op, Prog.bind_ret, Prog.pure_eq_ret]
    iapply (wp_load 𝒱₀ (V d (cV L) (jV L)) none Set.univ (m := s1W) (S := Finset.univ) (Finset.subset_univ _)) $$ Hs1; iintro Hs1
    iapply (wp_assume 𝒱₀ (V d (cV L) (jV L)) none Set.univ (chk1_of ei hrange d L k))
    iapply (wp_load 𝒱₀ (V d (cV L) (jV L)) none Set.univ (m := s1W) (S := Finset.univ) (Finset.subset_univ _)) $$ Hs1; iintro Hs1
    iapply (wp_assume 𝒱₀ (V d (cV L) (jV L)) none Set.univ (chk2_of ei hrange d L k))
    ihave Hs0a := (Entails.of_eq (pts_s0_acc (F := F) d L _).symm) $$ Hs0
    iapply (SparseCore.wp_vectorLoadIdx 𝒱₀ (V d (cV L) (jV L)) none Set.univ (base := s0W) (S := Finset.univ) (q := fullShare) (Finset.subset_univ _)) $$ Hs0a; iintro Hs0a
    ihave Hs2a := (Entails.of_eq (pts_s2_accset (F := F) d L _).symm) $$ Hs2
    iapply (SparseCore.wp_vectorStoreIdx 𝒱₀ (V d (cV L) (jV L)) none Set.univ (base := s2W)) $$ Hs2a; iintro Hs2a
    rw [wp_ret]; imodintro
    isplitl [Hs0a]; · iapply (Entails.of_eq (pts_s0_acc (F := F) d L _)); iexact Hs0a
    isplitl [Hs1]; · iexact Hs1
    irw [← acc_step vals ei d L k (chk1_of ei hrange d L k) (chk2_of ei hrange d L k)]
    iapply (Entails.of_eq (pts_s2_accset (F := F) d L _))
    iexact Hs2a
  · unfold inv2
    isplitl [Hs0]; · iexact Hs0
    isplitl [Hs1]; · iexact Hs1
    iexact Hs2
  iintro %_ HI
  unfold inv2
  icases HI with ⟨Hs0, Hs1, Hs2⟩
  sl_exec
  rw [wp_ret]; imodintro
  isplitl [Hv' He' Ho']
  · isplitl [Hv']; · iapply (Entails.of_eq (pts_v (F := F) d L q _)); iexact Hv'
    isplitl [He']; · iapply (Entails.of_eq (pts_e (F := F) d L q _)); iexact He'
    ihave Ho2 := (Entails.of_eq (pts_o (F := F) d L _)) $$ Ho'
    ihave Ho3 := (Entails.of_eq (pointsTo_congr (out_row vals ei d L fo _ rfl))) $$ Ho2
    iexact Ho3
  isplitl [Hs0 Hs1 Hs2 Hbufs]
  · isplitl [Hs0]; · iexists _; iapply (Entails.of_eq (pts_s0 (F := F) d L _)); iexact Hs0
    isplitl [Hs1]; · iexists _; iapply (Entails.of_eq (pts_s1 (F := F) d L _)); iexact Hs1
    isplitl [Hs2]; · iexists _; iapply (Entails.of_eq (pts_s2 (F := F) d L _)); iexact Hs2
    iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc5_scoped2.sem, none) (insert (SemLoc.dma cc5_scoped1.sem, none) (insert (SemLoc.dma cc5_scoped0.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

end Tile

section Iface

variable (vals : (d : Dev nD) → Buf (Elt F) (valLoc d)) (ei : (d : Dev nD) → Buf (Elt F) (eiLoc d))
variable (hrange : ∀ (d : Dev nD) (j : S2x320000.Idx), (ei d j : BitVec 32).toNat < 10000)
variable [FloatOps F]

theorem defs₀_vector (c : Fin τ.nSC) (s : Fin τ.nSub) :
    defs₀ (F := F) (.scVector c s) 5 ()
      = SparseCore.onTile hcore5 hsub5 (fun c s => cc5__sc_scatter (coordsV c s)
          vW (Memref.isWhole_whole _) eW (Memref.isWhole_whole _) oW (Memref.isWhole_whole _)
          s0W (Memref.isWhole_whole _) s1W (Memref.isWhole_whole _) s2W (Memref.isWhole_whole _) cc5_scoped0 cc5_scoped1 cc5_scoped2) ⟨⟩ c s := rfl

omit [FloatOps F] in
theorem obl_post {thr : Thread nD τ} {A B C : sProp (MM F)} {O : CellTallies nD τ sig (HIx 4)} {W : Waits sig (HIx 4)} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some qI⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

include hrange in
theorem tile2 (d : Dev nD) (c : Fin ((K (F := F)).nCore qI)) (i : Fin ((K (F := F)).nSub qI))
    (O : CellTallies nD τ sig (HIx 4)) (W : Waits sig (HIx 4)) (hO : ∀ g, O g none = 0) :
    iprop(levAts (K (F := F)).L (K (F := F)).lev ∗ go2 vals ei d c i
        ∗ scopedBufs (V d ((K (F := F)).core qI c) ((K (F := F)).sub qI i)) ∗ scopedSems0 (V d ((K (F := F)).core qI c) ((K (F := F)).sub qI i))
        ∗ owes (V d ((K (F := F)).core qI c) ((K (F := F)).sub qI i)) O W)
      ⊢ wp frame (wpE (D (F := F)) 𝒱 (V d ((K (F := F)).core qI c) ((K (F := F)).sub qI i)) (some v₀)) Set.univ
          (D (F := F) (.scVector ((K (F := F)).core qI c) ((K (F := F)).sub qI i)) ((K (F := F)).body qI) ((K (F := F)).args qI)) fun _ =>
            iprop(td2 vals ei d c i ∗ scopedBufs (V d ((K (F := F)).core qI c) ((K (F := F)).sub qI i)) ∗ scopedSems0 (V d ((K (F := F)).core qI c) ((K (F := F)).sub qI i))
              ∗ ∃ W', ⌜∀ p ∈ W', p ∈ W ∨ p.2 = none ∨ p.2 = some qI⌝ ∗ owes (V d ((K (F := F)).core qI c) ((K (F := F)).sub qI i)) O W') := by
  change _ ⊢ wp _ _ _ (Pipeline.liftProg (defs₀ (F := F) (.scVector ((K (F := F)).core qI c) ((K (F := F)).sub qI i)) 5 ())) _
  refine BI.Entails.trans ?_ (Pipeline.wp_liftProg (D (F := F)) (Pipeline.defs_kernel pcfgs defs₀) 𝒱₀ _ Set.univ none _ _)
  have hc : ((K (F := F)).core qI c).val < grid5.bound 0 ∧ ((K (F := F)).sub qI i).val < grid5.bound 1 := ⟨c.isLt, i.isLt⟩
  rw [defs₀_vector]; simp only [SparseCore.onTile, hc, and_self, ↓reduceDIte]
  unfold go2 td2
  exact (tile_body vals ei hrange d (LL (F := F) c i) facts (shT (F := F) c i) O W hO).trans (wp_mono frame _ _ fun _ => obl_post)

theorem split2 (d : Dev nD) (c : Fin ((K (F := F)).nCore qI)) :
    st2 vals ei d c ⊢ |={Set.univ}=> iprop((bigSep Finset.univ fun i : Fin ((K (F := F)).nSub qI) => go2 vals ei d c i)
      ∗ ((bigSep Finset.univ fun i : Fin ((K (F := F)).nSub qI) => td2 vals ei d c i) -∗ dn2 vals ei d c)) := by
  unfold st2 go2 td2 dn2
  rw [bigSep_sep', bigSep_sep', bigSep_sep', bigSep_sep']
  iintro ⟨Hv, He, Ho⟩
  ihave Hv2 := (Transfers.pointsTo_toks_split (shC (F := F) c) ((K (F := F)).nSub qI)) $$ Hv
  icases Hv2 with ⟨Hvd, Hvt⟩
  ihave He2 := (Transfers.pointsTo_toks_split (shC (F := F) c) ((K (F := F)).nSub qI)) $$ He
  icases He2 with ⟨Hed, Het⟩
  imodintro
  isplitl [Hvt Het Ho]
  · isplitl [Hvt]; · iexact Hvt
    isplitl [Het]; · iexact Het
    iexact Ho
  iintro ⟨Hvt, Het, Ho⟩
  isplitl [Hvd Hvt]
  · iapply (Transfers.pointsTo_toks_join (shC (F := F) c) ((K (F := F)).nSub qI))
    isplitl [Hvd]; · iexact Hvd
    iexact Hvt
  isplitl [Hed Het]
  · iapply (Transfers.pointsTo_toks_join (shC (F := F) c) ((K (F := F)).nSub qI))
    isplitl [Hed]; · iexact Hed
    iexact Het
  iexact Ho

omit [FloatOps F] in
theorem mem_rowSet (L : grid5.Coords) (j : S32x10000.Idx) : j ∈ rowSet L ↔ (j 0).val = 2 * (L 1).val + (L 0).val := by
  have h0 : k5_off5 L 0 = 2 * (L 1).val + (L 0).val := by rw [k5_off5_eq]; rfl
  have h1 : k5_off5 L 1 = 0 := by rw [k5_off5_eq]; rfl
  have hs : rowSet L = (Rect.unit (s := S32x10000) (k5_off5 L) S1x10000.size (k5_off5_inb L)).set := by
    show (((oW).view.slice (Rect.unit (s := S32x10000) (k5_off5 L) S1x10000.size (k5_off5_inb L))).reshape S10000 squeezes_S1x10000_S10000.numel_eq).set = _
    rw [View.set_reshape]; exact View.set_slice_whole _ _
  rw [hs, Rect.mem_set_unit]
  constructor
  · intro h
    have := h 0
    change k5_off5 L 0 ≤ (j 0).val ∧ (j 0).val < k5_off5 L 0 + 1 at this
    omega
  · intro h a
    match a with
    | ⟨0, _⟩ =>
      show k5_off5 L 0 ≤ (j 0).val ∧ (j 0).val < k5_off5 L 0 + 1
      omega
    | ⟨1, _⟩ =>
      have := (j 1).isLt
      show k5_off5 L 1 ≤ (j 1).val ∧ (j 1).val < k5_off5 L 1 + 10000
      change (j 1).val < 10000 at this
      omega

omit [FloatOps F] in
theorem rows_disjoint : ∀ t ∈ (Finset.univ : Finset (Fin ((K (F := F)).nCore qI) × Fin ((K (F := F)).nSub qI))), ∀ t' ∈ (Finset.univ : Finset (Fin ((K (F := F)).nCore qI) × Fin ((K (F := F)).nSub qI))),
    t ≠ t' → Disjoint (rowSet (LL (F := F) t.1 t.2)) (rowSet (LL (F := F) t'.1 t'.2)) := by
  intro t _ t' _ hne
  refine Finset.disjoint_left.mpr fun j hj hj' => hne ?_
  rw [mem_rowSet] at hj hj'
  have a0 : ((LL (F := F) t.1 t.2) 0).val = t.1.val := rfl
  have a1 : ((LL (F := F) t.1 t.2) 1).val = t.2.val := rfl
  have b0 : ((LL (F := F) t'.1 t'.2) 0).val = t'.1.val := rfl
  have b1 : ((LL (F := F) t'.1 t'.2) 1).val = t'.2.val := rfl
  have c0 : t.1.val < 2 := lt_of_lt_of_eq t.1.isLt (nCore_eq qI)
  have c0' : t'.1.val < 2 := lt_of_lt_of_eq t'.1.isLt (nCore_eq qI)
  rw [a0, a1] at hj; rw [b0, b1] at hj'
  exact Prod.ext (Fin.ext (by omega)) (Fin.ext (by omega))

omit [FloatOps F] in
theorem rows_cover : (Finset.univ : Finset (Fin ((K (F := F)).nCore qI) × Fin ((K (F := F)).nSub qI))).biUnion (fun t => rowSet (LL (F := F) t.1 t.2)) = Finset.univ := by
  refine Finset.eq_univ_iff_forall.mpr fun j => Finset.mem_biUnion.mpr ?_
  have hj : (j 0).val < 32 := (j 0).isLt
  refine ⟨(⟨(j 0).val % 2, by rw [nCore_eq]; omega⟩, ⟨(j 0).val / 2, by rw [nSub_eq]; omega⟩), Finset.mem_univ _, ?_⟩
  rw [mem_rowSet]
  show (j 0).val = 2 * ((j 0).val / 2) + (j 0).val % 2
  omega

omit [FloatOps F] in
theorem out_rows (d : Dev nD) (f : Buf (Elt F) (sctOut d)) :
    (sctOut d ↦{fullShare} f : sProp (MM F))
      = bigSep Finset.univ fun c : Fin ((K (F := F)).nCore qI) => bigSep Finset.univ fun i : Fin ((K (F := F)).nSub qI) =>
          sctOut d ↦[rowSet (LL (F := F) c i)]{fullShare} f := by
  have h : (sctOut d ↦[(Finset.univ : Finset (Fin ((K (F := F)).nCore qI) × Fin ((K (F := F)).nSub qI))).biUnion fun t => rowSet (LL (F := F) t.1 t.2)]{fullShare} f : sProp (MM F)) = _ :=
    pointsTo_biUnion (ℓ := sctOut d) Finset.univ (fun t : Fin ((K (F := F)).nCore qI) × Fin ((K (F := F)).nSub qI) => rowSet (LL (F := F) t.1 t.2)) (rows_disjoint (F := F))
  rw [rows_cover] at h
  exact h.trans (bigSep_univ_prod _)

omit [FloatOps F] in
theorem rows_ex (d : Dev nD) (f : Buf (Elt F) (sctOut d)) :
    (bigSep Finset.univ fun c : Fin ((K (F := F)).nCore qI) => bigSep Finset.univ fun i : Fin ((K (F := F)).nSub qI) =>
        (sctOut d ↦[rowSet (LL (F := F) c i)]{fullShare} f : sProp (MM F)))
      ⊢ bigSep Finset.univ fun c : Fin ((K (F := F)).nCore qI) => bigSep Finset.univ fun i : Fin ((K (F := F)).nSub qI) =>
        iprop(∃ f, sctOut d ↦[rowSet (LL (F := F) c i)]{fullShare} f) :=
  bigSep_mono fun c _ => bigSep_mono fun i _ => exists_intro (Φ := fun f => (sctOut d ↦[rowSet (LL (F := F) c i)]{fullShare} f : sProp (MM F))) f

theorem call2 (d : Dev nD) :
    iprop((valLoc d ↦{fullShare} vals d) ∗ (eiLoc d ↦{fullShare} ei d) ∗ ∃ f, sctOut d ↦{fullShare} f)
      ⊢ |={Set.univ}=> iprop((bigSep Finset.univ fun c : Fin ((K (F := F)).nCore qI) => st2 vals ei d c)
        ∗ ((bigSep Finset.univ fun c : Fin ((K (F := F)).nCore qI) => dn2 vals ei d c)
          -∗ iprop((valLoc d ↦{fullShare} vals d) ∗ (eiLoc d ↦{fullShare} ei d) ∗ sctOut d ↦{fullShare} val2 vals ei d))) := by
  unfold st2 dn2
  rw [bigSep_sep', bigSep_sep', bigSep_sep', bigSep_sep']
  iintro ⟨Hv, He, %f, Ho⟩
  ihave Hv2 := (Transfers.pointsTo_toks_split fullShare ((K (F := F)).nCore qI)) $$ Hv
  icases Hv2 with ⟨Hvd, Hvt⟩
  ihave He2 := (Transfers.pointsTo_toks_split fullShare ((K (F := F)).nCore qI)) $$ He
  icases He2 with ⟨Hed, Het⟩
  ihave Ho2 := (Entails.of_eq (out_rows (F := F) d f)) $$ Ho
  imodintro
  isplitl [Hvt Het Ho2]
  · isplitl [Hvt]; · iexact Hvt
    isplitl [Het]; · iexact Het
    iapply (rows_ex (F := F) d f)
    iexact Ho2
  iintro ⟨Hvt, Het, Ho⟩
  isplitl [Hvd Hvt]
  · iapply (Transfers.pointsTo_toks_join fullShare ((K (F := F)).nCore qI))
    isplitl [Hvd]; · iexact Hvd
    iexact Hvt
  isplitl [Hed Het]
  · iapply (Transfers.pointsTo_toks_join fullShare ((K (F := F)).nCore qI))
    isplitl [Hed]; · iexact Hed
    iexact Het
  iapply (Entails.of_eq (out_rows (F := F) d (val2 vals ei d)).symm)
  iexact Ho

end Iface

end Cert.KernelIdeal.Hand.Tile2

end
-- ==== Proof.HandKernelIdeal.Tile3.lean ====
import proofs.«211345_g12773232738731_cont_fleet_1243_15_alg».proof.Proof.HandKernelIdeal.Common
import Idealize.ShloMosaic.Lib.ValueLayout
import Idealize.ShloMosaic.Lib.Writes

noncomputable section

namespace Cert.KernelIdeal.Hand.Tile3

open Cert.KernelIdeal Cert.KernelIdeal.Gen Cert.KernelIdeal.Hand

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.ValueIdx (ix1 ix2 eq_ix1 eq_ix2 shapeCast_1a_a_apply)

variable {F : FTy → Type} [FloatOps F]

abbrev svLoc (d : Dev nD) : Loc nD τ sig := (SparseCore.T d : Thread nD τ).loc main_v20
abbrev peLoc (d : Dev nD) : Loc nD τ sig := (SparseCore.T d : Thread nD τ).loc main_v19
abbrev pgOut (d : Dev nD) : Loc nD τ sig := (SparseCore.T d : Thread nD τ).loc main_v21

def valAt (svf : S10000.Idx → Elt F .f32) (pef : S2x200064.Idx → BitVec 32) (n : Fin 200000) : Elt F .f32 :=
  if h : (pef (ix2 (0 : Fin 2) (⟨n.val, Nat.lt_trans n.isLt (by decide)⟩ : Fin 200064))).toNat < 10000
      ∧ (pef (ix2 (1 : Fin 2) (⟨n.val, Nat.lt_trans n.isLt (by decide)⟩ : Fin 200064))).toNat < 10000 then
    (FloatOps.mulf (φ := .f32) (svf (ix1 ⟨_, h.1⟩)) (svf (ix1 ⟨_, h.2⟩)) : F .f32)
  else svf (ix1 (⟨0, by decide⟩ : Fin 10000))

def valN (svf : S10000.Idx → Elt F .f32) (pef : S2x200064.Idx → BitVec 32) (n : ℕ) : Elt F .f32 :=
  if h : n < 200000 then valAt (F := F) svf pef ⟨n, h⟩ else svf (ix1 (⟨0, by decide⟩ : Fin 10000))

variable (sv : (d : Dev nD) → Buf (Elt F) (svLoc d)) (pe : (d : Dev nD) → Buf (Elt F) (peLoc d))

def val3 (d : Dev nD) : Buf (Elt F) (pgOut d) := fun (p : S200000.Idx) => valAt (F := F) (sv d) (pe d) (p 0)

def coordsV (c : Fin (grid7.bound 0)) (s : Fin (grid7.bound 1)) : grid7.Coords :=
  fun | 0 => c | 1 => s | ⟨_ + 2, h⟩ => absurd h (Nat.not_lt.2 (Nat.le_add_left _ _))

def LL (c : Fin ((K (F := F)).nCore 3)) (i : Fin ((K (F := F)).nSub 3)) : grid7.Coords :=
  coordsV ⟨c.val, c.isLt⟩ ⟨i.val, i.isLt⟩

abbrev qC (c : ℕ) : PosShare TreeShare := shareTokN fullShare c
abbrev qT (c i : ℕ) : PosShare TreeShare := shareTokN (qC c) i

abbrev sV : Memref sig .scVector .hbm S10000 .f32 := Memref.whole main_v20_scv
abbrev pV : Memref sig .scVector .hbm S2x200064 .i32 := Memref.whole main_v19_scv
abbrev oV : Memref sig .scVector .hbm S200000 .f32 := Memref.whole main_v21_scv

abbrev outA (L : grid7.Coords) : Memref sig .scVector .hbm S6064 .f32 :=
  (oV).slice (Rect.unit (s := S200000) (k7_off9 L) S6064.size (k7_off9_inb L)) (fun _ => rfl)
abbrev outB (L : grid7.Coords) (h : k7_cond4 L = 1#1) : Memref sig .scVector .hbm S192 .f32 :=
  (oV).slice (Rect.unit (s := S200000) (k7_off10 L) S192.size (k7_off10_inb L h)) (fun _ => rfl)

abbrev setA (L : grid7.Coords) : Finset S200000.Idx := (outA L).view.set
def setB (L : grid7.Coords) : Finset S200000.Idx := if h : k7_cond4 L = 1#1 then (outB L h).view.set else ∅
def tileSet (L : grid7.Coords) : Finset S200000.Idx := setA L ∪ setB L
def coreSet (c : Fin ((K (F := F)).nCore 3)) : Finset S200000.Idx :=
  (Finset.univ : Finset (Fin ((K (F := F)).nSub 3))).biUnion fun i => tileSet (LL (F := F) c i)

def outRes (d : Dev nD) (L : grid7.Coords) (f : Buf (Elt F) (pgOut d)) : sProp (MM F) :=
  iprop((pgOut d ↦[setA L]{fullShare} f) ∗ pgOut d ↦[setB L]{fullShare} f)

def st3 (d : Dev nD) (c : Fin ((K (F := F)).nCore 3)) : sProp (MM F) :=
  iprop((svLoc d ↦{qC c.val} sv d) ∗ (peLoc d ↦{qC c.val} pe d) ∗ ∃ f, pgOut d ↦[coreSet (F := F) c]{fullShare} f)
def dn3 (d : Dev nD) (c : Fin ((K (F := F)).nCore 3)) : sProp (MM F) :=
  iprop((svLoc d ↦{qC c.val} sv d) ∗ (peLoc d ↦{qC c.val} pe d) ∗ pgOut d ↦[coreSet (F := F) c]{fullShare} val3 sv pe d)
def go3 (d : Dev nD) (c : Fin ((K (F := F)).nCore 3)) (i : Fin ((K (F := F)).nSub 3)) : sProp (MM F) :=
  iprop((svLoc d ↦{qT c.val i.val} sv d) ∗ (peLoc d ↦{qT c.val i.val} pe d) ∗ ∃ f, outRes d (LL (F := F) c i) f)
def td3 (d : Dev nD) (c : Fin ((K (F := F)).nCore 3)) (i : Fin ((K (F := F)).nSub 3)) : sProp (MM F) :=
  iprop((svLoc d ↦{qT c.val i.val} sv d) ∗ (peLoc d ↦{qT c.val i.val} pe d) ∗ outRes d (LL (F := F) c i) (val3 sv pe d))

instance st3_storable (d : Dev nD) (c : Fin ((K (F := F)).nCore 3)) : BI.Storable (upEmb : UEmb _ (MM F)) (st3 sv pe d c) := by
  unfold st3; infer_instance
instance dn3_storable (d : Dev nD) (c : Fin ((K (F := F)).nCore 3)) : BI.Storable (upEmb : UEmb _ (MM F)) (dn3 sv pe d c) := by
  unfold dn3; infer_instance
instance go3_storable (d : Dev nD) (c : Fin ((K (F := F)).nCore 3)) (i : Fin ((K (F := F)).nSub 3)) :
    BI.Storable (upEmb : UEmb _ (MM F)) (go3 sv pe d c i) := by
  unfold go3 outRes; infer_instance
instance td3_storable (d : Dev nD) (c : Fin ((K (F := F)).nCore 3)) (i : Fin ((K (F := F)).nSub 3)) :
    BI.Storable (upEmb : UEmb _ (MM F)) (td3 sv pe d c i) := by
  unfold td3 outRes; infer_instance

theorem cond1_eq : ∀ L : grid7.Coords, k7_cond1 L = k7_cond4 L := by decide +kernel
theorem cond3_eq : ∀ L : grid7.Coords, k7_cond3 L = k7_cond4 L := by decide +kernel
theorem cond2_iff : ∀ L : grid7.Coords, (k7_cond2 L = 1#1) ↔ ¬ (k7_cond4 L = 1#1) := by decide +kernel
theorem cond4_iff : ∀ L : grid7.Coords, (k7_cond4 L = 1#1) ↔ 2 * (L 1).val + (L 0).val < 31 := by decide +kernel

def start (L : grid7.Coords) : ℕ := 12512 * (L 1).val + 6256 * (L 0).val

theorem start_le (L : grid7.Coords) : start L + 6064 ≤ 200000 := by
  have h0 : (L 0).val < 2 := (L 0).isLt
  have h1 : (L 1).val < 16 := (L 1).isLt
  unfold start; omega

theorem start_le' (L : grid7.Coords) (h : k7_cond4 L = 1#1) : start L + 6256 ≤ 200000 := by
  have h' := (cond4_iff L).mp h
  unfold start; omega

theorem k7_off1_eq : ∀ L : grid7.Coords, k7_off1 L = ![0, start L - start L % 128] := by decide +kernel
theorem k7_off2_eq : ∀ L : grid7.Coords, k7_off2 L = ![0, start L - start L % 128] := by decide +kernel

theorem valN_eq (svf : S10000.Idx → Elt F .f32) (pef : S2x200064.Idx → BitVec 32) (hr : ∀ j, (pef j).toNat < 10000)
    (n : ℕ) (hn : n < 200000) (j0 j1 : S2x200064.Idx) (i0 i1 : S10000.Idx)
    (h00 : (j0 0).val = 0) (h01 : (j0 1).val = n) (h10 : (j1 0).val = 1) (h11 : (j1 1).val = n)
    (hi0 : (i0 0).val = (pef j0).toNat) (hi1 : (i1 0).val = (pef j1).toNat) :
    valN (F := F) svf pef n = (FloatOps.mulf (φ := .f32) (svf i0) (svf i1) : F .f32) := by
  have e0 : j0 = ix2 (0 : Fin 2) (⟨n, Nat.lt_trans hn (by decide)⟩ : Fin 200064) := by
    funext a; match a with | ⟨0, _⟩ => exact Fin.ext h00 | ⟨1, _⟩ => exact Fin.ext h01
  have e1 : j1 = ix2 (1 : Fin 2) (⟨n, Nat.lt_trans hn (by decide)⟩ : Fin 200064) := by
    funext a; match a with | ⟨0, _⟩ => exact Fin.ext h10 | ⟨1, _⟩ => exact Fin.ext h11
  subst e0 e1
  unfold valN valAt
  rw [dif_pos hn, dif_pos ⟨hr _, hr _⟩]
  refine congrArg₂ _ (congrArg svf ?_) (congrArg svf ?_)
  · funext a; match a with | ⟨0, _⟩ => exact Fin.ext hi0.symm
  · funext a; match a with | ⟨0, _⟩ => exact Fin.ext hi1.symm

def accN (G : ℕ → Elt F .f32) (f2 : S6256.Idx → Elt F .f32) (n : ℕ) : S6256.Idx → Elt F .f32 :=
  fun y => if (y 0).val < n then G (y 0).val else f2 y

section Tile

variable (d : Dev nD) (L : grid7.Coords)

abbrev cV (L : grid7.Coords) : Fin τ.nSC := (L 0).castLE hcore7
abbrev jV (L : grid7.Coords) : Fin τ.nSub := (L 1).castLE hsub7

abbrev s0 : Memref sig .scVector .vmem S10000 .f32 := Memref.whole cc7_scratch0
abbrev s1 : Memref sig .scVector .vmem S2x6400 .i32 := Memref.whole cc7_scratch1
abbrev s2 : Memref sig .scVector .vmem S6256 .f32 := Memref.whole cc7_scratch2

abbrev cell0 (d : Dev nD) (L : grid7.Coords) : GSem nD τ sig := (V d (cV L) (jV L), .dma cc7_scoped0.sem)
abbrev cell1 (d : Dev nD) (L : grid7.Coords) : GSem nD τ sig := (V d (cV L) (jV L), .dma cc7_scoped1.sem)
abbrev cell2 (d : Dev nD) (L : grid7.Coords) : GSem nD τ sig := (V d (cV L) (jV L), .dma cc7_scoped2.sem)
abbrev cell3 (d : Dev nD) (L : grid7.Coords) : GSem nD τ sig := (V d (cV L) (jV L), .dma cc7_scoped3.sem)
abbrev cell4 (d : Dev nD) (L : grid7.Coords) : GSem nD τ sig := (V d (cV L) (jV L), .dma cc7_scoped4.sem)

omit [FloatOps F] in
theorem ownSems0_V :
    (ownSems0 (V d (cV L) (jV L)) : sProp (MM F))
      = iprop(semVal (cell0 d L) 0 ∗ semVal (cell1 d L) 0 ∗ semVal (cell2 d L) 0 ∗ semVal (cell3 d L) 0 ∗ semVal (cell4 d L) 0
          ∗ bigSep ((((((ownCells (V d (cV L) (jV L))).erase (cell0 d L)).erase (cell1 d L)).erase (cell2 d L)).erase (cell3 d L)).erase (cell4 d L))
              fun g => semVal g 0) := by
  unfold SparseCore.Cfg.ownSems0
  have hm : ∀ (sm : DmaSem sig), (SemLoc.dma sm : SemLoc sig).isScoped .scVector = true →
      ((V d (cV L) (jV L), SemLoc.dma sm) : GSem nD τ sig) ∈ ownCells (V d (cV L) (jV L)) :=
    fun sm h => (mem_ownCells (g := (V d (cV L) (jV L), SemLoc.dma sm))).mpr ⟨rfl, h⟩
  have hne : ∀ {a b : DmaSem sig}, a ≠ b → ((V d (cV L) (jV L), SemLoc.dma a) : GSem nD τ sig) ≠ (V d (cV L) (jV L), SemLoc.dma b) :=
    fun h e => h (by injection (Prod.mk.inj e).2)
  rw [SparseCore.bigSep_erase' (hm cc7_scoped0.sem (by decide)),
    SparseCore.bigSep_erase' (Finset.mem_erase.mpr ⟨hne (by decide), hm cc7_scoped1.sem (by decide)⟩),
    SparseCore.bigSep_erase' (Finset.mem_erase.mpr ⟨hne (by decide), Finset.mem_erase.mpr ⟨hne (by decide), hm cc7_scoped2.sem (by decide)⟩⟩),
    SparseCore.bigSep_erase' (Finset.mem_erase.mpr ⟨hne (by decide), Finset.mem_erase.mpr ⟨hne (by decide),
      Finset.mem_erase.mpr ⟨hne (by decide), hm cc7_scoped3.sem (by decide)⟩⟩⟩),
    SparseCore.bigSep_erase' (Finset.mem_erase.mpr ⟨hne (by decide), Finset.mem_erase.mpr ⟨hne (by decide),
      Finset.mem_erase.mpr ⟨hne (by decide), Finset.mem_erase.mpr ⟨hne (by decide), hm cc7_scoped4.sem (by decide)⟩⟩⟩⟩)]

omit [FloatOps F] in
theorem ownBufs_V :
    (ownBufs (V d (cV L) (jV L)) : sProp (MM F))
      = iprop((∃ f, (V d (cV L) (jV L)).loc cc7_scratch0 ↦{fullShare} f) ∗ (∃ f, (V d (cV L) (jV L)).loc cc7_scratch1 ↦{fullShare} f)
          ∗ (∃ f, (V d (cV L) (jV L)).loc cc7_scratch2 ↦{fullShare} f)
          ∗ bigSep ((((ownRefs (τ := τ) (.scVector (cV L) (jV L))).erase ((Proc.scVector (cV L) (jV L)).devRef cc7_scratch0)).erase
              ((Proc.scVector (cV L) (jV L)).devRef cc7_scratch1)).erase ((Proc.scVector (cV L) (jV L)).devRef cc7_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc7_scratch0) rfl)).trans ?_
  rw [SparseCore.bigSep_erase' (Finset.mem_erase.mpr ⟨fun e => absurd (Proc.devRef_injective _ e) (show (cc7_scratch1 : Ref sig .scVector) ≠ cc7_scratch0 by decide),
    SparseCore.Cfg.mem_ownRefs_of_owner (p := Proc.scVector (cV L) (jV L)) (b := (Proc.scVector (cV L) (jV L)).devRef cc7_scratch1) rfl⟩),
    SparseCore.bigSep_erase' (Finset.mem_erase.mpr ⟨fun e => absurd (Proc.devRef_injective _ e) (show (cc7_scratch2 : Ref sig .scVector) ≠ cc7_scratch1 by decide),
      Finset.mem_erase.mpr ⟨fun e => absurd (Proc.devRef_injective _ e) (show (cc7_scratch2 : Ref sig .scVector) ≠ cc7_scratch0 by decide),
    SparseCore.Cfg.mem_ownRefs_of_owner (p := Proc.scVector (cV L) (jV L)) (b := (Proc.scVector (cV L) (jV L)).devRef cc7_scratch2) rfl⟩⟩)]

omit [FloatOps F] in
theorem pts_sV (q : PosShare TreeShare) (f : Buf (Elt F) (svLoc d)) :
    ((sV).view.loc (V d (cV L) (jV L)) ↦{q} f : sProp (MM F)) = svLoc d ↦{q} f := rfl
omit [FloatOps F] in
theorem pts_pV (q : PosShare TreeShare) (f : Buf (Elt F) (peLoc d)) :
    ((pV).view.loc (V d (cV L) (jV L)) ↦{q} f : sProp (MM F)) = peLoc d ↦{q} f := rfl
omit [FloatOps F] in
theorem pts_outA (f : Buf (Elt F) (pgOut d)) :
    ((outA L).view.loc (V d (cV L) (jV L)) ↦[(outA L).view.set]{fullShare} f : sProp (MM F)) = pgOut d ↦[setA L]{fullShare} f := rfl
omit [FloatOps F] in
theorem pts_outB (h : k7_cond4 L = 1#1) (f : Buf (Elt F) (pgOut d)) :
    ((outB L h).view.loc (V d (cV L) (jV L)) ↦[(outB L h).view.set]{fullShare} f : sProp (MM F)) = pgOut d ↦[setB L]{fullShare} f := by
  unfold setB; rw [dif_pos h]
omit [FloatOps F] in
theorem pts_s0 (f : Buf (Elt F) ((V d (cV L) (jV L)).loc cc7_scratch0)) :
    ((s0).view.loc (V d (cV L) (jV L)) ↦{fullShare} f : sProp (MM F)) = (V d (cV L) (jV L)).loc cc7_scratch0 ↦{fullShare} f := rfl
omit [FloatOps F] in
theorem pts_s1 (f : Buf (Elt F) ((V d (cV L) (jV L)).loc cc7_scratch1)) :
    ((s1).view.loc (V d (cV L) (jV L)) ↦{fullShare} f : sProp (MM F)) = (V d (cV L) (jV L)).loc cc7_scratch1 ↦{fullShare} f := rfl
omit [FloatOps F] in
theorem pts_s2 (f : Buf (Elt F) ((V d (cV L) (jV L)).loc cc7_scratch2)) :
    ((s2).view.loc (V d (cV L) (jV L)) ↦{fullShare} f : sProp (MM F)) = (V d (cV L) (jV L)).loc cc7_scratch2 ↦{fullShare} f := rfl

abbrev thr (d : Dev nD) (L : grid7.Coords) : Thread nD τ := V d (cV L) (jV L)

def ab (L : grid7.Coords) : ℕ := start L - start L % 128

def H0 (g0 : S10000.Idx → Elt F .f32) : Prop := ∀ n : S10000.Idx, ((s0).access (Rect.whole S10000)).read (Elt F) g0 n = sv d n
def H1 (ncols : ℕ) (g1 : S2x6400.Idx → BitVec 32) : Prop :=
  ∀ (j : S2x6400.Idx) (j' : S2x200064.Idx), (j 1).val < ncols → (j' 0).val = (j 0).val → (j' 1).val = ab L + (j 1).val → g1 j = pe d j'

omit [FloatOps F] in
theorem ld_row (g1 : S2x6400.Idx → BitVec 32) (off : Fin 2 → ℕ) (inb) (r c0 : ℕ) (hoff : off = ![r, c0]) (i : Fin 16) :
    ∃ j : S2x6400.Idx, (j 0).val = r ∧ (j 1).val = c0 + i.val ∧
      shapeCast S16 ((s1).view.readAt (Elt F) (Rect.unit (s := S2x6400) off S1x16.size inb).toLoadRect g1) shapeCasts_S1x16_S16 (ix1 i) = g1 j := by
  subst hoff
  refine ⟨(Rect.unit (s := S2x6400) ![r, c0] S1x16.size inb).toLoadRect.idx (ix2 (0 : Fin 1) i), ?_, ?_, ?_⟩
  · rw [LoadRect.idx_apply]; simp
  · rw [LoadRect.idx_apply]; simp
  · exact (shapeCast_1a_a_apply (a := 16) _ shapeCasts_S1x16_S16 i).trans rfl

omit [FloatOps F] in
theorem acc_step (G : ℕ → Elt F .f32) (f2 : S6256.Idx → Elt F .f32) (off : Fin 1 → ℕ) (inb) (n : ℕ) (hoff : off = ![n])
    (w : S16.Idx → Elt F .f32) (hw : ∀ i : Fin 16, w (ix1 i) = G (n + i.val)) :
    ((s2).access (Rect.unit (s := S6256) off S16.size inb)).write (Elt F) (accN G f2 n) w Finset.univ = accN G f2 (n + 16) := by
  subst hoff
  funext y
  by_cases hy : n ≤ (y 0).val ∧ (y 0).val < n + 16
  · have hx : (y 0).val - n < 16 := by omega
    have e : y = (Rect.unit (s := S6256) ![n] S16.size inb).emb (ix1 (⟨(y 0).val - n, hx⟩ : Fin 16)) := by
      funext a; match a with | ⟨0, _⟩ => apply Fin.ext; rw [Rect.emb_apply]; simp; omega
    have h1 := View.read_slice_write_emb (v := (s2).view) (Val := Elt F) (Rect.unit (s := S6256) ![n] S16.size inb) (accN G f2 n) w
      (M := Finset.univ) (x := ix1 (⟨(y 0).val - n, hx⟩ : Fin 16)) (Finset.mem_univ _)
    rw [← e, hw] at h1
    refine Eq.trans h1 ?_
    unfold accN; rw [if_pos (by omega)]; congr 1
    show n + ((y 0).val - n) = (y 0).val
    omega
  · have hm : y ∉ (Finset.univ : Finset (Rect.unit (s := S6256) ![n] S16.size inb).shape.Idx).map (Rect.unit (s := S6256) ![n] S16.size inb).emb := by
      intro hm; obtain ⟨x, -, hx⟩ := Finset.mem_map.mp hm
      apply hy
      have h1 := congrArg (fun z : S6256.Idx => (z 0).val) hx
      have h2 : (x 0).val < 16 := (x 0).isLt
      simp only [Rect.emb_apply] at h1
      simp at h1; omega
    refine Eq.trans (View.read_slice_write_of_not_mem (v := (s2).view) (Val := Elt F) (Rect.unit (s := S6256) ![n] S16.size inb) (accN G f2 n) w Finset.univ (y := y) hm) ?_
    show accN G f2 n y = accN G f2 (n + 16) y
    unfold accN
    by_cases h1 : (y 0).val < n
    · rw [if_pos h1, if_pos (by omega)]
    · rw [if_neg h1, if_neg (by omega)]

omit [FloatOps F] in
theorem H0_dma (f0 : S10000.Idx → Elt F .f32) :
    H0 sv d (View.write (Elt F) (s0).view f0 (ReadAs.same.apply (View.read (Elt F) (sV).view (sv d))) Finset.univ) := by
  intro n
  have hw : View.write (Elt F) (s0).view f0 (ReadAs.same.apply (View.read (Elt F) (sV).view (sv d))) Finset.univ
      = ReadAs.same.apply (View.read (Elt F) (sV).view (sv d)) := View.write_whole_univ cc7_scratch0 f0 _
  have e : ((s0).access (Rect.whole S10000)).emb n = n := by
    funext a; match a with
    | ⟨0, _⟩ =>
      apply Fin.ext
      show ((Rect.whole S10000).emb n ⟨0, by decide⟩ : ℕ) = _
      rw [Rect.emb_apply]; simp [Rect.whole]
  rw [hw, View.read_apply, e]; rfl

omit [FloatOps F] in
theorem H1_dma (f : S2x6400.Idx → BitVec 32) (ncols : ℕ) (sz : Fin 2 → ℕ) (hsz : sz = ![2, ncols]) (inbR) (off : Fin 2 → ℕ) (inbS) (hstS) (hoff : off = ![0, ab L]) :
    H1 pe d L ncols ((s1).view.writes (Elt F) f
      [⟨Rect.unit (s := S2x6400) ![0, 0] sz inbR,
        ReadAs.same.apply (View.read (Elt F) ((pV).slice (Rect.unit (s := S2x200064) off sz inbS) hstS).view (pe d))⟩]) := by
  subst hsz hoff
  intro j j' hc h0 h1
  have hj0 : (j 0).val < 2 := (j 0).isLt
  have e : j = (Rect.unit (s := S2x6400) ![0, 0] ![2, ncols] inbR).emb (ix2 (⟨(j 0).val, hj0⟩ : Fin 2) (⟨(j 1).val, hc⟩ : Fin ncols)) := by
    funext a; match a with
    | ⟨0, _⟩ => apply Fin.ext; rw [Rect.emb_apply]; simp
    | ⟨1, _⟩ => apply Fin.ext; rw [Rect.emb_apply]; simp
  have h2 := View.read_writes_cons_emb (v := (s1).view) (Val := Elt F) f (Rect.unit (s := S2x6400) ![0, 0] ![2, ncols] inbR)
    (ReadAs.same.apply (View.read (Elt F) ((pV).slice (Rect.unit (s := S2x200064) ![0, ab L] ![2, ncols] inbS) hstS).view (pe d))) []
    (ix2 (⟨(j 0).val, hj0⟩ : Fin 2) (⟨(j 1).val, hc⟩ : Fin ncols))
  rw [← e] at h2
  refine Eq.trans h2 ?_
  rw [ReadAs.apply_same, View.read_apply]
  have e' : ((pV).slice (Rect.unit (s := S2x200064) ![0, ab L] ![2, ncols] inbS) hstS).view.emb (ix2 (⟨(j 0).val, hj0⟩ : Fin 2) (⟨(j 1).val, hc⟩ : Fin ncols)) = j' := by
    funext a; match a with
    | ⟨0, _⟩ =>
      apply Fin.ext
      show ((Rect.unit (s := S2x200064) ![0, ab L] ![2, ncols] inbS).emb (ix2 (⟨(j 0).val, hj0⟩ : Fin 2) (⟨(j 1).val, hc⟩ : Fin ncols)) ⟨0, by decide⟩ : ℕ) = _
      rw [Rect.emb_apply]; simp; omega
    | ⟨1, _⟩ =>
      apply Fin.ext
      show ((Rect.unit (s := S2x200064) ![0, ab L] ![2, ncols] inbS).emb (ix2 (⟨(j 0).val, hj0⟩ : Fin 2) (⟨(j 1).val, hc⟩ : Fin ncols)) ⟨1, by decide⟩ : ℕ) = _
      rw [Rect.emb_apply]; simp; omega
  rw [e']; rfl

abbrev GG (t : ℕ) : Elt F .f32 := valN (F := F) (sv d) (pe d) (start L + t)

omit [FloatOps F] in
theorem chk_of (ncols : ℕ) (g1 : S2x6400.Idx → BitVec 32) (h1 : H1 pe d L ncols g1) (hr : ∀ j, (pe d j).toNat < 10000)
    (v : S16.Idx → BitVec 32) (r : ℕ) (hr2 : r < 2) (c0 : ℕ) (hc : c0 + 16 ≤ ncols) (hb : ab L + c0 + 16 ≤ 200064)
    (e : ∀ i : Fin 16, ∃ j : S2x6400.Idx, (j 0).val = r ∧ (j 1).val = c0 + i.val ∧ v (ix1 i) = g1 j) :
    ∀ a x, ((![v] : Fin 1 → IVec S16 32) a x).toNat < S10000.size a := by
  intro a x
  obtain rfl : a = 0 := Subsingleton.elim _ _
  show (v x).toNat < 10000
  have hx16 : (x 0).val < 16 := (x 0).isLt
  obtain ⟨j, hj0, hj1, ej⟩ := e (x 0)
  have hxe : v x = v (ix1 (x 0)) := congrArg v (eq_ix1 x)
  rw [hxe, ej, h1 j (ix2 (⟨r, hr2⟩ : Fin 2) (⟨ab L + (j 1).val, by omega⟩ : Fin 200064)) (by omega) (by simp [hj0]) (by simp)]
  exact hr _

theorem pay_val (ncols : ℕ) (g0 : S10000.Idx → Elt F .f32) (g1 : S2x6400.Idx → BitVec 32) (h0 : H0 sv d g0) (h1 : H1 pe d L ncols g1)
    (hr : ∀ j, (pe d j).toNat < 10000) (m : ℕ) (hm : start L % 128 + m + 16 ≤ ncols) (hm' : start L + m + 16 ≤ 200000)
    (v23 v26 : S16.Idx → BitVec 32)
    (e23 : ∀ i : Fin 16, ∃ j : S2x6400.Idx, (j 0).val = 0 ∧ (j 1).val = (start L % 128 + m) + i.val ∧ v23 (ix1 i) = g1 j)
    (e26 : ∀ i : Fin 16, ∃ j : S2x6400.Idx, (j 0).val = 1 ∧ (j 1).val = (start L % 128 + m) + i.val ∧ v26 (ix1 i) = g1 j)
    (hh1 : ∀ a x, ((![v23] : Fin 1 → IVec S16 32) a x).toNat < S10000.size a)
    (hh2 : ∀ a x, ((![v26] : Fin 1 → IVec S16 32) a x).toNat < S10000.size a) (i : Fin 16) :
    (FloatOps.mulf (φ := .f32) (loadIdx (((s0).access (Rect.whole S10000)).read (Elt F) g0) ![v23] hh1 (ix1 i))
        (loadIdx (((s0).access (Rect.whole S10000)).read (Elt F) g0) ![v26] hh2 (ix1 i)) : F .f32)
      = GG sv pe d L (m + i.val) := by
  obtain ⟨j0, hj00, hj01, ej0⟩ := e23 i
  obtain ⟨j1, hj10, hj11, ej1⟩ := e26 i
  have hi16 : i.val < 16 := i.isLt
  have hab : ab L + start L % 128 = start L := by unfold ab; omega
  have p0 : v23 (ix1 i) = pe d (ix2 (0 : Fin 2) (⟨start L + (m + i.val), by omega⟩ : Fin 200064)) := by
    rw [ej0]; exact h1 j0 _ (by omega) (by simp [hj00]) (by simp; omega)
  have p1 : v26 (ix1 i) = pe d (ix2 (1 : Fin 2) (⟨start L + (m + i.val), by omega⟩ : Fin 200064)) := by
    rw [ej1]; exact h1 j1 _ (by omega) (by simp [hj10]) (by simp; omega)
  unfold GG
  rw [valN_eq (F := F) (sv d) (pe d) hr (start L + (m + i.val)) (by omega)
    (ix2 (0 : Fin 2) (⟨start L + (m + i.val), by omega⟩ : Fin 200064)) (ix2 (1 : Fin 2) (⟨start L + (m + i.val), by omega⟩ : Fin 200064))
    (idxAt ![v23] hh1 (ix1 i)) (idxAt ![v26] hh2 (ix1 i)) rfl rfl rfl rfl
    (by show (v23 (ix1 i)).toNat = _; rw [p0]) (by show (v26 (ix1 i)).toNat = _; rw [p1])]
  unfold loadIdx
  rw [h0, h0]

def inv (ncols : ℕ) (f2 : S6256.Idx → Elt F .f32) (base : ℕ) (k : ℕ) (_ : Unit) : sProp (MM F) :=
  iprop(∃ (g0 : Buf (Elt F) ((thr d L).loc cc7_scratch0)) (g1 : Buf (Elt F) ((thr d L).loc cc7_scratch1)),
      ⌜H0 sv d g0⌝ ∗ ⌜H1 pe d L ncols g1⌝ ∗ ((s0).view.loc (thr d L) ↦{fullShare} g0) ∗ ((s1).view.loc (thr d L) ↦{fullShare} g1)
      ∗ ((s2).view.loc (thr d L) ↦{fullShare} accN (GG sv pe d L) f2 (base + 16 * k)))

omit [FloatOps F] in
theorem pts_s0_access (f : Buf (Elt F) ((thr d L).loc cc7_scratch0)) :
    (((s0).access (Rect.whole S10000)).loc (thr d L) ↦{fullShare} f : sProp (MM F)) = (s0).view.loc (thr d L) ↦{fullShare} f := rfl
omit [FloatOps F] in
theorem pts_s2_access (r : Rect S6256) (f : Buf (Elt F) ((thr d L).loc cc7_scratch2)) :
    (((s2).access r).loc (thr d L) ↦{fullShare} f : sProp (MM F)) = (s2).view.loc (thr d L) ↦{fullShare} f := rfl

set_option maxHeartbeats 2000000 in
theorem trip1 (ncols : ℕ) (hnc : start L % 128 + 6064 ≤ ncols) (hr : ∀ j, (pe d j).toNat < 10000) (f2 : S6256.Idx → Elt F .f32)
    (k : Fin k7_t1_loop.trips) (u : Unit) :
    inv sv pe d L ncols f2 0 k.val u ⊢ wp frame (wpE (defs₀ (F := F)) 𝒱₀ (thr d L) none) Set.univ
      (k7_t1_body L sV (Memref.isWhole_whole _) pV (Memref.isWhole_whole _) oV (Memref.isWhole_whole _)
        s0 (Memref.isWhole_whole _) s1 (Memref.isWhole_whole _) s2 (Memref.isWhole_whole _) cc7_scoped0 cc7_scoped1 cc7_scoped2 cc7_scoped3 cc7_scoped4 k u)
      (inv sv pe d L ncols f2 0 (k.val + 1)) := by
  have hk : k.val < 379 := Nat.lt_of_lt_of_le k.isLt k7_t1_abs.2.1
  have hs := start_le L
  have hab : ab L + start L % 128 = start L := by unfold ab; omega
  unfold inv k7_t1_body
  simp only [Prog.lift, Prog.bind_op, Prog.bind_ret, Prog.pure_eq_ret, Nat.zero_add]
  iintro ⟨%g0, %g1, %h0, %h1, Hs0, Hs1, Hs2⟩
  have e23 := fun i => ld_row (F := F) g1 (k7_off3 L k) (k7_off3_inb L k) 0 (start L % 128 + 16 * k.val) (by rw [k7_off3_eq]; rfl) i
  have e26 := fun i => ld_row (F := F) g1 (k7_off4 L k) (k7_off4_inb L k) 1 (start L % 128 + 16 * k.val) (by rw [k7_off4_eq]; rfl) i
  have c1 : k7_chk1 (shapeCast S16 ((s1).view.readAt (Elt F) (Rect.unit (s := S2x6400) (k7_off3 L k) S1x16.size (k7_off3_inb L k)).toLoadRect g1) shapeCasts_S1x16_S16) :=
    chk_of pe d L ncols g1 h1 hr _ 0 (by decide) (start L % 128 + 16 * k.val) (by omega) (by omega) e23
  have c2 : k7_chk2 (shapeCast S16 ((s1).view.readAt (Elt F) (Rect.unit (s := S2x6400) (k7_off4 L k) S1x16.size (k7_off4_inb L k)).toLoadRect g1) shapeCasts_S1x16_S16) :=
    chk_of pe d L ncols g1 h1 hr _ 1 (by decide) (start L % 128 + 16 * k.val) (by omega) (by omega) e26
  iapply (wp_load 𝒱₀ (thr d L) none Set.univ (m := s1) (S := Finset.univ) (Finset.subset_univ _)) $$ Hs1; iintro Hs1
  rw [wp_assume_of _ _ _ _ c1]
  iapply (wp_load 𝒱₀ (thr d L) none Set.univ (m := s1) (S := Finset.univ) (Finset.subset_univ _)) $$ Hs1; iintro Hs1
  rw [wp_assume_of _ _ _ _ c2]
  ihave Hs0a := (Entails.of_eq (pts_s0_access (F := F) d L _).symm) $$ Hs0
  iapply (SparseCore.wp_vectorLoadIdx 𝒱₀ (thr d L) none Set.univ (base := s0) (S := Finset.univ) (q := fullShare) (Finset.subset_univ _)) $$ Hs0a; iintro Hs0a
  iapply (SparseCore.wp_vectorLoadIdx 𝒱₀ (thr d L) none Set.univ (base := s0) (S := Finset.univ) (q := fullShare) (Finset.subset_univ _)) $$ Hs0a; iintro Hs0a
  iapply (wp_load 𝒱₀ (thr d L) none Set.univ (m := s2) (S := Finset.univ) (Finset.subset_univ _)) $$ Hs2; iintro Hs2
  ihave Hs2a := (Entails.of_eq (pts_s2_access (F := F) d L (Rect.unit (s := S6256) (k7_off5 k) S16.size (k7_off5_inb k)) _).symm) $$ Hs2
  iapply (wp_store 𝒱₀ (thr d L) none Set.univ (m := s2) (r := Rect.unit (s := S6256) (k7_off5 k) S16.size (k7_off5_inb k)) (Mk := Finset.univ) (S := Finset.univ) (Finset.subset_univ _)) $$ Hs2a; iintro Hs2a
  rw [wp_ret]; imodintro
  rw [acc_step (F := F) (GG sv pe d L) f2 (k7_off5 k) (k7_off5_inb k) (16 * k.val) (by rw [k7_off5_eq]) _
    (fun i => pay_val sv pe d L ncols g0 g1 h0 h1 hr (16 * k.val) (by omega) (by omega) _ _ e23 e26 (k7_idx1_inb _ c1) (k7_idx2_inb _ c2) i)]
  iexists g0, g1
  isplitr; · ipureintro; exact h0
  isplitr; · ipureintro; exact h1
  isplitl [Hs0a]; · iexact Hs0a
  isplitl [Hs1]; · iexact Hs1
  rw [show 16 * (k.val + 1) = 16 * k.val + 16 by omega]
  iexact Hs2a

set_option maxHeartbeats 2000000 in
theorem trip2 (k7_h3 : k7_cond3 L = 1#1) (hr : ∀ j, (pe d j).toNat < 10000) (f2 : S6256.Idx → Elt F .f32)
    (k : Fin k7_t2_loop.trips) (u : Unit) :
    inv sv pe d L 6400 f2 6064 k.val u ⊢ wp frame (wpE (defs₀ (F := F)) 𝒱₀ (thr d L) none) Set.univ
      (k7_t2_body L sV (Memref.isWhole_whole _) pV (Memref.isWhole_whole _) oV (Memref.isWhole_whole _)
        s0 (Memref.isWhole_whole _) s1 (Memref.isWhole_whole _) s2 (Memref.isWhole_whole _) cc7_scoped0 cc7_scoped1 cc7_scoped2 cc7_scoped3 cc7_scoped4 k7_h3 k u)
      (inv sv pe d L 6400 f2 6064 (k.val + 1)) := by
  have hk : k.val < 12 := Nat.lt_of_lt_of_le k.isLt k7_t2_abs.2.1
  have hs := start_le' L ((cond3_eq L).symm.trans k7_h3)
  have hab : ab L + start L % 128 = start L := by unfold ab; omega
  have hlead : start L % 128 < 128 := Nat.mod_lt _ (by decide)
  unfold inv k7_t2_body
  simp only [Prog.lift, Prog.bind_op, Prog.bind_ret, Prog.pure_eq_ret]
  iintro ⟨%g0, %g1, %h0, %h1, Hs0, Hs1, Hs2⟩
  have e24 := fun i => ld_row (F := F) g1 (k7_off6 L k) (k7_off6_inb L k k7_h3) 0 (start L % 128 + (6064 + 16 * k.val))
    (by rw [k7_off6_eq, show start L % 128 + (6064 + 16 * k.val) = (12512 * (L 1).val + 6256 * (L 0).val) % 128 + 16 * k.val + 6064 from by unfold start; omega]) i
  have e27 := fun i => ld_row (F := F) g1 (k7_off7 L k) (k7_off7_inb L k k7_h3) 1 (start L % 128 + (6064 + 16 * k.val))
    (by rw [k7_off7_eq, show start L % 128 + (6064 + 16 * k.val) = (12512 * (L 1).val + 6256 * (L 0).val) % 128 + 16 * k.val + 6064 from by unfold start; omega]) i
  have c3 : k7_chk3 L (shapeCast S16 ((s1).view.readAt (Elt F) (Rect.unit (s := S2x6400) (k7_off6 L k) S1x16.size (k7_off6_inb L k k7_h3)).toLoadRect g1) shapeCasts_S1x16_S16) :=
    fun _ => chk_of pe d L 6400 g1 h1 hr _ 0 (by decide) (start L % 128 + (6064 + 16 * k.val)) (by omega) (by omega) e24
  have c4 : k7_chk4 L (shapeCast S16 ((s1).view.readAt (Elt F) (Rect.unit (s := S2x6400) (k7_off7 L k) S1x16.size (k7_off7_inb L k k7_h3)).toLoadRect g1) shapeCasts_S1x16_S16) :=
    fun _ => chk_of pe d L 6400 g1 h1 hr _ 1 (by decide) (start L % 128 + (6064 + 16 * k.val)) (by omega) (by omega) e27
  iapply (wp_load 𝒱₀ (thr d L) none Set.univ (m := s1) (S := Finset.univ) (Finset.subset_univ _)) $$ Hs1; iintro Hs1
  rw [wp_assume_of _ _ _ _ c3]
  iapply (wp_load 𝒱₀ (thr d L) none Set.univ (m := s1) (S := Finset.univ) (Finset.subset_univ _)) $$ Hs1; iintro Hs1
  rw [wp_assume_of _ _ _ _ c4]
  ihave Hs0a := (Entails.of_eq (pts_s0_access (F := F) d L _).symm) $$ Hs0
  iapply (SparseCore.wp_vectorLoadIdx 𝒱₀ (thr d L) none Set.univ (base := s0) (S := Finset.univ) (q := fullShare) (Finset.subset_univ _)) $$ Hs0a; iintro Hs0a
  iapply (SparseCore.wp_vectorLoadIdx 𝒱₀ (thr d L) none Set.univ (base := s0) (S := Finset.univ) (q := fullShare) (Finset.subset_univ _)) $$ Hs0a; iintro Hs0a
  iapply (wp_load 𝒱₀ (thr d L) none Set.univ (m := s2) (S := Finset.univ) (Finset.subset_univ _)) $$ Hs2; iintro Hs2
  ihave Hs2a := (Entails.of_eq (pts_s2_access (F := F) d L (Rect.unit (s := S6256) (k7_off8 k) S16.size (k7_off8_inb L k k7_h3)) _).symm) $$ Hs2
  iapply (wp_store 𝒱₀ (thr d L) none Set.univ (m := s2) (r := Rect.unit (s := S6256) (k7_off8 k) S16.size (k7_off8_inb L k k7_h3)) (Mk := Finset.univ) (S := Finset.univ) (Finset.subset_univ _)) $$ Hs2a; iintro Hs2a
  rw [wp_ret]; imodintro
  rw [acc_step (F := F) (GG sv pe d L) f2 (k7_off8 k) (k7_off8_inb L k k7_h3) (6064 + 16 * k.val) (by rw [k7_off8_eq, Nat.add_comm]) _
    (fun i => pay_val sv pe d L 6400 g0 g1 h0 h1 hr (6064 + 16 * k.val) (by omega) (by omega) _ _ e24 e27
      (k7_idx3_inb L _ c3 k7_h3) (k7_idx4_inb L _ c4 k7_h3) i)]
  iexists g0, g1
  isplitr; · ipureintro; exact h0
  isplitr; · ipureintro; exact h1
  isplitl [Hs0a]; · iexact Hs0a
  isplitl [Hs1]; · iexact Hs1
  rw [show 6064 + 16 * (k.val + 1) = 6064 + 16 * k.val + 16 by omega]
  iexact Hs2a

theorem out_val (n o : ℕ) (hs : start L + o + n ≤ 200000) (offO : Fin 1 → ℕ) (inbO) (hstO) (hoffO : offO = ![start L + o])
    (inbS) (hstS) (N : ℕ) (hN : o + n ≤ N) (fo : Buf (Elt F) (pgOut d)) (f2 : S6256.Idx → Elt F .f32) (p : S200000.Idx)
    (hp : p ∈ ((oV).slice (Rect.unit (s := S200000) offO ![n] inbO) hstO).view.set) :
    ((oV).slice (Rect.unit (s := S200000) offO ![n] inbO) hstO).view.writes (Elt F) fo
        [⟨Rect.whole ⟨1, ![n]⟩, ReadAs.same.apply (View.read (Elt F) ((s2).slice (Rect.unit (s := S6256) ![o] ![n] inbS) hstS).view (accN (GG sv pe d L) f2 N))⟩] p
      = val3 sv pe d p := by
  subst hoffO
  obtain ⟨x, -, rfl⟩ := Finset.mem_map.mp hp
  have hx : (x 0).val < n := (x 0).isLt
  have ex : (Rect.whole (⟨1, ![n]⟩ : Shape)).emb x = x := by
    funext a; match a with
    | ⟨0, _⟩ => apply Fin.ext; rw [Rect.emb_apply]; simp [Rect.whole]
  have h2 := View.read_writes_cons_emb (v := ((oV).slice (Rect.unit (s := S200000) ![start L + o] ![n] inbO) hstO).view) (Val := Elt F) fo
    (Rect.whole (⟨1, ![n]⟩ : Shape))
    (ReadAs.same.apply (View.read (Elt F) ((s2).slice (Rect.unit (s := S6256) ![o] ![n] inbS) hstS).view (accN (GG sv pe d L) f2 N))) [] x
  rw [ex, View.read_apply] at h2
  refine Eq.trans h2 ?_
  rw [ReadAs.apply_same, View.read_apply]
  have e0 : ((((s2).slice (Rect.unit (s := S6256) ![o] ![n] inbS) hstS).view.emb x) 0).val = o + (x 0).val := by
    show ((Rect.unit (s := S6256) ![o] ![n] inbS).emb x ⟨0, by decide⟩ : ℕ) = _
    rw [Rect.emb_apply]; simp
  have e1 : ((((oV).slice (Rect.unit (s := S200000) ![start L + o] ![n] inbO) hstO).view.emb x) 0).val = start L + o + (x 0).val := by
    show ((Rect.unit (s := S200000) ![start L + o] ![n] inbO).emb x ⟨0, by decide⟩ : ℕ) = _
    rw [Rect.emb_apply]; simp
  show accN (GG sv pe d L) f2 N (((s2).slice (Rect.unit (s := S6256) ![o] ![n] inbS) hstS).view.emb x) = _
  unfold accN
  rw [if_pos (by rw [e0]; omega), e0]
  unfold GG valN val3
  rw [dif_pos (by omega)]
  congr 1
  exact Fin.ext (by rw [e1]; show start L + (o + (x 0).val) = _; omega)

omit [FloatOps F] in
theorem mem_setA (L : grid7.Coords) (p : S200000.Idx) : p ∈ setA L ↔ start L ≤ (p 0).val ∧ (p 0).val < start L + 6064 := by
  show p ∈ ((View.whole main_v21_scv).slice (Rect.unit (s := S200000) (k7_off9 L) S6064.size (k7_off9_inb L))).set ↔ _
  rw [View.set_slice_whole, Rect.mem_set_unit]
  constructor
  · intro h
    have h0 := h ⟨0, by decide⟩
    rw [k7_off9_eq] at h0
    exact h0
  · intro h a
    match a with
    | ⟨0, _⟩ => rw [k7_off9_eq]; exact h

omit [FloatOps F] in
theorem mem_setB (L : grid7.Coords) (p : S200000.Idx) :
    p ∈ setB L ↔ k7_cond4 L = 1#1 ∧ start L + 6064 ≤ (p 0).val ∧ (p 0).val < start L + 6256 := by
  unfold setB
  by_cases h : k7_cond4 L = 1#1
  · rw [dif_pos h]
    show p ∈ ((View.whole main_v21_scv).slice (Rect.unit (s := S200000) (k7_off10 L) S192.size (k7_off10_inb L h))).set ↔ _
    rw [View.set_slice_whole, Rect.mem_set_unit]
    constructor
    · intro h'
      have h0 := h' ⟨0, by decide⟩
      rw [k7_off10_eq] at h0
      exact ⟨h, h0.1, by have := h0.2; show (p 0).val < start L + 6256; unfold start; simp at this; omega⟩
    · intro h' a
      match a with
      | ⟨0, _⟩ => rw [k7_off10_eq]; exact ⟨h'.2.1, by have := h'.2.2; unfold start at this; simp; omega⟩
  · rw [dif_neg h]; simp [h]

omit [FloatOps F] in
theorem mem_tileSet (L : grid7.Coords) (p : S200000.Idx) :
    p ∈ tileSet L ↔ start L ≤ (p 0).val ∧ (p 0).val < start L + (if 2 * (L 1).val + (L 0).val < 31 then 6256 else 6064) := by
  unfold tileSet
  rw [Finset.mem_union, mem_setA, mem_setB, cond4_iff]
  by_cases h : 2 * (L 1).val + (L 0).val < 31
  · rw [if_pos h]; constructor
    · rintro (h1 | h1) <;> omega
    · intro h1; by_cases h2 : (p 0).val < start L + 6064
      · exact .inl ⟨h1.1, h2⟩
      · exact .inr ⟨h, by omega, h1.2⟩
  · rw [if_neg h]; constructor
    · rintro (h1 | h1)
      · exact h1
      · exact absurd h1.1 h
    · intro h1; exact .inl h1

omit [FloatOps F] in
theorem start_LL (c : Fin ((K (F := F)).nCore 3)) (i : Fin ((K (F := F)).nSub 3)) : start (LL (F := F) c i) = 6256 * (2 * i.val + c.val) := by
  show 12512 * i.val + 6256 * c.val = _; omega

omit [FloatOps F] in
theorem tile_disjoint (c c' : Fin ((K (F := F)).nCore 3)) (i i' : Fin ((K (F := F)).nSub 3)) (h : c ≠ c' ∨ i ≠ i') :
    Disjoint (tileSet (LL (F := F) c i)) (tileSet (LL (F := F) c' i')) := by
  rw [Finset.disjoint_left]
  intro p hp hp'
  rw [mem_tileSet, start_LL] at hp hp'
  have hc : c.val < 2 := c.isLt
  have hc' : c'.val < 2 := c'.isLt
  have e1 : ((LL (F := F) c i) 1).val = i.val := rfl
  have e0 : ((LL (F := F) c i) 0).val = c.val := rfl
  have e1' : ((LL (F := F) c' i') 1).val = i'.val := rfl
  have e0' : ((LL (F := F) c' i') 0).val = c'.val := rfl
  rw [e1, e0] at hp; rw [e1', e0'] at hp'
  have hw : 2 * i.val + c.val = 2 * i'.val + c'.val := by
    split_ifs at hp hp' <;> omega
  rcases h with h | h
  · exact h (Fin.ext (by omega))
  · exact h (Fin.ext (by omega))

omit [FloatOps F] in
theorem tiles_cover (p : S200000.Idx) : ∃ (c : Fin ((K (F := F)).nCore 3)) (i : Fin ((K (F := F)).nSub 3)), p ∈ tileSet (LL (F := F) c i) := by
  have hp : (p 0).val < 200000 := (p 0).isLt
  refine ⟨⟨((p 0).val / 6256) % 2, Nat.mod_lt _ (by decide)⟩, ⟨((p 0).val / 6256) / 2, by show _ < 16; omega⟩, ?_⟩
  rw [mem_tileSet, start_LL]
  show 6256 * (2 * (((p 0).val / 6256) / 2) + ((p 0).val / 6256) % 2) ≤ (p 0).val
    ∧ (p 0).val < 6256 * (2 * (((p 0).val / 6256) / 2) + ((p 0).val / 6256) % 2)
      + (if 2 * (((p 0).val / 6256) / 2) + ((p 0).val / 6256) % 2 < 31 then 6256 else 6064)
  split_ifs <;> omega

omit [FloatOps F] in
theorem accN_zero (G : ℕ → Elt F .f32) (f2 : S6256.Idx → Elt F .f32) : accN G f2 0 = f2 := by
  funext y; unfold accN; rw [if_neg (by omega)]

set_option maxHeartbeats 4000000 in
theorem tile_bodyA (hF : (K (F := F)).Facts) (hrange : ∀ (d : Dev nD) j, (pe d j).toNat < 10000) (q : PosShare TreeShare)
    (O : CellTallies nD τ sig (HIx 4)) (W : Waits sig (HIx 4)) (hO : ∀ g, O g none = 0) (h4 : k7_cond4 L = 1#1) :
    iprop(levAts (K (F := F)).L (K (F := F)).lev ∗ ((svLoc d ↦{q} sv d) ∗ (peLoc d ↦{q} pe d) ∗ ∃ f, outRes d L f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc7__sc_pair_gather L sV (Memref.isWhole_whole _) pV (Memref.isWhole_whole _) oV (Memref.isWhole_whole _)
            s0 (Memref.isWhole_whole _) s1 (Memref.isWhole_whole _) s2 (Memref.isWhole_whole _) cc7_scoped0 cc7_scoped1 cc7_scoped2 cc7_scoped3 cc7_scoped4)
          fun _ => iprop(((svLoc d ↦{q} sv d) ∗ (peLoc d ↦{q} pe d) ∗ outRes d L (val3 sv pe d)) ∗ scopedBufs (V d (cV L) (jV L)) ∗ scopedSems0 (V d (cV L) (jV L))
            ∗ ∃ W', ⌜∀ p ∈ W', p ∈ W ∨ p.2 = none⌝ ∗ owes (V d (cV L) (jV L)) O W') := by
  have k7_h1 : k7_cond1 L = 1#1 := (cond1_eq L).trans h4
  have k7_h3 : k7_cond3 L = 1#1 := (cond3_eq L).trans h4
  have k7_h2 : ¬ k7_cond2 L = 1#1 := fun h => (cond2_iff L).mp h h4
  have k7_h4 : k7_cond4 L = 1#1 := h4
  have hlead : start L % 128 < 128 := Nat.mod_lt _ (by decide)
  simp only [cc7__sc_pair_gather_eq_skeleton]; unfold cc7__sc_pair_gather_skel
  rw [(K (F := F)).scopedBufs_V hF d (cV L) (jV L), SparseCore.Cfg.scopedSems0_V (Val := Elt F) d (cV L) (jV L), ownSems0_V, ownBufs_V]
  unfold outRes
  iintro ⟨#Hlv, ⟨Hsv, Hpe, %fo, HoA, HoB⟩, ⟨⟨%f0, Hs0⟩, ⟨%f1, Hs1⟩, ⟨%f2, Hs2⟩, Hbufs⟩, ⟨Hc0, Hc1, Hc2, Hc3, Hc4, Hsems⟩, HO⟩
  ihave Hmw := ((K (F := F)).mayWaits_none (thr := V d (cV L) (jV L)) hO) $$ Hlv
  ihave Hsv' := (Entails.of_eq (pts_sV (F := F) d L _ _).symm) $$ Hsv
  ihave Hpe' := (Entails.of_eq (pts_pV (F := F) d L _ _).symm) $$ Hpe
  ihave HoA' := (Entails.of_eq (pts_outA (F := F) d L _).symm) $$ HoA
  ihave HoB' := (Entails.of_eq (pts_outB (F := F) d L h4 _).symm) $$ HoB
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  sl_exec
  sl_for (inv sv pe d L 6400 f2 0) $$ [Hs0' Hs1' Hs2']
  case region =>
    intro k u
    exact trip1 sv pe d L 6400 (by omega) (hrange d) f2 k u
  · unfold inv
    iexists (View.write (Elt F) (s0).view f0 (tile_bodyA.sl.dma0 sv d) Finset.univ),
      ((s1).view.writes (Elt F) (s1).view.junk [⟨Rect.unit (s := S2x6400) ![0, 0] S2x6400.size inb_S2x6400_S2x6400_0_0, tile_bodyA.sl.dma0_1 pe d L k7_h1⟩])
    isplitr
    · ipureintro; exact H0_dma sv d f0
    isplitr
    · ipureintro; exact H1_dma pe d L _ 6400 S2x6400.size rfl _ (k7_off1 L) _ _ (by rw [k7_off1_eq]; rfl)
    isplitl [Hs0']; · iexact Hs0'
    isplitl [Hs1']; · iexact Hs1'
    rw [Nat.mul_zero, Nat.add_zero, accN_zero]
    iexact Hs2'
  iintro %_ HI
  unfold inv
  icases HI with ⟨%g0, %g1, %h0, %h1, Hs0, Hs1, Hs2⟩
  sl_exec
  sl_for (inv sv pe d L 6400 f2 6064) $$ [Hs0 Hs1 Hs2]
  case region =>
    intro k u
    exact trip2 sv pe d L k7_h3 (hrange d) f2 k u
  · unfold inv
    iexists g0, g1
    isplitr; · ipureintro; exact h0
    isplitr; · ipureintro; exact h1
    isplitl [Hs0]; · iexact Hs0
    isplitl [Hs1]; · iexact Hs1
    iexact Hs2
  iintro %_ HI
  unfold inv
  icases HI with ⟨%g0', %g1', %h0', %h1', Hs0, Hs1, Hs2⟩
  sl_exec
  sl_step
  have hA : ∀ p ∈ (outA L).view.set, (outA L).view.writes (Elt F) fo [⟨Rect.whole S6064, tile_bodyA.sl.dma0_2 sv pe d L f2⟩] p = val3 sv pe d p :=
    fun p hp => out_val sv pe d L 6064 0 (by have := start_le L; omega) (k7_off9 L) (k7_off9_inb L) _ (by rw [k7_off9_eq]; rfl) _ _ _
      (by omega) fo f2 p hp
  have hB : ∀ p ∈ (outB L h4).view.set, (outB L h4).view.writes (Elt F) fo [⟨Rect.whole S192, tile_bodyA.sl.dma0_3 sv pe d L f2⟩] p = val3 sv pe d p :=
    fun p hp => out_val sv pe d L 192 6064 (by have := start_le' L h4; omega) (k7_off10 L) (k7_off10_inb L h4) _ (by rw [k7_off10_eq]; rfl) _ _ _
      (by decide) fo f2 p hp
  ihave HoA2 := (Entails.of_eq (pointsTo_congr hA)) $$ HoA'
  ihave HoB2 := (Entails.of_eq (pointsTo_congr hB)) $$ HoB'
  isplitl [Hsv' Hpe' HoA2 HoB2]
  · isplitl [Hsv']; · iexact Hsv'
    isplitl [Hpe']; · iexact Hpe'
    isplitl [HoA2]; · iexact HoA2
    iapply (Entails.of_eq (pts_outB (F := F) d L h4 _)); iexact HoB2
  isplitl [Hs0 Hs1 Hs2 Hbufs]
  · isplitl [Hs0]; · iexists _; iexact Hs0
    isplitl [Hs1]; · iexists _; iexact Hs1
    isplitl [Hs2]; · iexists _; iexact Hs2
    iexact Hbufs
  isplitl [Hc0 Hc1 Hc2 Hc3 Hc4 Hsems]
  · isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  pick_goal 2
  · iexact HO
  · ipureintro; intro p hp
    simp only [Finset.mem_insert] at hp
    rcases hp with rfl | rfl | rfl | rfl | hp
    · exact .inr rfl
    · exact .inr rfl
    · exact .inr rfl
    · exact .inr rfl
    · exact .inl hp

set_option maxHeartbeats 4000000 in
theorem tile_bodyB (hF : (K (F := F)).Facts) (hrange : ∀ (d : Dev nD) j, (pe d j).toNat < 10000) (q : PosShare TreeShare)
    (O : CellTallies nD τ sig (HIx 4)) (W : Waits sig (HIx 4)) (hO : ∀ g, O g none = 0) (h4 : ¬ k7_cond4 L = 1#1) :
    iprop(levAts (K (F := F)).L (K (F := F)).lev ∗ ((svLoc d ↦{q} sv d) ∗ (peLoc d ↦{q} pe d) ∗ ∃ f, outRes d L f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc7__sc_pair_gather L sV (Memref.isWhole_whole _) pV (Memref.isWhole_whole _) oV (Memref.isWhole_whole _)
            s0 (Memref.isWhole_whole _) s1 (Memref.isWhole_whole _) s2 (Memref.isWhole_whole _) cc7_scoped0 cc7_scoped1 cc7_scoped2 cc7_scoped3 cc7_scoped4)
          fun _ => iprop(((svLoc d ↦{q} sv d) ∗ (peLoc d ↦{q} pe d) ∗ outRes d L (val3 sv pe d)) ∗ scopedBufs (V d (cV L) (jV L)) ∗ scopedSems0 (V d (cV L) (jV L))
            ∗ ∃ W', ⌜∀ p ∈ W', p ∈ W ∨ p.2 = none⌝ ∗ owes (V d (cV L) (jV L)) O W') := by
  have k7_h1 : ¬ k7_cond1 L = 1#1 := fun h => h4 ((cond1_eq L).symm.trans h)
  have k7_h3 : ¬ k7_cond3 L = 1#1 := fun h => h4 ((cond3_eq L).symm.trans h)
  have k7_h2 : k7_cond2 L = 1#1 := (cond2_iff L).mpr h4
  have k7_h4 : ¬ k7_cond4 L = 1#1 := h4
  have hw := (cond4_iff L).not.mp h4
  have hL0 : (L 0).val < 2 := (L 0).isLt
  have hL1 : (L 1).val < 16 := (L 1).isLt
  have hst : start L = 193936 := by unfold start; omega
  simp only [cc7__sc_pair_gather_eq_skeleton]; unfold cc7__sc_pair_gather_skel
  rw [(K (F := F)).scopedBufs_V hF d (cV L) (jV L), SparseCore.Cfg.scopedSems0_V (Val := Elt F) d (cV L) (jV L), ownSems0_V, ownBufs_V]
  unfold outRes
  iintro ⟨#Hlv, ⟨Hsv, Hpe, %fo, HoA, HoB⟩, ⟨⟨%f0, Hs0⟩, ⟨%f1, Hs1⟩, ⟨%f2, Hs2⟩, Hbufs⟩, ⟨Hc0, Hc1, Hc2, Hc3, Hc4, Hsems⟩, HO⟩
  ihave Hmw := ((K (F := F)).mayWaits_none (thr := V d (cV L) (jV L)) hO) $$ Hlv
  ihave Hsv' := (Entails.of_eq (pts_sV (F := F) d L _ _).symm) $$ Hsv
  ihave Hpe' := (Entails.of_eq (pts_pV (F := F) d L _ _).symm) $$ Hpe
  ihave HoA' := (Entails.of_eq (pts_outA (F := F) d L _).symm) $$ HoA
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  sl_exec
  sl_for (inv sv pe d L 6144 f2 0) $$ [Hs0' Hs1' Hs2']
  case region =>
    intro k u
    exact trip1 sv pe d L 6144 (by omega) (hrange d) f2 k u
  · unfold inv
    iexists (View.write (Elt F) (s0).view f0 (tile_bodyB.sl.dma0 sv d) Finset.univ),
      ((s1).view.writes (Elt F) f1 [⟨Rect.unit (s := S2x6400) ![0, 0] S2x6144.size inb_S2x6400_S2x6144_0_0, tile_bodyB.sl.dma0_1 pe d L k7_h2⟩])
    isplitr
    · ipureintro; exact H0_dma sv d f0
    isplitr
    · ipureintro; exact H1_dma pe d L _ 6144 S2x6144.size rfl _ (k7_off2 L) _ _ (by rw [k7_off2_eq]; rfl)
    isplitl [Hs0']; · iexact Hs0'
    isplitl [Hs1']; · iexact Hs1'
    rw [Nat.mul_zero, Nat.add_zero, accN_zero]
    iexact Hs2'
  iintro %_ HI
  unfold inv
  icases HI with ⟨%g0, %g1, %h0, %h1, Hs0, Hs1, Hs2⟩
  sl_exec
  sl_step
  have hA : ∀ p ∈ (outA L).view.set, (outA L).view.writes (Elt F) fo [⟨Rect.whole S6064, tile_bodyB.sl.dma0_2 sv pe d L f2⟩] p = val3 sv pe d p :=
    fun p hp => out_val sv pe d L 6064 0 (by have := start_le L; omega) (k7_off9 L) (k7_off9_inb L) _ (by rw [k7_off9_eq]; rfl) _ _ _
      (by decide) fo f2 p hp
  have hB : ∀ p ∈ setB L, fo p = val3 sv pe d p := fun p hp => absurd ((mem_setB L p).mp hp).1 h4
  ihave HoA2 := (Entails.of_eq (pointsTo_congr hA)) $$ HoA'
  ihave HoB2 := (Entails.of_eq (pointsTo_congr hB)) $$ HoB
  isplitl [Hsv' Hpe' HoA2 HoB2]
  · isplitl [Hsv']; · iexact Hsv'
    isplitl [Hpe']; · iexact Hpe'
    isplitl [HoA2]; · iexact HoA2
    iexact HoB2
  isplitl [Hs0 Hs1 Hs2 Hbufs]
  · isplitl [Hs0]; · iexists _; iexact Hs0
    isplitl [Hs1]; · iexists _; iexact Hs1
    isplitl [Hs2]; · iexists _; iexact Hs2
    iexact Hbufs
  isplitl [Hc0 Hc1 Hc2 Hc3 Hc4 Hsems]
  · isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  pick_goal 2
  · iexact HO
  · ipureintro; intro p hp
    simp only [Finset.mem_insert] at hp
    rcases hp with rfl | rfl | rfl | hp
    · exact .inr rfl
    · exact .inr rfl
    · exact .inr rfl
    · exact .inl hp

end Tile

omit [FloatOps F] in
theorem ent' {P R : sProp (MM F)} (h : Idealize.SL.BI.Entails P R) : P ⊢ R := h

omit [FloatOps F] in
theorem setAB_disjoint (L : grid7.Coords) : Disjoint (setA L) (setB L) := by
  rw [Finset.disjoint_left]; intro p h1 h2
  rw [mem_setA] at h1; rw [mem_setB] at h2; omega

omit [FloatOps F] in
theorem outRes_eq (d : Dev nD) (L : grid7.Coords) (f : Buf (Elt F) (pgOut d)) :
    outRes d L f = (pgOut d ↦[tileSet L]{fullShare} f : sProp (MM F)) := by
  unfold outRes tileSet
  have hu : (pgOut d ↦[setA L ∪ setB L]{fullShare} f : sProp (MM F)) ⊣⊢ iprop((pgOut d ↦[setA L]{fullShare} f) ∗ pgOut d ↦[setB L]{fullShare} f) :=
    pointsTo_union (setAB_disjoint L)
  exact (BI.equiv_iff.mp ⟨hu.1, hu.2⟩).symm

omit [FloatOps F] in
theorem core_tiles_disjoint (c : Fin ((K (F := F)).nCore 3)) :
    ∀ i ∈ (Finset.univ : Finset (Fin ((K (F := F)).nSub 3))), ∀ i' ∈ (Finset.univ : Finset (Fin ((K (F := F)).nSub 3))), i ≠ i' →
      Disjoint (tileSet (LL (F := F) c i)) (tileSet (LL (F := F) c i')) :=
  fun i _ i' _ h => tile_disjoint c c i i' (.inr h)

omit [FloatOps F] in
theorem cores_disjoint :
    ∀ c ∈ (Finset.univ : Finset (Fin ((K (F := F)).nCore 3))), ∀ c' ∈ (Finset.univ : Finset (Fin ((K (F := F)).nCore 3))), c ≠ c' →
      Disjoint (coreSet (F := F) c) (coreSet (F := F) c') := by
  intro c _ c' _ h
  unfold coreSet
  rw [Finset.disjoint_biUnion_left]; intro i _
  rw [Finset.disjoint_biUnion_right]; intro i' _
  exact tile_disjoint c c' i i' (.inl h)

omit [FloatOps F] in
theorem cores_cover : (Finset.univ : Finset (Fin ((K (F := F)).nCore 3))).biUnion (coreSet (F := F)) = Finset.univ := by
  ext p
  simp only [Finset.mem_biUnion, Finset.mem_univ, true_and, iff_true]
  obtain ⟨c, i, h⟩ := tiles_cover (F := F) p
  exact ⟨c, by unfold coreSet; exact Finset.mem_biUnion.mpr ⟨i, Finset.mem_univ _, h⟩⟩

theorem split3 (d : Dev nD) (c : Fin ((K (F := F)).nCore 3)) :
    st3 sv pe d c ⊢ |={Set.univ}=> iprop((bigSep Finset.univ fun i : Fin ((K (F := F)).nSub 3) => go3 sv pe d c i)
      ∗ ((bigSep Finset.univ fun i : Fin ((K (F := F)).nSub 3) => td3 sv pe d c i) -∗ dn3 sv pe d c)) := by
  unfold st3 go3 td3 dn3
  rw [bigSep_sep', bigSep_sep', bigSep_sep', bigSep_sep']
  iintro ⟨Hsv, Hpe, %f, Ho⟩
  ihave Hsv2 := (Transfers.pointsTo_toks_split (qC c.val) ((K (F := F)).nSub 3)) $$ Hsv
  icases Hsv2 with ⟨Hsvd, Hsvt⟩
  ihave Hpe2 := (Transfers.pointsTo_toks_split (qC c.val) ((K (F := F)).nSub 3)) $$ Hpe
  icases Hpe2 with ⟨Hped, Hpet⟩
  have hsp : ∀ g : Buf (Elt F) (pgOut d), (pgOut d ↦[coreSet (F := F) c]{fullShare} g : sProp (MM F))
      = bigSep Finset.univ fun i : Fin ((K (F := F)).nSub 3) => pgOut d ↦[tileSet (LL (F := F) c i)]{fullShare} g := by
    intro g; unfold coreSet
    rw [← pointsTo_biUnion Finset.univ (ℓ := pgOut d) (fun i : Fin ((K (F := F)).nSub 3) => tileSet (LL (F := F) c i)) (core_tiles_disjoint c)]
  ihave Ho2 := (Entails.of_eq (hsp f)) $$ Ho
  imodintro
  isplitl [Hsvt Hpet Ho2]
  · isplitl [Hsvt]; · iexact Hsvt
    isplitl [Hpet]; · iexact Hpet
    iapply (ent' (bigSep_mono (s := (Finset.univ : Finset (Fin ((K (F := F)).nSub 3))))
      (fun i _ => (Entails.of_eq (outRes_eq (F := F) d (LL (F := F) c i) f).symm).trans (exists_intro (Φ := fun f => outRes d (LL (F := F) c i) f) f))))
    iexact Ho2
  · iintro ⟨Hsvt, Hpet, Hot⟩
    isplitl [Hsvd Hsvt]
    · iapply (Transfers.pointsTo_toks_join (qC c.val) ((K (F := F)).nSub 3)); isplitl [Hsvd]
      · iexact Hsvd
      · iexact Hsvt
    isplitl [Hped Hpet]
    · iapply (Transfers.pointsTo_toks_join (qC c.val) ((K (F := F)).nSub 3)); isplitl [Hped]
      · iexact Hped
      · iexact Hpet
    rw [hsp]
    iapply (ent' (bigSep_mono (s := (Finset.univ : Finset (Fin ((K (F := F)).nSub 3))))
      (fun i _ => Entails.of_eq (outRes_eq (F := F) d (LL (F := F) c i) (val3 sv pe d)))))
    iexact Hot

theorem call3 (d : Dev nD) :
    iprop((svLoc d ↦{fullShare} sv d) ∗ (peLoc d ↦{fullShare} pe d) ∗ ∃ f, pgOut d ↦{fullShare} f)
      ⊢ |={Set.univ}=> iprop((bigSep Finset.univ fun c : Fin ((K (F := F)).nCore 3) => st3 sv pe d c)
        ∗ ((bigSep Finset.univ fun c : Fin ((K (F := F)).nCore 3) => dn3 sv pe d c)
          -∗ iprop((svLoc d ↦{fullShare} sv d) ∗ (peLoc d ↦{fullShare} pe d) ∗ pgOut d ↦{fullShare} val3 sv pe d))) := by
  unfold st3 dn3
  rw [bigSep_sep', bigSep_sep', bigSep_sep', bigSep_sep']
  iintro ⟨Hsv, Hpe, %f, Ho⟩
  ihave Hsv2 := (Transfers.pointsTo_toks_split fullShare ((K (F := F)).nCore 3)) $$ Hsv
  icases Hsv2 with ⟨Hsvd, Hsvt⟩
  ihave Hpe2 := (Transfers.pointsTo_toks_split fullShare ((K (F := F)).nCore 3)) $$ Hpe
  icases Hpe2 with ⟨Hped, Hpet⟩
  have hcov : ∀ g : Buf (Elt F) (pgOut d), (pgOut d ↦{fullShare} g : sProp (MM F))
      = bigSep Finset.univ fun c : Fin ((K (F := F)).nCore 3) => pgOut d ↦[coreSet (F := F) c]{fullShare} g := by
    intro g
    rw [← pointsTo_biUnion Finset.univ (ℓ := pgOut d) (coreSet (F := F)) cores_disjoint, cores_cover]
  ihave Ho2 := (Entails.of_eq (hcov f)) $$ Ho
  imodintro
  isplitl [Hsvt Hpet Ho2]
  · isplitl [Hsvt]; · iexact Hsvt
    isplitl [Hpet]; · iexact Hpet
    iapply (ent' (bigSep_mono (s := (Finset.univ : Finset (Fin ((K (F := F)).nCore 3))))
      (fun c _ => exists_intro (Φ := fun f => (pgOut d ↦[coreSet (F := F) c]{fullShare} f : sProp (MM F))) f)))
    iexact Ho2
  · iintro ⟨Hsvt, Hpet, Hot⟩
    isplitl [Hsvd Hsvt]
    · iapply (Transfers.pointsTo_toks_join fullShare ((K (F := F)).nCore 3)); isplitl [Hsvd]
      · iexact Hsvd
      · iexact Hsvt
    isplitl [Hped Hpet]
    · iapply (Transfers.pointsTo_toks_join fullShare ((K (F := F)).nCore 3)); isplitl [Hped]
      · iexact Hped
      · iexact Hpet
    rw [hcov]
    iexact Hot

theorem defs₀_vector (c : Fin τ.nSC) (s : Fin τ.nSub) :
    defs₀ (F := F) (.scVector c s) 7 ()
      = SparseCore.onTile hcore7 hsub7 (fun c s => cc7__sc_pair_gather (coordsV c s)
          sV (Memref.isWhole_whole _) pV (Memref.isWhole_whole _) oV (Memref.isWhole_whole _)
          s0 (Memref.isWhole_whole _) s1 (Memref.isWhole_whole _) s2 (Memref.isWhole_whole _)
          cc7_scoped0 cc7_scoped1 cc7_scoped2 cc7_scoped3 cc7_scoped4) ⟨⟩ c s := rfl

omit [FloatOps F] in
theorem obl_post {thr : Thread nD τ} {A B C : sProp (MM F)} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 2000000 in
theorem tile3 (hrange : ∀ (d : Dev nD) j, (pe d j).toNat < 10000) (d : Dev nD) (c : Fin ((K (F := F)).nCore 3)) (i : Fin ((K (F := F)).nSub 3))
    (O : CellTallies nD τ sig (HIx 4)) (W : Waits sig (HIx 4)) (hO : ∀ g, O g none = 0) :
    iprop(levAts (K (F := F)).L (K (F := F)).lev ∗ go3 sv pe d c i
        ∗ scopedBufs (V d ((K (F := F)).core 3 c) ((K (F := F)).sub 3 i)) ∗ scopedSems0 (V d ((K (F := F)).core 3 c) ((K (F := F)).sub 3 i))
        ∗ owes (V d ((K (F := F)).core 3 c) ((K (F := F)).sub 3 i)) O W)
      ⊢ wp frame (wpE (D (F := F)) 𝒱 (V d ((K (F := F)).core 3 c) ((K (F := F)).sub 3 i)) (some v₀)) Set.univ
          (D (F := F) (.scVector ((K (F := F)).core 3 c) ((K (F := F)).sub 3 i)) ((K (F := F)).body 3) ((K (F := F)).args 3)) fun _ =>
            iprop(td3 sv pe d c i ∗ scopedBufs (V d ((K (F := F)).core 3 c) ((K (F := F)).sub 3 i)) ∗ scopedSems0 (V d ((K (F := F)).core 3 c) ((K (F := F)).sub 3 i))
              ∗ ∃ W', ⌜∀ p ∈ W', p ∈ W ∨ p.2 = none ∨ p.2 = some (3 : Fin 4)⌝ ∗ owes (V d ((K (F := F)).core 3 c) ((K (F := F)).sub 3 i)) O W') := by
  unfold go3 td3
  change _ ⊢ wp _ _ _ (Pipeline.liftProg (defs₀ (F := F) (.scVector ((K (F := F)).core 3 c) ((K (F := F)).sub 3 i)) 7 ())) _
  refine BI.Entails.trans ?_ (Pipeline.wp_liftProg (D (F := F)) (Pipeline.defs_kernel pcfgs defs₀) 𝒱₀ _ Set.univ none _ _)
  have hc : ((K (F := F)).core 3 c).val < grid7.bound 0 ∧ ((K (F := F)).sub 3 i).val < grid7.bound 1 := ⟨c.isLt, i.isLt⟩
  rw [defs₀_vector]; simp only [SparseCore.onTile, hc, and_self, ↓reduceDIte]
  by_cases h4 : k7_cond4 (LL (F := F) c i) = 1#1
  · exact (tile_bodyA sv pe d (LL (F := F) c i) facts hrange (qT c.val i.val) O W hO h4).trans (wp_mono frame _ _ fun _ => obl_post)
  · exact (tile_bodyB sv pe d (LL (F := F) c i) facts hrange (qT c.val i.val) O W hO h4).trans (wp_mono frame _ _ fun _ => obl_post)

end Cert.KernelIdeal.Hand.Tile3

end
-- ==== Proof.HandKernelIdeal.Regions.lean ====
import proofs.«211345_g12773232738731_cont_fleet_1243_15_alg».proof.Proof.HandKernelIdeal.Common
import Idealize.ShloMosaic.Lib.Pipeline.FrameBody
import Idealize.ShloMosaic.Lib.Pipeline.Value

set_option maxRecDepth 16384

noncomputable section

namespace Cert.KernelIdeal.Hand.Tc

open Cert.KernelIdeal Cert.KernelIdeal.Gen Cert.KernelIdeal.Hand

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

theorem hz2 : (![0, 0] : Fin 2 → Nat) = fun _ => 0 := funext fun a => by fin_cases a <;> rfl

local macro "read_blk_tac" w:term "," t:term : tactic => `(tactic| (
  funext i
  rw [View.read_apply]
  have h : (($w).blk $t).view.emb i = i :=
    funext fun a => Fin.ext (Pipeline.Window.rect_emb_val_of_index_zero ($w) $t a rfl i)
  rw [h]; rfl))

local macro "mem_blk_tac" w:term "," t:term "," i:term : tactic => `(tactic| (
  have h : (($w).blk $t).view.emb $i = $i :=
    funext fun a => Fin.ext (Pipeline.Window.rect_emb_val_of_index_zero ($w) $t a rfl $i)
  rw [← h]; exact View.emb_mem_set _ $i))

abbrev adm : (p : Fin 4) → (pcfgs (F := F) p).Adm := fun p => (cfgs p).toPCfg_adm

theorem rd1_0 (x : Vec F S10000x128 .f32) (t : Fin cfg1.N) : ((cfg1.win 0).blk t).view.read (Elt F) x = x := by read_blk_tac (cfg1.win 0), t
theorem rd1_1 (x : Vec F S128x16 .f32) (t : Fin cfg1.N) : ((cfg1.win 1).blk t).view.read (Elt F) x = x := by read_blk_tac (cfg1.win 1), t
theorem rd1_2 (x : Vec F S16x8 .f32) (t : Fin cfg1.N) : ((cfg1.win 2).blk t).view.read (Elt F) x = x := by read_blk_tac (cfg1.win 2), t
theorem rd1_3 (x : Vec F S8x1 .f32) (t : Fin cfg1.N) : ((cfg1.win 3).blk t).view.read (Elt F) x = x := by read_blk_tac (cfg1.win 3), t
theorem rd1_4 (x : Vec F S10000x1 .f32) (t : Fin cfg1.N) : ((cfg1.win 4).blk t).view.read (Elt F) x = x := by read_blk_tac (cfg1.win 4), t
theorem mem1_4 (t : Fin cfg1.N) (i : S10000x1.Idx) : i ∈ ((cfg1.win 4).blk t).view.set := by mem_blk_tac (cfg1.win 4), t, i

def A1 (d : Dev nD) (x0 : Vec F S10000x128 .f32) (x1 : Vec F S128x16 .f32) (x2 : Vec F S16x8 .f32) (x3 : Vec F S8x1 .f32) (y : Vec F S10000x1 .f32) :
    (w : Fin cfg1.W) → Buf (Elt F) ((cfg1.win w).arr.view.loc (d.tc : Thread nD τ))
  | ⟨0, _⟩ => x0
  | ⟨1, _⟩ => x1
  | ⟨2, _⟩ => x2
  | ⟨3, _⟩ => x3
  | ⟨4, _⟩ => y

def dat1 (d : Dev nD) (x0 : Vec F S10000x128 .f32) (x1 : Vec F S128x16 .f32) (x2 : Vec F S16x8 .f32) (x3 : Vec F S8x1 .f32) (y : Vec F S10000x1 .f32)
    (O : CellTallies nD τ sig (HIx 4)) (B : Set (SemLoc sig × HIx 4)) : Dat τ (Elt F) (HIx 4) ℕ UU ℕ cfg1 d where
  A := A1 d x0 x1 x2 x3 y
  after w t := match w with
    | ⟨0, _⟩ => x0
    | ⟨1, _⟩ => x1
    | ⟨2, _⟩ => x2
    | ⟨3, _⟩ => x3
    | ⟨4, _⟩ => k1_pay1 x1 x2 x3 x0
  Φ _ := Pipeline.scopedRest spec1 d
  q _ := fullShare
  owed _ := O
  recorded _ := B

set_option maxHeartbeats 1000000 in
theorem sound_kernel1 (c : Dev nD) (E : Set ℕ) (arg0 : Memref sig .tc .vmem S10000x128 .f32) (harg0 : arg0.IsWhole) (arg1 : Memref sig .tc .vmem S128x16 .f32) (harg1 : arg1.IsWhole)
    (arg2 : Memref sig .tc .vmem S16x8 .f32) (harg2 : arg2.IsWhole) (arg3 : Memref sig .tc .vmem S8x1 .f32) (harg3 : arg3.IsWhole) (arg4 : Memref sig .tc .vmem S10000x1 .f32) (harg4 : arg4.IsWhole)
    (x0 : Vec F S10000x128 .f32) (x1 : Vec F S128x16 .f32) (x2 : Vec F S16x8 .f32) (x3 : Vec F S8x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (k1_pay1 x1 x2 x3 x0)) -∗ K ⟨⟩))
      ⊢ wp frame (wpE (defs₀ (F := F)) Variants.none c none) E (cc1__tc_mv_body arg0 harg0 arg1 harg1 arg2 harg2 arg3 harg3 arg4 harg4) K := by
  simp only [cc1__tc_mv_body_eq_skeleton]; unfold cc1__tc_mv_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (fun y => ⟨_, List.mem_singleton_self _, View.mem_set_unit_zero hz2 inb_S10000x1_S10000x1_0_0 y⟩)).trans ?_
  rw [View.canon_unit_zero hz2]
  exact congr (congr (congr (congrArg k1_pay1 (View.ld_unit_zero hz2 _ (arg1.view.read (Elt F) f1))) (View.ld_unit_zero hz2 _ (arg2.view.read (Elt F) f2)))
    (View.ld_unit_zero hz2 _ (arg3.view.read (Elt F) f3))) (View.ld_unit_zero hz2 _ (arg0.view.read (Elt F) f0))

section R1
variable (d : Dev nD) (x0 : Vec F S10000x128 .f32) (x1 : Vec F S128x16 .f32) (x2 : Vec F S16x8 .f32) (x3 : Vec F S8x1 .f32) (y : Vec F S10000x1 .f32)
  (O : CellTallies nD τ sig (HIx 4)) (B : Set (SemLoc sig × HIx 4))

theorem after1_0 (t : Fin cfg1.N) : (dat1 d x0 x1 x2 x3 y O B).after 0 t = x0 := by dsimp only [dat1]
theorem after1_1 (t : Fin cfg1.N) : (dat1 d x0 x1 x2 x3 y O B).after 1 t = x1 := by dsimp only [dat1]
theorem after1_2 (t : Fin cfg1.N) : (dat1 d x0 x1 x2 x3 y O B).after 2 t = x2 := by dsimp only [dat1]
theorem after1_3 (t : Fin cfg1.N) : (dat1 d x0 x1 x2 x3 y O B).after 3 t = x3 := by dsimp only [dat1]
theorem after1_4 (t : Fin cfg1.N) : (dat1 d x0 x1 x2 x3 y O B).after 4 t = k1_pay1 x1 x2 x3 x0 := by dsimp only [dat1]

theorem before1_0 (t : Fin cfg1.N) (dd) : (dat1 d x0 x1 x2 x3 y O B).before 0 t dd = x0 := by
  unfold Dat.before; rw [if_pos (fetch1_0 t)]; unfold Dat.fetched Dat.blockOf
  rw [show (dat1 d x0 x1 x2 x3 y O B).A 0 = x0 from by dsimp only [dat1, A1]]
  exact (congrArg _ (rd1_0 x0 t)).trans rfl
theorem before1_1 (t : Fin cfg1.N) (dd) : (dat1 d x0 x1 x2 x3 y O B).before 1 t dd = x1 := by
  unfold Dat.before; rw [if_pos (fetch1_1 t)]; unfold Dat.fetched Dat.blockOf
  rw [show (dat1 d x0 x1 x2 x3 y O B).A 1 = x1 from by dsimp only [dat1, A1]]
  exact (congrArg _ (rd1_1 x1 t)).trans rfl
theorem before1_2 (t : Fin cfg1.N) (dd) : (dat1 d x0 x1 x2 x3 y O B).before 2 t dd = x2 := by
  unfold Dat.before; rw [if_pos (fetch1_2 t)]; unfold Dat.fetched Dat.blockOf
  rw [show (dat1 d x0 x1 x2 x3 y O B).A 2 = x2 from by dsimp only [dat1, A1]]
  exact (congrArg _ (rd1_2 x2 t)).trans rfl
theorem before1_3 (t : Fin cfg1.N) (dd) : (dat1 d x0 x1 x2 x3 y O B).before 3 t dd = x3 := by
  unfold Dat.before; rw [if_pos (fetch1_3 t)]; unfold Dat.fetched Dat.blockOf
  rw [show (dat1 d x0 x1 x2 x3 y O B).A 3 = x3 from by dsimp only [dat1, A1]]
  exact (congrArg _ (rd1_3 x3 t)).trans rfl

theorem arrAt1_4 : (dat1 d x0 x1 x2 x3 y O B).arrAt 4 cfg1.N = k1_pay1 x1 x2 x3 x0 := by
  refine Dat.arrAt_eq_of_cover _ 4 _ (fun t _ => ?_) (fun i => ⟨t1_0, flush1_4 _, mem1_4 _ i⟩)
  rw [rd1_4]; unfold Dat.flushed; rw [after1_4]; rfl

def bodyPre1 (t : Fin cfg1.N) : sProp 𝕄 :=
  iprop((dat1 d x0 x1 x2 x3 y O B).Φ t.castSucc ∗ (dat1 d x0 x1 x2 x3 y O B).owesAt none t.castSucc
    ∗ (∃ dd, owns (d : Thread nD τ) (st1_0 t) fullShare ((dat1 d x0 x1 x2 x3 y O B).before 0 t dd))
    ∗ (∃ dd, owns (d : Thread nD τ) (st1_1 t) fullShare ((dat1 d x0 x1 x2 x3 y O B).before 1 t dd))
    ∗ (∃ dd, owns (d : Thread nD τ) (st1_2 t) fullShare ((dat1 d x0 x1 x2 x3 y O B).before 2 t dd))
    ∗ (∃ dd, owns (d : Thread nD τ) (st1_3 t) fullShare ((dat1 d x0 x1 x2 x3 y O B).before 3 t dd))
    ∗ (∃ dd, owns (d : Thread nD τ) (st1_4 t) fullShare ((dat1 d x0 x1 x2 x3 y O B).before 4 t dd)))

def bodyPost1 (t : Fin cfg1.N) : sProp 𝕄 :=
  iprop((dat1 d x0 x1 x2 x3 y O B).Φ t.succ ∗ (dat1 d x0 x1 x2 x3 y O B).owesAt none t.succ
    ∗ owns (d : Thread nD τ) (st1_0 t) fullShare ((dat1 d x0 x1 x2 x3 y O B).after 0 t)
    ∗ owns (d : Thread nD τ) (st1_1 t) fullShare ((dat1 d x0 x1 x2 x3 y O B).after 1 t)
    ∗ owns (d : Thread nD τ) (st1_2 t) fullShare ((dat1 d x0 x1 x2 x3 y O B).after 2 t)
    ∗ owns (d : Thread nD τ) (st1_3 t) fullShare ((dat1 d x0 x1 x2 x3 y O B).after 3 t)
    ∗ owns (d : Thread nD τ) (st1_4 t) fullShare ((dat1 d x0 x1 x2 x3 y O B).after 4 t))

theorem sound_body1 (t : Fin cfg1.N) :
    bodyPre1 d x0 x1 x2 x3 y O B t ⊢ wp frame (wpE (defs₀ (F := F)) Variants.none d none) Set.univ (bodyAt1 t) (fun _ => bodyPost1 d x0 x1 x2 x3 y O B t) := by
  unfold bodyPre1 bodyPost1 bodyAt1
  simp only [before1_0, before1_1, before1_2, before1_3]
  rw [show (dat1 d x0 x1 x2 x3 y O B).Φ t.succ = (dat1 d x0 x1 x2 x3 y O B).Φ t.castSucc from rfl,
    show (dat1 d x0 x1 x2 x3 y O B).owesAt none t.succ = (dat1 d x0 x1 x2 x3 y O B).owesAt none t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 d Set.univ _ _ _ _ _ _ _ _ _ _ x0 x1 x2 x3 _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 : BodyObligation (dat1 (F := F) d x0 x1 x2 x3 y O B) (defs₀ (F := F)) Variants.none none Set.univ := fun t => by
  rw [bigSep_W1, bigSep_W1]
  exact sound_body1 d x0 x1 x2 x3 y O B t

theorem arrays1_eq (Fw : (w : Fin cfg1.W) → Buf (Elt F) ((cfg1.win w).arr.view.loc (d.tc : Thread nD τ))) :
    (dat1 d x0 x1 x2 x3 y O B).arrays Fw
      = iprop(((T d : Thread nD τ).loc main_arg0 ↦{fullShare} Fw 0) ∗ ((T d : Thread nD τ).loc main_arg3 ↦{fullShare} Fw 1)
          ∗ ((T d : Thread nD τ).loc main_arg5 ↦{fullShare} Fw 2) ∗ ((T d : Thread nD τ).loc main_arg7 ↦{fullShare} Fw 3)
          ∗ ((T d : Thread nD τ).loc main_v9 ↦{fullShare} Fw 4)) := by
  unfold Dat.arrays
  rw [bigSep_W1]
  simp only [(dat1 d x0 x1 x2 x3 y O B).share_full fun _ => rfl]
  rw [(arr_whole1 0).set_eq_univ, (arr_whole1 1).set_eq_univ, (arr_whole1 2).set_eq_univ, (arr_whole1 3).set_eq_univ, (arr_whole1 4).set_eq_univ]

theorem pre1_intro (W : Waits sig (HIx 4)) :
    iprop(owes (T d) O W ∗ ((T d : Thread nD τ).loc main_arg0 ↦{fullShare} x0) ∗ ((T d : Thread nD τ).loc main_arg3 ↦{fullShare} x1)
        ∗ ((T d : Thread nD τ).loc main_arg5 ↦{fullShare} x2) ∗ ((T d : Thread nD τ).loc main_arg7 ↦{fullShare} x3)
        ∗ ((T d : Thread nD τ).loc main_v9 ↦{fullShare} y))
      ⊢ iprop((dat1 d x0 x1 x2 x3 y O (↑W)).arrays ((dat1 d x0 x1 x2 x3 y O (↑W)).arrAt · 0) ∗ (dat1 d x0 x1 x2 x3 y O (↑W)).owesAt none 0) := by
  rw [arrays1_eq]
  iintro ⟨HO, H0, H1, H2, H3, H4⟩
  isplitr [HO]
  · isplitl [H0]; · iexact H0
    isplitl [H1]; · iexact H1
    isplitl [H2]; · iexact H2
    isplitl [H3]; · iexact H3
    iexact H4
  iexists W; isplitr; · ipureintro; exact fun p hp => Or.inl hp
  iexact HO

theorem post1_elim (W : Waits sig (HIx 4)) :
    iprop((dat1 d x0 x1 x2 x3 y O (↑W)).arrays ((dat1 d x0 x1 x2 x3 y O (↑W)).arrAt · cfg1.N) ∗ (dat1 d x0 x1 x2 x3 y O (↑W)).owesAt none (Fin.last cfg1.N))
      ⊢ iprop((∃ W' : Waits sig (HIx 4), ⌜∀ p ∈ W', p ∈ W ∨ p.2 = none⌝ ∗ owes (T d) O W')
          ∗ ((T d : Thread nD τ).loc main_arg0 ↦{fullShare} x0) ∗ ((T d : Thread nD τ).loc main_arg3 ↦{fullShare} x1)
          ∗ ((T d : Thread nD τ).loc main_arg5 ↦{fullShare} x2) ∗ ((T d : Thread nD τ).loc main_arg7 ↦{fullShare} x3)
          ∗ ((T d : Thread nD τ).loc main_v9 ↦{fullShare} k1_pay1 x1 x2 x3 x0)) := by
  rw [arrays1_eq]
  rw [Dat.arrAt_in _ (0 : Fin cfg1.W) rfl, Dat.arrAt_in _ (1 : Fin cfg1.W) rfl, Dat.arrAt_in _ (2 : Fin cfg1.W) rfl, Dat.arrAt_in _ (3 : Fin cfg1.W) rfl, arrAt1_4]
  iintro ⟨⟨H0, H1, H2, H3, H4⟩, ⟨%W', %hW', HO⟩⟩
  isplitl [HO]
  · iexists W'; isplitr
    · ipureintro
      intro p hp
      rcases hW' (Finset.mem_coe.mpr hp) with h | ⟨w, s, rfl⟩
      · exact Or.inl (Finset.mem_coe.mp h)
      · exact Or.inr rfl
    iexact HO
  isplitl [H0]; · iexact H0
  isplitl [H1]; · iexact H1
  isplitl [H2]; · iexact H2
  isplitl [H3]; · iexact H3
  iexact H4
end R1

theorem rd2_0 (x : Vec F S32x10000 .f32) (t : Fin cfg2.N) : ((cfg2.win 0).blk t).view.read (Elt F) x = x := by read_blk_tac (cfg2.win 0), t
theorem rd2_1 (x : Vec F S1x10000 .f32) (t : Fin cfg2.N) : ((cfg2.win 1).blk t).view.read (Elt F) x = x := by read_blk_tac (cfg2.win 1), t
theorem rd2_2 (x : Vec F S1x10000 .f32) (t : Fin cfg2.N) : ((cfg2.win 2).blk t).view.read (Elt F) x = x := by read_blk_tac (cfg2.win 2), t
theorem rd2_3 (x : Vec F S1x10000 .f32) (t : Fin cfg2.N) : ((cfg2.win 3).blk t).view.read (Elt F) x = x := by read_blk_tac (cfg2.win 3), t
theorem mem2_2 (t : Fin cfg2.N) (i : S1x10000.Idx) : i ∈ ((cfg2.win 2).blk t).view.set := by mem_blk_tac (cfg2.win 2), t, i
theorem mem2_3 (t : Fin cfg2.N) (i : S1x10000.Idx) : i ∈ ((cfg2.win 3).blk t).view.set := by mem_blk_tac (cfg2.win 3), t, i

def A2 (d : Dev nD) (x0 : Vec F S32x10000 .f32) (x1 : Vec F S1x10000 .f32) (y2 y3 : Vec F S1x10000 .f32) :
    (w : Fin cfg2.W) → Buf (Elt F) ((cfg2.win w).arr.view.loc (d.tc : Thread nD τ))
  | ⟨0, _⟩ => x0
  | ⟨1, _⟩ => x1
  | ⟨2, _⟩ => y2
  | ⟨3, _⟩ => y3

def dat2 (d : Dev nD) (x0 : Vec F S32x10000 .f32) (x1 : Vec F S1x10000 .f32) (y2 y3 : Vec F S1x10000 .f32)
    (O : CellTallies nD τ sig (HIx 4)) (B : Set (SemLoc sig × HIx 4)) : Dat τ (Elt F) (HIx 4) ℕ UU ℕ cfg2 d where
  A := A2 d x0 x1 y2 y3
  after w t := match w with
    | ⟨0, _⟩ => x0
    | ⟨1, _⟩ => x1
    | ⟨2, _⟩ => k2_pay2 x0 x1
    | ⟨3, _⟩ => k2_pay1 x0
  Φ _ := Pipeline.scopedRest spec2 d
  q _ := fullShare
  owed _ := O
  recorded _ := B

set_option maxHeartbeats 1000000 in
theorem sound_kernel2 (c : Dev nD) (E : Set ℕ) (arg0 : Memref sig .tc .vmem S32x10000 .f32) (harg0 : arg0.IsWhole) (arg1 : Memref sig .tc .vmem S1x10000 .f32) (harg1 : arg1.IsWhole)
    (arg2 : Memref sig .tc .vmem S1x10000 .f32) (harg2 : arg2.IsWhole) (arg3 : Memref sig .tc .vmem S1x10000 .f32) (harg3 : arg3.IsWhole)
    (x0 : Vec F S32x10000 .f32) (x1 : Vec F S1x10000 .f32) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (k2_pay2 x0 x1) ∗ owns (c : Thread nD τ) arg3 fullShare (k2_pay1 x0)) -∗ K ⟨⟩))
      ⊢ wp frame (wpE (defs₀ (F := F)) Variants.none c none) E (cc2__tc_prep_body arg0 harg0 arg1 harg1 arg2 harg2 arg3 harg3) K := by
  simp only [cc2__tc_prep_body_eq_skeleton]; unfold cc2__tc_prep_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_singleton_self _, View.mem_set_unit_zero hz2 inb_S1x10000_S1x10000_0_0 y⟩)).trans ?_
    rw [View.canon_unit_zero hz2]
    exact congr (congrArg k2_pay2 (View.ld_unit_zero hz2 _ (arg0.view.read (Elt F) f0))) (View.ld_unit_zero hz2 _ (arg1.view.read (Elt F) f1))
  iexists _; isplitr
  swap; · iexact H3
  ipureintro
  refine (View.read_writes_eq_canon _ _ _ (fun y => ⟨_, List.mem_singleton_self _, View.mem_set_unit_zero hz2 inb_S1x10000_S1x10000_0_0 y⟩)).trans ?_
  rw [View.canon_unit_zero hz2]
  exact congrArg k2_pay1 (View.ld_unit_zero hz2 _ (arg0.view.read (Elt F) f0))

section R2
variable (d : Dev nD) (x0 : Vec F S32x10000 .f32) (x1 : Vec F S1x10000 .f32) (y2 y3 : Vec F S1x10000 .f32)
  (O : CellTallies nD τ sig (HIx 4)) (B : Set (SemLoc sig × HIx 4))

theorem after2_0 (t : Fin cfg2.N) : (dat2 d x0 x1 y2 y3 O B).after 0 t = x0 := by dsimp only [dat2]
theorem after2_1 (t : Fin cfg2.N) : (dat2 d x0 x1 y2 y3 O B).after 1 t = x1 := by dsimp only [dat2]
theorem after2_2 (t : Fin cfg2.N) : (dat2 d x0 x1 y2 y3 O B).after 2 t = k2_pay2 x0 x1 := by dsimp only [dat2]
theorem after2_3 (t : Fin cfg2.N) : (dat2 d x0 x1 y2 y3 O B).after 3 t = k2_pay1 x0 := by dsimp only [dat2]

theorem before2_0 (t : Fin cfg2.N) (dd) : (dat2 d x0 x1 y2 y3 O B).before 0 t dd = x0 := by
  unfold Dat.before; rw [if_pos (fetch2_0 t)]; unfold Dat.fetched Dat.blockOf
  rw [show (dat2 d x0 x1 y2 y3 O B).A 0 = x0 from by dsimp only [dat2, A2]]
  exact (congrArg _ (rd2_0 x0 t)).trans rfl
theorem before2_1 (t : Fin cfg2.N) (dd) : (dat2 d x0 x1 y2 y3 O B).before 1 t dd = x1 := by
  unfold Dat.before; rw [if_pos (fetch2_1 t)]; unfold Dat.fetched Dat.blockOf
  rw [show (dat2 d x0 x1 y2 y3 O B).A 1 = x1 from by dsimp only [dat2, A2]]
  exact (congrArg _ (rd2_1 x1 t)).trans rfl

theorem arrAt2_2 : (dat2 d x0 x1 y2 y3 O B).arrAt 2 cfg2.N = k2_pay2 x0 x1 := by
  refine Dat.arrAt_eq_of_cover _ 2 _ (fun t _ => ?_) (fun i => ⟨t2_0, flush2_2 _, mem2_2 _ i⟩)
  rw [rd2_2]; unfold Dat.flushed; rw [after2_2]; rfl
theorem arrAt2_3 : (dat2 d x0 x1 y2 y3 O B).arrAt 3 cfg2.N = k2_pay1 x0 := by
  refine Dat.arrAt_eq_of_cover _ 3 _ (fun t _ => ?_) (fun i => ⟨t2_0, flush2_3 _, mem2_3 _ i⟩)
  rw [rd2_3]; unfold Dat.flushed; rw [after2_3]; rfl

def bodyPre2 (t : Fin cfg2.N) : sProp 𝕄 :=
  iprop((dat2 d x0 x1 y2 y3 O B).Φ t.castSucc ∗ (dat2 d x0 x1 y2 y3 O B).owesAt none t.castSucc
    ∗ (∃ dd, owns (d : Thread nD τ) (st2_0 t) fullShare ((dat2 d x0 x1 y2 y3 O B).before 0 t dd))
    ∗ (∃ dd, owns (d : Thread nD τ) (st2_1 t) fullShare ((dat2 d x0 x1 y2 y3 O B).before 1 t dd))
    ∗ (∃ dd, owns (d : Thread nD τ) (st2_2 t) fullShare ((dat2 d x0 x1 y2 y3 O B).before 2 t dd))
    ∗ (∃ dd, owns (d : Thread nD τ) (st2_3 t) fullShare ((dat2 d x0 x1 y2 y3 O B).before 3 t dd)))

def bodyPost2 (t : Fin cfg2.N) : sProp 𝕄 :=
  iprop((dat2 d x0 x1 y2 y3 O B).Φ t.succ ∗ (dat2 d x0 x1 y2 y3 O B).owesAt none t.succ
    ∗ owns (d : Thread nD τ) (st2_0 t) fullShare ((dat2 d x0 x1 y2 y3 O B).after 0 t)
    ∗ owns (d : Thread nD τ) (st2_1 t) fullShare ((dat2 d x0 x1 y2 y3 O B).after 1 t)
    ∗ owns (d : Thread nD τ) (st2_2 t) fullShare ((dat2 d x0 x1 y2 y3 O B).after 2 t)
    ∗ owns (d : Thread nD τ) (st2_3 t) fullShare ((dat2 d x0 x1 y2 y3 O B).after 3 t))

theorem sound_body2 (t : Fin cfg2.N) :
    bodyPre2 d x0 x1 y2 y3 O B t ⊢ wp frame (wpE (defs₀ (F := F)) Variants.none d none) Set.univ (bodyAt2 t) (fun _ => bodyPost2 d x0 x1 y2 y3 O B t) := by
  unfold bodyPre2 bodyPost2 bodyAt2
  simp only [before2_0, before2_1]
  rw [show (dat2 d x0 x1 y2 y3 O B).Φ t.succ = (dat2 d x0 x1 y2 y3 O B).Φ t.castSucc from rfl,
    show (dat2 d x0 x1 y2 y3 O B).owesAt none t.succ = (dat2 d x0 x1 y2 y3 O B).owesAt none t.castSucc from rfl,
    after2_0, after2_1, after2_2, after2_3]
  iintro ⟨HΦ, Ho, ⟨%d0, H0⟩, ⟨%d1, H1⟩, ⟨%d2, H2⟩, ⟨%d3, H3⟩⟩
  iapply (sound_kernel2 d Set.univ _ _ _ _ _ _ _ _ x0 x1 _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 : BodyObligation (dat2 (F := F) d x0 x1 y2 y3 O B) (defs₀ (F := F)) Variants.none none Set.univ := fun t => by
  rw [bigSep_W2, bigSep_W2]
  exact sound_body2 d x0 x1 y2 y3 O B t

theorem arrays2_eq (Fw : (w : Fin cfg2.W) → Buf (Elt F) ((cfg2.win w).arr.view.loc (d.tc : Thread nD τ))) :
    (dat2 d x0 x1 y2 y3 O B).arrays Fw
      = iprop(((T d : Thread nD τ).loc main_v8 ↦{fullShare} Fw 0) ∗ ((T d : Thread nD τ).loc main_v10 ↦{fullShare} Fw 1)
          ∗ ((T d : Thread nD τ).loc main_v11_0 ↦{fullShare} Fw 2) ∗ ((T d : Thread nD τ).loc main_v11_1 ↦{fullShare} Fw 3)) := by
  unfold Dat.arrays
  rw [bigSep_W2]
  simp only [(dat2 d x0 x1 y2 y3 O B).share_full fun _ => rfl]
  rw [(arr_whole2 0).set_eq_univ, (arr_whole2 1).set_eq_univ, (arr_whole2 2).set_eq_univ, (arr_whole2 3).set_eq_univ]

theorem pre2_intro (W : Waits sig (HIx 4)) :
    iprop(owes (T d) O W ∗ ((T d : Thread nD τ).loc main_v8 ↦{fullShare} x0) ∗ ((T d : Thread nD τ).loc main_v10 ↦{fullShare} x1)
        ∗ ((T d : Thread nD τ).loc main_v11_0 ↦{fullShare} y2) ∗ ((T d : Thread nD τ).loc main_v11_1 ↦{fullShare} y3))
      ⊢ iprop((dat2 d x0 x1 y2 y3 O (↑W)).arrays ((dat2 d x0 x1 y2 y3 O (↑W)).arrAt · 0) ∗ (dat2 d x0 x1 y2 y3 O (↑W)).owesAt none 0) := by
  rw [arrays2_eq]
  iintro ⟨HO, H0, H1, H2, H3⟩
  isplitr [HO]
  · isplitl [H0]; · iexact H0
    isplitl [H1]; · iexact H1
    isplitl [H2]; · iexact H2
    iexact H3
  iexists W; isplitr; · ipureintro; exact fun p hp => Or.inl hp
  iexact HO

theorem post2_elim (W : Waits sig (HIx 4)) :
    iprop((dat2 d x0 x1 y2 y3 O (↑W)).arrays ((dat2 d x0 x1 y2 y3 O (↑W)).arrAt · cfg2.N) ∗ (dat2 d x0 x1 y2 y3 O (↑W)).owesAt none (Fin.last cfg2.N))
      ⊢ iprop((∃ W' : Waits sig (HIx 4), ⌜∀ p ∈ W', p ∈ W ∨ p.2 = none⌝ ∗ owes (T d) O W')
          ∗ ((T d : Thread nD τ).loc main_v8 ↦{fullShare} x0) ∗ ((T d : Thread nD τ).loc main_v10 ↦{fullShare} x1)
          ∗ ((T d : Thread nD τ).loc main_v11_0 ↦{fullShare} k2_pay2 x0 x1) ∗ ((T d : Thread nD τ).loc main_v11_1 ↦{fullShare} k2_pay1 x0)) := by
  rw [arrays2_eq]
  rw [Dat.arrAt_in _ (0 : Fin cfg2.W) rfl, Dat.arrAt_in _ (1 : Fin cfg2.W) rfl, arrAt2_2, arrAt2_3]
  iintro ⟨⟨H0, H1, H2, H3⟩, ⟨%W', %hW', HO⟩⟩
  isplitl [HO]
  · iexists W'; isplitr
    · ipureintro
      intro p hp
      rcases hW' (Finset.mem_coe.mpr hp) with h | ⟨w, s, rfl⟩
      · exact Or.inl (Finset.mem_coe.mp h)
      · exact Or.inr rfl
    iexact HO
  isplitl [H0]; · iexact H0
  isplitl [H1]; · iexact H1
  isplitl [H2]; · iexact H2
  iexact H3
end R2

theorem rd4_0 (x : Vec F S32x10000 .f32) (t : Fin cfg4.N) : ((cfg4.win 0).blk t).view.read (Elt F) x = x := by read_blk_tac (cfg4.win 0), t
theorem rd4_1 (x : Vec F S1x10000 .f32) (t : Fin cfg4.N) : ((cfg4.win 1).blk t).view.read (Elt F) x = x := by read_blk_tac (cfg4.win 1), t
theorem rd4_2 (x : Vec F S1x10000 .f32) (t : Fin cfg4.N) : ((cfg4.win 2).blk t).view.read (Elt F) x = x := by read_blk_tac (cfg4.win 2), t
theorem rd4_3 (x : Vec F S1x1 .f32) (t : Fin cfg4.N) : ((cfg4.win 3).blk t).view.read (Elt F) x = x := by read_blk_tac (cfg4.win 3), t
theorem rd4_4 (x : Vec F S1x10000 .f32) (t : Fin cfg4.N) : ((cfg4.win 4).blk t).view.read (Elt F) x = x := by read_blk_tac (cfg4.win 4), t
theorem mem4_4 (t : Fin cfg4.N) (i : S1x10000.Idx) : i ∈ ((cfg4.win 4).blk t).view.set := by mem_blk_tac (cfg4.win 4), t, i
def A4 (d : Dev nD) (x0 : Vec F S32x10000 .f32) (x1 x2 : Vec F S1x10000 .f32) (x3 : Vec F S1x1 .f32) (y : Vec F S1x10000 .f32) :
    (w : Fin cfg4.W) → Buf (Elt F) ((cfg4.win w).arr.view.loc (d.tc : Thread nD τ))
  | ⟨0, _⟩ => x0
  | ⟨1, _⟩ => x1
  | ⟨2, _⟩ => x2
  | ⟨3, _⟩ => x3
  | ⟨4, _⟩ => y

def dat4 (d : Dev nD) (x0 : Vec F S32x10000 .f32) (x1 x2 : Vec F S1x10000 .f32) (x3 : Vec F S1x1 .f32) (y : Vec F S1x10000 .f32)
    (O : CellTallies nD τ sig (HIx 4)) (B : Set (SemLoc sig × HIx 4)) : Dat τ (Elt F) (HIx 4) ℕ UU ℕ cfg4 d where
  A := A4 d x0 x1 x2 x3 y
  after w t := match w with
    | ⟨0, _⟩ => x0
    | ⟨1, _⟩ => x1
    | ⟨2, _⟩ => x2
    | ⟨3, _⟩ => x3
    | ⟨4, _⟩ => k4_pay1 x0 x2 x1 x3
  Φ _ := Pipeline.scopedRest spec4 d
  q _ := fullShare
  owed _ := O
  recorded _ := B

set_option maxHeartbeats 1000000 in
theorem sound_kernel4 (c : Dev nD) (E : Set ℕ) (arg0 : Memref sig .tc .vmem S32x10000 .f32) (harg0 : arg0.IsWhole) (arg1 : Memref sig .tc .vmem S1x10000 .f32) (harg1 : arg1.IsWhole)
    (arg2 : Memref sig .tc .vmem S1x10000 .f32) (harg2 : arg2.IsWhole) (arg3 : Memref sig .tc .vmem S1x1 .f32) (harg3 : arg3.IsWhole) (arg4 : Memref sig .tc .vmem S1x10000 .f32) (harg4 : arg4.IsWhole)
    (x0 : Vec F S32x10000 .f32) (x1 x2 : Vec F S1x10000 .f32) (x3 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (k4_pay1 x0 x2 x1 x3)) -∗ K ⟨⟩))
      ⊢ wp frame (wpE (defs₀ (F := F)) Variants.none c none) E (cc4__tc_layer_body arg0 harg0 arg1 harg1 arg2 harg2 arg3 harg3 arg4 harg4) K := by
  simp only [cc4__tc_layer_body_eq_skeleton]; unfold cc4__tc_layer_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (fun y => ⟨_, List.mem_singleton_self _, View.mem_set_unit_zero hz2 inb_S1x10000_S1x10000_0_0 y⟩)).trans ?_
  rw [View.canon_unit_zero hz2]
  exact congr (congr (congr (congrArg k4_pay1 (View.ld_unit_zero hz2 _ (arg0.view.read (Elt F) f0))) (View.ld_unit_zero hz2 _ (arg2.view.read (Elt F) f2)))
    (View.ld_unit_zero hz2 _ (arg1.view.read (Elt F) f1))) (View.ld_unit_zero hz2 _ (arg3.view.read (Elt F) f3))

section R4
variable (d : Dev nD) (x0 : Vec F S32x10000 .f32) (x1 x2 : Vec F S1x10000 .f32) (x3 : Vec F S1x1 .f32) (y : Vec F S1x10000 .f32)
  (O : CellTallies nD τ sig (HIx 4)) (B : Set (SemLoc sig × HIx 4))

theorem after4_0 (t : Fin cfg4.N) : (dat4 d x0 x1 x2 x3 y O B).after 0 t = x0 := by dsimp only [dat4]
theorem after4_1 (t : Fin cfg4.N) : (dat4 d x0 x1 x2 x3 y O B).after 1 t = x1 := by dsimp only [dat4]
theorem after4_2 (t : Fin cfg4.N) : (dat4 d x0 x1 x2 x3 y O B).after 2 t = x2 := by dsimp only [dat4]
theorem after4_3 (t : Fin cfg4.N) : (dat4 d x0 x1 x2 x3 y O B).after 3 t = x3 := by dsimp only [dat4]
theorem after4_4 (t : Fin cfg4.N) : (dat4 d x0 x1 x2 x3 y O B).after 4 t = k4_pay1 x0 x2 x1 x3 := by dsimp only [dat4]

theorem before4_0 (t : Fin cfg4.N) (dd) : (dat4 d x0 x1 x2 x3 y O B).before 0 t dd = x0 := by
  unfold Dat.before; rw [if_pos (fetch4_0 t)]; unfold Dat.fetched Dat.blockOf
  rw [show (dat4 d x0 x1 x2 x3 y O B).A 0 = x0 from by dsimp only [dat4, A4]]
  exact (congrArg _ (rd4_0 x0 t)).trans rfl
theorem before4_1 (t : Fin cfg4.N) (dd) : (dat4 d x0 x1 x2 x3 y O B).before 1 t dd = x1 := by
  unfold Dat.before; rw [if_pos (fetch4_1 t)]; unfold Dat.fetched Dat.blockOf
  rw [show (dat4 d x0 x1 x2 x3 y O B).A 1 = x1 from by dsimp only [dat4, A4]]
  exact (congrArg _ (rd4_1 x1 t)).trans rfl
theorem before4_2 (t : Fin cfg4.N) (dd) : (dat4 d x0 x1 x2 x3 y O B).before 2 t dd = x2 := by
  unfold Dat.before; rw [if_pos (fetch4_2 t)]; unfold Dat.fetched Dat.blockOf
  rw [show (dat4 d x0 x1 x2 x3 y O B).A 2 = x2 from by dsimp only [dat4, A4]]
  exact (congrArg _ (rd4_2 x2 t)).trans rfl
theorem before4_3 (t : Fin cfg4.N) (dd) : (dat4 d x0 x1 x2 x3 y O B).before 3 t dd = x3 := by
  unfold Dat.before; rw [if_pos (fetch4_3 t)]; unfold Dat.fetched Dat.blockOf
  rw [show (dat4 d x0 x1 x2 x3 y O B).A 3 = x3 from by dsimp only [dat4, A4]]
  exact (congrArg _ (rd4_3 x3 t)).trans rfl

theorem arrAt4_4 : (dat4 d x0 x1 x2 x3 y O B).arrAt 4 cfg4.N = k4_pay1 x0 x2 x1 x3 := by
  refine Dat.arrAt_eq_of_cover _ 4 _ (fun t _ => ?_) (fun i => ⟨t4_0, flush4_4 _, mem4_4 _ i⟩)
  rw [rd4_4]; unfold Dat.flushed; rw [after4_4]; rfl

def bodyPre4 (t : Fin cfg4.N) : sProp 𝕄 :=
  iprop((dat4 d x0 x1 x2 x3 y O B).Φ t.castSucc ∗ (dat4 d x0 x1 x2 x3 y O B).owesAt none t.castSucc
    ∗ (∃ dd, owns (d : Thread nD τ) (st4_0 t) fullShare ((dat4 d x0 x1 x2 x3 y O B).before 0 t dd))
    ∗ (∃ dd, owns (d : Thread nD τ) (st4_1 t) fullShare ((dat4 d x0 x1 x2 x3 y O B).before 1 t dd))
    ∗ (∃ dd, owns (d : Thread nD τ) (st4_2 t) fullShare ((dat4 d x0 x1 x2 x3 y O B).before 2 t dd))
    ∗ (∃ dd, owns (d : Thread nD τ) (st4_3 t) fullShare ((dat4 d x0 x1 x2 x3 y O B).before 3 t dd))
    ∗ (∃ dd, owns (d : Thread nD τ) (st4_4 t) fullShare ((dat4 d x0 x1 x2 x3 y O B).before 4 t dd)))

def bodyPost4 (t : Fin cfg4.N) : sProp 𝕄 :=
  iprop((dat4 d x0 x1 x2 x3 y O B).Φ t.succ ∗ (dat4 d x0 x1 x2 x3 y O B).owesAt none t.succ
    ∗ owns (d : Thread nD τ) (st4_0 t) fullShare ((dat4 d x0 x1 x2 x3 y O B).after 0 t)
    ∗ owns (d : Thread nD τ) (st4_1 t) fullShare ((dat4 d x0 x1 x2 x3 y O B).after 1 t)
    ∗ owns (d : Thread nD τ) (st4_2 t) fullShare ((dat4 d x0 x1 x2 x3 y O B).after 2 t)
    ∗ owns (d : Thread nD τ) (st4_3 t) fullShare ((dat4 d x0 x1 x2 x3 y O B).after 3 t)
    ∗ owns (d : Thread nD τ) (st4_4 t) fullShare ((dat4 d x0 x1 x2 x3 y O B).after 4 t))

theorem sound_body4 (t : Fin cfg4.N) :
    bodyPre4 d x0 x1 x2 x3 y O B t ⊢ wp frame (wpE (defs₀ (F := F)) Variants.none d none) Set.univ (bodyAt4 t) (fun _ => bodyPost4 d x0 x1 x2 x3 y O B t) := by
  unfold bodyPre4 bodyPost4 bodyAt4
  simp only [before4_0, before4_1, before4_2, before4_3]
  rw [show (dat4 d x0 x1 x2 x3 y O B).Φ t.succ = (dat4 d x0 x1 x2 x3 y O B).Φ t.castSucc from rfl,
    show (dat4 d x0 x1 x2 x3 y O B).owesAt none t.succ = (dat4 d x0 x1 x2 x3 y O B).owesAt none t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 d Set.univ _ _ _ _ _ _ _ _ _ _ x0 x1 x2 x3 _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 : BodyObligation (dat4 (F := F) d x0 x1 x2 x3 y O B) (defs₀ (F := F)) Variants.none none Set.univ := fun t => by
  rw [bigSep_W4, bigSep_W4]
  exact sound_body4 d x0 x1 x2 x3 y O B t

theorem arrays4_eq (Fw : (w : Fin cfg4.W) → Buf (Elt F) ((cfg4.win w).arr.view.loc (d.tc : Thread nD τ))) :
    (dat4 d x0 x1 x2 x3 y O B).arrays Fw
      = iprop(((T d : Thread nD τ).loc main_v13 ↦{fullShare} Fw 0) ∗ ((T d : Thread nD τ).loc main_v11_0 ↦{fullShare} Fw 1)
          ∗ ((T d : Thread nD τ).loc main_v11_1 ↦{fullShare} Fw 2) ∗ ((T d : Thread nD τ).loc main_v4 ↦{fullShare} Fw 3)
          ∗ ((T d : Thread nD τ).loc main_v14 ↦{fullShare} Fw 4)) := by
  unfold Dat.arrays
  rw [bigSep_W4]
  simp only [(dat4 d x0 x1 x2 x3 y O B).share_full fun _ => rfl]
  rw [(arr_whole4 0).set_eq_univ, (arr_whole4 1).set_eq_univ, (arr_whole4 2).set_eq_univ, (arr_whole4 3).set_eq_univ, (arr_whole4 4).set_eq_univ]

theorem pre4_intro (W : Waits sig (HIx 4)) :
    iprop(owes (T d) O W ∗ ((T d : Thread nD τ).loc main_v13 ↦{fullShare} x0) ∗ ((T d : Thread nD τ).loc main_v11_0 ↦{fullShare} x1)
        ∗ ((T d : Thread nD τ).loc main_v11_1 ↦{fullShare} x2) ∗ ((T d : Thread nD τ).loc main_v4 ↦{fullShare} x3)
        ∗ ((T d : Thread nD τ).loc main_v14 ↦{fullShare} y))
      ⊢ iprop((dat4 d x0 x1 x2 x3 y O (↑W)).arrays ((dat4 d x0 x1 x2 x3 y O (↑W)).arrAt · 0) ∗ (dat4 d x0 x1 x2 x3 y O (↑W)).owesAt none 0) := by
  rw [arrays4_eq]
  iintro ⟨HO, H0, H1, H2, H3, H4⟩
  isplitr [HO]
  · isplitl [H0]; · iexact H0
    isplitl [H1]; · iexact H1
    isplitl [H2]; · iexact H2
    isplitl [H3]; · iexact H3
    iexact H4
  iexists W; isplitr; · ipureintro; exact fun p hp => Or.inl hp
  iexact HO

theorem post4_elim (W : Waits sig (HIx 4)) :
    iprop((dat4 d x0 x1 x2 x3 y O (↑W)).arrays ((dat4 d x0 x1 x2 x3 y O (↑W)).arrAt · cfg4.N) ∗ (dat4 d x0 x1 x2 x3 y O (↑W)).owesAt none (Fin.last cfg4.N))
      ⊢ iprop((∃ W' : Waits sig (HIx 4), ⌜∀ p ∈ W', p ∈ W ∨ p.2 = none⌝ ∗ owes (T d) O W')
          ∗ ((T d : Thread nD τ).loc main_v13 ↦{fullShare} x0) ∗ ((T d : Thread nD τ).loc main_v11_0 ↦{fullShare} x1)
          ∗ ((T d : Thread nD τ).loc main_v11_1 ↦{fullShare} x2) ∗ ((T d : Thread nD τ).loc main_v4 ↦{fullShare} x3)
          ∗ ((T d : Thread nD τ).loc main_v14 ↦{fullShare} k4_pay1 x0 x2 x1 x3)) := by
  rw [arrays4_eq]
  rw [Dat.arrAt_in _ (0 : Fin cfg4.W) rfl, Dat.arrAt_in _ (1 : Fin cfg4.W) rfl, Dat.arrAt_in _ (2 : Fin cfg4.W) rfl, Dat.arrAt_in _ (3 : Fin cfg4.W) rfl, arrAt4_4]
  iintro ⟨⟨H0, H1, H2, H3, H4⟩, ⟨%W', %hW', HO⟩⟩
  isplitl [HO]
  · iexists W'; isplitr
    · ipureintro
      intro p hp
      rcases hW' (Finset.mem_coe.mpr hp) with h | ⟨w, s, rfl⟩
      · exact Or.inl (Finset.mem_coe.mp h)
      · exact Or.inr rfl
    iexact HO
  isplitl [H0]; · iexact H0
  isplitl [H1]; · iexact H1
  isplitl [H2]; · iexact H2
  isplitl [H3]; · iexact H3
  iexact H4
end R4

theorem rd6_0 (x : Vec F S32x10000 .f32) (t : Fin cfg6.N) : ((cfg6.win 0).blk t).view.read (Elt F) x = x := by read_blk_tac (cfg6.win 0), t
theorem rd6_1 (x : Vec F S1x10000 .f32) (t : Fin cfg6.N) : ((cfg6.win 1).blk t).view.read (Elt F) x = x := by read_blk_tac (cfg6.win 1), t
theorem rd6_2 (x : Vec F S1x10000 .f32) (t : Fin cfg6.N) : ((cfg6.win 2).blk t).view.read (Elt F) x = x := by read_blk_tac (cfg6.win 2), t
theorem rd6_3 (x : Vec F S1x1 .f32) (t : Fin cfg6.N) : ((cfg6.win 3).blk t).view.read (Elt F) x = x := by read_blk_tac (cfg6.win 3), t
theorem rd6_4 (x : Vec F S1x10000 .f32) (t : Fin cfg6.N) : ((cfg6.win 4).blk t).view.read (Elt F) x = x := by read_blk_tac (cfg6.win 4), t
theorem mem6_4 (t : Fin cfg6.N) (i : S1x10000.Idx) : i ∈ ((cfg6.win 4).blk t).view.set := by mem_blk_tac (cfg6.win 4), t, i
def A6 (d : Dev nD) (x0 : Vec F S32x10000 .f32) (x1 x2 : Vec F S1x10000 .f32) (x3 : Vec F S1x1 .f32) (y : Vec F S1x10000 .f32) :
    (w : Fin cfg6.W) → Buf (Elt F) ((cfg6.win w).arr.view.loc (d.tc : Thread nD τ))
  | ⟨0, _⟩ => x0
  | ⟨1, _⟩ => x1
  | ⟨2, _⟩ => x2
  | ⟨3, _⟩ => x3
  | ⟨4, _⟩ => y

def dat6 (d : Dev nD) (x0 : Vec F S32x10000 .f32) (x1 x2 : Vec F S1x10000 .f32) (x3 : Vec F S1x1 .f32) (y : Vec F S1x10000 .f32)
    (O : CellTallies nD τ sig (HIx 4)) (B : Set (SemLoc sig × HIx 4)) : Dat τ (Elt F) (HIx 4) ℕ UU ℕ cfg6 d where
  A := A6 d x0 x1 x2 x3 y
  after w t := match w with
    | ⟨0, _⟩ => x0
    | ⟨1, _⟩ => x1
    | ⟨2, _⟩ => x2
    | ⟨3, _⟩ => x3
    | ⟨4, _⟩ => k6_pay1 x0 x2 x1 x3
  Φ _ := Pipeline.scopedRest spec6 d
  q _ := fullShare
  owed _ := O
  recorded _ := B

set_option maxHeartbeats 1000000 in
theorem sound_kernel6 (c : Dev nD) (E : Set ℕ) (arg0 : Memref sig .tc .vmem S32x10000 .f32) (harg0 : arg0.IsWhole) (arg1 : Memref sig .tc .vmem S1x10000 .f32) (harg1 : arg1.IsWhole)
    (arg2 : Memref sig .tc .vmem S1x10000 .f32) (harg2 : arg2.IsWhole) (arg3 : Memref sig .tc .vmem S1x1 .f32) (harg3 : arg3.IsWhole) (arg4 : Memref sig .tc .vmem S1x10000 .f32) (harg4 : arg4.IsWhole)
    (x0 : Vec F S32x10000 .f32) (x1 x2 : Vec F S1x10000 .f32) (x3 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (k6_pay1 x0 x2 x1 x3)) -∗ K ⟨⟩))
      ⊢ wp frame (wpE (defs₀ (F := F)) Variants.none c none) E (cc6__tc_layer_body arg0 harg0 arg1 harg1 arg2 harg2 arg3 harg3 arg4 harg4) K := by
  simp only [cc6__tc_layer_body_eq_skeleton]; unfold cc6__tc_layer_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (fun y => ⟨_, List.mem_singleton_self _, View.mem_set_unit_zero hz2 inb_S1x10000_S1x10000_0_0 y⟩)).trans ?_
  rw [View.canon_unit_zero hz2]
  exact congr (congr (congr (congrArg k6_pay1 (View.ld_unit_zero hz2 _ (arg0.view.read (Elt F) f0))) (View.ld_unit_zero hz2 _ (arg2.view.read (Elt F) f2)))
    (View.ld_unit_zero hz2 _ (arg1.view.read (Elt F) f1))) (View.ld_unit_zero hz2 _ (arg3.view.read (Elt F) f3))

section R6
variable (d : Dev nD) (x0 : Vec F S32x10000 .f32) (x1 x2 : Vec F S1x10000 .f32) (x3 : Vec F S1x1 .f32) (y : Vec F S1x10000 .f32)
  (O : CellTallies nD τ sig (HIx 4)) (B : Set (SemLoc sig × HIx 4))

theorem after6_0 (t : Fin cfg6.N) : (dat6 d x0 x1 x2 x3 y O B).after 0 t = x0 := by dsimp only [dat6]
theorem after6_1 (t : Fin cfg6.N) : (dat6 d x0 x1 x2 x3 y O B).after 1 t = x1 := by dsimp only [dat6]
theorem after6_2 (t : Fin cfg6.N) : (dat6 d x0 x1 x2 x3 y O B).after 2 t = x2 := by dsimp only [dat6]
theorem after6_3 (t : Fin cfg6.N) : (dat6 d x0 x1 x2 x3 y O B).after 3 t = x3 := by dsimp only [dat6]
theorem after6_4 (t : Fin cfg6.N) : (dat6 d x0 x1 x2 x3 y O B).after 4 t = k6_pay1 x0 x2 x1 x3 := by dsimp only [dat6]

theorem before6_0 (t : Fin cfg6.N) (dd) : (dat6 d x0 x1 x2 x3 y O B).before 0 t dd = x0 := by
  unfold Dat.before; rw [if_pos (fetch6_0 t)]; unfold Dat.fetched Dat.blockOf
  rw [show (dat6 d x0 x1 x2 x3 y O B).A 0 = x0 from by dsimp only [dat6, A6]]
  exact (congrArg _ (rd6_0 x0 t)).trans rfl
theorem before6_1 (t : Fin cfg6.N) (dd) : (dat6 d x0 x1 x2 x3 y O B).before 1 t dd = x1 := by
  unfold Dat.before; rw [if_pos (fetch6_1 t)]; unfold Dat.fetched Dat.blockOf
  rw [show (dat6 d x0 x1 x2 x3 y O B).A 1 = x1 from by dsimp only [dat6, A6]]
  exact (congrArg _ (rd6_1 x1 t)).trans rfl
theorem before6_2 (t : Fin cfg6.N) (dd) : (dat6 d x0 x1 x2 x3 y O B).before 2 t dd = x2 := by
  unfold Dat.before; rw [if_pos (fetch6_2 t)]; unfold Dat.fetched Dat.blockOf
  rw [show (dat6 d x0 x1 x2 x3 y O B).A 2 = x2 from by dsimp only [dat6, A6]]
  exact (congrArg _ (rd6_2 x2 t)).trans rfl
theorem before6_3 (t : Fin cfg6.N) (dd) : (dat6 d x0 x1 x2 x3 y O B).before 3 t dd = x3 := by
  unfold Dat.before; rw [if_pos (fetch6_3 t)]; unfold Dat.fetched Dat.blockOf
  rw [show (dat6 d x0 x1 x2 x3 y O B).A 3 = x3 from by dsimp only [dat6, A6]]
  exact (congrArg _ (rd6_3 x3 t)).trans rfl

theorem arrAt6_4 : (dat6 d x0 x1 x2 x3 y O B).arrAt 4 cfg6.N = k6_pay1 x0 x2 x1 x3 := by
  refine Dat.arrAt_eq_of_cover _ 4 _ (fun t _ => ?_) (fun i => ⟨t6_0, flush6_4 _, mem6_4 _ i⟩)
  rw [rd6_4]; unfold Dat.flushed; rw [after6_4]; rfl

def bodyPre6 (t : Fin cfg6.N) : sProp 𝕄 :=
  iprop((dat6 d x0 x1 x2 x3 y O B).Φ t.castSucc ∗ (dat6 d x0 x1 x2 x3 y O B).owesAt none t.castSucc
    ∗ (∃ dd, owns (d : Thread nD τ) (st6_0 t) fullShare ((dat6 d x0 x1 x2 x3 y O B).before 0 t dd))
    ∗ (∃ dd, owns (d : Thread nD τ) (st6_1 t) fullShare ((dat6 d x0 x1 x2 x3 y O B).before 1 t dd))
    ∗ (∃ dd, owns (d : Thread nD τ) (st6_2 t) fullShare ((dat6 d x0 x1 x2 x3 y O B).before 2 t dd))
    ∗ (∃ dd, owns (d : Thread nD τ) (st6_3 t) fullShare ((dat6 d x0 x1 x2 x3 y O B).before 3 t dd))
    ∗ (∃ dd, owns (d : Thread nD τ) (st6_4 t) fullShare ((dat6 d x0 x1 x2 x3 y O B).before 4 t dd)))

def bodyPost6 (t : Fin cfg6.N) : sProp 𝕄 :=
  iprop((dat6 d x0 x1 x2 x3 y O B).Φ t.succ ∗ (dat6 d x0 x1 x2 x3 y O B).owesAt none t.succ
    ∗ owns (d : Thread nD τ) (st6_0 t) fullShare ((dat6 d x0 x1 x2 x3 y O B).after 0 t)
    ∗ owns (d : Thread nD τ) (st6_1 t) fullShare ((dat6 d x0 x1 x2 x3 y O B).after 1 t)
    ∗ owns (d : Thread nD τ) (st6_2 t) fullShare ((dat6 d x0 x1 x2 x3 y O B).after 2 t)
    ∗ owns (d : Thread nD τ) (st6_3 t) fullShare ((dat6 d x0 x1 x2 x3 y O B).after 3 t)
    ∗ owns (d : Thread nD τ) (st6_4 t) fullShare ((dat6 d x0 x1 x2 x3 y O B).after 4 t))

theorem sound_body6 (t : Fin cfg6.N) :
    bodyPre6 d x0 x1 x2 x3 y O B t ⊢ wp frame (wpE (defs₀ (F := F)) Variants.none d none) Set.univ (bodyAt6 t) (fun _ => bodyPost6 d x0 x1 x2 x3 y O B t) := by
  unfold bodyPre6 bodyPost6 bodyAt6
  simp only [before6_0, before6_1, before6_2, before6_3]
  rw [show (dat6 d x0 x1 x2 x3 y O B).Φ t.succ = (dat6 d x0 x1 x2 x3 y O B).Φ t.castSucc from rfl,
    show (dat6 d x0 x1 x2 x3 y O B).owesAt none t.succ = (dat6 d x0 x1 x2 x3 y O B).owesAt none t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 d Set.univ _ _ _ _ _ _ _ _ _ _ x0 x1 x2 x3 _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation6 : BodyObligation (dat6 (F := F) d x0 x1 x2 x3 y O B) (defs₀ (F := F)) Variants.none none Set.univ := fun t => by
  rw [bigSep_W6, bigSep_W6]
  exact sound_body6 d x0 x1 x2 x3 y O B t

theorem arrays6_eq (Fw : (w : Fin cfg6.W) → Buf (Elt F) ((cfg6.win w).arr.view.loc (d.tc : Thread nD τ))) :
    (dat6 d x0 x1 x2 x3 y O B).arrays Fw
      = iprop(((T d : Thread nD τ).loc main_v16 ↦{fullShare} Fw 0) ∗ ((T d : Thread nD τ).loc main_v14 ↦{fullShare} Fw 1)
          ∗ ((T d : Thread nD τ).loc main_v11_1 ↦{fullShare} Fw 2) ∗ ((T d : Thread nD τ).loc main_v7 ↦{fullShare} Fw 3)
          ∗ ((T d : Thread nD τ).loc main_v17 ↦{fullShare} Fw 4)) := by
  unfold Dat.arrays
  rw [bigSep_W6]
  simp only [(dat6 d x0 x1 x2 x3 y O B).share_full fun _ => rfl]
  rw [(arr_whole6 0).set_eq_univ, (arr_whole6 1).set_eq_univ, (arr_whole6 2).set_eq_univ, (arr_whole6 3).set_eq_univ, (arr_whole6 4).set_eq_univ]

theorem pre6_intro (W : Waits sig (HIx 4)) :
    iprop(owes (T d) O W ∗ ((T d : Thread nD τ).loc main_v16 ↦{fullShare} x0) ∗ ((T d : Thread nD τ).loc main_v14 ↦{fullShare} x1)
        ∗ ((T d : Thread nD τ).loc main_v11_1 ↦{fullShare} x2) ∗ ((T d : Thread nD τ).loc main_v7 ↦{fullShare} x3)
        ∗ ((T d : Thread nD τ).loc main_v17 ↦{fullShare} y))
      ⊢ iprop((dat6 d x0 x1 x2 x3 y O (↑W)).arrays ((dat6 d x0 x1 x2 x3 y O (↑W)).arrAt · 0) ∗ (dat6 d x0 x1 x2 x3 y O (↑W)).owesAt none 0) := by
  rw [arrays6_eq]
  iintro ⟨HO, H0, H1, H2, H3, H4⟩
  isplitr [HO]
  · isplitl [H0]; · iexact H0
    isplitl [H1]; · iexact H1
    isplitl [H2]; · iexact H2
    isplitl [H3]; · iexact H3
    iexact H4
  iexists W; isplitr; · ipureintro; exact fun p hp => Or.inl hp
  iexact HO

theorem post6_elim (W : Waits sig (HIx 4)) :
    iprop((dat6 d x0 x1 x2 x3 y O (↑W)).arrays ((dat6 d x0 x1 x2 x3 y O (↑W)).arrAt · cfg6.N) ∗ (dat6 d x0 x1 x2 x3 y O (↑W)).owesAt none (Fin.last cfg6.N))
      ⊢ iprop((∃ W' : Waits sig (HIx 4), ⌜∀ p ∈ W', p ∈ W ∨ p.2 = none⌝ ∗ owes (T d) O W')
          ∗ ((T d : Thread nD τ).loc main_v16 ↦{fullShare} x0) ∗ ((T d : Thread nD τ).loc main_v14 ↦{fullShare} x1)
          ∗ ((T d : Thread nD τ).loc main_v11_1 ↦{fullShare} x2) ∗ ((T d : Thread nD τ).loc main_v7 ↦{fullShare} x3)
          ∗ ((T d : Thread nD τ).loc main_v17 ↦{fullShare} k6_pay1 x0 x2 x1 x3)) := by
  rw [arrays6_eq]
  rw [Dat.arrAt_in _ (0 : Fin cfg6.W) rfl, Dat.arrAt_in _ (1 : Fin cfg6.W) rfl, Dat.arrAt_in _ (2 : Fin cfg6.W) rfl, Dat.arrAt_in _ (3 : Fin cfg6.W) rfl, arrAt6_4]
  iintro ⟨⟨H0, H1, H2, H3, H4⟩, ⟨%W', %hW', HO⟩⟩
  isplitl [HO]
  · iexists W'; isplitr
    · ipureintro
      intro p hp
      rcases hW' (Finset.mem_coe.mpr hp) with h | ⟨w, s, rfl⟩
      · exact Or.inl (Finset.mem_coe.mp h)
      · exact Or.inr rfl
    iexact HO
  isplitl [H0]; · iexact H0
  isplitl [H1]; · iexact H1
  isplitl [H2]; · iexact H2
  isplitl [H3]; · iexact H3
  iexact H4
end R6

def arb {s : Shape} {e : EltTy} : Vec F s e := fun _ => Classical.arbitrary _

def pdats (a0 : Vec F S10000x128 .f32) (a1 : Vec F S128x16 .f32) (a2 : Vec F S16x8 .f32) (a3 : Vec F S8x1 .f32) (a4 : Vec F S10000x1 .f32)
    (b0 : Vec F S32x10000 .f32) (b1 b2 b3 : Vec F S1x10000 .f32)
    (c0 : Vec F S32x10000 .f32) (c1 c2 : Vec F S1x10000 .f32) (c3 : Vec F S1x1 .f32) (c4 : Vec F S1x10000 .f32)
    (e0 : Vec F S32x10000 .f32) (e1 e2 : Vec F S1x10000 .f32) (e3 : Vec F S1x1 .f32) (e4 : Vec F S1x10000 .f32)
    (O : CellTallies nD τ sig (HIx 4)) (B : Set (SemLoc sig × HIx 4)) :
    (p : Fin 4) → (c : Dev nD) → Dat τ (Elt F) (HIx 4) ℕ UU ℕ (Pipeline.pin (pcfgs (F := F)) adm p) c
  | ⟨0, _⟩ => fun c => dat1 c a0 a1 a2 a3 a4 O B
  | ⟨1, _⟩ => fun c => dat2 c b0 b1 b2 b3 O B
  | ⟨2, _⟩ => fun c => dat4 c c0 c1 c2 c3 c4 O B
  | ⟨3, _⟩ => fun c => dat6 c e0 e1 e2 e3 e4 O B

def Gp (p : Fin 4) (d : Dev nD) : sProp 𝕄 :=
  iprop(Pipeline.cellsGhost cfgs (EP (F := F)) p d ∗ Pipeline.toksInit cfgs (EP (F := F)) p d)

def uP₀ : UP := initOf (Pipeline.cells (nD := nD) (τ := τ) cfgs cellOf_inj) (Pipeline.launchToks cfgs cellOf_inj)

theorem fundP : (BI.own ((EP : Emb UP (MM F)) uP₀) : sProp 𝕄) ⊢ |==> bigSep Finset.univ fun d : Dev nD => bigSep Finset.univ fun p : Fin 4 => Gp (F := F) p d := by
  refine (Pipeline.fund_ghost cfgs (EP (F := F)) cellOf_inj).trans ?_
  iintro H; imod H with ⟨Hg, Ht⟩; imodintro
  unfold Gp; simp only [bigSep_sep']
  isplitl [Hg] <;> iassumption

section Regs

variable (a0 : Vec F S10000x128 .f32) (a1 : Vec F S128x16 .f32) (a2 : Vec F S16x8 .f32) (a3 : Vec F S8x1 .f32) (a4 : Vec F S10000x1 .f32)
    (b0 : Vec F S32x10000 .f32) (b1 b2 b3 : Vec F S1x10000 .f32)
    (c0 : Vec F S32x10000 .f32) (c1 c2 : Vec F S1x10000 .f32) (c3 : Vec F S1x1 .f32) (c4 : Vec F S1x10000 .f32)
    (e0 : Vec F S32x10000 .f32) (e1 e2 : Vec F S1x10000 .f32) (e3 : Vec F S1x1 .f32) (e4 : Vec F S1x10000 .f32)
    (O : CellTallies nD τ sig (HIx 4)) (B : Set (SemLoc sig × HIx 4))
    (lv : GSem nD τ sig → HIx 4 → ℕ) (hlv : (Cert.KernelIdeal.Hand.K (F := F)).Refines lv) (hO : ∀ g, O g none = 0)

local notation "PD" => pdats a0 a1 a2 a3 a4 b0 b1 b2 b3 c0 c1 c2 c3 c4 e0 e1 e2 e3 e4 O B

set_option backward.isDefEq.respectTransparency.types false in
def reg1 : Pipeline.RegionSeg (pcfgs (F := F)) adm PD none defs₀ 𝒱₀ (Cert.KernelIdeal.Hand.K (F := F)).L lv 0 where
  win := launch1.win.to₀
  block_pos := launch1.block_pos
  stage_whole := launch1.stage_whole
  K := PEmpty
  osem k := k.elim
  ho := Pipeline.OwnSemFacts.none _
  hbody c := (body_obligation1 c a0 a1 a2 a3 a4 O B).loose
  hwaits c := Pipeline.cellsWaits_intro _ _ _ 0 c fun w s t => (Cert.KernelIdeal.Hand.K (F := F)).mayWait_none _ hO lv hlv
  pre c := iprop((PD 0 c).arrays ((PD 0 c).arrAt · 0) ∗ (PD 0 c).owesAt none 0)
  post c := iprop((PD 0 c).arrays ((PD 0 c).arrAt · cfg1.N) ∗ (PD 0 c).owesAt none (Fin.last cfg1.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (PD 0 c).Φ 0 = Pipeline.scopedRest spec1 c from rfl]
    iintro ⟨-, -, Hr⟩; iexact Hr
  hout c := by
    rw [Pipeline.ownSems0_none, show (PD 0 c).Φ (Fin.last _) = Pipeline.scopedRest spec1 c from rfl]
    iintro Hr
    isplitr; · iempintro
    isplitr; · iempintro
    iexact Hr
  hexit c := by
    iintro ⟨Ha, HO, -, -⟩
    imodintro
    isplitl [Ha] <;> iassumption

set_option backward.isDefEq.respectTransparency.types false in
def reg2 : Pipeline.RegionSeg (pcfgs (F := F)) adm PD none defs₀ 𝒱₀ (Cert.KernelIdeal.Hand.K (F := F)).L lv 1 where
  win := launch2.win.to₀
  block_pos := launch2.block_pos
  stage_whole := launch2.stage_whole
  K := PEmpty
  osem k := k.elim
  ho := Pipeline.OwnSemFacts.none _
  hbody c := (body_obligation2 c b0 b1 b2 b3 O B).loose
  hwaits c := Pipeline.cellsWaits_intro _ _ _ 1 c fun w s t => (Cert.KernelIdeal.Hand.K (F := F)).mayWait_none _ hO lv hlv
  pre c := iprop((PD 1 c).arrays ((PD 1 c).arrAt · 0) ∗ (PD 1 c).owesAt none 0)
  post c := iprop((PD 1 c).arrays ((PD 1 c).arrAt · cfg2.N) ∗ (PD 1 c).owesAt none (Fin.last cfg2.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (PD 1 c).Φ 0 = Pipeline.scopedRest spec2 c from rfl]
    iintro ⟨-, -, Hr⟩; iexact Hr
  hout c := by
    rw [Pipeline.ownSems0_none, show (PD 1 c).Φ (Fin.last _) = Pipeline.scopedRest spec2 c from rfl]
    iintro Hr
    isplitr; · iempintro
    isplitr; · iempintro
    iexact Hr
  hexit c := by
    iintro ⟨Ha, HO, -, -⟩
    imodintro
    isplitl [Ha] <;> iassumption

set_option backward.isDefEq.respectTransparency.types false in
def reg4 : Pipeline.RegionSeg (pcfgs (F := F)) adm PD none defs₀ 𝒱₀ (Cert.KernelIdeal.Hand.K (F := F)).L lv 2 where
  win := launch4.win.to₀
  block_pos := launch4.block_pos
  stage_whole := launch4.stage_whole
  K := PEmpty
  osem k := k.elim
  ho := Pipeline.OwnSemFacts.none _
  hbody c := (body_obligation4 c c0 c1 c2 c3 c4 O B).loose
  hwaits c := Pipeline.cellsWaits_intro _ _ _ 2 c fun w s t => (Cert.KernelIdeal.Hand.K (F := F)).mayWait_none _ hO lv hlv
  pre c := iprop((PD 2 c).arrays ((PD 2 c).arrAt · 0) ∗ (PD 2 c).owesAt none 0)
  post c := iprop((PD 2 c).arrays ((PD 2 c).arrAt · cfg4.N) ∗ (PD 2 c).owesAt none (Fin.last cfg4.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (PD 2 c).Φ 0 = Pipeline.scopedRest spec4 c from rfl]
    iintro ⟨-, -, Hr⟩; iexact Hr
  hout c := by
    rw [Pipeline.ownSems0_none, show (PD 2 c).Φ (Fin.last _) = Pipeline.scopedRest spec4 c from rfl]
    iintro Hr
    isplitr; · iempintro
    isplitr; · iempintro
    iexact Hr
  hexit c := by
    iintro ⟨Ha, HO, -, -⟩
    imodintro
    isplitl [Ha] <;> iassumption

set_option backward.isDefEq.respectTransparency.types false in
def reg6 : Pipeline.RegionSeg (pcfgs (F := F)) adm PD none defs₀ 𝒱₀ (Cert.KernelIdeal.Hand.K (F := F)).L lv 3 where
  win := launch6.win.to₀
  block_pos := launch6.block_pos
  stage_whole := launch6.stage_whole
  K := PEmpty
  osem k := k.elim
  ho := Pipeline.OwnSemFacts.none _
  hbody c := (body_obligation6 c e0 e1 e2 e3 e4 O B).loose
  hwaits c := Pipeline.cellsWaits_intro _ _ _ 3 c fun w s t => (Cert.KernelIdeal.Hand.K (F := F)).mayWait_none _ hO lv hlv
  pre c := iprop((PD 3 c).arrays ((PD 3 c).arrAt · 0) ∗ (PD 3 c).owesAt none 0)
  post c := iprop((PD 3 c).arrays ((PD 3 c).arrAt · cfg6.N) ∗ (PD 3 c).owesAt none (Fin.last cfg6.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (PD 3 c).Φ 0 = Pipeline.scopedRest spec6 c from rfl]
    iintro ⟨-, -, Hr⟩; iexact Hr
  hout c := by
    rw [Pipeline.ownSems0_none, show (PD 3 c).Φ (Fin.last _) = Pipeline.scopedRest spec6 c from rfl]
    iintro Hr
    isplitr; · iempintro
    isplitr; · iempintro
    iexact Hr
  hexit c := by
    iintro ⟨Ha, HO, -, -⟩
    imodintro
    isplitl [Ha] <;> iassumption

end Regs

set_option backward.isDefEq.respectTransparency.types false in
theorem region_0 (d : Dev nD) (Ψ : PUnit → sProp 𝕄)
    (lv : GSem nD τ sig → HIx 4 → ℕ) (hlv : (Cert.KernelIdeal.Hand.K (F := F)).Refines lv)
    (O : CellTallies nD τ sig (HIx 4)) (W : Waits sig (HIx 4)) (hO : ∀ g, O g none = 0)
    (x0 : Vec F S10000x128 .f32) (x1 : Vec F S128x16 .f32) (x2 : Vec F S16x8 .f32) (x3 : Vec F S8x1 .f32) :
    iprop(levAts (Cert.KernelIdeal.Hand.K (F := F)).L lv ∗ Gp 0 d ∗ boundary (T d) ∗ owes (T d) O W
        ∗ ((T d : Thread nD τ).loc main_arg0 ↦{fullShare} x0) ∗ ((T d : Thread nD τ).loc main_arg3 ↦{fullShare} x1)
        ∗ ((T d : Thread nD τ).loc main_arg5 ↦{fullShare} x2) ∗ ((T d : Thread nD τ).loc main_arg7 ↦{fullShare} x3)
        ∗ (∃ y : Vec F S10000x1 .f32, (T d : Thread nD τ).loc main_v9 ↦{fullShare} y)
        ∗ (iprop(boundary (T d) ∗ (∃ W' : Waits sig (HIx 4), ⌜∀ p ∈ W', p ∈ W ∨ p.2 = none⌝ ∗ owes (T d) O W')
              ∗ ((T d : Thread nD τ).loc main_arg0 ↦{fullShare} x0) ∗ ((T d : Thread nD τ).loc main_arg3 ↦{fullShare} x1)
              ∗ ((T d : Thread nD τ).loc main_arg5 ↦{fullShare} x2) ∗ ((T d : Thread nD τ).loc main_arg7 ↦{fullShare} x3)
              ∗ ((T d : Thread nD τ).loc main_v9 ↦{fullShare} k1_pay1 x1 x2 x3 x0))
            -∗ Ψ ⟨⟩))
      ⊢ wp frame (wpE ((Cert.KernelIdeal.Hand.K (F := F)).defs (D (F := F))) 𝒱 (T d) none) Set.univ
          (Prog.lift (.customCall (SparseCore.inner (Pipeline.entry 0)) ())) Ψ := by
  rw [show (Prog.lift (.customCall (SparseCore.inner (Pipeline.entry (0 : Fin 4))) ())
        : Prog (TpuEff nD τ sig (Elt F) (SparseCore.Sig (ΛP (F := F)) 4) .tc) PUnit)
      = SparseCore.liftProg (Q := 4) (.op (.customCall (Pipeline.entry (0 : Fin 4)) ()) .ret) from rfl]
  unfold Gp
  iintro ⟨#Hlev, ⟨Hcg, Htk⟩, Hb, HO, H0, H1, H2, H3, ⟨%y, H4⟩, Hk⟩
  iapply ((Cert.KernelIdeal.Hand.K (F := F)).wp_liftProg (D (F := F)) 𝒱 (T d) Set.univ none _ _)
  iapply (Pipeline.RegionSeg.wp (pcfgs (F := F)) adm _ none cellOf_inj (EP (F := F)) defs₀ 𝒱₀ (Cert.KernelIdeal.Hand.K (F := F)).L lv
    (reg1 x0 x1 x2 x3 y arb arb arb arb arb arb arb arb arb arb arb arb arb arb O (↑W) lv hlv hO) d none (fun u hu => by cases hu) .ret _)
  rw [show (reg1 x0 x1 x2 x3 y arb arb arb arb arb arb arb arb arb arb arb arb arb arb O (↑W) lv hlv hO).pre d
      = iprop((dat1 d x0 x1 x2 x3 y O (↑W)).arrays ((dat1 d x0 x1 x2 x3 y O (↑W)).arrAt · 0) ∗ (dat1 d x0 x1 x2 x3 y O (↑W)).owesAt none 0) from rfl,
    show (reg1 x0 x1 x2 x3 y arb arb arb arb arb arb arb arb arb arb arb arb arb arb O (↑W) lv hlv hO).post d
      = iprop((dat1 d x0 x1 x2 x3 y O (↑W)).arrays ((dat1 d x0 x1 x2 x3 y O (↑W)).arrAt · cfg1.N) ∗ (dat1 d x0 x1 x2 x3 y O (↑W)).owesAt none (Fin.last cfg1.N)) from rfl]
  isplitl [Hk]
  · iintro ⟨Hb, Hpost⟩
    rw [wp_ret]; imodintro
    iapply Hk
    isplitl [Hb]; · iexact Hb
    iapply (post1_elim d x0 x1 x2 x3 y O W); iexact Hpost
  isplitl [Hb]; · iexact Hb
  isplitl [HO H0 H1 H2 H3 H4]
  · iapply (pre1_intro d x0 x1 x2 x3 y O W)
    isplitl [HO]; · iexact HO
    isplitl [H0]; · iexact H0
    isplitl [H1]; · iexact H1
    isplitl [H2]; · iexact H2
    isplitl [H3]; · iexact H3
    iexact H4
  isplitr; · iexact Hlev
  isplitl [Hcg]; · iexact Hcg
  iexact Htk

set_option backward.isDefEq.respectTransparency.types false in
theorem region_1 (d : Dev nD) (Ψ : PUnit → sProp 𝕄)
    (lv : GSem nD τ sig → HIx 4 → ℕ) (hlv : (Cert.KernelIdeal.Hand.K (F := F)).Refines lv)
    (O : CellTallies nD τ sig (HIx 4)) (W : Waits sig (HIx 4)) (hO : ∀ g, O g none = 0)
    (x0 : Vec F S32x10000 .f32) (x1 : Vec F S1x10000 .f32) :
    iprop(levAts (Cert.KernelIdeal.Hand.K (F := F)).L lv ∗ Gp 1 d ∗ boundary (T d) ∗ owes (T d) O W
        ∗ ((T d : Thread nD τ).loc main_v8 ↦{fullShare} x0) ∗ ((T d : Thread nD τ).loc main_v10 ↦{fullShare} x1)
        ∗ (∃ y2 : Vec F S1x10000 .f32, (T d : Thread nD τ).loc main_v11_0 ↦{fullShare} y2)
        ∗ (∃ y3 : Vec F S1x10000 .f32, (T d : Thread nD τ).loc main_v11_1 ↦{fullShare} y3)
        ∗ (iprop(boundary (T d) ∗ (∃ W' : Waits sig (HIx 4), ⌜∀ p ∈ W', p ∈ W ∨ p.2 = none⌝ ∗ owes (T d) O W')
              ∗ ((T d : Thread nD τ).loc main_v8 ↦{fullShare} x0) ∗ ((T d : Thread nD τ).loc main_v10 ↦{fullShare} x1)
              ∗ ((T d : Thread nD τ).loc main_v11_0 ↦{fullShare} k2_pay2 x0 x1) ∗ ((T d : Thread nD τ).loc main_v11_1 ↦{fullShare} k2_pay1 x0))
            -∗ Ψ ⟨⟩))
      ⊢ wp frame (wpE ((Cert.KernelIdeal.Hand.K (F := F)).defs (D (F := F))) 𝒱 (T d) none) Set.univ
          (Prog.lift (.customCall (SparseCore.inner (Pipeline.entry 1)) ())) Ψ := by
  rw [show (Prog.lift (.customCall (SparseCore.inner (Pipeline.entry (1 : Fin 4))) ())
        : Prog (TpuEff nD τ sig (Elt F) (SparseCore.Sig (ΛP (F := F)) 4) .tc) PUnit)
      = SparseCore.liftProg (Q := 4) (.op (.customCall (Pipeline.entry (1 : Fin 4)) ()) .ret) from rfl]
  unfold Gp
  iintro ⟨#Hlev, ⟨Hcg, Htk⟩, Hb, HO, H0, H1, ⟨%y2, H2⟩, ⟨%y3, H3⟩, Hk⟩
  iapply ((Cert.KernelIdeal.Hand.K (F := F)).wp_liftProg (D (F := F)) 𝒱 (T d) Set.univ none _ _)
  iapply (Pipeline.RegionSeg.wp (pcfgs (F := F)) adm _ none cellOf_inj (EP (F := F)) defs₀ 𝒱₀ (Cert.KernelIdeal.Hand.K (F := F)).L lv
    (reg2 arb arb arb arb arb x0 x1 y2 y3 arb arb arb arb arb arb arb arb arb arb O (↑W) lv hlv hO) d none (fun u hu => by cases hu) .ret _)
  rw [show (reg2 arb arb arb arb arb x0 x1 y2 y3 arb arb arb arb arb arb arb arb arb arb O (↑W) lv hlv hO).pre d
      = iprop((dat2 d x0 x1 y2 y3 O (↑W)).arrays ((dat2 d x0 x1 y2 y3 O (↑W)).arrAt · 0) ∗ (dat2 d x0 x1 y2 y3 O (↑W)).owesAt none 0) from rfl,
    show (reg2 arb arb arb arb arb x0 x1 y2 y3 arb arb arb arb arb arb arb arb arb arb O (↑W) lv hlv hO).post d
      = iprop((dat2 d x0 x1 y2 y3 O (↑W)).arrays ((dat2 d x0 x1 y2 y3 O (↑W)).arrAt · cfg2.N) ∗ (dat2 d x0 x1 y2 y3 O (↑W)).owesAt none (Fin.last cfg2.N)) from rfl]
  isplitl [Hk]
  · iintro ⟨Hb, Hpost⟩
    rw [wp_ret]; imodintro
    iapply Hk
    isplitl [Hb]; · iexact Hb
    iapply (post2_elim d x0 x1 y2 y3 O W); iexact Hpost
  isplitl [Hb]; · iexact Hb
  isplitl [HO H0 H1 H2 H3]
  · iapply (pre2_intro d x0 x1 y2 y3 O W)
    isplitl [HO]; · iexact HO
    isplitl [H0]; · iexact H0
    isplitl [H1]; · iexact H1
    isplitl [H2]; · iexact H2
    iexact H3
  isplitr; · iexact Hlev
  isplitl [Hcg]; · iexact Hcg
  iexact Htk

set_option backward.isDefEq.respectTransparency.types false in
theorem region_2 (d : Dev nD) (Ψ : PUnit → sProp 𝕄)
    (lv : GSem nD τ sig → HIx 4 → ℕ) (hlv : (Cert.KernelIdeal.Hand.K (F := F)).Refines lv)
    (O : CellTallies nD τ sig (HIx 4)) (W : Waits sig (HIx 4)) (hO : ∀ g, O g none = 0)
    (x0 : Vec F S32x10000 .f32) (x1 x2 : Vec F S1x10000 .f32) (x3 : Vec F S1x1 .f32) :
    iprop(levAts (Cert.KernelIdeal.Hand.K (F := F)).L lv ∗ Gp 2 d ∗ boundary (T d) ∗ owes (T d) O W
        ∗ ((T d : Thread nD τ).loc main_v13 ↦{fullShare} x0) ∗ ((T d : Thread nD τ).loc main_v11_0 ↦{fullShare} x1)
        ∗ ((T d : Thread nD τ).loc main_v11_1 ↦{fullShare} x2) ∗ ((T d : Thread nD τ).loc main_v4 ↦{fullShare} x3)
        ∗ (∃ y : Vec F S1x10000 .f32, (T d : Thread nD τ).loc main_v14 ↦{fullShare} y)
        ∗ (iprop(boundary (T d) ∗ (∃ W' : Waits sig (HIx 4), ⌜∀ p ∈ W', p ∈ W ∨ p.2 = none⌝ ∗ owes (T d) O W')
              ∗ ((T d : Thread nD τ).loc main_v13 ↦{fullShare} x0) ∗ ((T d : Thread nD τ).loc main_v11_0 ↦{fullShare} x1)
              ∗ ((T d : Thread nD τ).loc main_v11_1 ↦{fullShare} x2) ∗ ((T d : Thread nD τ).loc main_v4 ↦{fullShare} x3)
              ∗ ((T d : Thread nD τ).loc main_v14 ↦{fullShare} k4_pay1 x0 x2 x1 x3))
            -∗ Ψ ⟨⟩))
      ⊢ wp frame (wpE ((Cert.KernelIdeal.Hand.K (F := F)).defs (D (F := F))) 𝒱 (T d) none) Set.univ
          (Prog.lift (.customCall (SparseCore.inner (Pipeline.entry 2)) ())) Ψ := by
  rw [show (Prog.lift (.customCall (SparseCore.inner (Pipeline.entry (2 : Fin 4))) ())
        : Prog (TpuEff nD τ sig (Elt F) (SparseCore.Sig (ΛP (F := F)) 4) .tc) PUnit)
      = SparseCore.liftProg (Q := 4) (.op (.customCall (Pipeline.entry (2 : Fin 4)) ()) .ret) from rfl]
  unfold Gp
  iintro ⟨#Hlev, ⟨Hcg, Htk⟩, Hb, HO, H0, H1, H2, H3, ⟨%y, H4⟩, Hk⟩
  iapply ((Cert.KernelIdeal.Hand.K (F := F)).wp_liftProg (D (F := F)) 𝒱 (T d) Set.univ none _ _)
  iapply (Pipeline.RegionSeg.wp (pcfgs (F := F)) adm _ none cellOf_inj (EP (F := F)) defs₀ 𝒱₀ (Cert.KernelIdeal.Hand.K (F := F)).L lv
    (reg4 arb arb arb arb arb arb arb arb arb x0 x1 x2 x3 y arb arb arb arb arb O (↑W) lv hlv hO) d none (fun u hu => by cases hu) .ret _)
  rw [show (reg4 arb arb arb arb arb arb arb arb arb x0 x1 x2 x3 y arb arb arb arb arb O (↑W) lv hlv hO).pre d
      = iprop((dat4 d x0 x1 x2 x3 y O (↑W)).arrays ((dat4 d x0 x1 x2 x3 y O (↑W)).arrAt · 0) ∗ (dat4 d x0 x1 x2 x3 y O (↑W)).owesAt none 0) from rfl,
    show (reg4 arb arb arb arb arb arb arb arb arb x0 x1 x2 x3 y arb arb arb arb arb O (↑W) lv hlv hO).post d
      = iprop((dat4 d x0 x1 x2 x3 y O (↑W)).arrays ((dat4 d x0 x1 x2 x3 y O (↑W)).arrAt · cfg4.N) ∗ (dat4 d x0 x1 x2 x3 y O (↑W)).owesAt none (Fin.last cfg4.N)) from rfl]
  isplitl [Hk]
  · iintro ⟨Hb, Hpost⟩
    rw [wp_ret]; imodintro
    iapply Hk
    isplitl [Hb]; · iexact Hb
    iapply (post4_elim d x0 x1 x2 x3 y O W); iexact Hpost
  isplitl [Hb]; · iexact Hb
  isplitl [HO H0 H1 H2 H3 H4]
  · iapply (pre4_intro d x0 x1 x2 x3 y O W)
    isplitl [HO]; · iexact HO
    isplitl [H0]; · iexact H0
    isplitl [H1]; · iexact H1
    isplitl [H2]; · iexact H2
    isplitl [H3]; · iexact H3
    iexact H4
  isplitr; · iexact Hlev
  isplitl [Hcg]; · iexact Hcg
  iexact Htk

set_option backward.isDefEq.respectTransparency.types false in
theorem region_3 (d : Dev nD) (Ψ : PUnit → sProp 𝕄)
    (lv : GSem nD τ sig → HIx 4 → ℕ) (hlv : (Cert.KernelIdeal.Hand.K (F := F)).Refines lv)
    (O : CellTallies nD τ sig (HIx 4)) (W : Waits sig (HIx 4)) (hO : ∀ g, O g none = 0)
    (x0 : Vec F S32x10000 .f32) (x1 x2 : Vec F S1x10000 .f32) (x3 : Vec F S1x1 .f32) :
    iprop(levAts (Cert.KernelIdeal.Hand.K (F := F)).L lv ∗ Gp 3 d ∗ boundary (T d) ∗ owes (T d) O W
        ∗ ((T d : Thread nD τ).loc main_v16 ↦{fullShare} x0) ∗ ((T d : Thread nD τ).loc main_v14 ↦{fullShare} x1)
        ∗ ((T d : Thread nD τ).loc main_v11_1 ↦{fullShare} x2) ∗ ((T d : Thread nD τ).loc main_v7 ↦{fullShare} x3)
        ∗ (∃ y : Vec F S1x10000 .f32, (T d : Thread nD τ).loc main_v17 ↦{fullShare} y)
        ∗ (iprop(boundary (T d) ∗ (∃ W' : Waits sig (HIx 4), ⌜∀ p ∈ W', p ∈ W ∨ p.2 = none⌝ ∗ owes (T d) O W')
              ∗ ((T d : Thread nD τ).loc main_v16 ↦{fullShare} x0) ∗ ((T d : Thread nD τ).loc main_v14 ↦{fullShare} x1)
              ∗ ((T d : Thread nD τ).loc main_v11_1 ↦{fullShare} x2) ∗ ((T d : Thread nD τ).loc main_v7 ↦{fullShare} x3)
              ∗ ((T d : Thread nD τ).loc main_v17 ↦{fullShare} k6_pay1 x0 x2 x1 x3))
            -∗ Ψ ⟨⟩))
      ⊢ wp frame (wpE ((Cert.KernelIdeal.Hand.K (F := F)).defs (D (F := F))) 𝒱 (T d) none) Set.univ
          (Prog.lift (.customCall (SparseCore.inner (Pipeline.entry 3)) ())) Ψ := by
  rw [show (Prog.lift (.customCall (SparseCore.inner (Pipeline.entry (3 : Fin 4))) ())
        : Prog (TpuEff nD τ sig (Elt F) (SparseCore.Sig (ΛP (F := F)) 4) .tc) PUnit)
      = SparseCore.liftProg (Q := 4) (.op (.customCall (Pipeline.entry (3 : Fin 4)) ()) .ret) from rfl]
  unfold Gp
  iintro ⟨#Hlev, ⟨Hcg, Htk⟩, Hb, HO, H0, H1, H2, H3, ⟨%y, H4⟩, Hk⟩
  iapply ((Cert.KernelIdeal.Hand.K (F := F)).wp_liftProg (D (F := F)) 𝒱 (T d) Set.univ none _ _)
  iapply (Pipeline.RegionSeg.wp (pcfgs (F := F)) adm _ none cellOf_inj (EP (F := F)) defs₀ 𝒱₀ (Cert.KernelIdeal.Hand.K (F := F)).L lv
    (reg6 arb arb arb arb arb arb arb arb arb arb arb arb arb arb x0 x1 x2 x3 y O (↑W) lv hlv hO) d none (fun u hu => by cases hu) .ret _)
  rw [show (reg6 arb arb arb arb arb arb arb arb arb arb arb arb arb arb x0 x1 x2 x3 y O (↑W) lv hlv hO).pre d
      = iprop((dat6 d x0 x1 x2 x3 y O (↑W)).arrays ((dat6 d x0 x1 x2 x3 y O (↑W)).arrAt · 0) ∗ (dat6 d x0 x1 x2 x3 y O (↑W)).owesAt none 0) from rfl,
    show (reg6 arb arb arb arb arb arb arb arb arb arb arb arb arb arb x0 x1 x2 x3 y O (↑W) lv hlv hO).post d
      = iprop((dat6 d x0 x1 x2 x3 y O (↑W)).arrays ((dat6 d x0 x1 x2 x3 y O (↑W)).arrAt · cfg6.N) ∗ (dat6 d x0 x1 x2 x3 y O (↑W)).owesAt none (Fin.last cfg6.N)) from rfl]
  isplitl [Hk]
  · iintro ⟨Hb, Hpost⟩
    rw [wp_ret]; imodintro
    iapply Hk
    isplitl [Hb]; · iexact Hb
    iapply (post6_elim d x0 x1 x2 x3 y O W); iexact Hpost
  isplitl [Hb]; · iexact Hb
  isplitl [HO H0 H1 H2 H3 H4]
  · iapply (pre6_intro d x0 x1 x2 x3 y O W)
    isplitl [HO]; · iexact HO
    isplitl [H0]; · iexact H0
    isplitl [H1]; · iexact H1
    isplitl [H2]; · iexact H2
    isplitl [H3]; · iexact H3
    iexact H4
  isplitr; · iexact Hlev
  isplitl [Hcg]; · iexact Hcg
  iexact Htk

end Cert.KernelIdeal.Hand.Tc

end
-- ==== Proof.HandKernelIdeal.MainDefs.lean ====
import proofs.«211345_g12773232738731_cont_fleet_1243_15_alg».proof.Proof.HandKernelIdeal.Common
import proofs.«211345_g12773232738731_cont_fleet_1243_15_alg».proof.Proof.HandKernelIdeal.Tile0
import proofs.«211345_g12773232738731_cont_fleet_1243_15_alg».proof.Proof.HandKernelIdeal.Tile1
import proofs.«211345_g12773232738731_cont_fleet_1243_15_alg».proof.Proof.HandKernelIdeal.Tile2
import proofs.«211345_g12773232738731_cont_fleet_1243_15_alg».proof.Proof.HandKernelIdeal.Tile3
import Idealize.ShloMosaic.Lib.Pipeline.Frame

noncomputable section

namespace Cert.KernelIdeal.Hand.Main

open Cert.KernelIdeal Cert.KernelIdeal.Gen Cert.KernelIdeal.Hand
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)

variable {F : FTy → Type} [FloatOps F]
variable (m : (ℓ : Loc nD τ sig) → Buf (Elt F) ℓ) (ρ : Dev nD → PrngReg)

abbrev TT (d : Dev nD) : Thread nD τ := SparseCore.T d
abbrev UC : Finset (DevRef τ sig) := Pipeline.ucRefs τ sig
abbrev R (b : Ref sig .tc) : DevRef τ sig := Proc.devRef .tc b

def V0 (d : Dev nD) : Valuation τ sig (Elt F) := fun b => m (d, b)

def hop0 : HloOp τ sig (Elt F) := StableHlo.binary main_arg4 main_arg5 main_v0 ((fun l r => Host.dotGeneral dot_S16_S16x8_S8_0_0_n_1_n_n none l r) : (⟨S16, .f32⟩ : BufTy).Contents (Elt F) → (⟨S16x8, .f32⟩ : BufTy).Contents (Elt F) → (⟨S8, .f32⟩ : BufTy).Contents (Elt F))
def hop1 : HloOp τ sig (Elt F) := StableHlo.binary main_v0 main_arg7 main_v1 ((fun l r => Host.dotGeneral dot_S8_S8x1_S1_0_0_n_1_n_n none l r) : (⟨S8, .f32⟩ : BufTy).Contents (Elt F) → (⟨S8x1, .f32⟩ : BufTy).Contents (Elt F) → (⟨S1, .f32⟩ : BufTy).Contents (Elt F))
def hop2 : HloOp τ sig (Elt F) := StableHlo.nullary main_cst (constant S_ .f32 0x00000000#32)
def hop3 : HloOp τ sig (Elt F) := StableHlo.unary main_cst main_v2 (broadcastInDim S1 ![] bcast_S_S1 : (⟨S_, .f32⟩ : BufTy).Contents (Elt F) → (⟨S1, .f32⟩ : BufTy).Contents (Elt F))
def hop4 : HloOp τ sig (Elt F) := StableHlo.binary main_v1 main_v2 main_v3 (addf : (⟨S1, .f32⟩ : BufTy).Contents (Elt F) → (⟨S1, .f32⟩ : BufTy).Contents (Elt F) → (⟨S1, .f32⟩ : BufTy).Contents (Elt F))
def hop5 : HloOp τ sig (Elt F) := StableHlo.reshape main_v3 main_v4 rfl shapeCasts_S1_S1x1
def hop6 : HloOp τ sig (Elt F) := StableHlo.binary main_arg6 main_arg7 main_v5 ((fun l r => Host.dotGeneral dot_S8_S8x1_S1_0_0_n_1_n_n none l r) : (⟨S8, .f32⟩ : BufTy).Contents (Elt F) → (⟨S8x1, .f32⟩ : BufTy).Contents (Elt F) → (⟨S1, .f32⟩ : BufTy).Contents (Elt F))
def hop7 : HloOp τ sig (Elt F) := StableHlo.binary main_v5 main_arg8 main_v6 (addf : (⟨S1, .f32⟩ : BufTy).Contents (Elt F) → (⟨S1, .f32⟩ : BufTy).Contents (Elt F) → (⟨S1, .f32⟩ : BufTy).Contents (Elt F))
def hop8 : HloOp τ sig (Elt F) := StableHlo.reshape main_v6 main_v7 rfl shapeCasts_S1_S1x1
def hop11 : HloOp τ sig (Elt F) := StableHlo.reshape main_v9 main_v10 rfl shapeCasts_S10000x1_S1x10000
def hop13 : HloOp τ sig (Elt F) := StableHlo.reshape main_v11_0 main_v12 rfl shapeCasts_S1x10000_S10000
def hop16 : HloOp τ sig (Elt F) := StableHlo.reshape main_v14 main_v15 rfl shapeCasts_S1x10000_S10000
def hop19 : HloOp τ sig (Elt F) := StableHlo.unary main_arg2 main_v18 ((transpose S2x200000 [1, 0] · transposes_S200000x2_S2x200000_1_0) : (⟨S200000x2, .i32⟩ : BufTy).Contents (Elt F) → (⟨S2x200000, .i32⟩ : BufTy).Contents (Elt F))
def hop20 : HloOp τ sig (Elt F) := StableHlo.nullary main_c (constantI S_ 32 0#32)
def hop23 : HloOp τ sig (Elt F) := StableHlo.reshape main_v17 main_v20 rfl shapeCasts_S1x10000_S10000
def hop21 : HloOp τ sig (Elt F) := StableHlo.TRef.unary (.of main_c : StableHlo.TRef sig ⟨S_, .i32⟩) main_call0.v0 id
def hop22 : HloOp τ sig (Elt F) := StableHlo.TRef.binary (.of main_v18 : StableHlo.TRef sig ⟨S2x200000, .i32⟩) main_call0.v0 main_call0.v1 (fun x v => pad S2x200064 ![0, 0] ![0, 64] ![0, 0] x v pads_S2x200000_S2x200064_000_0640 h_S_)

def W1 (d : Dev nD) : Valuation τ sig (Elt F) := (hop0 (F := F)).result (V0 m d)
def W2 (d : Dev nD) : Valuation τ sig (Elt F) := (hop1 (F := F)).result (W1 m d)
def W3 (d : Dev nD) : Valuation τ sig (Elt F) := (hop2 (F := F)).result (W2 m d)
def W4 (d : Dev nD) : Valuation τ sig (Elt F) := (hop3 (F := F)).result (W3 m d)
def W5 (d : Dev nD) : Valuation τ sig (Elt F) := (hop4 (F := F)).result (W4 m d)
def W6 (d : Dev nD) : Valuation τ sig (Elt F) := (hop5 (F := F)).result (W5 m d)
def W7 (d : Dev nD) : Valuation τ sig (Elt F) := (hop6 (F := F)).result (W6 m d)
def W8 (d : Dev nD) : Valuation τ sig (Elt F) := (hop7 (F := F)).result (W7 m d)
def W9 (d : Dev nD) : Valuation τ sig (Elt F) := (hop8 (F := F)).result (W8 m d)
def W10 (d : Dev nD) : Valuation τ sig (Elt F) := Function.update (W9 m d) (R main_v8) (Tile0.val0 (fun d' => W9 m d' (R main_arg1)) d)
def W11 (d : Dev nD) : Valuation τ sig (Elt F) := Function.update (W10 m d) (R main_v9) (k1_pay1 (F := F) (W10 m d (R main_arg3)) (W10 m d (R main_arg5)) (W10 m d (R main_arg7)) (W10 m d (R main_arg0)))
def W12 (d : Dev nD) : Valuation τ sig (Elt F) := (hop11 (F := F)).result (W11 m d)
def W13 (d : Dev nD) : Valuation τ sig (Elt F) := Function.update (Function.update (W12 m d) (R main_v11_0) (k2_pay2 (F := F) (W12 m d (R main_v8)) (W12 m d (R main_v10)))) (R main_v11_1) (k2_pay1 (F := F) (W12 m d (R main_v8)))
def W14 (d : Dev nD) : Valuation τ sig (Elt F) := (hop13 (F := F)).result (W13 m d)
def W15 (d : Dev nD) : Valuation τ sig (Elt F) := Function.update (W14 m d) (R main_v13) (Tile1.val1 (fun d' => W14 m d' (R main_v12)) (fun d' => W14 m d' (R main_arg1)) d)
def W16 (d : Dev nD) : Valuation τ sig (Elt F) := Function.update (W15 m d) (R main_v14) (k4_pay1 (F := F) (W15 m d (R main_v13)) (W15 m d (R main_v11_1)) (W15 m d (R main_v11_0)) (W15 m d (R main_v4)))
def W17 (d : Dev nD) : Valuation τ sig (Elt F) := (hop16 (F := F)).result (W16 m d)
def W18 (d : Dev nD) : Valuation τ sig (Elt F) := Function.update (W17 m d) (R main_v16) (Tile2.val2 (fun d' => W17 m d' (R main_v15)) (fun d' => W17 m d' (R main_arg1)) d)
def W19 (d : Dev nD) : Valuation τ sig (Elt F) := Function.update (W18 m d) (R main_v17) (k6_pay1 (F := F) (W18 m d (R main_v16)) (W18 m d (R main_v11_1)) (W18 m d (R main_v14)) (W18 m d (R main_v7)))
def W20 (d : Dev nD) : Valuation τ sig (Elt F) := (hop19 (F := F)).result (W19 m d)
def W21 (d : Dev nD) : Valuation τ sig (Elt F) := (hop20 (F := F)).result (W20 m d)
def W22 (d : Dev nD) : Valuation τ sig (Elt F) := (hop21 (F := F)).result (W21 m d)
def W23 (d : Dev nD) : Valuation τ sig (Elt F) := (hop22 (F := F)).result (W22 m d)
def W24 (d : Dev nD) : Valuation τ sig (Elt F) := (hop23 (F := F)).result (W23 m d)
def W25 (d : Dev nD) : Valuation τ sig (Elt F) := Function.update (W24 m d) (R main_v21) (Tile3.val3 (fun d' => W24 m d' (R main_v20)) (fun d' => W24 m d' (R main_v19)) d)

theorem held_takeL (c : Thread nD τ) (S : Finset (DevRef τ sig)) (l : List (DevRef τ sig)) (hl : l.Nodup) (hs : l.toFinset ⊆ S)
    (V : Valuation τ sig (Elt F)) :
    (held c S V : sProp (MM F)) = iprop(bigSepL l (fun b => ((c.1, b) ↦{fullShare} V b : sProp (MM F))) ∗ held c (S \ l.toFinset) V) := by
  rw [held_sub_split c hs V]
  unfold held
  rw [bigSep_eq_bigSepL l hl]

theorem held_putL (c : Thread nD τ) (S : Finset (DevRef τ sig)) (l : List (DevRef τ sig)) (hl : l.Nodup) (hs : l.toFinset ⊆ S)
    (V V' : Valuation τ sig (Elt F)) (h : ∀ x ∈ S \ l.toFinset, V x = V' x) :
    iprop(bigSepL l (fun b => ((c.1, b) ↦{fullShare} V' b : sProp (MM F))) ∗ held c (S \ l.toFinset) V) ⊢ (held c S V' : sProp (MM F)) := by
  rw [held_takeL c S l hl hs V', held_congr c h]

def in0 : (d : Dev nD) → Buf (Elt F) (Tile0.eiLoc d) := fun d => W9 m d (R main_arg1)
def in1v : (d : Dev nD) → Buf (Elt F) (Tile1.valLoc d) := fun d => W14 m d (R main_v12)
def in1e : (d : Dev nD) → Buf (Elt F) (Tile1.eiLoc d) := fun d => W14 m d (R main_arg1)
def in2v : (d : Dev nD) → Buf (Elt F) (Tile2.valLoc d) := fun d => W17 m d (R main_v15)
def in2e : (d : Dev nD) → Buf (Elt F) (Tile2.eiLoc d) := fun d => W17 m d (R main_arg1)
def in3s : (d : Dev nD) → Buf (Elt F) (Tile3.svLoc d) := fun d => W24 m d (R main_v20)
def in3p : (d : Dev nD) → Buf (Elt F) (Tile3.peLoc d) := fun d => W24 m d (R main_v19)

def P : (K (F := F)).Pay (nD := nD) (Val := Elt F) (Name := ℕ) (U := UU) where
  st := fun q => match q with
    | 0 => fun d c => Tile0.st0 (in0 m) d c
    | 1 => fun d c => Tile1.st1 (in1v m) (in1e m) d c
    | 2 => fun d c => Tile2.st2 (in2v m) (in2e m) d c
    | 3 => fun d c => Tile3.st3 (in3s m) (in3p m) d c
  dn := fun q => match q with
    | 0 => fun d c => Tile0.dn0 (in0 m) d c
    | 1 => fun d c => Tile1.dn1 (in1v m) (in1e m) d c
    | 2 => fun d c => Tile2.dn2 (in2v m) (in2e m) d c
    | 3 => fun d c => Tile3.dn3 (in3s m) (in3p m) d c
  go := fun q => match q with
    | 0 => fun d c i => Tile0.go0 (in0 m) d c i
    | 1 => fun d c i => Tile1.go1 (in1v m) (in1e m) d c i
    | 2 => fun d c i => Tile2.go2 (in2v m) (in2e m) d c i
    | 3 => fun d c i => Tile3.go3 (in3s m) (in3p m) d c i
  td := fun q => match q with
    | 0 => fun d c i => Tile0.td0 (in0 m) d c i
    | 1 => fun d c i => Tile1.td1 (in1v m) (in1e m) d c i
    | 2 => fun d c i => Tile2.td2 (in2v m) (in2e m) d c i
    | 3 => fun d c i => Tile3.td3 (in3s m) (in3p m) d c i
  x := fun _ _ => iprop(emp)

instance P_storable : (P (F := F) m).IsStorable where
  st q d c := match q with
    | 0 => (inferInstance : BI.Storable (upEmb : UEmb _ (MM F)) (Tile0.st0 (in0 m) d c))
    | 1 => (inferInstance : BI.Storable (upEmb : UEmb _ (MM F)) (Tile1.st1 (in1v m) (in1e m) d c))
    | 2 => (inferInstance : BI.Storable (upEmb : UEmb _ (MM F)) (Tile2.st2 (in2v m) (in2e m) d c))
    | 3 => (inferInstance : BI.Storable (upEmb : UEmb _ (MM F)) (Tile3.st3 (in3s m) (in3p m) d c))
  dn q d c := match q with
    | 0 => (inferInstance : BI.Storable (upEmb : UEmb _ (MM F)) (Tile0.dn0 (in0 m) d c))
    | 1 => (inferInstance : BI.Storable (upEmb : UEmb _ (MM F)) (Tile1.dn1 (in1v m) (in1e m) d c))
    | 2 => (inferInstance : BI.Storable (upEmb : UEmb _ (MM F)) (Tile2.dn2 (in2v m) (in2e m) d c))
    | 3 => (inferInstance : BI.Storable (upEmb : UEmb _ (MM F)) (Tile3.dn3 (in3s m) (in3p m) d c))
  go q d c i := match q with
    | 0 => (inferInstance : BI.Storable (upEmb : UEmb _ (MM F)) (Tile0.go0 (in0 m) d c i))
    | 1 => (inferInstance : BI.Storable (upEmb : UEmb _ (MM F)) (Tile1.go1 (in1v m) (in1e m) d c i))
    | 2 => (inferInstance : BI.Storable (upEmb : UEmb _ (MM F)) (Tile2.go2 (in2v m) (in2e m) d c i))
    | 3 => (inferInstance : BI.Storable (upEmb : UEmb _ (MM F)) (Tile3.go3 (in3s m) (in3p m) d c i))
  td q d c i := match q with
    | 0 => (inferInstance : BI.Storable (upEmb : UEmb _ (MM F)) (Tile0.td0 (in0 m) d c i))
    | 1 => (inferInstance : BI.Storable (upEmb : UEmb _ (MM F)) (Tile1.td1 (in1v m) (in1e m) d c i))
    | 2 => (inferInstance : BI.Storable (upEmb : UEmb _ (MM F)) (Tile2.td2 (in2v m) (in2e m) d c i))
    | 3 => (inferInstance : BI.Storable (upEmb : UEmb _ (MM F)) (Tile3.td3 (in3s m) (in3p m) d c i))

def tcRest (d : Dev nD) (n : ℕ) : sProp (MM F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) (n : ℕ) :
    ((K (F := F)).tcSt (Val := Elt F) (Name := ℕ) (U := UU) EH d n : sProp (MM F))
      = iprop((∃ W, ⌜(K (F := F)).WBelow (TT d) W (8 * n)⌝ ∗ owes (TT d) ((K (F := F)).Otc d n) W) ∗ tcRest (F := F) d n) := rfl

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

end Cert.KernelIdeal.Hand.Main

end
-- ==== Proof.HandKernelIdeal.Main.lean ====
import proofs.«211345_g12773232738731_cont_fleet_1243_15_alg».proof.Proof.HandKernelIdeal.MainDefs
import proofs.«211345_g12773232738731_cont_fleet_1243_15_alg».proof.Proof.HandKernelIdeal.Regions

noncomputable section

namespace Cert.KernelIdeal.Hand.Main

open Cert.KernelIdeal Cert.KernelIdeal.Gen Cert.KernelIdeal.Hand
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)

variable {F : FTy → Type} [FloatOps F]
variable (m : (ℓ : Loc nD τ sig) → Buf (Elt F) ℓ) (ρ : Dev nD → PrngReg)

theorem regStep0 (κ : GSem nD τ sig → ℕ) (d : Dev nD) (Ψ : PUnit → sProp (MM F)) :
    iprop((K (F := F)).ctx EH (P m) κ ∗ Tc.Gp 0 d ∗ (K (F := F)).tcSt EH d 1 ∗ boundary (TT d) ∗ held (TT d) UC (W10 m d)
        ∗ (iprop((K (F := F)).tcSt EH d 1 ∗ boundary (TT d) ∗ held (TT d) UC (W11 m d)) -∗ Ψ ⟨⟩))
      ⊢ wp frame (wpE ((K (F := F)).defs (D (F := F))) 𝒱 (TT d) none) Set.univ
          (Prog.lift (TpuEff.customCall (SparseCore.inner (Pipeline.entry 0)) ())) Ψ := by
  iintro ⟨#Hctx, Hg, Hst, Hb, Hheld, Hk⟩
  ihave Hlv := (SparseCore.Cfg.ctx_levAts (K := K (F := F)) (EH := EH) (P := P m) κ) $$ Hctx
  ihave Hst' := (Entails.of_eq (tcSt_eq (F := F) d 1)) $$ Hst
  icases Hst' with ⟨⟨%W, %hW, HO⟩, Hrst⟩
  have htk : (held (TT d) UC (W10 m d) : sProp (MM F)) = iprop(((((TT d).1, R main_arg0) ↦{fullShare} W10 m d (R main_arg0)) ∗ (((TT d).1, R main_arg3) ↦{fullShare} W10 m d (R main_arg3)) ∗ (((TT d).1, R main_arg5) ↦{fullShare} W10 m d (R main_arg5)) ∗ (((TT d).1, R main_arg7) ↦{fullShare} W10 m d (R main_arg7)) ∗ (((TT d).1, R main_v9) ↦{fullShare} W10 m d (R main_v9))) ∗ held (TT d) (UC \ [R main_arg0, R main_arg3, R main_arg5, R main_arg7, R main_v9].toFinset) (W10 m d)) :=
    held_takeL (F := F) (TT d) UC [R main_arg0, R main_arg3, R main_arg5, R main_arg7, R main_v9] (by decide) (by decide) (W10 m d)
  ihave Hh := (Entails.of_eq htk) $$ Hheld
  icases Hh with ⟨⟨Hx0, Hx1, Hx2, Hx3, Hx4⟩, Hrest⟩
  iapply (Tc.region_0 (F := F) d Ψ (K (F := F)).lev (K (F := F)).refines_self ((K (F := F)).Otc d 1) W (Otc_none (F := F) d 1) (W10 m d (R main_arg0)) (W10 m d (R main_arg3)) (W10 m d (R main_arg5)) (W10 m d (R main_arg7))) $$ [Hlv Hg Hb HO Hx0 Hx1 Hx2 Hx3 Hx4 Hrst Hrest Hk]
  isplitl [Hlv]; · iexact Hlv
  isplitl [Hg]; · iexact Hg
  isplitl [Hb]; · iexact Hb
  isplitl [HO]; · iexact HO
  isplitl [Hx0]; · iexact Hx0
  isplitl [Hx1]; · iexact Hx1
  isplitl [Hx2]; · iexact Hx2
  isplitl [Hx3]; · iexact Hx3
  isplitl [Hx4]; · iexists _; iexact Hx4
  iintro ⟨Hb, ⟨%W', %hW', HO⟩, Hx0, Hx1, Hx2, Hx3, Hx4⟩
  iapply Hk
  isplitl [HO Hrst]
  · iapply (Entails.of_eq (tcSt_eq (F := F) d 1).symm)
    isplitl [HO]
    · iexists W'; isplitr
      · ipureintro; exact fun p hp => (hW' p hp).elim (hW p) (fun h => by rw [h, SparseCore.Cfg.lev_none]; exact Nat.zero_le _)
      · iexact HO
    · iexact Hrst
  isplitl [Hb]; · iexact Hb
  have e0 : W11 m d (R main_arg0) = W10 m d (R main_arg0) := by unfold W11; exact Function.update_of_ne (show R main_arg0 ≠ R main_v9 by decide) _ _
  have e1 : W11 m d (R main_arg3) = W10 m d (R main_arg3) := by unfold W11; exact Function.update_of_ne (show R main_arg3 ≠ R main_v9 by decide) _ _
  have e2 : W11 m d (R main_arg5) = W10 m d (R main_arg5) := by unfold W11; exact Function.update_of_ne (show R main_arg5 ≠ R main_v9 by decide) _ _
  have e3 : W11 m d (R main_arg7) = W10 m d (R main_arg7) := by unfold W11; exact Function.update_of_ne (show R main_arg7 ≠ R main_v9 by decide) _ _
  have e4 : W11 m d (R main_v9) = k1_pay1 (F := F) (W10 m d (R main_arg3)) (W10 m d (R main_arg5)) (W10 m d (R main_arg7)) (W10 m d (R main_arg0)) := by unfold W11; exact Function.update_self _ _ _
  have hput : iprop(((((TT d).1, R main_arg0) ↦{fullShare} W10 m d (R main_arg0)) ∗ (((TT d).1, R main_arg3) ↦{fullShare} W10 m d (R main_arg3)) ∗ (((TT d).1, R main_arg5) ↦{fullShare} W10 m d (R main_arg5)) ∗ (((TT d).1, R main_arg7) ↦{fullShare} W10 m d (R main_arg7)) ∗ (((TT d).1, R main_v9) ↦{fullShare} k1_pay1 (F := F) (W10 m d (R main_arg3)) (W10 m d (R main_arg5)) (W10 m d (R main_arg7)) (W10 m d (R main_arg0)))) ∗ held (TT d) (UC \ [R main_arg0, R main_arg3, R main_arg5, R main_arg7, R main_v9].toFinset) (W10 m d)) ⊢ (held (TT d) UC (W11 m d) : sProp (MM F)) := by
    rw [← e4, ← e0, ← e1, ← e2, ← e3]
    exact held_putL (F := F) (TT d) UC [R main_arg0, R main_arg3, R main_arg5, R main_arg7, R main_v9] (by decide) (by decide) (W10 m d) (W11 m d) (fun x hx => by unfold W11; exact (Function.update_of_ne (fun h => by subst h; revert hx; decide) _ _).symm)
  ihave Hheld := hput $$ [Hx0 Hx1 Hx2 Hx3 Hx4 Hrest]
  · isplitr [Hrest]
    · isplitl [Hx0]; · iexact Hx0
      isplitl [Hx1]; · iexact Hx1
      isplitl [Hx2]; · iexact Hx2
      isplitl [Hx3]; · iexact Hx3
      iexact Hx4
    · iexact Hrest
  iexact Hheld

theorem regStep1 (κ : GSem nD τ sig → ℕ) (d : Dev nD) (Ψ : PUnit → sProp (MM F)) :
    iprop((K (F := F)).ctx EH (P m) κ ∗ Tc.Gp 1 d ∗ (K (F := F)).tcSt EH d 1 ∗ boundary (TT d) ∗ held (TT d) UC (W12 m d)
        ∗ (iprop((K (F := F)).tcSt EH d 1 ∗ boundary (TT d) ∗ held (TT d) UC (W13 m d)) -∗ Ψ ⟨⟩))
      ⊢ wp frame (wpE ((K (F := F)).defs (D (F := F))) 𝒱 (TT d) none) Set.univ
          (Prog.lift (TpuEff.customCall (SparseCore.inner (Pipeline.entry 1)) ())) Ψ := by
  iintro ⟨#Hctx, Hg, Hst, Hb, Hheld, Hk⟩
  ihave Hlv := (SparseCore.Cfg.ctx_levAts (K := K (F := F)) (EH := EH) (P := P m) κ) $$ Hctx
  ihave Hst' := (Entails.of_eq (tcSt_eq (F := F) d 1)) $$ Hst
  icases Hst' with ⟨⟨%W, %hW, HO⟩, Hrst⟩
  have htk : (held (TT d) UC (W12 m d) : sProp (MM F)) = iprop(((((TT d).1, R main_v8) ↦{fullShare} W12 m d (R main_v8)) ∗ (((TT d).1, R main_v10) ↦{fullShare} W12 m d (R main_v10)) ∗ (((TT d).1, R main_v11_0) ↦{fullShare} W12 m d (R main_v11_0)) ∗ (((TT d).1, R main_v11_1) ↦{fullShare} W12 m d (R main_v11_1))) ∗ held (TT d) (UC \ [R main_v8, R main_v10, R main_v11_0, R main_v11_1].toFinset) (W12 m d)) :=
    held_takeL (F := F) (TT d) UC [R main_v8, R main_v10, R main_v11_0, R main_v11_1] (by decide) (by decide) (W12 m d)
  ihave Hh := (Entails.of_eq htk) $$ Hheld
  icases Hh with ⟨⟨Hx0, Hx1, Hx2, Hx3⟩, Hrest⟩
  iapply (Tc.region_1 (F := F) d Ψ (K (F := F)).lev (K (F := F)).refines_self ((K (F := F)).Otc d 1) W (Otc_none (F := F) d 1) (W12 m d (R main_v8)) (W12 m d (R main_v10))) $$ [Hlv Hg Hb HO Hx0 Hx1 Hx2 Hx3 Hrst Hrest Hk]
  isplitl [Hlv]; · iexact Hlv
  isplitl [Hg]; · iexact Hg
  isplitl [Hb]; · iexact Hb
  isplitl [HO]; · iexact HO
  isplitl [Hx0]; · iexact Hx0
  isplitl [Hx1]; · iexact Hx1
  isplitl [Hx2]; · iexists _; iexact Hx2
  isplitl [Hx3]; · iexists _; iexact Hx3
  iintro ⟨Hb, ⟨%W', %hW', HO⟩, Hx0, Hx1, Hx2, Hx3⟩
  iapply Hk
  isplitl [HO Hrst]
  · iapply (Entails.of_eq (tcSt_eq (F := F) d 1).symm)
    isplitl [HO]
    · iexists W'; isplitr
      · ipureintro; exact fun p hp => (hW' p hp).elim (hW p) (fun h => by rw [h, SparseCore.Cfg.lev_none]; exact Nat.zero_le _)
      · iexact HO
    · iexact Hrst
  isplitl [Hb]; · iexact Hb
  have e0 : W13 m d (R main_v8) = W12 m d (R main_v8) := by unfold W13; exact (Function.update_of_ne (show R main_v8 ≠ R main_v11_1 by decide) _ _).trans (Function.update_of_ne (show R main_v8 ≠ R main_v11_0 by decide) _ _)
  have e1 : W13 m d (R main_v10) = W12 m d (R main_v10) := by unfold W13; exact (Function.update_of_ne (show R main_v10 ≠ R main_v11_1 by decide) _ _).trans (Function.update_of_ne (show R main_v10 ≠ R main_v11_0 by decide) _ _)
  have e2 : W13 m d (R main_v11_0) = k2_pay2 (F := F) (W12 m d (R main_v8)) (W12 m d (R main_v10)) := by unfold W13; exact (Function.update_of_ne (show R main_v11_0 ≠ R main_v11_1 by decide) _ _).trans (Function.update_self _ _ _)
  have e3 : W13 m d (R main_v11_1) = k2_pay1 (F := F) (W12 m d (R main_v8)) := by unfold W13; exact Function.update_self _ _ _
  have hput : iprop(((((TT d).1, R main_v8) ↦{fullShare} W12 m d (R main_v8)) ∗ (((TT d).1, R main_v10) ↦{fullShare} W12 m d (R main_v10)) ∗ (((TT d).1, R main_v11_0) ↦{fullShare} k2_pay2 (F := F) (W12 m d (R main_v8)) (W12 m d (R main_v10))) ∗ (((TT d).1, R main_v11_1) ↦{fullShare} k2_pay1 (F := F) (W12 m d (R main_v8)))) ∗ held (TT d) (UC \ [R main_v8, R main_v10, R main_v11_0, R main_v11_1].toFinset) (W12 m d)) ⊢ (held (TT d) UC (W13 m d) : sProp (MM F)) := by
    rw [← e2, ← e3, ← e0, ← e1]
    exact held_putL (F := F) (TT d) UC [R main_v8, R main_v10, R main_v11_0, R main_v11_1] (by decide) (by decide) (W12 m d) (W13 m d) (fun x hx => by unfold W13; exact ((Function.update_of_ne (fun h => by subst h; revert hx; decide) _ _).trans (Function.update_of_ne (fun h => by subst h; revert hx; decide) _ _)).symm)
  ihave Hheld := hput $$ [Hx0 Hx1 Hx2 Hx3 Hrest]
  · isplitr [Hrest]
    · isplitl [Hx0]; · iexact Hx0
      isplitl [Hx1]; · iexact Hx1
      isplitl [Hx2]; · iexact Hx2
      iexact Hx3
    · iexact Hrest
  iexact Hheld

theorem regStep2 (κ : GSem nD τ sig → ℕ) (d : Dev nD) (Ψ : PUnit → sProp (MM F)) :
    iprop((K (F := F)).ctx EH (P m) κ ∗ Tc.Gp 2 d ∗ (K (F := F)).tcSt EH d 2 ∗ boundary (TT d) ∗ held (TT d) UC (W15 m d)
        ∗ (iprop((K (F := F)).tcSt EH d 2 ∗ boundary (TT d) ∗ held (TT d) UC (W16 m d)) -∗ Ψ ⟨⟩))
      ⊢ wp frame (wpE ((K (F := F)).defs (D (F := F))) 𝒱 (TT d) none) Set.univ
          (Prog.lift (TpuEff.customCall (SparseCore.inner (Pipeline.entry 2)) ())) Ψ := by
  iintro ⟨#Hctx, Hg, Hst, Hb, Hheld, Hk⟩
  ihave Hlv := (SparseCore.Cfg.ctx_levAts (K := K (F := F)) (EH := EH) (P := P m) κ) $$ Hctx
  ihave Hst' := (Entails.of_eq (tcSt_eq (F := F) d 2)) $$ Hst
  icases Hst' with ⟨⟨%W, %hW, HO⟩, Hrst⟩
  have htk : (held (TT d) UC (W15 m d) : sProp (MM F)) = iprop(((((TT d).1, R main_v13) ↦{fullShare} W15 m d (R main_v13)) ∗ (((TT d).1, R main_v11_0) ↦{fullShare} W15 m d (R main_v11_0)) ∗ (((TT d).1, R main_v11_1) ↦{fullShare} W15 m d (R main_v11_1)) ∗ (((TT d).1, R main_v4) ↦{fullShare} W15 m d (R main_v4)) ∗ (((TT d).1, R main_v14) ↦{fullShare} W15 m d (R main_v14))) ∗ held (TT d) (UC \ [R main_v13, R main_v11_0, R main_v11_1, R main_v4, R main_v14].toFinset) (W15 m d)) :=
    held_takeL (F := F) (TT d) UC [R main_v13, R main_v11_0, R main_v11_1, R main_v4, R main_v14] (by decide) (by decide) (W15 m d)
  ihave Hh := (Entails.of_eq htk) $$ Hheld
  icases Hh with ⟨⟨Hx0, Hx1, Hx2, Hx3, Hx4⟩, Hrest⟩
  iapply (Tc.region_2 (F := F) d Ψ (K (F := F)).lev (K (F := F)).refines_self ((K (F := F)).Otc d 2) W (Otc_none (F := F) d 2) (W15 m d (R main_v13)) (W15 m d (R main_v11_0)) (W15 m d (R main_v11_1)) (W15 m d (R main_v4))) $$ [Hlv Hg Hb HO Hx0 Hx1 Hx2 Hx3 Hx4 Hrst Hrest Hk]
  isplitl [Hlv]; · iexact Hlv
  isplitl [Hg]; · iexact Hg
  isplitl [Hb]; · iexact Hb
  isplitl [HO]; · iexact HO
  isplitl [Hx0]; · iexact Hx0
  isplitl [Hx1]; · iexact Hx1
  isplitl [Hx2]; · iexact Hx2
  isplitl [Hx3]; · iexact Hx3
  isplitl [Hx4]; · iexists _; iexact Hx4
  iintro ⟨Hb, ⟨%W', %hW', HO⟩, Hx0, Hx1, Hx2, Hx3, Hx4⟩
  iapply Hk
  isplitl [HO Hrst]
  · iapply (Entails.of_eq (tcSt_eq (F := F) d 2).symm)
    isplitl [HO]
    · iexists W'; isplitr
      · ipureintro; exact fun p hp => (hW' p hp).elim (hW p) (fun h => by rw [h, SparseCore.Cfg.lev_none]; exact Nat.zero_le _)
      · iexact HO
    · iexact Hrst
  isplitl [Hb]; · iexact Hb
  have e0 : W16 m d (R main_v13) = W15 m d (R main_v13) := by unfold W16; exact Function.update_of_ne (show R main_v13 ≠ R main_v14 by decide) _ _
  have e1 : W16 m d (R main_v11_0) = W15 m d (R main_v11_0) := by unfold W16; exact Function.update_of_ne (show R main_v11_0 ≠ R main_v14 by decide) _ _
  have e2 : W16 m d (R main_v11_1) = W15 m d (R main_v11_1) := by unfold W16; exact Function.update_of_ne (show R main_v11_1 ≠ R main_v14 by decide) _ _
  have e3 : W16 m d (R main_v4) = W15 m d (R main_v4) := by unfold W16; exact Function.update_of_ne (show R main_v4 ≠ R main_v14 by decide) _ _
  have e4 : W16 m d (R main_v14) = k4_pay1 (F := F) (W15 m d (R main_v13)) (W15 m d (R main_v11_1)) (W15 m d (R main_v11_0)) (W15 m d (R main_v4)) := by unfold W16; exact Function.update_self _ _ _
  have hput : iprop(((((TT d).1, R main_v13) ↦{fullShare} W15 m d (R main_v13)) ∗ (((TT d).1, R main_v11_0) ↦{fullShare} W15 m d (R main_v11_0)) ∗ (((TT d).1, R main_v11_1) ↦{fullShare} W15 m d (R main_v11_1)) ∗ (((TT d).1, R main_v4) ↦{fullShare} W15 m d (R main_v4)) ∗ (((TT d).1, R main_v14) ↦{fullShare} k4_pay1 (F := F) (W15 m d (R main_v13)) (W15 m d (R main_v11_1)) (W15 m d (R main_v11_0)) (W15 m d (R main_v4)))) ∗ held (TT d) (UC \ [R main_v13, R main_v11_0, R main_v11_1, R main_v4, R main_v14].toFinset) (W15 m d)) ⊢ (held (TT d) UC (W16 m d) : sProp (MM F)) := by
    rw [← e4, ← e0, ← e1, ← e2, ← e3]
    exact held_putL (F := F) (TT d) UC [R main_v13, R main_v11_0, R main_v11_1, R main_v4, R main_v14] (by decide) (by decide) (W15 m d) (W16 m d) (fun x hx => by unfold W16; exact (Function.update_of_ne (fun h => by subst h; revert hx; decide) _ _).symm)
  ihave Hheld := hput $$ [Hx0 Hx1 Hx2 Hx3 Hx4 Hrest]
  · isplitr [Hrest]
    · isplitl [Hx0]; · iexact Hx0
      isplitl [Hx1]; · iexact Hx1
      isplitl [Hx2]; · iexact Hx2
      isplitl [Hx3]; · iexact Hx3
      iexact Hx4
    · iexact Hrest
  iexact Hheld

theorem regStep3 (κ : GSem nD τ sig → ℕ) (d : Dev nD) (Ψ : PUnit → sProp (MM F)) :
    iprop((K (F := F)).ctx EH (P m) κ ∗ Tc.Gp 3 d ∗ (K (F := F)).tcSt EH d 3 ∗ boundary (TT d) ∗ held (TT d) UC (W18 m d)
        ∗ (iprop((K (F := F)).tcSt EH d 3 ∗ boundary (TT d) ∗ held (TT d) UC (W19 m d)) -∗ Ψ ⟨⟩))
      ⊢ wp frame (wpE ((K (F := F)).defs (D (F := F))) 𝒱 (TT d) none) Set.univ
          (Prog.lift (TpuEff.customCall (SparseCore.inner (Pipeline.entry 3)) ())) Ψ := by
  iintro ⟨#Hctx, Hg, Hst, Hb, Hheld, Hk⟩
  ihave Hlv := (SparseCore.Cfg.ctx_levAts (K := K (F := F)) (EH := EH) (P := P m) κ) $$ Hctx
  ihave Hst' := (Entails.of_eq (tcSt_eq (F := F) d 3)) $$ Hst
  icases Hst' with ⟨⟨%W, %hW, HO⟩, Hrst⟩
  have htk : (held (TT d) UC (W18 m d) : sProp (MM F)) = iprop(((((TT d).1, R main_v16) ↦{fullShare} W18 m d (R main_v16)) ∗ (((TT d).1, R main_v14) ↦{fullShare} W18 m d (R main_v14)) ∗ (((TT d).1, R main_v11_1) ↦{fullShare} W18 m d (R main_v11_1)) ∗ (((TT d).1, R main_v7) ↦{fullShare} W18 m d (R main_v7)) ∗ (((TT d).1, R main_v17) ↦{fullShare} W18 m d (R main_v17))) ∗ held (TT d) (UC \ [R main_v16, R main_v14, R main_v11_1, R main_v7, R main_v17].toFinset) (W18 m d)) :=
    held_takeL (F := F) (TT d) UC [R main_v16, R main_v14, R main_v11_1, R main_v7, R main_v17] (by decide) (by decide) (W18 m d)
  ihave Hh := (Entails.of_eq htk) $$ Hheld
  icases Hh with ⟨⟨Hx0, Hx1, Hx2, Hx3, Hx4⟩, Hrest⟩
  iapply (Tc.region_3 (F := F) d Ψ (K (F := F)).lev (K (F := F)).refines_self ((K (F := F)).Otc d 3) W (Otc_none (F := F) d 3) (W18 m d (R main_v16)) (W18 m d (R main_v14)) (W18 m d (R main_v11_1)) (W18 m d (R main_v7))) $$ [Hlv Hg Hb HO Hx0 Hx1 Hx2 Hx3 Hx4 Hrst Hrest Hk]
  isplitl [Hlv]; · iexact Hlv
  isplitl [Hg]; · iexact Hg
  isplitl [Hb]; · iexact Hb
  isplitl [HO]; · iexact HO
  isplitl [Hx0]; · iexact Hx0
  isplitl [Hx1]; · iexact Hx1
  isplitl [Hx2]; · iexact Hx2
  isplitl [Hx3]; · iexact Hx3
  isplitl [Hx4]; · iexists _; iexact Hx4
  iintro ⟨Hb, ⟨%W', %hW', HO⟩, Hx0, Hx1, Hx2, Hx3, Hx4⟩
  iapply Hk
  isplitl [HO Hrst]
  · iapply (Entails.of_eq (tcSt_eq (F := F) d 3).symm)
    isplitl [HO]
    · iexists W'; isplitr
      · ipureintro; exact fun p hp => (hW' p hp).elim (hW p) (fun h => by rw [h, SparseCore.Cfg.lev_none]; exact Nat.zero_le _)
      · iexact HO
    · iexact Hrst
  isplitl [Hb]; · iexact Hb
  have e0 : W19 m d (R main_v16) = W18 m d (R main_v16) := by unfold W19; exact Function.update_of_ne (show R main_v16 ≠ R main_v17 by decide) _ _
  have e1 : W19 m d (R main_v14) = W18 m d (R main_v14) := by unfold W19; exact Function.update_of_ne (show R main_v14 ≠ R main_v17 by decide) _ _
  have e2 : W19 m d (R main_v11_1) = W18 m d (R main_v11_1) := by unfold W19; exact Function.update_of_ne (show R main_v11_1 ≠ R main_v17 by decide) _ _
  have e3 : W19 m d (R main_v7) = W18 m d (R main_v7) := by unfold W19; exact Function.update_of_ne (show R main_v7 ≠ R main_v17 by decide) _ _
  have e4 : W19 m d (R main_v17) = k6_pay1 (F := F) (W18 m d (R main_v16)) (W18 m d (R main_v11_1)) (W18 m d (R main_v14)) (W18 m d (R main_v7)) := by unfold W19; exact Function.update_self _ _ _
  have hput : iprop(((((TT d).1, R main_v16) ↦{fullShare} W18 m d (R main_v16)) ∗ (((TT d).1, R main_v14) ↦{fullShare} W18 m d (R main_v14)) ∗ (((TT d).1, R main_v11_1) ↦{fullShare} W18 m d (R main_v11_1)) ∗ (((TT d).1, R main_v7) ↦{fullShare} W18 m d (R main_v7)) ∗ (((TT d).1, R main_v17) ↦{fullShare} k6_pay1 (F := F) (W18 m d (R main_v16)) (W18 m d (R main_v11_1)) (W18 m d (R main_v14)) (W18 m d (R main_v7)))) ∗ held (TT d) (UC \ [R main_v16, R main_v14, R main_v11_1, R main_v7, R main_v17].toFinset) (W18 m d)) ⊢ (held (TT d) UC (W19 m d) : sProp (MM F)) := by
    rw [← e4, ← e0, ← e1, ← e2, ← e3]
    exact held_putL (F := F) (TT d) UC [R main_v16, R main_v14, R main_v11_1, R main_v7, R main_v17] (by decide) (by decide) (W18 m d) (W19 m d) (fun x hx => by unfold W19; exact (Function.update_of_ne (fun h => by subst h; revert hx; decide) _ _).symm)
  ihave Hheld := hput $$ [Hx0 Hx1 Hx2 Hx3 Hx4 Hrest]
  · isplitr [Hrest]
    · isplitl [Hx0]; · iexact Hx0
      isplitl [Hx1]; · iexact Hx1
      isplitl [Hx2]; · iexact Hx2
      isplitl [Hx3]; · iexact Hx3
      iexact Hx4
    · iexact Hrest
  iexact Hheld

theorem tcRes_held (d : Dev nD) :
    ((K (F := F)).tcRes (Name := ℕ) (U := UU) m ρ d : sProp (MM F))
      = iprop(boundary (TT d) ∗ held (TT d) UC (V0 m d) ∗ (K (F := F)).tcSems0 d ∗ prngReg d (ρ d)) := by
  unfold SparseCore.Cfg.tcRes
  rw [show (unscopedBufs d (fun b => m ((TT d).loc b)) : sProp (MM F)) = held (TT d) UC (V0 m d) from
    Pipeline.unscopedBufs_held (Ix := HIx 4) (Name := ℕ) (U := UU) (Lvl := ℕ) d (V0 m d)]

def FIN (d : Dev nD) : sProp (MM F) := held (TT d) UC (W25 m d)

set_option maxHeartbeats 4000000 in
theorem hmain (κ : GSem nD τ sig → ℕ) (d : Dev nD) :
    iprop((K (F := F)).ctx EH (P m) κ ∗ (K (F := F)).tcSt EH d 0 ∗ (K (F := F)).tcRes m ρ d ∗ iprop(Tc.Gp 0 d ∗ Tc.Gp 1 d ∗ Tc.Gp 2 d ∗ Tc.Gp 3 d))
      ⊢ wp frame (wpE ((K (F := F)).defs (D (F := F))) 𝒱 (TT d) none) Set.univ (main d)
          fun _ => iprop((K (F := F)).tcSt EH d 4 ∗ FIN m d) := by
  rw [tcRes_held]
  simp only [main, fn_pad.body, wp_bind, wp_pure]
  iintro ⟨#Hctx, Hst, ⟨Hb, Hheld, -, -⟩, ⟨Hg0, Hg1, Hg2, Hg3⟩⟩
  iapply (wp_hlo_within 𝒱 (TT d) none Set.univ (op := hop0 (F := F)) (S := UC) ?hS (V := V0 m d)) $$ [Hb Hheld]
  case hS => exact Pipeline.sub_ucRefs _ (by unfold hop0; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop0 (F := F)).result (V0 m d) = W1 m d from rfl]
  iapply (wp_hlo_within 𝒱 (TT d) none Set.univ (op := hop1 (F := F)) (S := UC) ?hS (V := W1 m d)) $$ [Hb Hheld]
  case hS => exact Pipeline.sub_ucRefs _ (by unfold hop1; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop1 (F := F)).result (W1 m d) = W2 m d from rfl]
  iapply (wp_hlo_within 𝒱 (TT d) none Set.univ (op := hop2 (F := F)) (S := UC) ?hS (V := W2 m d)) $$ [Hb Hheld]
  case hS => exact Pipeline.sub_ucRefs _ (by unfold hop2; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop2 (F := F)).result (W2 m d) = W3 m d from rfl]
  iapply (wp_hlo_within 𝒱 (TT d) none Set.univ (op := hop3 (F := F)) (S := UC) ?hS (V := W3 m d)) $$ [Hb Hheld]
  case hS => exact Pipeline.sub_ucRefs _ (by unfold hop3; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop3 (F := F)).result (W3 m d) = W4 m d from rfl]
  iapply (wp_hlo_within 𝒱 (TT d) none Set.univ (op := hop4 (F := F)) (S := UC) ?hS (V := W4 m d)) $$ [Hb Hheld]
  case hS => exact Pipeline.sub_ucRefs _ (by unfold hop4; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop4 (F := F)).result (W4 m d) = W5 m d from rfl]
  iapply (wp_hlo_within 𝒱 (TT d) none Set.univ (op := hop5 (F := F)) (S := UC) ?hS (V := W5 m d)) $$ [Hb Hheld]
  case hS => exact Pipeline.sub_ucRefs _ (by unfold hop5; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop5 (F := F)).result (W5 m d) = W6 m d from rfl]
  iapply (wp_hlo_within 𝒱 (TT d) none Set.univ (op := hop6 (F := F)) (S := UC) ?hS (V := W6 m d)) $$ [Hb Hheld]
  case hS => exact Pipeline.sub_ucRefs _ (by unfold hop6; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop6 (F := F)).result (W6 m d) = W7 m d from rfl]
  iapply (wp_hlo_within 𝒱 (TT d) none Set.univ (op := hop7 (F := F)) (S := UC) ?hS (V := W7 m d)) $$ [Hb Hheld]
  case hS => exact Pipeline.sub_ucRefs _ (by unfold hop7; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop7 (F := F)).result (W7 m d) = W8 m d from rfl]
  iapply (wp_hlo_within 𝒱 (TT d) none Set.univ (op := hop8 (F := F)) (S := UC) ?hS (V := W8 m d)) $$ [Hb Hheld]
  case hS => exact Pipeline.sub_ucRefs _ (by unfold hop8; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop8 (F := F)).result (W8 m d) = W9 m d from rfl]
  have htk : (held (TT d) UC (W9 m d) : sProp (MM F)) = iprop(((((TT d).1, R main_arg1) ↦{fullShare} W9 m d (R main_arg1)) ∗ (((TT d).1, R main_v8) ↦{fullShare} W9 m d (R main_v8))) ∗ held (TT d) (UC \ [R main_arg1, R main_v8].toFinset) (W9 m d)) :=
    held_takeL (F := F) (TT d) UC [R main_arg1, R main_v8] (by decide) (by decide) (W9 m d)
  ihave Hh := (Entails.of_eq htk) $$ Hheld
  icases Hh with ⟨⟨Hx0, Hx1⟩, Hrest⟩
  imod (Tile0.call0 (in0 m) d) $$ [Hx0 Hx1] with ⟨Hst0, Hback⟩
  · isplitl [Hx0]; · iexact Hx0
    iexists _; iexact Hx1
  iapply ((K (F := F)).wp_run (D (F := F)) 𝒱 (EH := EH) (P := P m) κ d 0) $$ [Hst Hst0 Hback Hb Hrest Hg0 Hg1 Hg2 Hg3]
  isplitr; · iexact Hctx
  isplitl [Hst]; · iexact Hst
  isplitl [Hst0]; · iexact Hst0
  iintro ⟨Hst, Hdn⟩
  ihave Hdn := (Entails.of_eq (show (bigSep Finset.univ fun c : Fin ((K (F := F)).nCore 0) => (P m).dn 0 d c)
      = (bigSep Finset.univ fun c : Fin ((K (F := F)).nCore 0) => Tile0.dn0 (in0 m) d c) from rfl)) $$ Hdn
  ihave Hb2 := Hback $$ Hdn
  icases Hb2 with ⟨Hx0, Hx1⟩
  have e0 : W10 m d (R main_arg1) = W9 m d (R main_arg1) := by unfold W10; exact Function.update_of_ne (show R main_arg1 ≠ R main_v8 by decide) _ _
  have e1 : W10 m d (R main_v8) = Tile0.val0 (in0 m) d := by unfold W10; exact Function.update_self _ _ _
  have hput : iprop(((((TT d).1, R main_arg1) ↦{fullShare} W9 m d (R main_arg1)) ∗ (((TT d).1, R main_v8) ↦{fullShare} Tile0.val0 (in0 m) d)) ∗ held (TT d) (UC \ [R main_arg1, R main_v8].toFinset) (W9 m d)) ⊢ (held (TT d) UC (W10 m d) : sProp (MM F)) := by
    rw [← e1, ← e0]
    exact held_putL (F := F) (TT d) UC [R main_arg1, R main_v8] (by decide) (by decide) (W9 m d) (W10 m d) (fun x hx => by unfold W10; exact (Function.update_of_ne (fun h => by subst h; revert hx; decide) _ _).symm)
  ihave Hheld := hput $$ [Hx0 Hx1 Hrest]
  · isplitr [Hrest]
    · isplitl [Hx0]; · iexact Hx0
      iexact Hx1
    · iexact Hrest
  iapply (regStep0 m κ d _) $$ [Hg0 Hst Hb Hheld Hg1 Hg2 Hg3]
  isplitr; · iexact Hctx
  isplitl [Hg0]; · iexact Hg0
  isplitl [Hst]; · iexact Hst
  isplitl [Hb]; · iexact Hb
  isplitl [Hheld]; · iexact Hheld
  iintro ⟨Hst, Hb, Hheld⟩
  iapply (wp_hlo_within 𝒱 (TT d) none Set.univ (op := hop11 (F := F)) (S := UC) ?hS (V := W11 m d)) $$ [Hb Hheld]
  case hS => exact Pipeline.sub_ucRefs _ (by unfold hop11; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop11 (F := F)).result (W11 m d) = W12 m d from rfl]
  iapply (regStep1 m κ d _) $$ [Hg1 Hst Hb Hheld Hg2 Hg3]
  isplitr; · iexact Hctx
  isplitl [Hg1]; · iexact Hg1
  isplitl [Hst]; · iexact Hst
  isplitl [Hb]; · iexact Hb
  isplitl [Hheld]; · iexact Hheld
  iintro ⟨Hst, Hb, Hheld⟩
  iapply (wp_hlo_within 𝒱 (TT d) none Set.univ (op := hop13 (F := F)) (S := UC) ?hS (V := W13 m d)) $$ [Hb Hheld]
  case hS => exact Pipeline.sub_ucRefs _ (by unfold hop13; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop13 (F := F)).result (W13 m d) = W14 m d from rfl]
  have htk : (held (TT d) UC (W14 m d) : sProp (MM F)) = iprop(((((TT d).1, R main_v12) ↦{fullShare} W14 m d (R main_v12)) ∗ (((TT d).1, R main_arg1) ↦{fullShare} W14 m d (R main_arg1)) ∗ (((TT d).1, R main_v13) ↦{fullShare} W14 m d (R main_v13))) ∗ held (TT d) (UC \ [R main_v12, R main_arg1, R main_v13].toFinset) (W14 m d)) :=
    held_takeL (F := F) (TT d) UC [R main_v12, R main_arg1, R main_v13] (by decide) (by decide) (W14 m d)
  ihave Hh := (Entails.of_eq htk) $$ Hheld
  icases Hh with ⟨⟨Hx0, Hx1, Hx2⟩, Hrest⟩
  imod (Tile1.call1 (in1v m) (in1e m) d) $$ [Hx0 Hx1 Hx2] with ⟨Hst0, Hback⟩
  · isplitl [Hx0]; · iexact Hx0
    isplitl [Hx1]; · iexact Hx1
    iexists _; iexact Hx2
  iapply ((K (F := F)).wp_run (D (F := F)) 𝒱 (EH := EH) (P := P m) κ d 1) $$ [Hst Hst0 Hback Hb Hrest Hg2 Hg3]
  isplitr; · iexact Hctx
  isplitl [Hst]; · iexact Hst
  isplitl [Hst0]; · iexact Hst0
  iintro ⟨Hst, Hdn⟩
  ihave Hdn := (Entails.of_eq (show (bigSep Finset.univ fun c : Fin ((K (F := F)).nCore 1) => (P m).dn 1 d c)
      = (bigSep Finset.univ fun c : Fin ((K (F := F)).nCore 1) => Tile1.dn1 (in1v m) (in1e m) d c) from rfl)) $$ Hdn
  ihave Hb2 := Hback $$ Hdn
  icases Hb2 with ⟨Hx0, Hx1, Hx2⟩
  have e0 : W15 m d (R main_v12) = W14 m d (R main_v12) := by unfold W15; exact Function.update_of_ne (show R main_v12 ≠ R main_v13 by decide) _ _
  have e1 : W15 m d (R main_arg1) = W14 m d (R main_arg1) := by unfold W15; exact Function.update_of_ne (show R main_arg1 ≠ R main_v13 by decide) _ _
  have e2 : W15 m d (R main_v13) = Tile1.val1 (in1v m) (in1e m) d := by unfold W15; exact Function.update_self _ _ _
  have hput : iprop(((((TT d).1, R main_v12) ↦{fullShare} W14 m d (R main_v12)) ∗ (((TT d).1, R main_arg1) ↦{fullShare} W14 m d (R main_arg1)) ∗ (((TT d).1, R main_v13) ↦{fullShare} Tile1.val1 (in1v m) (in1e m) d)) ∗ held (TT d) (UC \ [R main_v12, R main_arg1, R main_v13].toFinset) (W14 m d)) ⊢ (held (TT d) UC (W15 m d) : sProp (MM F)) := by
    rw [← e2, ← e0, ← e1]
    exact held_putL (F := F) (TT d) UC [R main_v12, R main_arg1, R main_v13] (by decide) (by decide) (W14 m d) (W15 m d) (fun x hx => by unfold W15; exact (Function.update_of_ne (fun h => by subst h; revert hx; decide) _ _).symm)
  ihave Hheld := hput $$ [Hx0 Hx1 Hx2 Hrest]
  · isplitr [Hrest]
    · isplitl [Hx0]; · iexact Hx0
      isplitl [Hx1]; · iexact Hx1
      iexact Hx2
    · iexact Hrest
  iapply (regStep2 m κ d _) $$ [Hg2 Hst Hb Hheld Hg3]
  isplitr; · iexact Hctx
  isplitl [Hg2]; · iexact Hg2
  isplitl [Hst]; · iexact Hst
  isplitl [Hb]; · iexact Hb
  isplitl [Hheld]; · iexact Hheld
  iintro ⟨Hst, Hb, Hheld⟩
  iapply (wp_hlo_within 𝒱 (TT d) none Set.univ (op := hop16 (F := F)) (S := UC) ?hS (V := W16 m d)) $$ [Hb Hheld]
  case hS => exact Pipeline.sub_ucRefs _ (by unfold hop16; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop16 (F := F)).result (W16 m d) = W17 m d from rfl]
  have htk : (held (TT d) UC (W17 m d) : sProp (MM F)) = iprop(((((TT d).1, R main_v15) ↦{fullShare} W17 m d (R main_v15)) ∗ (((TT d).1, R main_arg1) ↦{fullShare} W17 m d (R main_arg1)) ∗ (((TT d).1, R main_v16) ↦{fullShare} W17 m d (R main_v16))) ∗ held (TT d) (UC \ [R main_v15, R main_arg1, R main_v16].toFinset) (W17 m d)) :=
    held_takeL (F := F) (TT d) UC [R main_v15, R main_arg1, R main_v16] (by decide) (by decide) (W17 m d)
  ihave Hh := (Entails.of_eq htk) $$ Hheld
  icases Hh with ⟨⟨Hx0, Hx1, Hx2⟩, Hrest⟩
  imod (Tile2.call2 (in2v m) (in2e m) d) $$ [Hx0 Hx1 Hx2] with ⟨Hst0, Hback⟩
  · isplitl [Hx0]; · iexact Hx0
    isplitl [Hx1]; · iexact Hx1
    iexists _; iexact Hx2
  iapply ((K (F := F)).wp_run (D (F := F)) 𝒱 (EH := EH) (P := P m) κ d 2) $$ [Hst Hst0 Hback Hb Hrest Hg3]
  isplitr; · iexact Hctx
  isplitl [Hst]; · iexact Hst
  isplitl [Hst0]; · iexact Hst0
  iintro ⟨Hst, Hdn⟩
  ihave Hdn := (Entails.of_eq (show (bigSep Finset.univ fun c : Fin ((K (F := F)).nCore 2) => (P m).dn 2 d c)
      = (bigSep Finset.univ fun c : Fin ((K (F := F)).nCore 2) => Tile2.dn2 (in2v m) (in2e m) d c) from rfl)) $$ Hdn
  ihave Hb2 := Hback $$ Hdn
  icases Hb2 with ⟨Hx0, Hx1, Hx2⟩
  have e0 : W18 m d (R main_v15) = W17 m d (R main_v15) := by unfold W18; exact Function.update_of_ne (show R main_v15 ≠ R main_v16 by decide) _ _
  have e1 : W18 m d (R main_arg1) = W17 m d (R main_arg1) := by unfold W18; exact Function.update_of_ne (show R main_arg1 ≠ R main_v16 by decide) _ _
  have e2 : W18 m d (R main_v16) = Tile2.val2 (in2v m) (in2e m) d := by unfold W18; exact Function.update_self _ _ _
  have hput : iprop(((((TT d).1, R main_v15) ↦{fullShare} W17 m d (R main_v15)) ∗ (((TT d).1, R main_arg1) ↦{fullShare} W17 m d (R main_arg1)) ∗ (((TT d).1, R main_v16) ↦{fullShare} Tile2.val2 (in2v m) (in2e m) d)) ∗ held (TT d) (UC \ [R main_v15, R main_arg1, R main_v16].toFinset) (W17 m d)) ⊢ (held (TT d) UC (W18 m d) : sProp (MM F)) := by
    rw [← e2, ← e0, ← e1]
    exact held_putL (F := F) (TT d) UC [R main_v15, R main_arg1, R main_v16] (by decide) (by decide) (W17 m d) (W18 m d) (fun x hx => by unfold W18; exact (Function.update_of_ne (fun h => by subst h; revert hx; decide) _ _).symm)
  ihave Hheld := hput $$ [Hx0 Hx1 Hx2 Hrest]
  · isplitr [Hrest]
    · isplitl [Hx0]; · iexact Hx0
      isplitl [Hx1]; · iexact Hx1
      iexact Hx2
    · iexact Hrest
  iapply (regStep3 m κ d _) $$ [Hg3 Hst Hb Hheld]
  isplitr; · iexact Hctx
  isplitl [Hg3]; · iexact Hg3
  isplitl [Hst]; · iexact Hst
  isplitl [Hb]; · iexact Hb
  isplitl [Hheld]; · iexact Hheld
  iintro ⟨Hst, Hb, Hheld⟩
  iapply (wp_hlo_within 𝒱 (TT d) none Set.univ (op := hop19 (F := F)) (S := UC) ?hS (V := W19 m d)) $$ [Hb Hheld]
  case hS => exact Pipeline.sub_ucRefs _ (by unfold hop19; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop19 (F := F)).result (W19 m d) = W20 m d from rfl]
  iapply (wp_hlo_within 𝒱 (TT d) none Set.univ (op := hop20 (F := F)) (S := UC) ?hS (V := W20 m d)) $$ [Hb Hheld]
  case hS => exact Pipeline.sub_ucRefs _ (by unfold hop20; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop20 (F := F)).result (W20 m d) = W21 m d from rfl]
  iapply (wp_hlo_within 𝒱 (TT d) none Set.univ (op := hop21 (F := F)) (S := UC) ?hS (V := W21 m d)) $$ [Hb Hheld]
  case hS => exact Pipeline.sub_ucRefs _ (by unfold hop21; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop21 (F := F)).result (W21 m d) = W22 m d from rfl]
  iapply (wp_hlo_within 𝒱 (TT d) none Set.univ (op := hop22 (F := F)) (S := UC) ?hS (V := W22 m d)) $$ [Hb Hheld]
  case hS => exact Pipeline.sub_ucRefs _ (by unfold hop22; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop22 (F := F)).result (W22 m d) = W23 m d from rfl]
  imodintro
  iapply (wp_hlo_within 𝒱 (TT d) none Set.univ (op := hop23 (F := F)) (S := UC) ?hS (V := W23 m d)) $$ [Hb Hheld]
  case hS => exact Pipeline.sub_ucRefs _ (by unfold hop23; first | (rw [StableHlo.binary_bufs]; decide) | (rw [StableHlo.unary_bufs]; decide) | (rw [StableHlo.nullary_bufs]; decide) | (rw [StableHlo.reshape_bufs]; decide) | decide)
  · isplitl [Hb]; · iexact Hb
    iexact Hheld
  iintro ⟨Hb, Hheld⟩
  rw [wp_ret]; imodintro
  rw [show (hop23 (F := F)).result (W23 m d) = W24 m d from rfl]
  have htk : (held (TT d) UC (W24 m d) : sProp (MM F)) = iprop(((((TT d).1, R main_v20) ↦{fullShare} W24 m d (R main_v20)) ∗ (((TT d).1, R main_v19) ↦{fullShare} W24 m d (R main_v19)) ∗ (((TT d).1, R main_v21) ↦{fullShare} W24 m d (R main_v21))) ∗ held (TT d) (UC \ [R main_v20, R main_v19, R main_v21].toFinset) (W24 m d)) :=
    held_takeL (F := F) (TT d) UC [R main_v20, R main_v19, R main_v21] (by decide) (by decide) (W24 m d)
  ihave Hh := (Entails.of_eq htk) $$ Hheld
  icases Hh with ⟨⟨Hx0, Hx1, Hx2⟩, Hrest⟩
  imod (Tile3.call3 (in3s m) (in3p m) d) $$ [Hx0 Hx1 Hx2] with ⟨Hst0, Hback⟩
  · isplitl [Hx0]; · iexact Hx0
    isplitl [Hx1]; · iexact Hx1
    iexists _; iexact Hx2
  iapply ((K (F := F)).wp_run (D (F := F)) 𝒱 (EH := EH) (P := P m) κ d 3) $$ [Hst Hst0 Hback Hb Hrest]
  isplitr; · iexact Hctx
  isplitl [Hst]; · iexact Hst
  isplitl [Hst0]; · iexact Hst0
  iintro ⟨Hst, Hdn⟩
  ihave Hdn := (Entails.of_eq (show (bigSep Finset.univ fun c : Fin ((K (F := F)).nCore 3) => (P m).dn 3 d c)
      = (bigSep Finset.univ fun c : Fin ((K (F := F)).nCore 3) => Tile3.dn3 (in3s m) (in3p m) d c) from rfl)) $$ Hdn
  ihave Hb2 := Hback $$ Hdn
  icases Hb2 with ⟨Hx0, Hx1, Hx2⟩
  have e0 : W25 m d (R main_v20) = W24 m d (R main_v20) := by unfold W25; exact Function.update_of_ne (show R main_v20 ≠ R main_v21 by decide) _ _
  have e1 : W25 m d (R main_v19) = W24 m d (R main_v19) := by unfold W25; exact Function.update_of_ne (show R main_v19 ≠ R main_v21 by decide) _ _
  have e2 : W25 m d (R main_v21) = Tile3.val3 (in3s m) (in3p m) d := by unfold W25; exact Function.update_self _ _ _
  have hput : iprop(((((TT d).1, R main_v20) ↦{fullShare} W24 m d (R main_v20)) ∗ (((TT d).1, R main_v19) ↦{fullShare} W24 m d (R main_v19)) ∗ (((TT d).1, R main_v21) ↦{fullShare} Tile3.val3 (in3s m) (in3p m) d)) ∗ held (TT d) (UC \ [R main_v20, R main_v19, R main_v21].toFinset) (W24 m d)) ⊢ (held (TT d) UC (W25 m d) : sProp (MM F)) := by
    rw [← e2, ← e0, ← e1]
    exact held_putL (F := F) (TT d) UC [R main_v20, R main_v19, R main_v21] (by decide) (by decide) (W24 m d) (W25 m d) (fun x hx => by unfold W25; exact (Function.update_of_ne (fun h => by subst h; revert hx; decide) _ _).symm)
  ihave Hheld := hput $$ [Hx0 Hx1 Hx2 Hrest]
  · isplitr [Hrest]
    · isplitl [Hx0]; · iexact Hx0
      isplitl [Hx1]; · iexact Hx1
      iexact Hx2
    · iexact Hrest
  imodintro
  isplitl [Hst]; · iexact Hst
  unfold FIN; iexact Hheld

end Cert.KernelIdeal.Hand.Main

end
-- ==== Proof.HandKernelIdeal.Launch.lean ====
import proofs.«211345_g12773232738731_cont_fleet_1243_15_alg».proof.Proof.HandKernelIdeal.Common
import proofs.«211345_g12773232738731_cont_fleet_1243_15_alg».proof.Proof.HandKernelIdeal.Tile0
import proofs.«211345_g12773232738731_cont_fleet_1243_15_alg».proof.Proof.HandKernelIdeal.Tile1
import proofs.«211345_g12773232738731_cont_fleet_1243_15_alg».proof.Proof.HandKernelIdeal.Tile2
import proofs.«211345_g12773232738731_cont_fleet_1243_15_alg».proof.Proof.HandKernelIdeal.Tile3
import proofs.«211345_g12773232738731_cont_fleet_1243_15_alg».proof.Proof.HandKernelIdeal.Regions
import proofs.«211345_g12773232738731_cont_fleet_1243_15_alg».proof.Proof.HandKernelIdeal.MainDefs
import proofs.«211345_g12773232738731_cont_fleet_1243_15_alg».proof.Proof.HandKernelIdeal.Main

noncomputable section

namespace Cert.KernelIdeal.Hand.Launch

open Cert.KernelIdeal Cert.KernelIdeal.Gen Cert.KernelIdeal.Hand
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

section Obl

variable (hr0 : ∀ (d : Dev nD) j, (Main.in0 m d j).toNat < 10000)
  (hr1 : ∀ (d : Dev nD) (j : S2x320000.Idx), (Main.in1e m d j : BitVec 32).toNat < 10000)
  (hr2 : ∀ (d : Dev nD) (j : S2x320000.Idx), (Main.in2e m d j : BitVec 32).toNat < 10000)
  (hr3 : ∀ (d : Dev nD) j, (Main.in3p m d j).toNat < 10000)

include hr0 hr1 hr2 hr3 in
theorem tileObl (q : Fin 4) : (Cert.KernelIdeal.Hand.K (F := F)).TileObl (D (F := F)) 𝒱 (Main.P m) v₀ q := by
  match q with
  | 0 =>
    intro d c i O W hO _ _
    simp only [show (Main.P m).ox = fun _ _ => 0 from rfl, add_zero]
    refine BIBase.Entails.trans ?_ (Tile0.tile0 (Main.in0 m) hr0 d c i O W hO)
    show iprop(_ ∗ iprop(emp) ∗ Tile0.go0 (Main.in0 m) d c i ∗ _ ∗ _ ∗ _) ⊢ _
    iintro ⟨Hl, -, Hgo, Hb, Hs, HO⟩
    isplitl [Hl]; · iexact Hl
    isplitl [Hgo]; · iexact Hgo
    isplitl [Hb]; · iexact Hb
    isplitl [Hs]; · iexact Hs
    iexact HO
  | 1 =>
    intro d c i O W hO _ _
    simp only [show (Main.P m).ox = fun _ _ => 0 from rfl, add_zero]
    refine BIBase.Entails.trans ?_ (Tile1.tile1 (Main.in1v m) (Main.in1e m) hr1 d c i O W hO)
    show iprop(_ ∗ iprop(emp) ∗ Tile1.go1 (Main.in1v m) (Main.in1e m) d c i ∗ _ ∗ _ ∗ _) ⊢ _
    iintro ⟨Hl, -, Hgo, Hb, Hs, HO⟩
    isplitl [Hl]; · iexact Hl
    isplitl [Hgo]; · iexact Hgo
    isplitl [Hb]; · iexact Hb
    isplitl [Hs]; · iexact Hs
    iexact HO
  | 2 =>
    intro d c i O W hO _ _
    simp only [show (Main.P m).ox = fun _ _ => 0 from rfl, add_zero]
    refine BIBase.Entails.trans ?_ (Tile2.tile2 (Main.in2v m) (Main.in2e m) hr2 d c i O W hO)
    show iprop(_ ∗ iprop(emp) ∗ Tile2.go2 (Main.in2v m) (Main.in2e m) d c i ∗ _ ∗ _ ∗ _) ⊢ _
    iintro ⟨Hl, -, Hgo, Hb, Hs, HO⟩
    isplitl [Hl]; · iexact Hl
    isplitl [Hgo]; · iexact Hgo
    isplitl [Hb]; · iexact Hb
    isplitl [Hs]; · iexact Hs
    iexact HO
  | 3 =>
    intro d c i O W hO _ _
    simp only [show (Main.P m).ox = fun _ _ => 0 from rfl, add_zero]
    refine BIBase.Entails.trans ?_ (by first | exact Tile3.tile3 (Main.in3s m) (Main.in3p m) hr3 d c i O W hO | exact Tile3.tile3 (Main.in3s m) (Main.in3p m) d c i O W hO)
    show iprop(_ ∗ iprop(emp) ∗ Tile3.go3 (Main.in3s m) (Main.in3p m) d c i ∗ _ ∗ _ ∗ _) ⊢ _
    iintro ⟨Hl, -, Hgo, Hb, Hs, HO⟩
    isplitl [Hl]; · iexact Hl
    isplitl [Hgo]; · iexact Hgo
    isplitl [Hb]; · iexact Hb
    isplitl [Hs]; · iexact Hs
    iexact HO

theorem vecSplit (q : Fin 4) : (Cert.KernelIdeal.Hand.K (F := F)).VecSplit (Main.P m) q := by
  match q with
  | 0 => exact SparseCore.Cfg.VecSplit.of_plain fun d c => Tile0.split0 (Main.in0 m) d c
  | 1 => exact SparseCore.Cfg.VecSplit.of_plain fun d c => Tile1.split1 (Main.in1v m) (Main.in1e m) d c
  | 2 => exact SparseCore.Cfg.VecSplit.of_plain fun d c => Tile2.split2 (Main.in2v m) (Main.in2e m) d c
  | 3 => exact SparseCore.Cfg.VecSplit.of_plain fun d c => Tile3.split3 (Main.in3s m) (Main.in3p m) d c

end Obl

def G (d : Dev nD) : sProp (MM F) := iprop(Tc.Gp 0 d ∗ Tc.Gp 1 d ∗ Tc.Gp 2 d ∗ Tc.Gp 3 d)

def u₀ : UU := (initOf (Cert.KernelIdeal.Hand.K (F := F)).hsCells (Cert.KernelIdeal.Hand.K (F := F)).hsToks, (Tc.uP₀, 1))

abbrev ER : Emb (UP × Counters) (MM F) := embR
omit [FloatOps F] in
theorem EP_eq : (EP : Emb UP (MM F)) = (Emb.inl : Emb UP (UP × Counters)).trans (ER (F := F)) := rfl

omit [FloatOps F] in
theorem bigSep_emp' {I : Type} (s : Finset I) : (bigSep s fun _ => iprop(emp)) = (iprop(emp) : sProp (MM F)) := bigSep_emp_const s

omit [FloatOps F] in
theorem bigSep_fin4 (Φ : Fin 4 → sProp (MM F)) : bigSep Finset.univ Φ = iprop(Φ 0 ∗ Φ 1 ∗ Φ 2 ∗ Φ 3) :=
  bigSep_univ_eq_bigSepL [(0 : Fin 4), 1, 2, 3] (by decide) (by decide) Φ

theorem hu₀ : (ownU (u₀ (F := F)) : sProp (MM F))
    ⊢ |={Set.univ}=> iprop(BI.own (EH (initOf (Cert.KernelIdeal.Hand.K (F := F)).hsCells (Cert.KernelIdeal.Hand.K (F := F)).hsToks))
        ∗ (bigSep Finset.univ fun d : Dev nD => G (F := F) d)
        ∗ bigSep Finset.univ fun thr : Thread nD τ => bigSep Finset.univ fun q : Fin 4 => (Main.P m).x q thr) := by
  unfold u₀
  iintro Hu
  ihave H := (ownU_pair _ _) $$ Hu
  icases H with ⟨HH, HR⟩
  ihave H2 := (own_pair_emb (ER (F := F)) Tc.uP₀ 1) $$ HR
  icases H2 with ⟨HP, -⟩
  ihave HG := (Tc.fundP (F := F)) $$ [HP]
  · rw [EP_eq]; iexact HP
  imod HG with HG
  imodintro
  isplitl [HH]; · iexact HH
  isplitl [HG]
  · iapply (show (bigSep Finset.univ fun d : Dev nD => bigSep Finset.univ fun p : Fin 4 => Tc.Gp (F := F) p d)
        ⊢ bigSep Finset.univ fun d : Dev nD => G (F := F) d from
      Entails.of_eq (bigSep_congr fun d _ => by unfold G; rw [bigSep_fin4]))
    iexact HG
  unfold Main.P; dsimp only
  rw [show (bigSep Finset.univ fun _ : Thread nD τ => bigSep Finset.univ fun _ : Fin 4 => (iprop(emp) : sProp (MM F))) = iprop(emp) from by
    rw [bigSep_congr fun _ _ => bigSep_emp' _, bigSep_emp']]
  iempintro

def fq (d : Dev nD) (s' : Phys nD τ sig (Elt F)) : Prop := ∀ b ∈ Pipeline.ucRefs τ sig, s'.mem.mem (d, b) = Main.W25 m d b

theorem hfin (d : Dev nD) (s' : Phys nD τ sig (Elt F)) : iprop(Main.FIN m d ∗ SI s') ⊢ (⌜fq m d s'⌝ : sProp (MM F)) := by
  unfold Main.FIN StableHlo.held
  iintro ⟨Hh, HSI⟩
  ihave Hr := (pointsTo_read_all (Pipeline.ucRefs τ sig) (fun b => ((Main.TT d).1, b)) (Main.W25 m d) s') $$ [Hh HSI]
  · isplitl [Hh] <;> iassumption
  icases Hr with ⟨%h, -⟩
  ipureintro; exact h

theorem run_main [∀ e, Nonempty (Elt F e)]
    (hr0 : ∀ (d : Dev nD) j, (Main.in0 m d j).toNat < 10000)
    (hr1 : ∀ (d : Dev nD) (j : S2x320000.Idx), (Main.in1e m d j : BitVec 32).toNat < 10000)
    (hr2 : ∀ (d : Dev nD) (j : S2x320000.Idx), (Main.in2e m d j : BitVec 32).toNat < 10000)
    (hr3 : ∀ (d : Dev nD) j, (Main.in3p m d j).toNat < 10000) :
    θ_run (Cert.KernelIdeal.defs (F := F)) (Cert.KernelIdeal.threads (F := F)) ⟨m, fun _ => 0, ρ⟩
      (fun r => ∀ (d : Dev nD), ∀ b ∈ Pipeline.ucRefs τ sig, r.2.mem (d, b) = Main.W25 m d b) :=
  SparseCore.Cfg.θ_run_sc (K := Cert.KernelIdeal.Hand.K (F := F)) (D := D (F := F)) (𝒱 := 𝒱) (EH := EH) (P := Main.P m) facts v₀
    (fun q hq => match q with | 0 => nomatch hq | 1 => nomatch hq | 2 => nomatch hq | 3 => nomatch hq)
    (fun q _ => tileObl m hr0 hr1 hr2 hr3 q)
    (fun q _ => vecSplit m q)
    m ρ main (G (F := F)) (Main.FIN m) (u₀ (F := F)) (sep_elim_left.trans (hu₀ m)) (Main.hmain m ρ) (fq m) (hfin m) _ (fun _ h => h)

end Cert.KernelIdeal.Hand.Launch

end
-- ==== Proof.HandKernelIdeal.MainArgs.lean ====
import proofs.«211345_g12773232738731_cont_fleet_1243_15_alg».proof.Proof.HandKernelIdeal.MainDefs

noncomputable section

namespace Cert.KernelIdeal.Hand.Main

open Cert.KernelIdeal Cert.KernelIdeal.Gen Cert.KernelIdeal.Hand
open Idealize.ShloMosaic

variable {F : FTy → Type} [FloatOps F]
variable (m : (ℓ : Loc nD τ sig) → Buf (Elt F) ℓ) (d : Dev nD)

theorem W1_keep {b : DevRef τ sig} (h : b ≠ R main_v0) : W1 m d b = V0 m d b :=
  HloOp.result_of_not_mem _ _ (by rw [show (hop0 (F := F)).writes = {R main_v0} from rfl, Finset.mem_singleton]; exact h)
theorem W2_keep {b : DevRef τ sig} (h : b ≠ R main_v1) : W2 m d b = W1 m d b :=
  HloOp.result_of_not_mem _ _ (by rw [show (hop1 (F := F)).writes = {R main_v1} from rfl, Finset.mem_singleton]; exact h)
theorem W3_keep {b : DevRef τ sig} (h : b ≠ R main_cst) : W3 m d b = W2 m d b :=
  HloOp.result_of_not_mem _ _ (by rw [show (hop2 (F := F)).writes = {R main_cst} from rfl, Finset.mem_singleton]; exact h)
theorem W4_keep {b : DevRef τ sig} (h : b ≠ R main_v2) : W4 m d b = W3 m d b :=
  HloOp.result_of_not_mem _ _ (by rw [show (hop3 (F := F)).writes = {R main_v2} from rfl, Finset.mem_singleton]; exact h)
theorem W5_keep {b : DevRef τ sig} (h : b ≠ R main_v3) : W5 m d b = W4 m d b :=
  HloOp.result_of_not_mem _ _ (by rw [show (hop4 (F := F)).writes = {R main_v3} from rfl, Finset.mem_singleton]; exact h)
theorem W6_keep {b : DevRef τ sig} (h : b ≠ R main_v4) : W6 m d b = W5 m d b :=
  HloOp.result_of_not_mem _ _ (by rw [show (hop5 (F := F)).writes = {R main_v4} from rfl, Finset.mem_singleton]; exact h)
theorem W7_keep {b : DevRef τ sig} (h : b ≠ R main_v5) : W7 m d b = W6 m d b :=
  HloOp.result_of_not_mem _ _ (by rw [show (hop6 (F := F)).writes = {R main_v5} from rfl, Finset.mem_singleton]; exact h)
theorem W8_keep {b : DevRef τ sig} (h : b ≠ R main_v6) : W8 m d b = W7 m d b :=
  HloOp.result_of_not_mem _ _ (by rw [show (hop7 (F := F)).writes = {R main_v6} from rfl, Finset.mem_singleton]; exact h)
theorem W9_keep {b : DevRef τ sig} (h : b ≠ R main_v7) : W9 m d b = W8 m d b :=
  HloOp.result_of_not_mem _ _ (by rw [show (hop8 (F := F)).writes = {R main_v7} from rfl, Finset.mem_singleton]; exact h)
theorem W12_keep {b : DevRef τ sig} (h : b ≠ R main_v10) : W12 m d b = W11 m d b :=
  HloOp.result_of_not_mem _ _ (by rw [show (hop11 (F := F)).writes = {R main_v10} from rfl, Finset.mem_singleton]; exact h)
theorem W14_keep {b : DevRef τ sig} (h : b ≠ R main_v12) : W14 m d b = W13 m d b :=
  HloOp.result_of_not_mem _ _ (by rw [show (hop13 (F := F)).writes = {R main_v12} from rfl, Finset.mem_singleton]; exact h)
theorem W17_keep {b : DevRef τ sig} (h : b ≠ R main_v15) : W17 m d b = W16 m d b :=
  HloOp.result_of_not_mem _ _ (by rw [show (hop16 (F := F)).writes = {R main_v15} from rfl, Finset.mem_singleton]; exact h)
theorem W20_keep {b : DevRef τ sig} (h : b ≠ R main_v18) : W20 m d b = W19 m d b :=
  HloOp.result_of_not_mem _ _ (by rw [show (hop19 (F := F)).writes = {R main_v18} from rfl, Finset.mem_singleton]; exact h)
theorem W21_keep {b : DevRef τ sig} (h : b ≠ R main_c) : W21 m d b = W20 m d b :=
  HloOp.result_of_not_mem _ _ (by rw [show (hop20 (F := F)).writes = {R main_c} from rfl, Finset.mem_singleton]; exact h)
theorem W22_keep {b : DevRef τ sig} (h : b ≠ R main_call0_v0) : W22 m d b = W21 m d b :=
  HloOp.result_of_not_mem _ _ (by rw [show (hop21 (F := F)).writes = {R main_call0_v0} from rfl, Finset.mem_singleton]; exact h)
theorem W23_keep {b : DevRef τ sig} (h : b ≠ R main_v19) : W23 m d b = W22 m d b :=
  HloOp.result_of_not_mem _ _ (by rw [show (hop22 (F := F)).writes = {R main_v19} from rfl, Finset.mem_singleton]; exact h)
theorem W24_keep {b : DevRef τ sig} (h : b ≠ R main_v20) : W24 m d b = W23 m d b :=
  HloOp.result_of_not_mem _ _ (by rw [show (hop23 (F := F)).writes = {R main_v20} from rfl, Finset.mem_singleton]; exact h)
theorem W10_keep {b : DevRef τ sig} (h : b ≠ R main_v8) : W10 m d b = W9 m d b := Function.update_of_ne h _ _
theorem W11_keep {b : DevRef τ sig} (h : b ≠ R main_v9) : W11 m d b = W10 m d b := Function.update_of_ne h _ _
theorem W15_keep {b : DevRef τ sig} (h : b ≠ R main_v13) : W15 m d b = W14 m d b := Function.update_of_ne h _ _
theorem W16_keep {b : DevRef τ sig} (h : b ≠ R main_v14) : W16 m d b = W15 m d b := Function.update_of_ne h _ _
theorem W18_keep {b : DevRef τ sig} (h : b ≠ R main_v16) : W18 m d b = W17 m d b := Function.update_of_ne h _ _
theorem W19_keep {b : DevRef τ sig} (h : b ≠ R main_v17) : W19 m d b = W18 m d b := Function.update_of_ne h _ _
theorem W25_keep {b : DevRef τ sig} (h : b ≠ R main_v21) : W25 m d b = W24 m d b := Function.update_of_ne h _ _
theorem W13_keep {b : DevRef τ sig} (h0 : b ≠ R main_v11_0) (h1 : b ≠ R main_v11_1) : W13 m d b = W12 m d b :=
  (Function.update_of_ne h1 _ _).trans (Function.update_of_ne h0 _ _)

-- every array the walk writes, in the order of its steps
def written : Fin 26 → DevRef τ sig :=
  ![R main_v0, R main_v1, R main_cst, R main_v2, R main_v3, R main_v4, R main_v5, R main_v6, R main_v7, R main_v8, R main_v9, R main_v10, R main_v11_0, R main_v11_1, R main_v12, R main_v13, R main_v14, R main_v15, R main_v16, R main_v17, R main_v18, R main_c, R main_call0_v0, R main_v19, R main_v20, R main_v21]

section Kept

variable {b : DevRef τ sig} (h : ∀ i, b ≠ written i)
include h

-- an array no step writes holds its launch contents after any number of steps
theorem W9_of : W9 m d b = V0 m d b := by
  rw [W9_keep m d (h 8), W8_keep m d (h 7), W7_keep m d (h 6), W6_keep m d (h 5), W5_keep m d (h 4), W4_keep m d (h 3), W3_keep m d (h 2), W2_keep m d (h 1), W1_keep m d (h 0)]
theorem W14_of : W14 m d b = V0 m d b := by
  rw [W14_keep m d (h 14), W13_keep m d (h 12) (h 13), W12_keep m d (h 11), W11_keep m d (h 10), W10_keep m d (h 9), W9_of m d h]
theorem W17_of : W17 m d b = V0 m d b := by
  rw [W17_keep m d (h 17), W16_keep m d (h 16), W15_keep m d (h 15), W14_of m d h]
theorem W24_of : W24 m d b = V0 m d b := by
  rw [W24_keep m d (h 24), W23_keep m d (h 23), W22_keep m d (h 22), W21_keep m d (h 21), W20_keep m d (h 20), W19_keep m d (h 19), W18_keep m d (h 18), W17_of m d h]
theorem W25_of : W25 m d b = V0 m d b := by
  rw [W25_keep m d (h 25), W24_of m d h]

end Kept

theorem W25_arg0 : W25 m d (R main_arg0) = V0 m d (R main_arg0) := W25_of m d (by decide)
theorem W25_arg1 : W25 m d (R main_arg1) = V0 m d (R main_arg1) := W25_of m d (by decide)
theorem W25_arg2 : W25 m d (R main_arg2) = V0 m d (R main_arg2) := W25_of m d (by decide)
theorem W25_arg3 : W25 m d (R main_arg3) = V0 m d (R main_arg3) := W25_of m d (by decide)
theorem W25_arg4 : W25 m d (R main_arg4) = V0 m d (R main_arg4) := W25_of m d (by decide)
theorem W25_arg5 : W25 m d (R main_arg5) = V0 m d (R main_arg5) := W25_of m d (by decide)
theorem W25_arg6 : W25 m d (R main_arg6) = V0 m d (R main_arg6) := W25_of m d (by decide)
theorem W25_arg7 : W25 m d (R main_arg7) = V0 m d (R main_arg7) := W25_of m d (by decide)
theorem W25_arg8 : W25 m d (R main_arg8) = V0 m d (R main_arg8) := W25_of m d (by decide)
theorem W9_arg1 : W9 m d (R main_arg1) = V0 m d (R main_arg1) := W9_of m d (by decide)
theorem W14_arg1 : W14 m d (R main_arg1) = V0 m d (R main_arg1) := W14_of m d (by decide)
theorem W17_arg1 : W17 m d (R main_arg1) = V0 m d (R main_arg1) := W17_of m d (by decide)
theorem W24_arg2 : W24 m d (R main_arg2) = V0 m d (R main_arg2) := W24_of m d (by decide)

end Cert.KernelIdeal.Hand.Main

end
-- ==== Proof.HandKernelIdeal.MainRanges.lean ====
import proofs.«211345_g12773232738731_cont_fleet_1243_15_alg».proof.Proof.HandKernelIdeal.MainDefs
import proofs.«211345_g12773232738731_cont_fleet_1243_15_alg».proof.Proof.HandKernelIdeal.MainArgs
import proofs.«211345_g12773232738731_cont_fleet_1243_15_alg».proof.Proof.RefValuePre

noncomputable section

namespace Cert.KernelIdeal.Hand.Main

open Cert.KernelIdeal Cert.KernelIdeal.Gen Cert.KernelIdeal.Hand
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

theorem W19_arg2 (d : Dev nD) : W19 m d (R main_arg2) = m (d, R main_arg2) :=
  (W19_keep m d (by decide)).trans ((W18_keep m d (by decide)).trans ((W17_keep m d (by decide)).trans ((W16_keep m d (by decide)).trans ((W15_keep m d (by decide)).trans ((W14_keep m d (by decide)).trans ((W13_keep m d (by decide) (by decide)).trans ((W12_keep m d (by decide)).trans ((W11_keep m d (by decide)).trans ((W10_keep m d (by decide)).trans ((W9_keep m d (by decide)).trans ((W8_keep m d (by decide)).trans ((W7_keep m d (by decide)).trans ((W6_keep m d (by decide)).trans ((W5_keep m d (by decide)).trans ((W4_keep m d (by decide)).trans ((W3_keep m d (by decide)).trans ((W2_keep m d (by decide)).trans ((W1_keep m d (by decide))))))))))))))))))))

theorem W24_v19 (d : Dev nD) :
    W24 m d (R main_v19) = pad S2x200064 ![0, 0] ![0, 64] ![0, 0]
      (transpose S2x200000 [1, 0] (m (d, R main_arg2)) transposes_S200000x2_S2x200000_1_0)
      (constantI S_ 32 0#32) pads_S2x200000_S2x200064_000_0640 h_S_ := by
  have e18 : W22 m d (R main_v18) = transpose S2x200000 [1, 0] (m (d, R main_arg2)) transposes_S200000x2_S2x200000_1_0 := by
    rw [W22_keep m d (by decide), W21_keep m d (by decide), ← W19_arg2 m d]
    exact StableHlo.unary_result main_arg2 main_v18 _ ⟨by decide, rfl⟩ ⟨by decide, rfl⟩ (W19 m d)
  have e0 : W22 m d (R main_call0_v0) = constantI S_ 32 0#32 := by
    have e21 : W21 m d (R main_c) = constantI S_ 32 0#32 := StableHlo.nullary_result main_c _ ⟨by decide, rfl⟩ (W20 m d)
    rw [← e21]
    exact StableHlo.unary_result main_c main_call0_v0 _ ⟨by decide, rfl⟩ ⟨by decide, rfl⟩ (W21 m d)
  rw [W24_keep m d (by decide), ← e18, ← e0]
  exact StableHlo.binary_result main_v18 main_call0_v0 main_v19 _ ⟨by decide, rfl⟩ ⟨by decide, rfl⟩ ⟨by decide, rfl⟩ (W22 m d)

theorem hr0 (h : ∀ c : Dev nD, Cert.Pre_input_domain.fn (F := F) (m (c, R main_arg0)) (m (c, R main_arg1)) (m (c, R main_arg2))
      (m (c, R main_arg3)) (m (c, R main_arg4)) (m (c, R main_arg5)) (m (c, R main_arg6)) (m (c, R main_arg7)) (m (c, R main_arg8))
      = fun _ => 1#1) :
    ∀ (d : Dev nD) j, (in0 m d j).toNat < 10000 := by
  intro d j
  show ((W9 m d (R main_arg1)) j).toNat < 10000
  rw [W9_arg1 m d]
  exact (Cert.InputDomain.pre_range (F := F) (m (d, R main_arg0)) (m (d, R main_arg1)) (m (d, R main_arg2))
      (m (d, R main_arg3)) (m (d, R main_arg4)) (m (d, R main_arg5)) (m (d, R main_arg6)) (m (d, R main_arg7)) (m (d, R main_arg8)) (h d)).1 j

theorem hr1 (h : ∀ c : Dev nD, Cert.Pre_input_domain.fn (F := F) (m (c, R main_arg0)) (m (c, R main_arg1)) (m (c, R main_arg2))
      (m (c, R main_arg3)) (m (c, R main_arg4)) (m (c, R main_arg5)) (m (c, R main_arg6)) (m (c, R main_arg7)) (m (c, R main_arg8))
      = fun _ => 1#1) :
    ∀ (d : Dev nD) (j : S2x320000.Idx), (in1e m d j : BitVec 32).toNat < 10000 := by
  intro d j
  show ((W14 m d (R main_arg1)) j).toNat < 10000
  rw [W14_arg1 m d]
  exact (Cert.InputDomain.pre_range (F := F) (m (d, R main_arg0)) (m (d, R main_arg1)) (m (d, R main_arg2))
      (m (d, R main_arg3)) (m (d, R main_arg4)) (m (d, R main_arg5)) (m (d, R main_arg6)) (m (d, R main_arg7)) (m (d, R main_arg8)) (h d)).1 j

theorem hr2 (h : ∀ c : Dev nD, Cert.Pre_input_domain.fn (F := F) (m (c, R main_arg0)) (m (c, R main_arg1)) (m (c, R main_arg2))
      (m (c, R main_arg3)) (m (c, R main_arg4)) (m (c, R main_arg5)) (m (c, R main_arg6)) (m (c, R main_arg7)) (m (c, R main_arg8))
      = fun _ => 1#1) :
    ∀ (d : Dev nD) (j : S2x320000.Idx), (in2e m d j : BitVec 32).toNat < 10000 := by
  intro d j
  show ((W17 m d (R main_arg1)) j).toNat < 10000
  rw [W17_arg1 m d]
  exact (Cert.InputDomain.pre_range (F := F) (m (d, R main_arg0)) (m (d, R main_arg1)) (m (d, R main_arg2))
      (m (d, R main_arg3)) (m (d, R main_arg4)) (m (d, R main_arg5)) (m (d, R main_arg6)) (m (d, R main_arg7)) (m (d, R main_arg8)) (h d)).1 j

theorem hr3 (h : ∀ c : Dev nD, Cert.Pre_input_domain.fn (F := F) (m (c, R main_arg0)) (m (c, R main_arg1)) (m (c, R main_arg2))
      (m (c, R main_arg3)) (m (c, R main_arg4)) (m (c, R main_arg5)) (m (c, R main_arg6)) (m (c, R main_arg7)) (m (c, R main_arg8))
      = fun _ => 1#1) :
    ∀ (d : Dev nD) j, (in3p m d j).toNat < 10000 := by
  intro d j
  show ((W24 m d (R main_v19)) j).toNat < 10000
  rw [W24_v19 m d]
  unfold pad
  split
  · unfold transpose
    exact (Cert.InputDomain.pre_range (F := F) (m (d, R main_arg0)) (m (d, R main_arg1)) (m (d, R main_arg2))
      (m (d, R main_arg3)) (m (d, R main_arg4)) (m (d, R main_arg5)) (m (d, R main_arg6)) (m (d, R main_arg7)) (m (d, R main_arg8)) (h d)).2 _
  · show (0#32 : BitVec 32).toNat < 10000
    decide

end Cert.KernelIdeal.Hand.Main

end
-- ==== Proof.HandKernelIdeal.Frame.lean ====
import proofs.«211345_g12773232738731_cont_fleet_1243_15_alg».proof.Proof.HandKernelIdeal.Launch
import proofs.«211345_g12773232738731_cont_fleet_1243_15_alg».proof.Proof.HandKernelIdeal.MainRanges
import proofs.«211345_g12773232738731_cont_fleet_1243_15_alg».proof.Proof.HandKernelIdeal.MainArgs

noncomputable section

namespace Cert.KernelIdeal.Hand.Frame

open Cert.KernelIdeal Cert.KernelIdeal.Gen Cert.KernelIdeal.Hand
open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

theorem mem_uc (b : Ref sig .tc) (h : ¬ (Proc.devRef .tc b : DevRef τ sig).isScoped) : Main.R b ∈ Pipeline.ucRefs τ sig :=
  Finset.mem_filter.mpr ⟨StableHlo.devRef_mem_tcRefs b, h⟩

theorem read_args (mem : MemSt nD τ sig (Elt F)) (h : ∀ (d : Dev nD), ∀ b ∈ Pipeline.ucRefs τ sig, mem.mem (d, b) = Main.W25 m d b) (c : Dev nD) :
    mem.mem ((c.tc : Thread nD τ).loc main_v21) = Main.W25 m c (Main.R main_v21)
      ∧ mem.mem ((c.tc : Thread nD τ).loc main_arg0) = m ((c.tc : Thread nD τ).loc main_arg0)
      ∧ mem.mem ((c.tc : Thread nD τ).loc main_arg1) = m ((c.tc : Thread nD τ).loc main_arg1)
      ∧ mem.mem ((c.tc : Thread nD τ).loc main_arg2) = m ((c.tc : Thread nD τ).loc main_arg2)
      ∧ mem.mem ((c.tc : Thread nD τ).loc main_arg3) = m ((c.tc : Thread nD τ).loc main_arg3)
      ∧ mem.mem ((c.tc : Thread nD τ).loc main_arg4) = m ((c.tc : Thread nD τ).loc main_arg4)
      ∧ mem.mem ((c.tc : Thread nD τ).loc main_arg5) = m ((c.tc : Thread nD τ).loc main_arg5)
      ∧ mem.mem ((c.tc : Thread nD τ).loc main_arg6) = m ((c.tc : Thread nD τ).loc main_arg6)
      ∧ mem.mem ((c.tc : Thread nD τ).loc main_arg7) = m ((c.tc : Thread nD τ).loc main_arg7)
      ∧ mem.mem ((c.tc : Thread nD τ).loc main_arg8) = m ((c.tc : Thread nD τ).loc main_arg8) :=
  ⟨h c _ (mem_uc main_v21 (by decide)),
    (h c _ (mem_uc main_arg0 (by decide))).trans (Main.W25_arg0 m c),
    (h c _ (mem_uc main_arg1 (by decide))).trans (Main.W25_arg1 m c),
    (h c _ (mem_uc main_arg2 (by decide))).trans (Main.W25_arg2 m c),
    (h c _ (mem_uc main_arg3 (by decide))).trans (Main.W25_arg3 m c),
    (h c _ (mem_uc main_arg4 (by decide))).trans (Main.W25_arg4 m c),
    (h c _ (mem_uc main_arg5 (by decide))).trans (Main.W25_arg5 m c),
    (h c _ (mem_uc main_arg6 (by decide))).trans (Main.W25_arg6 m c),
    (h c _ (mem_uc main_arg7 (by decide))).trans (Main.W25_arg7 m c),
    (h c _ (mem_uc main_arg8 (by decide))).trans (Main.W25_arg8 m c)⟩

theorem run_args [∀ e, Nonempty (Elt F e)]
    (h : ∀ c : Dev nD, Cert.Pre_input_domain.fn (F := F) (m (c, Main.R main_arg0)) (m (c, Main.R main_arg1)) (m (c, Main.R main_arg2))
      (m (c, Main.R main_arg3)) (m (c, Main.R main_arg4)) (m (c, Main.R main_arg5)) (m (c, Main.R main_arg6)) (m (c, Main.R main_arg7)) (m (c, Main.R main_arg8))
      = fun _ => 1#1) :
    θ_run (Cert.KernelIdeal.defs (F := F)) (Cert.KernelIdeal.threads (F := F)) ⟨m, fun _ => 0, ρ⟩ (fun r => ∀ c : Dev nD,
      r.2.mem ((c.tc : Thread nD τ).loc main_v21) = Main.W25 m c (Main.R main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (Cert.KernelIdeal.defs (F := F)) _ _).mono (fun r hr c => read_args m r.2 hr c)
    (Launch.run_main m ρ (Main.hr0 m h) (Main.hr1 m h) (Main.hr2 m h) (Main.hr3 m h))

end Cert.KernelIdeal.Hand.Frame

end
-- ==== Proof.SameProgram.lean ====
import proofs.«211345_g12773232738731_cont_fleet_1243_15_alg».proof.Proof.Gen.Kernel
import proofs.«211345_g12773232738731_cont_fleet_1243_15_alg».proof.Proof.Gen.Pre_input_domain
import proofs.«211345_g12773232738731_cont_fleet_1243_15_alg».proof.Proof.HandKernelIdeal.Frame

noncomputable section

namespace Cert.Proof.SameProgram

open Idealize.ShloMosaic Idealize.ShloMosaic.TcCoe Idealize.SL.Sem

open Lean Elab Tactic Meta in
-- closes a = b by Eq.refl a; that the two sides unfold to one term is checked when the theorem is added, not searched for here
elab "kernel_rfl" : tactic => do
  let g ← getMainGoal
  let some (_, a, _) := (← instantiateMVars (← g.getType)).eq? | throwError "kernel_rfl: the goal is not an equation"
  g.assign (← mkEqRefl a)

variable {F : FTy → Type} [FloatOps F]

-- the word-level program and its idealization are the same text under two names: unfolding both gives one term
theorem defs_eq : @Cert.Kernel.defs F _ _ = @Cert.KernelIdeal.defs F _ _ := by kernel_rfl
theorem threads_eq : @Cert.Kernel.threads F _ _ = @Cert.KernelIdeal.threads F _ _ := by kernel_rfl

-- so the run proved once, for any float family, is also the word-level program's run
theorem frame_k : Cert.frame_Kernel := fun m ρ hpre => by
  have h := Cert.KernelIdeal.Hand.Frame.run_args (F := Bits) m ρ hpre
  rw [← defs_eq, ← threads_eq] at h
  exact (θ_run (Cert.Kernel.defs (F := Bits)) _ _).mono (fun _ h c => (h c).2) h

end Cert.Proof.SameProgram

end
-- ==== Proof.KValLib.lean ====
import proofs.«211345_g12773232738731_cont_fleet_1243_15_alg».proof.Proof.Gen.KernelIdeal.Skeleton
import proofs.«211345_g12773232738731_cont_fleet_1243_15_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.KVal

open Idealize.ShloMosaic Idealize.ShloMosaic.ValueIdx
open Cert.KernelIdeal Cert.KernelIdeal.Gen

section Scatter
variable {s : Shape} {d : Fin 1 → Nat}

def scatStep (idxs : Fin s.rank → IVec ⟨1, d⟩ 32) (v : FVec Ideal ⟨1, d⟩ .f32)
    (g : FVec Ideal s .f32) (k : Fin (d 0)) : FVec Ideal s .f32 :=
  fun j => g j + if (∀ a, (j a).val = (idxs a (Shape.ofLane k)).toNat) then v (Shape.ofLane k) else 0

theorem storeIdx_eq_foldl (f : FVec Ideal s .f32) (idxs : Fin s.rank → IVec ⟨1, d⟩ 32) (v : FVec Ideal ⟨1, d⟩ .f32)
    (h : ∀ a x, (idxs a x).toNat < s.size a) :
    storeIdx (F := Ideal) (e := .f32) f idxs v (fun _ => 1#1) true h = (List.finRange (d 0)).foldl (scatStep idxs v) f := by
  unfold storeIdx
  congr 1
  funext g k j
  dsimp only
  rw [if_pos (show (1#1 : BitVec 1) = 1 from rfl)]
  simp only [↓reduceIte, scatStep, Elt.idxAdd_f32, Ideal.idxAddf_def]
  by_cases hc : ∀ a, (j a).val = (idxs a (Shape.ofLane k)).toNat
  · have hj : idxAt idxs h (Shape.ofLane k) = j := funext fun a => Fin.ext (hc a).symm
    have hc' : ∀ a, (j a).val = ((idxAt idxs h (Shape.ofLane k)) a).val := hc
    rw [if_pos hc', if_pos hc, hj]
  · have hc' : ¬ ∀ a, (j a).val = ((idxAt idxs h (Shape.ofLane k)) a).val := hc
    rw [if_neg hc', if_neg hc, add_zero]

theorem foldl_scatStep_apply (idxs : Fin s.rank → IVec ⟨1, d⟩ 32) (v : FVec Ideal ⟨1, d⟩ .f32)
    (ls : List (Fin (d 0))) (g : FVec Ideal s .f32) (j : s.Idx) :
    ls.foldl (scatStep idxs v) g j
      = g j + (ls.map fun k => if (∀ a, (j a).val = (idxs a (Shape.ofLane k)).toNat) then v (Shape.ofLane k) else 0).sum := by
  induction ls generalizing g with
  | nil => simp
  | cons k ls ih =>
    rw [List.foldl_cons, ih, List.map_cons, List.sum_cons, ← add_assoc]
    rfl

theorem storeIdx_add_apply_gen (f : FVec Ideal s .f32) (idxs : Fin s.rank → IVec ⟨1, d⟩ 32) (v : FVec Ideal ⟨1, d⟩ .f32)
    (h : ∀ a x, (idxs a x).toNat < s.size a) (j : s.Idx) :
    storeIdx (F := Ideal) (e := .f32) f idxs v (fun _ => 1#1) true h j
      = f j + ∑ l : Fin (d 0), if (∀ a, (j a).val = (idxs a (Shape.ofLane l)).toNat) then v (Shape.ofLane l) else 0 := by
  rw [storeIdx_eq_foldl, foldl_scatStep_apply, Fin.sum_univ_def]

end Scatter

theorem ofLane_eq_ix1 {m : ℕ} (l : Fin m) : Shape.ofLane (d := ![m]) l = ix1 l := by
  funext a; match a with | ⟨0, _⟩ => rfl

theorem storeIdx_add_apply {n m : ℕ} (f : FVec Ideal ⟨1, ![n]⟩ .f32) (idx : IVec ⟨1, ![m]⟩ 32) (v : FVec Ideal ⟨1, ![m]⟩ .f32)
    (h : ∀ (a : Fin (⟨1, ![n]⟩ : Shape).rank) (x : (⟨1, ![m]⟩ : Shape).Idx), ((![idx] : Fin 1 → IVec ⟨1, ![m]⟩ 32) a x).toNat < (⟨1, ![n]⟩ : Shape).size a)
    (j : (⟨1, ![n]⟩ : Shape).Idx) :
    storeIdx (F := Ideal) (e := .f32) f ![idx] v (fun _ => 1#1) true h j
      = f j + ∑ l : Fin m, if (idx (ix1 l)).toNat = (j 0).val then v (ix1 l) else 0 := by
  refine (storeIdx_add_apply_gen (d := ![m]) f ![idx] v h j).trans ?_
  refine congrArg (f j + ·) (Finset.sum_congr rfl fun (l : Fin m) _ => ?_)
  have e1 : Shape.ofLane (d := ![m]) l = ix1 l := ofLane_eq_ix1 l
  have e : (∀ a : Fin 1, (j a).val = ((![idx] : Fin 1 → IVec ⟨1, ![m]⟩ 32) a (Shape.ofLane (d := ![m]) l)).toNat)
      ↔ (idx (ix1 l)).toNat = (j 0).val := by
    rw [e1]
    constructor
    · intro hh; exact (hh 0).symm
    · intro hh a; match a with | ⟨0, _⟩ => exact hh.symm
  exact if_congr e (congrArg v e1) rfl

theorem foldl_storeIdx_add_apply {n m T : ℕ} (idx : Fin T → IVec ⟨1, ![m]⟩ 32) (v : Fin T → FVec Ideal ⟨1, ![m]⟩ .f32)
    (h : ∀ (t : Fin T) (a : Fin (⟨1, ![n]⟩ : Shape).rank) (x : (⟨1, ![m]⟩ : Shape).Idx), ((![idx t] : Fin 1 → IVec ⟨1, ![m]⟩ 32) a x).toNat < (⟨1, ![n]⟩ : Shape).size a)
    (ls : List (Fin T)) (f : FVec Ideal ⟨1, ![n]⟩ .f32) (j : (⟨1, ![n]⟩ : Shape).Idx) :
    ls.foldl (fun g t => storeIdx (F := Ideal) (e := .f32) g ![idx t] (v t) (fun _ => 1#1) true (h t)) f j
      = f j + (ls.map fun t => ∑ l : Fin m, if (idx t (ix1 l)).toNat = (j 0).val then v t (ix1 l) else 0).sum := by
  induction ls generalizing f with
  | nil => simp
  | cons t ls ih => rw [List.foldl_cons, ih, storeIdx_add_apply, List.map_cons, List.sum_cons, add_assoc]

theorem foldl_finRange_storeIdx_add_apply {n m T : ℕ} (idx : Fin T → IVec ⟨1, ![m]⟩ 32) (v : Fin T → FVec Ideal ⟨1, ![m]⟩ .f32)
    (h : ∀ (t : Fin T) (a : Fin (⟨1, ![n]⟩ : Shape).rank) (x : (⟨1, ![m]⟩ : Shape).Idx), ((![idx t] : Fin 1 → IVec ⟨1, ![m]⟩ 32) a x).toNat < (⟨1, ![n]⟩ : Shape).size a)
    (f : FVec Ideal ⟨1, ![n]⟩ .f32) (j : (⟨1, ![n]⟩ : Shape).Idx) :
    (List.finRange T).foldl (fun g t => storeIdx (F := Ideal) (e := .f32) g ![idx t] (v t) (fun _ => 1#1) true (h t)) f j
      = f j + ∑ t : Fin T, ∑ l : Fin m, if (idx t (ix1 l)).toNat = (j 0).val then v t (ix1 l) else 0 := by
  rw [foldl_storeIdx_add_apply, Fin.sum_univ_def]

theorem storeIdx_add_apply_acc {n m : ℕ} (g f₀ : FVec Ideal ⟨1, ![n]⟩ .f32) (A : EReal) (idx : IVec ⟨1, ![m]⟩ 32) (v : FVec Ideal ⟨1, ![m]⟩ .f32)
    (h : ∀ (a : Fin (⟨1, ![n]⟩ : Shape).rank) (x : (⟨1, ![m]⟩ : Shape).Idx), ((![idx] : Fin 1 → IVec ⟨1, ![m]⟩ 32) a x).toNat < (⟨1, ![n]⟩ : Shape).size a)
    (j : (⟨1, ![n]⟩ : Shape).Idx) (hg : g j = f₀ j + A) :
    storeIdx (F := Ideal) (e := .f32) g ![idx] v (fun _ => 1#1) true h j
      = f₀ j + (A + ∑ l : Fin m, if (idx (ix1 l)).toNat = (j 0).val then v (ix1 l) else 0) := by
  rw [storeIdx_add_apply, hg, add_assoc]

theorem loadIdx_apply {F : FTy → Type} [FloatOps F] {e : EltTy} {n : ℕ} {t : Shape} (f : Vec F ⟨1, ![n]⟩ e) (idx : IVec t 32)
    (h : ∀ (a : Fin (⟨1, ![n]⟩ : Shape).rank) (x : t.Idx), ((![idx] : Fin 1 → IVec t 32) a x).toNat < (⟨1, ![n]⟩ : Shape).size a)
    (x : t.Idx) :
    loadIdx f ![idx] h x = f (ix1 ⟨(idx x).toNat, h 0 x⟩) := by
  unfold loadIdx
  exact congrArg f (funext fun a => by match a with | ⟨0, _⟩ => rfl)

theorem ofBits_one_f32 : Ideal.ofBits .f32 0x3F800000#32 = 1 := by
  simp [Ideal.ofBits, Ideal.ieee, -EReal.coe_mul]; norm_num

theorem matmul_plain_zero_apply {M K N : ℕ} {φ₁ φ₂ : FTy} (prec : Option ContractPrecision)
    (A : FVec Ideal ⟨2, ![M, K]⟩ φ₁) (B : FVec Ideal ⟨2, ![K, N]⟩ φ₂) (p : Fin M) (q : Fin N) :
    matmul (DotDims.plain M K N) prec A B (constant (F := Ideal) ⟨2, ![M, N]⟩ .f32 0x00000000#32) (ix2 p q)
      = ∑ k : Fin K, A (ix2 p k) * B (ix2 k q) := by
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hc := contrEquiv1_symm_val (DotDims.plain M K N) K rfl rfl c
  have el : (DotDims.plain M K N).lhsIdx (ix2 p q) ((contrEquiv1 _ K rfl rfl).symm c) = ix2 p c := by
    funext ax; apply Fin.ext
    match ax with
    | ⟨0, _⟩ => simp [DotDims.lhsIdx, DotDims.plain]; rfl
    | ⟨1, _⟩ => simp [DotDims.lhsIdx, DotDims.plain]; exact hc
  have er : (DotDims.plain M K N).rhsIdx (ix2 p q) ((contrEquiv1 _ K rfl rfl).symm c) = ix2 c q := by
    funext ax; apply Fin.ext
    match ax with
    | ⟨0, _⟩ => simp [DotDims.rhsIdx, DotDims.plain]; exact hc
    | ⟨1, _⟩ => simp [DotDims.rhsIdx, DotDims.plain]; rfl
  rw [el, er]

theorem dot_16_8_1 : dot_S16x8_S8x1_S16x1_1_0_0_1_n_n = DotDims.plain 16 8 1 := rfl
theorem dot_128_16_1 : dot_S128x16_S16x1_S128x1_1_0_0_1_n_n = DotDims.plain 128 16 1 := rfl
theorem dot_10000_128_1 : dot_S10000x128_S128x1_S10000x1_1_0_0_1_n_n = DotDims.plain 10000 128 1 := rfl

theorem k1_pay1_apply (W1 : FVec Ideal S128x16 .f32) (W2 : FVec Ideal S16x8 .f32) (Wl : FVec Ideal S8x1 .f32)
    (x : FVec Ideal S10000x128 .f32) (n : Fin 10000) :
    k1_pay1 (F := Ideal) W1 W2 Wl x (ix2 n (0 : Fin 1))
      = ∑ k : Fin 128, x (ix2 n k) * ∑ a : Fin 16, W1 (ix2 k a) * ∑ b : Fin 8, W2 (ix2 a b) * Wl (ix2 b (0 : Fin 1)) := by
  unfold k1_pay1
  rw [dot_16_8_1, dot_128_16_1, dot_10000_128_1]
  rw [matmul_plain_zero_apply]
  refine Finset.sum_congr rfl fun k _ => ?_
  rw [matmul_plain_zero_apply]
  refine congrArg (x (ix2 n k) * ·) (Finset.sum_congr rfl fun a _ => ?_)
  rw [matmul_plain_zero_apply]

theorem colsum_apply (p : FVec Ideal S32x10000 .f32) (h : S32x10000.Reduces [0] S10000) (hφ : FKind.Formats .f32)
    (hacc : (0x00000000#32 : BitVec 32) = 0x00000000#32) (i : Fin 10000) :
    multiReduction (F := Ideal) .add [0] S10000 p 0x00000000#32 h hφ hacc (ix1 i) = ∑ w : Fin 32, p (ix2 w i) := by
  refine (Ideal.multiReduction_add_single p 0x00000000#32 h hφ hacc (ix1 i)).trans ?_
  refine Finset.sum_congr rfl fun w _ => congrArg p ?_
  funext c; apply Fin.ext
  match c with
  | ⟨0, _⟩ => rfl
  | ⟨1, _⟩ => rfl

theorem colsum_row_apply (p : FVec Ideal S32x10000 .f32) (h : S32x10000.Reduces [0] S10000) (hφ : FKind.Formats .f32)
    (hacc : (0x00000000#32 : BitVec 32) = 0x00000000#32) (h1 : S32x10000.ShapeCasts S32x10000) (h2 : S10000.ShapeCasts S1x10000)
    (i : Fin 10000) :
    shapeCast S1x10000 (multiReduction (F := Ideal) .add [0] S10000 (shapeCast S32x10000 p h1) 0x00000000#32 h hφ hacc) h2 (ix2 (0 : Fin 1) i)
      = ∑ w : Fin 32, p (ix2 w i) := by
  rw [shapeCast_a_1a_apply, shapeCast_self, colsum_apply]

theorem bcast_cell_apply (c : FVec Ideal S1x1 .f32) (h : S1x1.Broadcasts S1x10000) (i : Fin 10000) :
    broadcastTo S1x10000 c h (ix2 (0 : Fin 1) i) = c (ix2 (0 : Fin 1) (0 : Fin 1)) := by
  refine broadcastTo_apply c h (ix2 (0 : Fin 1) i) (ix2 (0 : Fin 1) (0 : Fin 1)) fun ax => ?_
  match ax with
  | ⟨0, _⟩ => rfl
  | ⟨1, _⟩ => rfl

theorem k2_pay1_apply (degp : FVec Ideal S32x10000 .f32) (i : Fin 10000) :
    k2_pay1 (F := Ideal) degp (ix2 (0 : Fin 1) i) = Ideal.rsqrt ((∑ w : Fin 32, degp (ix2 w i)) + 1) := by
  unfold k2_pay1
  show Ideal.rsqrt (shapeCast S1x10000 (multiReduction (F := Ideal) .add [0] S10000 (shapeCast S32x10000 degp _) 0x00000000#32 _ _ _) _ (ix2 (0 : Fin 1) i)
    + Ideal.ofBits .f32 0x3F800000#32) = _
  rw [colsum_row_apply, ofBits_one_f32]

theorem k2_pay2_apply (degp : FVec Ideal S32x10000 .f32) (u : FVec Ideal S1x10000 .f32) (j : S1x10000.Idx) :
    k2_pay2 (F := Ideal) degp u j = u j * k2_pay1 (F := Ideal) degp j := by
  unfold k2_pay2
  show shapeCast S1x10000 u _ j * _ = _
  rw [shapeCast_self]

theorem k4_pay1_apply (p : FVec Ideal S32x10000 .f32) (dinv at_ : FVec Ideal S1x10000 .f32) (k : FVec Ideal S1x1 .f32) (i : Fin 10000) :
    k4_pay1 (F := Ideal) p dinv at_ k (ix2 (0 : Fin 1) i)
      = (dinv (ix2 (0 : Fin 1) i) * ((∑ w : Fin 32, p (ix2 w i)) + at_ (ix2 (0 : Fin 1) i)) + k (ix2 (0 : Fin 1) (0 : Fin 1)))
          * dinv (ix2 (0 : Fin 1) i) := by
  unfold k4_pay1
  show (shapeCast S1x10000 dinv _ (ix2 (0 : Fin 1) i)
        * (shapeCast S1x10000 (multiReduction (F := Ideal) .add [0] S10000 (shapeCast S32x10000 p _) 0x00000000#32 _ _ _) _ (ix2 (0 : Fin 1) i)
            + shapeCast S1x10000 at_ _ (ix2 (0 : Fin 1) i))
        + broadcastTo S1x10000 (shapeCast S1x1 k _) _ (ix2 (0 : Fin 1) i))
      * shapeCast S1x10000 dinv _ (ix2 (0 : Fin 1) i) = _
  rw [colsum_row_apply, bcast_cell_apply]
  simp only [shapeCast_self]

theorem k6_pay1_apply (p : FVec Ideal S32x10000 .f32) (dinv at_ : FVec Ideal S1x10000 .f32) (k : FVec Ideal S1x1 .f32) (i : Fin 10000) :
    k6_pay1 (F := Ideal) p dinv at_ k (ix2 (0 : Fin 1) i)
      = Ideal.div 1 (1 + Ideal.exp (0 - (dinv (ix2 (0 : Fin 1) i) * ((∑ w : Fin 32, p (ix2 w i)) + at_ (ix2 (0 : Fin 1) i))
          + k (ix2 (0 : Fin 1) (0 : Fin 1))))) := by
  unfold k6_pay1
  show Ideal.div (Ideal.ofBits .f32 0x3F800000#32) (Ideal.ofBits .f32 0x3F800000#32 + Ideal.exp (Ideal.ofBits .f32 0x00000000#32
      - (shapeCast S1x10000 dinv _ (ix2 (0 : Fin 1) i)
        * (shapeCast S1x10000 (multiReduction (F := Ideal) .add [0] S10000 (shapeCast S32x10000 p _) 0x00000000#32 _ _ _) _ (ix2 (0 : Fin 1) i)
            + shapeCast S1x10000 at_ _ (ix2 (0 : Fin 1) i))
        + broadcastTo S1x10000 (shapeCast S1x1 k _) _ (ix2 (0 : Fin 1) i)))) = _
  rw [colsum_row_apply, bcast_cell_apply, ofBits_one_f32, Ideal.ofBits_zero_f32]
  simp only [shapeCast_self]

theorem rsqrt_coe_pos {d : ℝ} (hd : 0 < d) : Ideal.rsqrt (d : EReal) = (((Real.sqrt d)⁻¹ : ℝ) : EReal) := by
  rw [Ideal.rsqrt_coe, if_neg (not_lt.mpr hd.le), if_neg hd.ne']

theorem rsqrt_deg (I : Cert.Spec.Inp) (i : Fin 10000) :
    Ideal.rsqrt ((Cert.Spec.deg I i : ℝ) : EReal) = ((Cert.Spec.dinv I i : ℝ) : EReal) :=
  rsqrt_coe_pos (Cert.Spec.deg_pos I i)

theorem div_one_add_exp_neg (t : ℝ) :
    Ideal.div 1 (1 + Ideal.exp (-(t : EReal))) = ((Cert.Spec.sig t : ℝ) : EReal) := by
  have h : (1 : EReal) + Ideal.exp (-(t : EReal)) = ((1 + Real.exp (-t) : ℝ) : EReal) := by
    rw [← EReal.coe_neg, Ideal.exp_coe, ← EReal.coe_one, ← EReal.coe_add]
  have hne : (1 + Real.exp (-t) : ℝ) ≠ 0 := by
    have : (0 : ℝ) < 1 + Real.exp (-t) := by positivity
    exact this.ne'
  rw [h, Ideal.div_coe hne, one_mul]
  rfl

theorem div_one_add_exp_zero_sub (t : ℝ) :
    Ideal.div 1 (1 + Ideal.exp (0 - (t : EReal))) = ((Cert.Spec.sig t : ℝ) : EReal) := by
  rw [zero_sub]; exact div_one_add_exp_neg t

end Cert.KernelIdeal.KVal

end
-- ==== Proof.LibExtReal.lean ====
import Idealize.ShloMosaic.PureOps.Ideal.Laws

namespace Cert.ExtReal

open Idealize.ShloMosaic

def IsFin (x : EReal) : Prop := ∃ r : ℝ, x = (r : EReal)

theorem IsFin.coe (r : ℝ) : IsFin (r : EReal) := ⟨r, rfl⟩

theorem IsFin.zero : IsFin 0 := ⟨0, EReal.coe_zero.symm⟩

theorem IsFin.one : IsFin 1 := ⟨1, EReal.coe_one.symm⟩

theorem IsFin.add {x y : EReal} (hx : IsFin x) (hy : IsFin y) : IsFin (x + y) := by
  obtain ⟨a, rfl⟩ := hx; obtain ⟨b, rfl⟩ := hy
  exact ⟨a + b, (EReal.coe_add a b).symm⟩

theorem IsFin.mul {x y : EReal} (hx : IsFin x) (hy : IsFin y) : IsFin (x * y) := by
  obtain ⟨a, rfl⟩ := hx; obtain ⟨b, rfl⟩ := hy
  exact ⟨a * b, (EReal.coe_mul a b).symm⟩

theorem IsFin.max {x y : EReal} (hx : IsFin x) (hy : IsFin y) : IsFin (max x y) := by
  rcases le_total x y with h | h
  · rw [max_eq_right h]; exact hy
  · rw [max_eq_left h]; exact hx

theorem IsFin.sum {ι : Type} (s : Finset ι) (f : ι → EReal) : (∀ i ∈ s, IsFin (f i)) → IsFin (∑ i ∈ s, f i) := by
  classical
  refine Finset.induction_on s (fun _ => ?_) (fun a s ha ih h => ?_)
  · rw [Finset.sum_empty]; exact IsFin.zero
  · rw [Finset.sum_insert ha]
    exact (h a (Finset.mem_insert_self a s)).add (ih fun i hi => h i (Finset.mem_insert_of_mem hi))

theorem IsFin.div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

theorem max_one_ne_zero (x : EReal) : max x 1 ≠ 0 :=
  (lt_of_lt_of_le zero_lt_one (le_max_right x 1)).ne'

theorem mul_add_of_isFin {x y z : EReal} (hx : IsFin x) (hy : IsFin y) (hz : IsFin z) :
    x * (y + z) = x * y + x * z := by
  obtain ⟨a, rfl⟩ := hx; obtain ⟨b, rfl⟩ := hy; obtain ⟨c, rfl⟩ := hz
  exact_mod_cast mul_add a b c

theorem mul_sum_of_isFin {ι : Type} (s : Finset ι) (x : EReal) (f : ι → EReal) (hx : IsFin x) :
    (∀ i ∈ s, IsFin (f i)) → x * ∑ i ∈ s, f i = ∑ i ∈ s, x * f i := by
  classical
  refine Finset.induction_on s (fun _ => ?_) (fun a s ha ih h => ?_)
  · rw [Finset.sum_empty, Finset.sum_empty, mul_zero]
  · rw [Finset.sum_insert ha, Finset.sum_insert ha,
      mul_add_of_isFin hx (h a (Finset.mem_insert_self a s))
        (IsFin.sum s f fun i hi => h i (Finset.mem_insert_of_mem hi)),
      ih fun i hi => h i (Finset.mem_insert_of_mem hi)]

theorem sum_two_halves {n : ℕ} (l r : Fin (n + n) → EReal) (u v w : Fin n → EReal) (x : EReal)
    (hl1 : ∀ d, l (Fin.castAdd n d) = u d) (hl2 : ∀ d, l (Fin.natAdd n d) = x)
    (hr1 : ∀ d, r (Fin.castAdd n d) = v d) (hr2 : ∀ d, r (Fin.natAdd n d) = w d)
    (hx : IsFin x) (hw : ∀ d, IsFin (w d)) :
    ∑ k, l k * r k = (∑ d, u d * v d) + x * ∑ d, w d := by
  rw [Fin.sum_univ_add, mul_sum_of_isFin Finset.univ x w hx fun d _ => hw d]
  congr 1
  · exact Finset.sum_congr rfl fun d _ => by rw [hl1, hr1]
  · exact Finset.sum_congr rfl fun d _ => by rw [hl2, hr2]

end Cert.ExtReal
-- ==== Proof.KValMain1.lean ====
import proofs.«211345_g12773232738731_cont_fleet_1243_15_alg».proof.Proof.KValLib
import proofs.«211345_g12773232738731_cont_fleet_1243_15_alg».proof.Proof.RefValueIdx
import proofs.«211345_g12773232738731_cont_fleet_1243_15_alg».proof.Proof.LibExtReal
import Idealize.ShloMosaic.Lib.KernelVsHost

noncomputable section

open scoped BigOperators

namespace Cert.KernelIdeal.KVal

open Idealize.ShloMosaic Idealize.ShloMosaic.ValueIdx
open Cert.KernelIdeal Cert.KernelIdeal.Gen
open Cert.RefOps (coe_sum)
open Cert.ReferenceIdeal.RefValue (coe_toReal_of_real)

section Pure

variable (a0 : FVec Ideal S10000x128 .f32) (a1 : IVec S2x320000 32) (a2 : IVec S200000x2 32)
  (a3 : FVec Ideal S128x16 .f32) (a4 : FVec Ideal S16 .f32) (a5 : FVec Ideal S16x8 .f32) (a6 : FVec Ideal S8 .f32)
  (a7 : FVec Ideal S8x1 .f32) (a8 : FVec Ideal S1 .f32)
  (hr1 : ∀ i, (a1 i).toNat < 10000) (hr2 : ∀ i, (a2 i).toNat < 10000)

abbrev II : Cert.Spec.Inp := Cert.ReferenceIdeal.RefValue.inpOf a0 a1 a2 a3 a4 a5 a6 a7 a8 hr1 hr2

variable (h0 : ∀ i, ∃ r : ℝ, a0 i = (r : EReal)) (h3 : ∀ i, ∃ r : ℝ, a3 i = (r : EReal)) (h4 : ∀ i, ∃ r : ℝ, a4 i = (r : EReal))
  (h5 : ∀ i, ∃ r : ℝ, a5 i = (r : EReal)) (h6 : ∀ i, ∃ r : ℝ, a6 i = (r : EReal)) (h7 : ∀ i, ∃ r : ℝ, a7 i = (r : EReal))
  (h8 : ∀ i, ∃ r : ℝ, a8 i = (r : EReal))

include h0 in
theorem e0 (n : Fin 10000) (k : Fin 128) : a0 (ix2 n k) = (((II a0 a1 a2 a3 a4 a5 a6 a7 a8 hr1 hr2).x n k : ℝ) : EReal) :=
  (coe_toReal_of_real (h0 _)).symm
include h3 in
theorem e3 (k : Fin 128) (a : Fin 16) : a3 (ix2 k a) = (((II a0 a1 a2 a3 a4 a5 a6 a7 a8 hr1 hr2).W1 k a : ℝ) : EReal) :=
  (coe_toReal_of_real (h3 _)).symm
include h4 in
theorem e4 (a : Fin 16) : a4 (ix1 a) = (((II a0 a1 a2 a3 a4 a5 a6 a7 a8 hr1 hr2).b1 a : ℝ) : EReal) :=
  (coe_toReal_of_real (h4 _)).symm
include h5 in
theorem e5 (a : Fin 16) (b : Fin 8) : a5 (ix2 a b) = (((II a0 a1 a2 a3 a4 a5 a6 a7 a8 hr1 hr2).W2 a b : ℝ) : EReal) :=
  (coe_toReal_of_real (h5 _)).symm
include h6 in
theorem e6 (b : Fin 8) : a6 (ix1 b) = (((II a0 a1 a2 a3 a4 a5 a6 a7 a8 hr1 hr2).b2 b : ℝ) : EReal) :=
  (coe_toReal_of_real (h6 _)).symm
include h7 in
theorem e7 (b : Fin 8) : a7 (ix2 b (0 : Fin 1)) = (((II a0 a1 a2 a3 a4 a5 a6 a7 a8 hr1 hr2).Wl b : ℝ) : EReal) :=
  (coe_toReal_of_real (h7 _)).symm
include h8 in
theorem e8 : a8 (ix1 (0 : Fin 1)) = (((II a0 a1 a2 a3 a4 a5 a6 a7 a8 hr1 hr2).bl : ℝ) : EReal) :=
  (coe_toReal_of_real (h8 _)).symm

include h0 h3 h5 h7 in
theorem ku_val (n : Fin 10000) :
    k1_pay1 (F := Ideal) a3 a5 a7 a0 (ix2 n (0 : Fin 1)) = ((Cert.Spec.ku (II a0 a1 a2 a3 a4 a5 a6 a7 a8 hr1 hr2) n : ℝ) : EReal) := by
  rw [k1_pay1_apply]
  simp only [e0 a0 a1 a2 a3 a4 a5 a6 a7 a8 hr1 hr2 h0, e3 a0 a1 a2 a3 a4 a5 a6 a7 a8 hr1 hr2 h3,
    e5 a0 a1 a2 a3 a4 a5 a6 a7 a8 hr1 hr2 h5, e7 a0 a1 a2 a3 a4 a5 a6 a7 a8 hr1 hr2 h7, ← EReal.coe_mul, ← coe_sum]
  rfl

theorem dinv_val (degp : FVec Ideal S32x10000 .f32)
    (hdeg : ∀ i : Fin 10000, ∑ w : Fin 32, degp (ix2 w i) = ((((Cert.Spec.into (II a0 a1 a2 a3 a4 a5 a6 a7 a8 hr1 hr2) i).card : ℝ)) : EReal))
    (i : Fin 10000) :
    k2_pay1 (F := Ideal) degp (ix2 (0 : Fin 1) i) = ((Cert.Spec.dinv (II a0 a1 a2 a3 a4 a5 a6 a7 a8 hr1 hr2) i : ℝ) : EReal) := by
  rw [k2_pay1_apply, hdeg, ← EReal.coe_one, ← EReal.coe_add]
  exact rsqrt_deg _ i

theorem kut_val (degp : FVec Ideal S32x10000 .f32) (u : FVec Ideal S1x10000 .f32)
    (hdeg : ∀ i : Fin 10000, ∑ w : Fin 32, degp (ix2 w i) = ((((Cert.Spec.into (II a0 a1 a2 a3 a4 a5 a6 a7 a8 hr1 hr2) i).card : ℝ)) : EReal))
    (hu : ∀ i : Fin 10000, u (ix2 (0 : Fin 1) i) = ((Cert.Spec.ku (II a0 a1 a2 a3 a4 a5 a6 a7 a8 hr1 hr2) i : ℝ) : EReal))
    (i : Fin 10000) :
    k2_pay2 (F := Ideal) degp u (ix2 (0 : Fin 1) i) = ((Cert.Spec.kut (II a0 a1 a2 a3 a4 a5 a6 a7 a8 hr1 hr2) i : ℝ) : EReal) := by
  rw [k2_pay2_apply, hu, dinv_val a0 a1 a2 a3 a4 a5 a6 a7 a8 hr1 hr2 degp hdeg, ← EReal.coe_mul]
  rfl

theorem kgt_val (p : FVec Ideal S32x10000 .f32) (dinv at_ : FVec Ideal S1x10000 .f32) (k : FVec Ideal S1x1 .f32)
    (hp : ∀ i : Fin 10000, ∑ w : Fin 32, p (ix2 w i) = ((Cert.Spec.kp1 (II a0 a1 a2 a3 a4 a5 a6 a7 a8 hr1 hr2) i : ℝ) : EReal))
    (hd : ∀ i : Fin 10000, dinv (ix2 (0 : Fin 1) i) = ((Cert.Spec.dinv (II a0 a1 a2 a3 a4 a5 a6 a7 a8 hr1 hr2) i : ℝ) : EReal))
    (hat : ∀ i : Fin 10000, at_ (ix2 (0 : Fin 1) i) = ((Cert.Spec.kut (II a0 a1 a2 a3 a4 a5 a6 a7 a8 hr1 hr2) i : ℝ) : EReal))
    (hk : k (ix2 (0 : Fin 1) (0 : Fin 1)) = ((Cert.Spec.kk1 (II a0 a1 a2 a3 a4 a5 a6 a7 a8 hr1 hr2) : ℝ) : EReal))
    (i : Fin 10000) :
    k4_pay1 (F := Ideal) p dinv at_ k (ix2 (0 : Fin 1) i) = ((Cert.Spec.kgt (II a0 a1 a2 a3 a4 a5 a6 a7 a8 hr1 hr2) i : ℝ) : EReal) := by
  rw [k4_pay1_apply, hp, hd, hat, hk, ← EReal.coe_add, ← EReal.coe_mul, ← EReal.coe_add, ← EReal.coe_mul]
  rfl

theorem sig_val (p : FVec Ideal S32x10000 .f32) (dinv at_ : FVec Ideal S1x10000 .f32) (k : FVec Ideal S1x1 .f32)
    (hp : ∀ i : Fin 10000, ∑ w : Fin 32, p (ix2 w i) = ((Cert.Spec.kp2 (II a0 a1 a2 a3 a4 a5 a6 a7 a8 hr1 hr2) i : ℝ) : EReal))
    (hd : ∀ i : Fin 10000, dinv (ix2 (0 : Fin 1) i) = ((Cert.Spec.dinv (II a0 a1 a2 a3 a4 a5 a6 a7 a8 hr1 hr2) i : ℝ) : EReal))
    (hat : ∀ i : Fin 10000, at_ (ix2 (0 : Fin 1) i) = ((Cert.Spec.kgt (II a0 a1 a2 a3 a4 a5 a6 a7 a8 hr1 hr2) i : ℝ) : EReal))
    (hk : k (ix2 (0 : Fin 1) (0 : Fin 1)) = ((Cert.Spec.kk2 (II a0 a1 a2 a3 a4 a5 a6 a7 a8 hr1 hr2) : ℝ) : EReal))
    (i : Fin 10000) :
    k6_pay1 (F := Ideal) p dinv at_ k (ix2 (0 : Fin 1) i)
      = ((Cert.Spec.sig (Cert.Spec.kval (II a0 a1 a2 a3 a4 a5 a6 a7 a8 hr1 hr2) i) : ℝ) : EReal) := by
  rw [k6_pay1_apply, hp, hd, hat, hk, ← EReal.coe_add, ← EReal.coe_mul, ← EReal.coe_add]
  exact div_one_add_exp_zero_sub _

theorem dotvm_16_8 (l : FVec Ideal S16 .f32) (r : FVec Ideal S16x8 .f32) (q : Fin 8) :
    Host.dotGeneral dot_S16_S16x8_S8_0_0_n_1_n_n none l r (ix1 q) = ∑ k : Fin 16, l (ix1 k) * r (ix2 k q) := by
  show FloatOps.dotGeneral dot_S16_S16x8_S8_0_0_n_1_n_n none .single l r (ix1 q) = _
  rw [Ideal.dotGeneral_apply, ← Equiv.sum_comp (contrEquiv1 dot_S16_S16x8_S8_0_0_n_1_n_n 16 rfl rfl).symm]
  refine Finset.sum_congr rfl fun c _ => ?_
  have hc := contrEquiv1_symm_val dot_S16_S16x8_S8_0_0_n_1_n_n 16 rfl rfl c
  have el : dot_S16_S16x8_S8_0_0_n_1_n_n.lhsIdx (ix1 q) ((contrEquiv1 dot_S16_S16x8_S8_0_0_n_1_n_n 16 rfl rfl).symm c) = ix1 c := by
    funext ax; apply Fin.ext
    match ax with
    | ⟨0, _⟩ => exact (dot_S16_S16x8_S8_0_0_n_1_n_n.lhsIdx_val_of_single (cl := 0) rfl _ _).trans hc
  have er : dot_S16_S16x8_S8_0_0_n_1_n_n.rhsIdx (ix1 q) ((contrEquiv1 dot_S16_S16x8_S8_0_0_n_1_n_n 16 rfl rfl).symm c) = ix2 c q := by
    funext ax; apply Fin.ext
    match ax with
    | ⟨0, _⟩ => exact (dot_S16_S16x8_S8_0_0_n_1_n_n.rhsIdx_val_of_single (cr := 0) rfl _ _).trans hc
    | ⟨1, _⟩ => simp [DotDims.rhsIdx, dot_S16_S16x8_S8_0_0_n_1_n_n]; rfl
  rw [el, er]

theorem dotvm_8_1 (l : FVec Ideal S8 .f32) (r : FVec Ideal S8x1 .f32) (q : Fin 1) :
    Host.dotGeneral dot_S8_S8x1_S1_0_0_n_1_n_n none l r (ix1 q) = ∑ k : Fin 8, l (ix1 k) * r (ix2 k q) := by
  show FloatOps.dotGeneral dot_S8_S8x1_S1_0_0_n_1_n_n none .single l r (ix1 q) = _
  rw [Ideal.dotGeneral_apply, ← Equiv.sum_comp (contrEquiv1 dot_S8_S8x1_S1_0_0_n_1_n_n 8 rfl rfl).symm]
  refine Finset.sum_congr rfl fun c _ => ?_
  have hc := contrEquiv1_symm_val dot_S8_S8x1_S1_0_0_n_1_n_n 8 rfl rfl c
  have el : dot_S8_S8x1_S1_0_0_n_1_n_n.lhsIdx (ix1 q) ((contrEquiv1 dot_S8_S8x1_S1_0_0_n_1_n_n 8 rfl rfl).symm c) = ix1 c := by
    funext ax; apply Fin.ext
    match ax with
    | ⟨0, _⟩ => exact (dot_S8_S8x1_S1_0_0_n_1_n_n.lhsIdx_val_of_single (cl := 0) rfl _ _).trans hc
  have er : dot_S8_S8x1_S1_0_0_n_1_n_n.rhsIdx (ix1 q) ((contrEquiv1 dot_S8_S8x1_S1_0_0_n_1_n_n 8 rfl rfl).symm c) = ix2 c q := by
    funext ax; apply Fin.ext
    match ax with
    | ⟨0, _⟩ => exact (dot_S8_S8x1_S1_0_0_n_1_n_n.rhsIdx_val_of_single (cr := 0) rfl _ _).trans hc
    | ⟨1, _⟩ => simp [DotDims.rhsIdx, dot_S8_S8x1_S1_0_0_n_1_n_n]
  rw [el, er]

include h4 h5 h7 in
theorem kk1_val :
    shapeCast S1x1 (addf (Host.dotGeneral dot_S8_S8x1_S1_0_0_n_1_n_n none (Host.dotGeneral dot_S16_S16x8_S8_0_0_n_1_n_n none a4 a5) a7)
        (broadcastInDim S1 ![] bcast_S_S1 (constant (F := Ideal) S_ .f32 0x00000000#32))) shapeCasts_S1_S1x1 (ix2 (0 : Fin 1) (0 : Fin 1))
      = ((Cert.Spec.kk1 (II a0 a1 a2 a3 a4 a5 a6 a7 a8 hr1 hr2) : ℝ) : EReal) := by
  rw [shapeCast_a_1a_apply, addf_apply, dotvm_8_1,
    broadcastInDim_apply (![] : Fin 0 → Fin S1.rank) bcast_S_S1 _ (ix1 (0 : Fin 1)) ix0 (fun a => a.elim0),
    constant_apply, Ideal.ofBits_zero_f32]
  simp only [dotvm_16_8, e4 a0 a1 a2 a3 a4 a5 a6 a7 a8 hr1 hr2 h4, e5 a0 a1 a2 a3 a4 a5 a6 a7 a8 hr1 hr2 h5,
    e7 a0 a1 a2 a3 a4 a5 a6 a7 a8 hr1 hr2 h7, ← EReal.coe_mul, ← coe_sum]
  rw [← EReal.coe_zero, ← EReal.coe_add]
  rfl

include h6 h7 h8 in
theorem kk2_val :
    shapeCast S1x1 (addf (Host.dotGeneral dot_S8_S8x1_S1_0_0_n_1_n_n none a6 a7) a8) shapeCasts_S1_S1x1 (ix2 (0 : Fin 1) (0 : Fin 1))
      = ((Cert.Spec.kk2 (II a0 a1 a2 a3 a4 a5 a6 a7 a8 hr1 hr2) : ℝ) : EReal) := by
  rw [shapeCast_a_1a_apply, addf_apply, dotvm_8_1]
  simp only [e6 a0 a1 a2 a3 a4 a5 a6 a7 a8 hr1 hr2 h6, e7 a0 a1 a2 a3 a4 a5 a6 a7 a8 hr1 hr2 h7,
    e8 a0 a1 a2 a3 a4 a5 a6 a7 a8 hr1 hr2 h8, ← EReal.coe_mul, ← coe_sum, ← EReal.coe_add]
  rfl

theorem cast_col_row {α : Type} (x : S10000x1.Idx → α) (n : Fin 10000) :
    shapeCast S1x10000 x shapeCasts_S10000x1_S1x10000 (ix2 (0 : Fin 1) n) = x (ix2 n (0 : Fin 1)) :=
  shapeCast_apply x _ _ _ (by
    rw [Shape.rowMajor_val_two, Shape.rowMajor_val_two]
    show n.val * 1 + 0 = 0 * 10000 + n.val
    omega)

theorem cast_row_vec {α : Type} (x : S1x10000.Idx → α) (n : Fin 10000) :
    shapeCast S10000 x shapeCasts_S1x10000_S10000 (ix1 n) = x (ix2 (0 : Fin 1) n) :=
  shapeCast_1a_a_apply x _ n

theorem pad_inside (x : IVec S200000x2 32) (v : IVec S_ 32) (r : Fin 2) (p : Fin 200064) (hp : p.val < 200000) :
    pad S2x200064 ![0, 0] ![0, 64] ![0, 0] (transpose S2x200000 [1, 0] x transposes_S200000x2_S2x200000_1_0) v
        pads_S2x200000_S2x200064_000_0640 h_S_ (ix2 r p)
      = x (ix2 (⟨p.val, hp⟩ : Fin 200000) r) := by
  rw [pad_apply_of_inside (![0, 0] : Fin 2 → Nat) ![0, 64] ![0, 0] _ v pads_S2x200000_S2x200064_000_0640 h_S_ (ix2 r p)
    (ix2 r (⟨p.val, hp⟩ : Fin 200000)) (fun a => by
      match a with
      | ⟨0, _⟩ => show r.val = 0 + r.val * (0 + 1); omega
      | ⟨1, _⟩ => show p.val = 0 + p.val * (0 + 1); omega)]
  exact transpose_ix2_apply x transposes_S200000x2_S2x200000_1_0 r ⟨p.val, hp⟩

theorem pad_outside (x : IVec S200000x2 32) (v : IVec S_ 32) (r : Fin 2) (p : Fin 200064) (hp : 200000 ≤ p.val) :
    pad S2x200064 ![0, 0] ![0, 64] ![0, 0] (transpose S2x200000 [1, 0] x transposes_S200000x2_S2x200000_1_0) v
        pads_S2x200000_S2x200064_000_0640 h_S_ (ix2 r p)
      = v (Shape.Idx.first h_S_) := by
  refine pad_apply_of_not_inside (s := S2x200000) (t := S2x200064) (![0, 0] : Fin 2 → Nat) ![0, 64] ![0, 0]
    (transpose S2x200000 [1, 0] x transposes_S200000x2_S2x200000_1_0) v pads_S2x200000_S2x200064_000_0640 h_S_ (ix2 r p) (1 : Fin 2) ?_
  intro h
  have h3 : (p.val - 0) / (0 + 1) < 200000 := h.2.2
  omega

end Pure

end Cert.KernelIdeal.KVal

end
-- ==== Proof.KValTiles.lean ====
import proofs.«211345_g12773232738731_cont_fleet_1243_15_alg».proof.Proof.KValLib
import proofs.«211345_g12773232738731_cont_fleet_1243_15_alg».proof.Proof.Spec
import proofs.«211345_g12773232738731_cont_fleet_1243_15_alg».proof.Proof.HandKernelIdeal.Tile0
import proofs.«211345_g12773232738731_cont_fleet_1243_15_alg».proof.Proof.HandKernelIdeal.Tile1
import proofs.«211345_g12773232738731_cont_fleet_1243_15_alg».proof.Proof.HandKernelIdeal.Tile2
import proofs.«211345_g12773232738731_cont_fleet_1243_15_alg».proof.Proof.HandKernelIdeal.Tile3

noncomputable section

open scoped BigOperators

namespace Cert.KernelIdeal.KVal

open Idealize.ShloMosaic Idealize.ShloMosaic.ValueIdx
open Cert.KernelIdeal Cert.KernelIdeal.Gen Cert.KernelIdeal.Hand

abbrev ei0 (ei : (d : Dev nD) → Buf (Elt Ideal) (Tile0.eiLoc d)) (d : Dev nD) : S2x320000.Idx → BitVec 32 := ei d
abbrev val0E (ei : (d : Dev nD) → Buf (Elt Ideal) (Tile0.eiLoc d)) (d : Dev nD) : S32x10000.Idx → EReal := Tile0.val0 (F := Ideal) ei d
abbrev ei1 (ei : (d : Dev nD) → Buf (Elt Ideal) (Tile1.eiLoc d)) (d : Dev nD) : S2x320000.Idx → BitVec 32 := ei d
abbrev vals1 (vals : (d : Dev nD) → Buf (Elt Ideal) (Tile1.valLoc d)) (d : Dev nD) : S10000.Idx → EReal := vals d
abbrev val1E (vals : (d : Dev nD) → Buf (Elt Ideal) (Tile1.valLoc d)) (ei : (d : Dev nD) → Buf (Elt Ideal) (Tile1.eiLoc d)) (d : Dev nD) :
    S32x10000.Idx → EReal := Tile1.val1 (F := Ideal) vals ei d
abbrev ei2 (ei : (d : Dev nD) → Buf (Elt Ideal) (Tile2.eiLoc d)) (d : Dev nD) : S2x320000.Idx → BitVec 32 := ei d
abbrev vals2 (vals : (d : Dev nD) → Buf (Elt Ideal) (Tile2.valLoc d)) (d : Dev nD) : S10000.Idx → EReal := vals d
abbrev val2E (vals : (d : Dev nD) → Buf (Elt Ideal) (Tile2.valLoc d)) (ei : (d : Dev nD) → Buf (Elt Ideal) (Tile2.eiLoc d)) (d : Dev nD) :
    S32x10000.Idx → EReal := Tile2.val2 (F := Ideal) vals ei d
abbrev sv3 (sv : (d : Dev nD) → Buf (Elt Ideal) (Tile3.svLoc d)) (d : Dev nD) : S10000.Idx → EReal := sv d
abbrev pe3 (pe : (d : Dev nD) → Buf (Elt Ideal) (Tile3.peLoc d)) (d : Dev nD) : S2x200064.Idx → BitVec 32 := pe d
abbrev val3E (sv : (d : Dev nD) → Buf (Elt Ideal) (Tile3.svLoc d)) (pe : (d : Dev nD) → Buf (Elt Ideal) (Tile3.peLoc d)) (d : Dev nD) :
    S200000.Idx → EReal := Tile3.val3 (F := Ideal) sv pe d

theorem coe_sum {ι : Type} (s : Finset ι) (f : ι → ℝ) : ((∑ i ∈ s, f i : ℝ) : EReal) = ∑ i ∈ s, ((f i : ℝ) : EReal) := by
  classical
  refine Finset.induction_on s ?_ (fun a s ha ih => ?_)
  · simp
  · rw [Finset.sum_insert ha, Finset.sum_insert ha, EReal.coe_add, ih]

theorem sum_fin_mul {M : Type} [AddCommMonoid M] (m n : ℕ) (f : ℕ → M) :
    ∑ x : Fin (m * n), f x.val = ∑ i : Fin m, ∑ j : Fin n, f (n * i.val + j.val) := by
  rw [← Equiv.sum_comp finProdFinEquiv, Fintype.sum_prod_type]
  refine Finset.sum_congr rfl fun i _ => Finset.sum_congr rfl fun j _ => ?_
  rw [finProdFinEquiv_apply_val, add_comm]

theorem sum_edges {M : Type} [AddCommMonoid M] (f : ℕ → M) :
    ∑ w : Fin 32, ∑ k : Fin 625, ∑ l : Fin 16, f (10000 * w.val + 16 * k.val + l.val) = ∑ e : Fin 320000, f e.val := by
  have h1 : ∑ e : Fin 320000, f e.val = ∑ w : Fin 32, ∑ y : Fin 10000, f (10000 * w.val + y.val) := sum_fin_mul 32 10000 f
  rw [h1]
  refine Finset.sum_congr rfl fun w _ => ?_
  have h2 : ∑ y : Fin 10000, f (10000 * w.val + y.val) = ∑ k : Fin 625, ∑ l : Fin 16, f (10000 * w.val + (16 * k.val + l.val)) :=
    sum_fin_mul 625 16 fun y => f (10000 * w.val + y)
  rw [h2]
  exact Finset.sum_congr rfl fun k _ => Finset.sum_congr rfl fun l _ => by rw [add_assoc]

theorem sum_ite_one {ι : Type} [Fintype ι] (p : ι → Prop) [DecidablePred p] :
    ∑ e : ι, (if p e then (1 : EReal) else 0) = (((Finset.univ.filter p).card : ℝ) : EReal) := by
  have h : ∀ e : ι, (if p e then (1 : EReal) else 0) = (((if p e then (1 : ℝ) else 0) : ℝ) : EReal) := by
    intro e; split <;> simp
  rw [Finset.sum_congr rfl fun e _ => h e, ← coe_sum, Finset.sum_boole]

theorem sum_ite_coe {ι : Type} [Fintype ι] (p : ι → Prop) [DecidablePred p] (g : ι → ℝ) :
    ∑ e : ι, (if p e then ((g e : ℝ) : EReal) else 0) = ((∑ e ∈ Finset.univ.filter p, g e : ℝ) : EReal) := by
  have h : ∀ e : ι, (if p e then ((g e : ℝ) : EReal) else 0) = (((if p e then g e else 0) : ℝ) : EReal) := by
    intro e; split <;> simp
  rw [Finset.sum_congr rfl fun e _ => h e, ← coe_sum, Finset.sum_filter]

theorem fold_storeIdx_add_apply {n m T : ℕ} (acc : ℕ → FVec Ideal ⟨1, ![n]⟩ .f32) (z : FVec Ideal ⟨1, ![n]⟩ .f32)
    (dv : Fin T → IVec ⟨1, ![m]⟩ 32) (vv : Fin T → FVec Ideal ⟨1, ![m]⟩ .f32)
    (hin : ∀ (t : Fin T) (a : Fin (⟨1, ![n]⟩ : Shape).rank) (x : (⟨1, ![m]⟩ : Shape).Idx),
      ((![dv t] : Fin 1 → IVec ⟨1, ![m]⟩ 32) a x).toNat < (⟨1, ![n]⟩ : Shape).size a)
    (h0 : acc 0 = z)
    (hs : ∀ t : Fin T, acc (t.val + 1) = storeIdx (F := Ideal) (e := .f32) (acc t.val) ![dv t] (vv t) (fun _ => 1#1) true (hin t))
    (j : (⟨1, ![n]⟩ : Shape).Idx) :
    acc T j = z j + ∑ t : Fin T, ∑ l : Fin m, if (dv t (ix1 l)).toNat = (j 0).val then vv t (ix1 l) else 0 := by
  have key : ∀ k (hk : k ≤ T), acc k j
      = z j + ∑ t : Fin k, ∑ l : Fin m, if (dv (t.castLE hk) (ix1 l)).toNat = (j 0).val then vv (t.castLE hk) (ix1 l) else 0 := by
    intro k
    induction k with
    | zero => intro _; rw [h0]; simp
    | succ k ih =>
      intro hk
      have hk' : k ≤ T := Nat.le_of_succ_le hk
      have hs' := hs ⟨k, hk⟩
      rw [show (⟨k, hk⟩ : Fin T).val + 1 = k + 1 from rfl] at hs'
      rw [hs', storeIdx_add_apply_acc (acc k) z _ _ _ _ j (ih hk'), Fin.sum_univ_castSucc]
      rfl
  have := key T le_rfl
  simpa using this

def edge (w : Fin 32) (k : Fin 625) (l : Fin 16) : Fin 320000 :=
  ⟨10000 * w.val + 16 * k.val + l.val, by have := w.isLt; have := k.isLt; have := l.isLt; omega⟩

theorem colsum_rows (p : Fin 320000 → Prop) [DecidablePred p] (term : Fin 320000 → EReal) (row : Fin 32 → EReal)
    (hrow : ∀ w, row w = ∑ k : Fin 625, ∑ l : Fin 16, if p (edge w k l) then term (edge w k l) else 0) :
    ∑ w, row w = ∑ e : Fin 320000, if p e then term e else 0 := by
  let g : ℕ → EReal := fun n => if h : n < 320000 then (if p ⟨n, h⟩ then term ⟨n, h⟩ else 0) else 0
  have hg : ∀ e : Fin 320000, g e.val = if p e then term e else 0 := by
    intro e
    show (if h : e.val < 320000 then (if p ⟨e.val, h⟩ then term ⟨e.val, h⟩ else 0) else 0) = _
    rw [dif_pos e.isLt]
  have h1 : ∀ w : Fin 32, row w = ∑ k : Fin 625, ∑ l : Fin 16, g (10000 * w.val + 16 * k.val + l.val) := by
    intro w
    rw [hrow w]
    exact Finset.sum_congr rfl fun k _ => Finset.sum_congr rfl fun l _ => (hg (edge w k l)).symm
  rw [Finset.sum_congr rfl fun w _ => h1 w]
  refine (sum_edges g).trans ?_
  exact Finset.sum_congr rfl fun e _ => hg e

theorem tile_fold (acc : ℕ → FVec Ideal S10000 .f32) (dv : Fin 625 → IVec S16 32) (vv : Fin 625 → FVec Ideal S16 .f32)
    (hin : ∀ (t : Fin 625) (a : Fin S10000.rank) (x : S16.Idx), ((![dv t] : Fin 1 → IVec S16 32) a x).toNat < S10000.size a)
    (h0 : acc 0 = fun _ => (0 : EReal))
    (hs : ∀ t : Fin 625, acc (t.val + 1) = storeIdx (F := Ideal) (e := .f32) (acc t.val) ![dv t] (vv t) (fun _ => 1#1) true (hin t))
    (E : S2x320000.Idx → BitVec 32) (w : Fin 32) (term : Fin 320000 → EReal)
    (hdv : ∀ k l, dv k (ix1 l) = E (ix2 (1 : Fin 2) (edge w k l))) (hvv : ∀ k l, vv k (ix1 l) = term (edge w k l))
    (j : S10000.Idx) :
    acc 625 j = ∑ k : Fin 625, ∑ l : Fin 16,
      if (E (ix2 (1 : Fin 2) (edge w k l))).toNat = (j 0).val then term (edge w k l) else 0 := by
  refine (fold_storeIdx_add_apply (n := 10000) (m := 16) (T := 625) acc (fun _ => (0 : EReal)) dv vv hin h0 hs j).trans ?_
  rw [zero_add]
  exact Finset.sum_congr rfl fun k _ => Finset.sum_congr rfl fun l _ => by rw [hdv k l, hvv k l]

section Call0

variable (ei : (d : Dev nD) → Buf (Elt Ideal) (Tile0.eiLoc d))

theorem k0_off1_eq : ∀ L : grid0.Coords,
    k0_off1 L = ![0, 10000 * (2 * (L 1).val + (L 0).val) - (10000 * (2 * (L 1).val + (L 0).val)) % 128] := by
  decide +kernel

theorem trips0 : k0_t2_loop.trips = 625 := by decide

theorem idxv_apply (d : Dev nD) (w : Fin 32) (k : Fin 625) (l : Fin 16) :
    (Tile0.idxv (F := Ideal) ei d (Tile0.coordsW w) (k.cast trips0.symm) (ix1 l) : BitVec 32)
      = ei0 ei d (ix2 (1 : Fin 2) (edge w k l)) := by
  unfold Tile0.idxv
  rw [shapeCast_1a_a_apply]
  show ei0 ei d _ = ei0 ei d _
  congr 1
  funext a
  apply Fin.ext
  match a with
  | ⟨0, _⟩ =>
    show k0_off1 (Tile0.coordsW w) 0 + 1 * (k0_off3 (Tile0.coordsW w) (k.cast trips0.symm) 0 + 1 * 0) = 1
    rw [k0_off1_eq, k0_off3_eq]; rfl
  | ⟨1, _⟩ =>
    show k0_off1 (Tile0.coordsW w) 1 + 1 * (k0_off3 (Tile0.coordsW w) (k.cast trips0.symm) 1 + 1 * l.val)
      = 10000 * w.val + 16 * k.val + l.val
    rw [k0_off1_eq, k0_off3_eq]
    show 10000 * (2 * (w.val / 2) + w.val % 2) - (10000 * (2 * (w.val / 2) + w.val % 2)) % 128
        + 1 * (((20000 * (w.val / 2) + 10000 * (w.val % 2)) % 128 + 16 * k.val) + 1 * l.val) = _
    have := w.isLt
    omega

variable (hrange : ∀ (d : Dev nD) j, (ei0 ei d j).toNat < 10000)

include hrange in
theorem val0_row (d : Dev nD) (w : Fin 32) (i : Fin 10000) :
    val0E ei d (ix2 w i) = ∑ k : Fin 625, ∑ l : Fin 16,
      if (ei0 ei d (ix2 (1 : Fin 2) (edge w k l))).toNat = i.val then (1 : EReal) else 0 := by
  have e : val0E ei d (ix2 w i) = Tile0.accAt (F := Ideal) ei d (Tile0.coordsW w) k0_t2_loop.trips (ix1 i) := by
    show Tile0.accRow (F := Ideal) ei d w.val i.val = _
    unfold Tile0.accRow
    rw [dif_pos ⟨w.isLt, i.isLt⟩]
    congr 1
    funext a
    match a with | ⟨0, _⟩ => rfl
  rw [e, trips0]
  have hchk : ∀ t : Fin 625, k0_chk1 (Tile0.idxv (F := Ideal) ei d (Tile0.coordsW w) (t.cast trips0.symm)) := by
    intro t a x
    obtain rfl : a = 0 := Subsingleton.elim _ _
    exact hrange d _
  refine tile_fold (fun k => Tile0.accAt (F := Ideal) ei d (Tile0.coordsW w) k)
    (fun t => Tile0.idxv (F := Ideal) ei d (Tile0.coordsW w) (t.cast trips0.symm)) (fun _ => k0_pay2 (F := Ideal))
    (fun t => k0_idx1_inb _ (hchk t)) ?_ ?_ (ei0 ei d) w (fun _ => (1 : EReal)) (fun k l => idxv_apply ei d w k l) ?_ (ix1 i)
  · funext x
    show Ideal.ofBits .f32 0x00000000#32 = 0
    exact Ideal.ofBits_zero_f32
  · intro t
    have e : Tile0.accAt (F := Ideal) ei d (Tile0.coordsW w) (t.val + 1)
        = Tile0.accStep (Tile0.accAt (F := Ideal) ei d (Tile0.coordsW w) t.val) (Tile0.idxv (F := Ideal) ei d (Tile0.coordsW w) (t.cast trips0.symm)) := by
      rw [Tile0.accAt]; exact dif_pos (t.cast trips0.symm).isLt
    rw [e, Tile0.accStep, dif_pos (hchk t)]
  · intro k l
    unfold k0_pay2
    show Ideal.ofBits .f32 0x3F800000#32 = 1
    exact ofBits_one_f32

include hrange in
theorem val0_colsum (d : Dev nD) (i : Fin 10000) :
    ∑ w : Fin 32, val0E ei d (ix2 w i)
      = (((Finset.univ.filter fun e : Fin 320000 => (ei0 ei d (ix2 (1 : Fin 2) e)).toNat = i.val).card : ℝ) : EReal) := by
  rw [colsum_rows (fun e => (ei0 ei d (ix2 (1 : Fin 2) e)).toNat = i.val) (fun _ => (1 : EReal))
    (fun w => val0E ei d (ix2 w i)) (fun w => val0_row ei hrange d w i)]
  exact sum_ite_one _

end Call0

section Call1

variable (vals : (d : Dev nD) → Buf (Elt Ideal) (Tile1.valLoc d)) (ei : (d : Dev nD) → Buf (Elt Ideal) (Tile1.eiLoc d))

theorem k3_off1_eq : ∀ L : grid3.Coords,
    k3_off1 L = ![0, 10000 * (2 * (L 1).val + (L 0).val) - (10000 * (2 * (L 1).val + (L 0).val)) % 128] := by
  decide +kernel

theorem trips3 : k3_t2_loop.trips = 625 := by decide

theorem srcV_apply (d : Dev nD) (w : Fin 32) (k : Fin 625) (l : Fin 16) :
    (Tile1.srcV (F := Ideal) ei d (Tile1.tileOfRow w.val) (k.cast trips3.symm) (ix1 l) : BitVec 32)
      = ei1 ei d (ix2 (0 : Fin 2) (edge w k l)) := by
  unfold Tile1.srcV
  rw [shapeCast_1a_a_apply]
  show ei1 ei d _ = ei1 ei d _
  congr 1
  funext a
  apply Fin.ext
  match a with
  | ⟨0, _⟩ =>
    show k3_off1 (Tile1.tileOfRow w.val) 0 + 1 * (k3_off3 (Tile1.tileOfRow w.val) (k.cast trips3.symm) 0 + 1 * 0) = 0
    rw [k3_off1_eq, k3_off3_eq]; rfl
  | ⟨1, _⟩ =>
    show k3_off1 (Tile1.tileOfRow w.val) 1 + 1 * (k3_off3 (Tile1.tileOfRow w.val) (k.cast trips3.symm) 1 + 1 * l.val)
      = 10000 * w.val + 16 * k.val + l.val
    rw [k3_off1_eq, k3_off3_eq]
    show 10000 * (2 * ((w.val / 2) % 16) + w.val % 2) - (10000 * (2 * ((w.val / 2) % 16) + w.val % 2)) % 128
        + 1 * (((20000 * ((w.val / 2) % 16) + 10000 * (w.val % 2)) % 128 + 16 * k.val) + 1 * l.val) = _
    have := w.isLt
    rw [Nat.mod_eq_of_lt (show w.val / 2 < 16 by omega)]
    omega

theorem dstV_apply (d : Dev nD) (w : Fin 32) (k : Fin 625) (l : Fin 16) :
    (Tile1.dstV (F := Ideal) ei d (Tile1.tileOfRow w.val) (k.cast trips3.symm) (ix1 l) : BitVec 32)
      = ei1 ei d (ix2 (1 : Fin 2) (edge w k l)) := by
  unfold Tile1.dstV
  rw [shapeCast_1a_a_apply]
  show ei1 ei d _ = ei1 ei d _
  congr 1
  funext a
  apply Fin.ext
  match a with
  | ⟨0, _⟩ =>
    show k3_off1 (Tile1.tileOfRow w.val) 0 + 1 * (k3_off4 (Tile1.tileOfRow w.val) (k.cast trips3.symm) 0 + 1 * 0) = 1
    rw [k3_off1_eq, k3_off4_eq]; rfl
  | ⟨1, _⟩ =>
    show k3_off1 (Tile1.tileOfRow w.val) 1 + 1 * (k3_off4 (Tile1.tileOfRow w.val) (k.cast trips3.symm) 1 + 1 * l.val)
      = 10000 * w.val + 16 * k.val + l.val
    rw [k3_off1_eq, k3_off4_eq]
    show 10000 * (2 * ((w.val / 2) % 16) + w.val % 2) - (10000 * (2 * ((w.val / 2) % 16) + w.val % 2)) % 128
        + 1 * (((20000 * ((w.val / 2) % 16) + 10000 * (w.val % 2)) % 128 + 16 * k.val) + 1 * l.val) = _
    have := w.isLt
    rw [Nat.mod_eq_of_lt (show w.val / 2 < 16 by omega)]
    omega

variable (hrange : ∀ (d : Dev nD) j, (ei1 ei d j).toNat < 10000)

include hrange in
theorem val1_row (d : Dev nD) (w : Fin 32) (i : Fin 10000) :
    val1E vals ei d (ix2 w i) = ∑ k : Fin 625, ∑ l : Fin 16,
      if (ei1 ei d (ix2 (1 : Fin 2) (edge w k l))).toNat = i.val
      then vals1 vals d (ix1 ⟨(ei1 ei d (ix2 (0 : Fin 2) (edge w k l))).toNat, hrange d _⟩) else 0 := by
  have e : val1E vals ei d (ix2 w i) = Tile1.accAt (F := Ideal) vals ei d (Tile1.tileOfRow w.val) k3_t2_loop.trips (ix1 i) := by
    show Tile1.accAt (F := Ideal) vals ei d (Tile1.tileOfRow w.val) k3_t2_loop.trips (Tile1.rowIx i) = _
    congr 1
    funext a
    match a with | ⟨0, _⟩ => rfl
  rw [e, trips3]
  have hc1 : ∀ t : Fin 625, k3_chk1 (Tile1.srcV (F := Ideal) ei d (Tile1.tileOfRow w.val) (t.cast trips3.symm)) := by
    intro t a x
    obtain rfl : a = 0 := Subsingleton.elim _ _
    exact hrange d _
  have hc2 : ∀ t : Fin 625, k3_chk2 (Tile1.dstV (F := Ideal) ei d (Tile1.tileOfRow w.val) (t.cast trips3.symm)) := by
    intro t a x
    obtain rfl : a = 0 := Subsingleton.elim _ _
    exact hrange d _
  refine tile_fold (fun k => Tile1.accAt (F := Ideal) vals ei d (Tile1.tileOfRow w.val) k)
    (fun t => Tile1.dstV (F := Ideal) ei d (Tile1.tileOfRow w.val) (t.cast trips3.symm))
    (fun t => loadIdx (F := Ideal) (e := .f32) (vals1 vals d) ![Tile1.srcV (F := Ideal) ei d (Tile1.tileOfRow w.val) (t.cast trips3.symm)] (k3_idx1_inb _ (hc1 t)))
    (fun t => k3_idx2_inb _ (hc2 t)) ?_ ?_ (ei1 ei d) w
    (fun e => vals1 vals d (ix1 ⟨(ei1 ei d (ix2 (0 : Fin 2) e)).toNat, hrange d _⟩))
    (fun k l => dstV_apply ei d w k l) ?_ (ix1 i)
  · funext x
    show Ideal.ofBits .f32 0x00000000#32 = 0
    exact Ideal.ofBits_zero_f32
  · intro t
    have e : Tile1.accAt (F := Ideal) vals ei d (Tile1.tileOfRow w.val) (t.val + 1)
        = Tile1.step (F := Ideal) vals d (Tile1.accAt (F := Ideal) vals ei d (Tile1.tileOfRow w.val) t.val)
            (Tile1.srcV (F := Ideal) ei d (Tile1.tileOfRow w.val) (t.cast trips3.symm))
            (Tile1.dstV (F := Ideal) ei d (Tile1.tileOfRow w.val) (t.cast trips3.symm)) := by
      rw [Tile1.accAt]; exact dif_pos (t.cast trips3.symm).isLt
    rw [e, Tile1.step, dif_pos ⟨hc1 t, hc2 t⟩]
  · intro k l
    rw [loadIdx_apply]
    exact congrArg (fun n : Fin 10000 => vals1 vals d (ix1 n)) (Fin.ext (congrArg BitVec.toNat (srcV_apply ei d w k l)))

include hrange in
theorem val1_colsum (d : Dev nD) (r : Fin 10000 → ℝ) (hv : ∀ n : Fin 10000, vals1 vals d (ix1 n) = ((r n : ℝ) : EReal)) (i : Fin 10000) :
    ∑ w : Fin 32, val1E vals ei d (ix2 w i)
      = ((∑ e ∈ Finset.univ.filter (fun e : Fin 320000 => (ei1 ei d (ix2 (1 : Fin 2) e)).toNat = i.val),
            r ⟨(ei1 ei d (ix2 (0 : Fin 2) e)).toNat, hrange d _⟩ : ℝ) : EReal) := by
  rw [colsum_rows (fun e => (ei1 ei d (ix2 (1 : Fin 2) e)).toNat = i.val)
    (fun e => vals1 vals d (ix1 ⟨(ei1 ei d (ix2 (0 : Fin 2) e)).toNat, hrange d _⟩))
    (fun w => val1E vals ei d (ix2 w i)) (fun w => val1_row vals ei hrange d w i)]
  rw [← sum_ite_coe]
  exact Finset.sum_congr rfl fun e _ => by rw [hv]

end Call1

section Call2

variable (vals : (d : Dev nD) → Buf (Elt Ideal) (Tile2.valLoc d)) (ei : (d : Dev nD) → Buf (Elt Ideal) (Tile2.eiLoc d))

theorem k5_off1_eq : ∀ L : grid5.Coords,
    k5_off1 L = ![0, 10000 * (2 * (L 1).val + (L 0).val) - (10000 * (2 * (L 1).val + (L 0).val)) % 128] := by
  decide +kernel

theorem trips5 : k5_t2_loop.trips = 625 := by decide

theorem srcV2_apply (d : Dev nD) (w : Fin 32) (k : Fin 625) (l : Fin 16) :
    (Tile2.srcV (F := Ideal) ei d (Tile2.tileOfRow w.val) (k.cast trips5.symm) (ix1 l) : BitVec 32)
      = ei2 ei d (ix2 (0 : Fin 2) (edge w k l)) := by
  unfold Tile2.srcV
  rw [shapeCast_1a_a_apply]
  show ei2 ei d _ = ei2 ei d _
  congr 1
  funext a
  apply Fin.ext
  match a with
  | ⟨0, _⟩ =>
    show k5_off1 (Tile2.tileOfRow w.val) 0 + 1 * (k5_off3 (Tile2.tileOfRow w.val) (k.cast trips5.symm) 0 + 1 * 0) = 0
    rw [k5_off1_eq, k5_off3_eq]; rfl
  | ⟨1, _⟩ =>
    show k5_off1 (Tile2.tileOfRow w.val) 1 + 1 * (k5_off3 (Tile2.tileOfRow w.val) (k.cast trips5.symm) 1 + 1 * l.val)
      = 10000 * w.val + 16 * k.val + l.val
    rw [k5_off1_eq, k5_off3_eq]
    show 10000 * (2 * ((w.val / 2) % 16) + w.val % 2) - (10000 * (2 * ((w.val / 2) % 16) + w.val % 2)) % 128
        + 1 * (((20000 * ((w.val / 2) % 16) + 10000 * (w.val % 2)) % 128 + 16 * k.val) + 1 * l.val) = _
    have := w.isLt
    rw [Nat.mod_eq_of_lt (show w.val / 2 < 16 by omega)]
    omega

theorem dstV2_apply (d : Dev nD) (w : Fin 32) (k : Fin 625) (l : Fin 16) :
    (Tile2.dstV (F := Ideal) ei d (Tile2.tileOfRow w.val) (k.cast trips5.symm) (ix1 l) : BitVec 32)
      = ei2 ei d (ix2 (1 : Fin 2) (edge w k l)) := by
  unfold Tile2.dstV
  rw [shapeCast_1a_a_apply]
  show ei2 ei d _ = ei2 ei d _
  congr 1
  funext a
  apply Fin.ext
  match a with
  | ⟨0, _⟩ =>
    show k5_off1 (Tile2.tileOfRow w.val) 0 + 1 * (k5_off4 (Tile2.tileOfRow w.val) (k.cast trips5.symm) 0 + 1 * 0) = 1
    rw [k5_off1_eq, k5_off4_eq]; rfl
  | ⟨1, _⟩ =>
    show k5_off1 (Tile2.tileOfRow w.val) 1 + 1 * (k5_off4 (Tile2.tileOfRow w.val) (k.cast trips5.symm) 1 + 1 * l.val)
      = 10000 * w.val + 16 * k.val + l.val
    rw [k5_off1_eq, k5_off4_eq]
    show 10000 * (2 * ((w.val / 2) % 16) + w.val % 2) - (10000 * (2 * ((w.val / 2) % 16) + w.val % 2)) % 128
        + 1 * (((20000 * ((w.val / 2) % 16) + 10000 * (w.val % 2)) % 128 + 16 * k.val) + 1 * l.val) = _
    have := w.isLt
    rw [Nat.mod_eq_of_lt (show w.val / 2 < 16 by omega)]
    omega

variable (hrange : ∀ (d : Dev nD) j, (ei2 ei d j).toNat < 10000)

include hrange in
theorem val2_row (d : Dev nD) (w : Fin 32) (i : Fin 10000) :
    val2E vals ei d (ix2 w i) = ∑ k : Fin 625, ∑ l : Fin 16,
      if (ei2 ei d (ix2 (1 : Fin 2) (edge w k l))).toNat = i.val
      then vals2 vals d (ix1 ⟨(ei2 ei d (ix2 (0 : Fin 2) (edge w k l))).toNat, hrange d _⟩) else 0 := by
  have e : val2E vals ei d (ix2 w i) = Tile2.accAt (F := Ideal) vals ei d (Tile2.tileOfRow w.val) k5_t2_loop.trips (ix1 i) := by
    show Tile2.accAt (F := Ideal) vals ei d (Tile2.tileOfRow w.val) k5_t2_loop.trips (Tile2.rowIx i) = _
    congr 1
    funext a
    match a with | ⟨0, _⟩ => rfl
  rw [e, trips5]
  have hc1 : ∀ t : Fin 625, k5_chk1 (Tile2.srcV (F := Ideal) ei d (Tile2.tileOfRow w.val) (t.cast trips5.symm)) := by
    intro t a x
    obtain rfl : a = 0 := Subsingleton.elim _ _
    exact hrange d _
  have hc2 : ∀ t : Fin 625, k5_chk2 (Tile2.dstV (F := Ideal) ei d (Tile2.tileOfRow w.val) (t.cast trips5.symm)) := by
    intro t a x
    obtain rfl : a = 0 := Subsingleton.elim _ _
    exact hrange d _
  refine tile_fold (fun k => Tile2.accAt (F := Ideal) vals ei d (Tile2.tileOfRow w.val) k)
    (fun t => Tile2.dstV (F := Ideal) ei d (Tile2.tileOfRow w.val) (t.cast trips5.symm))
    (fun t => loadIdx (F := Ideal) (e := .f32) (vals2 vals d) ![Tile2.srcV (F := Ideal) ei d (Tile2.tileOfRow w.val) (t.cast trips5.symm)] (k5_idx1_inb _ (hc1 t)))
    (fun t => k5_idx2_inb _ (hc2 t)) ?_ ?_ (ei2 ei d) w
    (fun e => vals2 vals d (ix1 ⟨(ei2 ei d (ix2 (0 : Fin 2) e)).toNat, hrange d _⟩))
    (fun k l => dstV2_apply ei d w k l) ?_ (ix1 i)
  · funext x
    show Ideal.ofBits .f32 0x00000000#32 = 0
    exact Ideal.ofBits_zero_f32
  · intro t
    have e : Tile2.accAt (F := Ideal) vals ei d (Tile2.tileOfRow w.val) (t.val + 1)
        = Tile2.step (F := Ideal) vals d (Tile2.accAt (F := Ideal) vals ei d (Tile2.tileOfRow w.val) t.val)
            (Tile2.srcV (F := Ideal) ei d (Tile2.tileOfRow w.val) (t.cast trips5.symm))
            (Tile2.dstV (F := Ideal) ei d (Tile2.tileOfRow w.val) (t.cast trips5.symm)) := by
      rw [Tile2.accAt]; exact dif_pos (t.cast trips5.symm).isLt
    rw [e, Tile2.step, dif_pos ⟨hc1 t, hc2 t⟩]
  · intro k l
    rw [loadIdx_apply]
    exact congrArg (fun n : Fin 10000 => vals2 vals d (ix1 n)) (Fin.ext (congrArg BitVec.toNat (srcV2_apply ei d w k l)))

include hrange in
theorem val2_colsum (d : Dev nD) (r : Fin 10000 → ℝ) (hv : ∀ n : Fin 10000, vals2 vals d (ix1 n) = ((r n : ℝ) : EReal)) (i : Fin 10000) :
    ∑ w : Fin 32, val2E vals ei d (ix2 w i)
      = ((∑ e ∈ Finset.univ.filter (fun e : Fin 320000 => (ei2 ei d (ix2 (1 : Fin 2) e)).toNat = i.val),
            r ⟨(ei2 ei d (ix2 (0 : Fin 2) e)).toNat, hrange d _⟩ : ℝ) : EReal) := by
  rw [colsum_rows (fun e => (ei2 ei d (ix2 (1 : Fin 2) e)).toNat = i.val)
    (fun e => vals2 vals d (ix1 ⟨(ei2 ei d (ix2 (0 : Fin 2) e)).toNat, hrange d _⟩))
    (fun w => val2E vals ei d (ix2 w i)) (fun w => val2_row vals ei hrange d w i)]
  rw [← sum_ite_coe]
  exact Finset.sum_congr rfl fun e _ => by rw [hv]

end Call2

section Call3

variable (sv : (d : Dev nD) → Buf (Elt Ideal) (Tile3.svLoc d)) (pe : (d : Dev nD) → Buf (Elt Ideal) (Tile3.peLoc d))
variable (hrange : ∀ (d : Dev nD) j, (pe3 pe d j).toNat < 10000)

include hrange in
theorem val3_apply (d : Dev nD) (p : Fin 200000) :
    val3E sv pe d (ix1 p)
      = sv3 sv d (ix1 ⟨(pe3 pe d (ix2 (0 : Fin 2) (⟨p.val, Nat.lt_trans p.isLt (by decide)⟩ : Fin 200064))).toNat, hrange d _⟩)
        * sv3 sv d (ix1 ⟨(pe3 pe d (ix2 (1 : Fin 2) (⟨p.val, Nat.lt_trans p.isLt (by decide)⟩ : Fin 200064))).toNat, hrange d _⟩) := by
  show Tile3.valAt (F := Ideal) (sv3 sv d) (pe3 pe d) p = _
  unfold Tile3.valAt
  rw [dif_pos ⟨hrange d _, hrange d _⟩]
  rfl

end Call3

end Cert.KernelIdeal.KVal

end
-- ==== Proof.KValMain2.lean ====
import proofs.«211345_g12773232738731_cont_fleet_1243_15_alg».proof.Proof.KValMain1
import proofs.«211345_g12773232738731_cont_fleet_1243_15_alg».proof.Proof.KValTiles
import proofs.«211345_g12773232738731_cont_fleet_1243_15_alg».proof.Proof.HandKernelIdeal.MainArgs

noncomputable section

open scoped BigOperators

namespace Cert.KernelIdeal.KVal

open Idealize.ShloMosaic Idealize.ShloMosaic.ValueIdx
open Cert.KernelIdeal Cert.KernelIdeal.Gen Cert.KernelIdeal.Hand

variable (m : (ℓ : Loc nD τ sig) → Buf (Elt Ideal) ℓ) (d : Dev nD)

abbrev A0 : FVec Ideal S10000x128 .f32 := Main.V0 m d (Main.R main_arg0)
abbrev A1 : IVec S2x320000 32 := Main.V0 m d (Main.R main_arg1)
abbrev A2 : IVec S200000x2 32 := Main.V0 m d (Main.R main_arg2)
abbrev A3 : FVec Ideal S128x16 .f32 := Main.V0 m d (Main.R main_arg3)
abbrev A4 : FVec Ideal S16 .f32 := Main.V0 m d (Main.R main_arg4)
abbrev A5 : FVec Ideal S16x8 .f32 := Main.V0 m d (Main.R main_arg5)
abbrev A6 : FVec Ideal S8 .f32 := Main.V0 m d (Main.R main_arg6)
abbrev A7 : FVec Ideal S8x1 .f32 := Main.V0 m d (Main.R main_arg7)
abbrev A8 : FVec Ideal S1 .f32 := Main.V0 m d (Main.R main_arg8)

variable (hr1 : ∀ i, (A1 m d i).toNat < 10000) (hr2 : ∀ i, (A2 m d i).toNat < 10000)

abbrev IM : Cert.Spec.Inp := II (A0 m d) (A1 m d) (A2 m d) (A3 m d) (A4 m d) (A5 m d) (A6 m d) (A7 m d) (A8 m d) hr1 hr2

variable (h0 : ∀ i, ∃ r : ℝ, A0 m d i = (r : EReal)) (h3 : ∀ i, ∃ r : ℝ, A3 m d i = (r : EReal)) (h4 : ∀ i, ∃ r : ℝ, A4 m d i = (r : EReal))
  (h5 : ∀ i, ∃ r : ℝ, A5 m d i = (r : EReal)) (h6 : ∀ i, ∃ r : ℝ, A6 m d i = (r : EReal)) (h7 : ∀ i, ∃ r : ℝ, A7 m d i = (r : EReal))
  (h8 : ∀ i, ∃ r : ℝ, A8 m d i = (r : EReal))

abbrev fv {s : Shape} (x : FVec Ideal s .f32) : FVec Ideal s .f32 := x

theorem dev_eq (d' : Dev nD) : d' = d := Subsingleton.elim _ _

theorem into_eq (i : Fin 10000) :
    (Finset.univ.filter fun e : Fin 320000 => (A1 m d (ix2 (1 : Fin 2) e)).toNat = i.val) = Cert.Spec.into (IM m d hr1 hr2) i := by
  unfold Cert.Spec.into
  exact Finset.filter_congr fun e _ => by
    show _ ↔ (⟨(A1 m d (ix2 (1 : Fin 2) e)).toNat, hr1 _⟩ : Fin 10000) = i
    rw [Fin.ext_iff]

include h4 h5 h7 in
theorem W6_v4 : Main.W6 m d (Main.R main_v4) (ix2 (0 : Fin 1) (0 : Fin 1)) = ((Cert.Spec.kk1 (IM m d hr1 hr2) : ℝ) : EReal) := by
  have e1 : Main.W1 m d (Main.R main_v0) = Host.dotGeneral dot_S16_S16x8_S8_0_0_n_1_n_n none (A4 m d) (A5 m d) := by
    unfold Main.W1 Main.hop0; exact StableHlo.binary_result _ _ _ _ _ _ _ _
  have e2 : Main.W2 m d (Main.R main_v1)
      = Host.dotGeneral (F := Ideal) (φ₁ := .f32) (φ₂ := .f32) dot_S8_S8x1_S1_0_0_n_1_n_n none (Main.W1 m d (Main.R main_v0) : FVec Ideal S8 .f32) (Main.W1 m d (Main.R main_arg7) : FVec Ideal S8x1 .f32) := by
    unfold Main.W2 Main.hop1; exact StableHlo.binary_result _ _ _ _ _ _ _ _
  have e3 : Main.W3 m d (Main.R main_cst) = constant (F := Ideal) S_ .f32 0x00000000#32 := by
    unfold Main.W3 Main.hop2; exact StableHlo.nullary_result _ _ _ _
  have e4 : Main.W4 m d (Main.R main_v2) = broadcastInDim S1 ![] bcast_S_S1 (Main.W3 m d (Main.R main_cst) : FVec Ideal S_ .f32) := by
    unfold Main.W4 Main.hop3; exact StableHlo.unary_result _ _ _ _ _ _
  have e5 : Main.W5 m d (Main.R main_v3) = addf (F := Ideal) (s := S1) (φ := .f32) (Main.W4 m d (Main.R main_v1) : FVec Ideal S1 .f32) (Main.W4 m d (Main.R main_v2) : FVec Ideal S1 .f32) := by
    unfold Main.W5 Main.hop4; exact StableHlo.binary_result _ _ _ _ _ _ _ _
  have e6 : Main.W6 m d (Main.R main_v4) = fun i => shapeCast S1x1 (Main.W5 m d (Main.R main_v3) : FVec Ideal S1 .f32) shapeCasts_S1_S1x1 i := by
    unfold Main.W6 Main.hop5; exact StableHlo.reshape_result _ _ _ _ _ _ _
  rw [e6, e5, e4, e3, Main.W4_keep m d (b := Main.R main_v1) (by decide), Main.W3_keep m d (b := Main.R main_v1) (by decide), e2, e1, Main.W1_keep m d (b := Main.R main_arg7) (by decide)]
  exact kk1_val (A0 m d) (A1 m d) (A2 m d) (A3 m d) (A4 m d) (A5 m d) (A6 m d) (A7 m d) (A8 m d) hr1 hr2 h4 h5 h7

include h6 h7 h8 in
theorem W9_v7 : Main.W9 m d (Main.R main_v7) (ix2 (0 : Fin 1) (0 : Fin 1)) = ((Cert.Spec.kk2 (IM m d hr1 hr2) : ℝ) : EReal) := by
  have e7 : Main.W7 m d (Main.R main_v5)
      = Host.dotGeneral (F := Ideal) (φ₁ := .f32) (φ₂ := .f32) dot_S8_S8x1_S1_0_0_n_1_n_n none (Main.W6 m d (Main.R main_arg6) : FVec Ideal S8 .f32) (Main.W6 m d (Main.R main_arg7) : FVec Ideal S8x1 .f32) := by
    unfold Main.W7 Main.hop6; exact StableHlo.binary_result _ _ _ _ _ _ _ _
  have e8 : Main.W8 m d (Main.R main_v6) = addf (F := Ideal) (s := S1) (φ := .f32) (Main.W7 m d (Main.R main_v5) : FVec Ideal S1 .f32) (Main.W7 m d (Main.R main_arg8) : FVec Ideal S1 .f32) := by
    unfold Main.W8 Main.hop7; exact StableHlo.binary_result _ _ _ _ _ _ _ _
  have e9 : Main.W9 m d (Main.R main_v7) = fun i => shapeCast S1x1 (Main.W8 m d (Main.R main_v6) : FVec Ideal S1 .f32) shapeCasts_S1_S1x1 i := by
    unfold Main.W9 Main.hop8; exact StableHlo.reshape_result _ _ _ _ _ _ _
  rw [e9, e8, e7, Main.W6_keep m d (b := Main.R main_arg6) (by decide), Main.W5_keep m d (b := Main.R main_arg6) (by decide), Main.W4_keep m d (b := Main.R main_arg6) (by decide), Main.W3_keep m d (b := Main.R main_arg6) (by decide), Main.W2_keep m d (b := Main.R main_arg6) (by decide), Main.W1_keep m d (b := Main.R main_arg6) (by decide), Main.W6_keep m d (b := Main.R main_arg7) (by decide), Main.W5_keep m d (b := Main.R main_arg7) (by decide), Main.W4_keep m d (b := Main.R main_arg7) (by decide), Main.W3_keep m d (b := Main.R main_arg7) (by decide), Main.W2_keep m d (b := Main.R main_arg7) (by decide), Main.W1_keep m d (b := Main.R main_arg7) (by decide), Main.W7_keep m d (b := Main.R main_arg8) (by decide), Main.W6_keep m d (b := Main.R main_arg8) (by decide), Main.W5_keep m d (b := Main.R main_arg8) (by decide), Main.W4_keep m d (b := Main.R main_arg8) (by decide), Main.W3_keep m d (b := Main.R main_arg8) (by decide), Main.W2_keep m d (b := Main.R main_arg8) (by decide), Main.W1_keep m d (b := Main.R main_arg8) (by decide)]
  exact kk2_val (A0 m d) (A1 m d) (A2 m d) (A3 m d) (A4 m d) (A5 m d) (A6 m d) (A7 m d) (A8 m d) hr1 hr2 h6 h7 h8

include hr1 in
theorem W10_v8_colsum (i : Fin 10000) :
    ∑ w : Fin 32, fv (s := S32x10000) (Main.W10 m d (Main.R main_v8)) (ix2 w i) = ((((Cert.Spec.into (IM m d hr1 hr2) i).card : ℝ)) : EReal) := by
  have e : Main.W10 m d (Main.R main_v8) = Tile0.val0 (fun d' => Main.V0 m d' (Main.R main_arg1)) d := by
    unfold Main.W10
    rw [Function.update_self, show (fun d' => Main.W9 m d' (Main.R main_arg1)) = fun d' => Main.V0 m d' (Main.R main_arg1) from
      funext fun d' => Main.W9_arg1 m d']
  rw [e, ← into_eq m d hr1 hr2 i]
  exact val0_colsum (fun d' => Main.V0 m d' (Main.R main_arg1)) (fun d' j => by rw [dev_eq d d']; exact hr1 j) d i

include h0 h3 h5 h7 in
theorem W11_v9 (n : Fin 10000) :
    Main.W11 m d (Main.R main_v9) (ix2 n (0 : Fin 1)) = ((Cert.Spec.ku (IM m d hr1 hr2) n : ℝ) : EReal) := by
  have e : Main.W11 m d (Main.R main_v9)
      = k1_pay1 (F := Ideal) (Main.W10 m d (Main.R main_arg3)) (Main.W10 m d (Main.R main_arg5)) (Main.W10 m d (Main.R main_arg7)) (Main.W10 m d (Main.R main_arg0)) := by
    unfold Main.W11; exact Function.update_self _ _ _
  rw [e, Main.W10_keep m d (b := Main.R main_arg3) (by decide), Main.W9_keep m d (b := Main.R main_arg3) (by decide), Main.W8_keep m d (b := Main.R main_arg3) (by decide), Main.W7_keep m d (b := Main.R main_arg3) (by decide), Main.W6_keep m d (b := Main.R main_arg3) (by decide), Main.W5_keep m d (b := Main.R main_arg3) (by decide), Main.W4_keep m d (b := Main.R main_arg3) (by decide), Main.W3_keep m d (b := Main.R main_arg3) (by decide), Main.W2_keep m d (b := Main.R main_arg3) (by decide), Main.W1_keep m d (b := Main.R main_arg3) (by decide), Main.W10_keep m d (b := Main.R main_arg5) (by decide), Main.W9_keep m d (b := Main.R main_arg5) (by decide), Main.W8_keep m d (b := Main.R main_arg5) (by decide), Main.W7_keep m d (b := Main.R main_arg5) (by decide), Main.W6_keep m d (b := Main.R main_arg5) (by decide), Main.W5_keep m d (b := Main.R main_arg5) (by decide), Main.W4_keep m d (b := Main.R main_arg5) (by decide), Main.W3_keep m d (b := Main.R main_arg5) (by decide), Main.W2_keep m d (b := Main.R main_arg5) (by decide), Main.W1_keep m d (b := Main.R main_arg5) (by decide), Main.W10_keep m d (b := Main.R main_arg7) (by decide), Main.W9_keep m d (b := Main.R main_arg7) (by decide), Main.W8_keep m d (b := Main.R main_arg7) (by decide), Main.W7_keep m d (b := Main.R main_arg7) (by decide), Main.W6_keep m d (b := Main.R main_arg7) (by decide), Main.W5_keep m d (b := Main.R main_arg7) (by decide), Main.W4_keep m d (b := Main.R main_arg7) (by decide), Main.W3_keep m d (b := Main.R main_arg7) (by decide), Main.W2_keep m d (b := Main.R main_arg7) (by decide), Main.W1_keep m d (b := Main.R main_arg7) (by decide), Main.W10_keep m d (b := Main.R main_arg0) (by decide), Main.W9_keep m d (b := Main.R main_arg0) (by decide), Main.W8_keep m d (b := Main.R main_arg0) (by decide), Main.W7_keep m d (b := Main.R main_arg0) (by decide), Main.W6_keep m d (b := Main.R main_arg0) (by decide), Main.W5_keep m d (b := Main.R main_arg0) (by decide), Main.W4_keep m d (b := Main.R main_arg0) (by decide), Main.W3_keep m d (b := Main.R main_arg0) (by decide), Main.W2_keep m d (b := Main.R main_arg0) (by decide), Main.W1_keep m d (b := Main.R main_arg0) (by decide)]
  exact ku_val (A0 m d) (A1 m d) (A2 m d) (A3 m d) (A4 m d) (A5 m d) (A6 m d) (A7 m d) (A8 m d) hr1 hr2 h0 h3 h5 h7 n

include h0 h3 h5 h7 in
theorem W12_v10 (n : Fin 10000) :
    Main.W12 m d (Main.R main_v10) (ix2 (0 : Fin 1) n) = ((Cert.Spec.ku (IM m d hr1 hr2) n : ℝ) : EReal) := by
  have e : Main.W12 m d (Main.R main_v10) = fun i => shapeCast S1x10000 (Main.W11 m d (Main.R main_v9) : FVec Ideal S10000x1 .f32) shapeCasts_S10000x1_S1x10000 i := by
    unfold Main.W12 Main.hop11; exact StableHlo.reshape_result _ _ _ _ _ _ _
  rw [e]
  exact (cast_col_row _ n).trans (W11_v9 m d hr1 hr2 h0 h3 h5 h7 n)

include hr1 in
theorem W12_v8_colsum (i : Fin 10000) :
    ∑ w : Fin 32, fv (s := S32x10000) (Main.W12 m d (Main.R main_v8)) (ix2 w i) = ((((Cert.Spec.into (IM m d hr1 hr2) i).card : ℝ)) : EReal) := by
  rw [Main.W12_keep m d (b := Main.R main_v8) (by decide), Main.W11_keep m d (b := Main.R main_v8) (by decide)]
  exact W10_v8_colsum m d hr1 hr2 i

include hr1 in
theorem W13_v11_1 (i : Fin 10000) :
    Main.W13 m d (Main.R main_v11_1) (ix2 (0 : Fin 1) i) = ((Cert.Spec.dinv (IM m d hr1 hr2) i : ℝ) : EReal) := by
  have e : Main.W13 m d (Main.R main_v11_1) = k2_pay1 (F := Ideal) (Main.W12 m d (Main.R main_v8)) := by
    unfold Main.W13; exact Function.update_self _ _ _
  rw [e]
  exact dinv_val (A0 m d) (A1 m d) (A2 m d) (A3 m d) (A4 m d) (A5 m d) (A6 m d) (A7 m d) (A8 m d) hr1 hr2 _ (W12_v8_colsum m d hr1 hr2) i

include hr1 h0 h3 h5 h7 in
theorem W13_v11_0 (i : Fin 10000) :
    Main.W13 m d (Main.R main_v11_0) (ix2 (0 : Fin 1) i) = ((Cert.Spec.kut (IM m d hr1 hr2) i : ℝ) : EReal) := by
  have e : Main.W13 m d (Main.R main_v11_0) = k2_pay2 (F := Ideal) (Main.W12 m d (Main.R main_v8)) (Main.W12 m d (Main.R main_v10)) := by
    unfold Main.W13
    rw [Function.update_of_ne (show Main.R main_v11_0 ≠ Main.R main_v11_1 by decide)]
    exact Function.update_self _ _ _
  rw [e]
  exact kut_val (A0 m d) (A1 m d) (A2 m d) (A3 m d) (A4 m d) (A5 m d) (A6 m d) (A7 m d) (A8 m d) hr1 hr2 _ _ (W12_v8_colsum m d hr1 hr2) (W12_v10 m d hr1 hr2 h0 h3 h5 h7) i

include hr1 h0 h3 h5 h7 in
theorem W14_v12 (i : Fin 10000) :
    Main.W14 m d (Main.R main_v12) (ix1 i) = ((Cert.Spec.kut (IM m d hr1 hr2) i : ℝ) : EReal) := by
  have e : Main.W14 m d (Main.R main_v12) = fun i => shapeCast S10000 (Main.W13 m d (Main.R main_v11_0) : FVec Ideal S1x10000 .f32) shapeCasts_S1x10000_S10000 i := by
    unfold Main.W14 Main.hop13; exact StableHlo.reshape_result _ _ _ _ _ _ _
  rw [e]
  exact (cast_row_vec _ i).trans (W13_v11_0 m d hr1 hr2 h0 h3 h5 h7 i)

include hr1 h0 h3 h5 h7 in
theorem W15_v13_colsum (i : Fin 10000) :
    ∑ w : Fin 32, fv (s := S32x10000) (Main.W15 m d (Main.R main_v13)) (ix2 w i) = ((Cert.Spec.kp1 (IM m d hr1 hr2) i : ℝ) : EReal) := by
  have e : Main.W15 m d (Main.R main_v13)
      = Tile1.val1 (fun d' => Main.W14 m d' (Main.R main_v12)) (fun d' => Main.V0 m d' (Main.R main_arg1)) d := by
    unfold Main.W15
    rw [Function.update_self, show (fun d' => Main.W14 m d' (Main.R main_arg1)) = fun d' => Main.V0 m d' (Main.R main_arg1) from
      funext fun d' => Main.W14_arg1 m d']
  rw [e]
  refine (val1_colsum (fun d' => Main.W14 m d' (Main.R main_v12)) (fun d' => Main.V0 m d' (Main.R main_arg1))
    (fun d' j => by rw [dev_eq d d']; exact hr1 j) d (Cert.Spec.kut (IM m d hr1 hr2))
    (fun n => W14_v12 m d hr1 hr2 h0 h3 h5 h7 n) i).trans ?_
  unfold Cert.Spec.kp1
  rw [← into_eq m d hr1 hr2 i]
  rfl

include hr1 h0 h3 h4 h5 h7 in
theorem W16_v14 (i : Fin 10000) :
    Main.W16 m d (Main.R main_v14) (ix2 (0 : Fin 1) i) = ((Cert.Spec.kgt (IM m d hr1 hr2) i : ℝ) : EReal) := by
  have e : Main.W16 m d (Main.R main_v14)
      = k4_pay1 (F := Ideal) (Main.W15 m d (Main.R main_v13)) (Main.W15 m d (Main.R main_v11_1)) (Main.W15 m d (Main.R main_v11_0)) (Main.W15 m d (Main.R main_v4)) := by
    unfold Main.W16; exact Function.update_self _ _ _
  rw [e]
  refine kgt_val (A0 m d) (A1 m d) (A2 m d) (A3 m d) (A4 m d) (A5 m d) (A6 m d) (A7 m d) (A8 m d) hr1 hr2 _ _ _ _ (W15_v13_colsum m d hr1 hr2 h0 h3 h5 h7) (fun i => ?_) (fun i => ?_) ?_ i
  · rw [Main.W15_keep m d (b := Main.R main_v11_1) (by decide), Main.W14_keep m d (b := Main.R main_v11_1) (by decide)]; exact W13_v11_1 m d hr1 hr2 i
  · rw [Main.W15_keep m d (b := Main.R main_v11_0) (by decide), Main.W14_keep m d (b := Main.R main_v11_0) (by decide)]; exact W13_v11_0 m d hr1 hr2 h0 h3 h5 h7 i
  · rw [Main.W15_keep m d (b := Main.R main_v4) (by decide), Main.W14_keep m d (b := Main.R main_v4) (by decide), Main.W13_keep m d (b := Main.R main_v4) (by decide) (by decide), Main.W12_keep m d (b := Main.R main_v4) (by decide), Main.W11_keep m d (b := Main.R main_v4) (by decide), Main.W10_keep m d (b := Main.R main_v4) (by decide), Main.W9_keep m d (b := Main.R main_v4) (by decide), Main.W8_keep m d (b := Main.R main_v4) (by decide), Main.W7_keep m d (b := Main.R main_v4) (by decide)]; exact W6_v4 m d hr1 hr2 h4 h5 h7

include hr1 h0 h3 h4 h5 h7 in
theorem W17_v15 (i : Fin 10000) :
    Main.W17 m d (Main.R main_v15) (ix1 i) = ((Cert.Spec.kgt (IM m d hr1 hr2) i : ℝ) : EReal) := by
  have e : Main.W17 m d (Main.R main_v15) = fun i => shapeCast S10000 (Main.W16 m d (Main.R main_v14) : FVec Ideal S1x10000 .f32) shapeCasts_S1x10000_S10000 i := by
    unfold Main.W17 Main.hop16; exact StableHlo.reshape_result _ _ _ _ _ _ _
  rw [e]
  exact (cast_row_vec _ i).trans (W16_v14 m d hr1 hr2 h0 h3 h4 h5 h7 i)

include hr1 h0 h3 h4 h5 h7 in
theorem W17_v14 (i : Fin 10000) :
    Main.W17 m d (Main.R main_v14) (ix2 (0 : Fin 1) i) = ((Cert.Spec.kgt (IM m d hr1 hr2) i : ℝ) : EReal) := by
  rw [Main.W17_keep m d (b := Main.R main_v14) (by decide)]; exact W16_v14 m d hr1 hr2 h0 h3 h4 h5 h7 i

include hr1 in
theorem W17_v11_1 (i : Fin 10000) :
    Main.W17 m d (Main.R main_v11_1) (ix2 (0 : Fin 1) i) = ((Cert.Spec.dinv (IM m d hr1 hr2) i : ℝ) : EReal) := by
  rw [Main.W17_keep m d (b := Main.R main_v11_1) (by decide), Main.W16_keep m d (b := Main.R main_v11_1) (by decide), Main.W15_keep m d (b := Main.R main_v11_1) (by decide), Main.W14_keep m d (b := Main.R main_v11_1) (by decide)]; exact W13_v11_1 m d hr1 hr2 i

include h6 h7 h8 in
theorem W17_v7 : Main.W17 m d (Main.R main_v7) (ix2 (0 : Fin 1) (0 : Fin 1)) = ((Cert.Spec.kk2 (IM m d hr1 hr2) : ℝ) : EReal) := by
  rw [Main.W17_keep m d (b := Main.R main_v7) (by decide), Main.W16_keep m d (b := Main.R main_v7) (by decide), Main.W15_keep m d (b := Main.R main_v7) (by decide), Main.W14_keep m d (b := Main.R main_v7) (by decide), Main.W13_keep m d (b := Main.R main_v7) (by decide) (by decide), Main.W12_keep m d (b := Main.R main_v7) (by decide), Main.W11_keep m d (b := Main.R main_v7) (by decide), Main.W10_keep m d (b := Main.R main_v7) (by decide)]; exact W9_v7 m d hr1 hr2 h6 h7 h8

end Cert.KernelIdeal.KVal

end
-- ==== Proof.KValMain3.lean ====
import proofs.«211345_g12773232738731_cont_fleet_1243_15_alg».proof.Proof.KValMain1
import proofs.«211345_g12773232738731_cont_fleet_1243_15_alg».proof.Proof.KValMain2
import proofs.«211345_g12773232738731_cont_fleet_1243_15_alg».proof.Proof.KValTiles
import proofs.«211345_g12773232738731_cont_fleet_1243_15_alg».proof.Proof.RefValueIdx
import proofs.«211345_g12773232738731_cont_fleet_1243_15_alg».proof.Proof.HandKernelIdeal.MainDefs

noncomputable section

open scoped BigOperators

namespace Cert.KernelIdeal.KVal

open Idealize.ShloMosaic Idealize.ShloMosaic.ValueIdx
open Cert.KernelIdeal Cert.KernelIdeal.Gen Cert.KernelIdeal.Hand
open Idealize.ShloMosaic.StableHlo (devRef_ne_of_ne)

section Main3

variable (m : (ℓ : Loc nD τ sig) → Buf (Elt Ideal) ℓ) (d : Dev nD)

variable (hr1 : ∀ i, (A1 m d i).toNat < 10000) (hr2 : ∀ i, (A2 m d i).toNat < 10000)

abbrev v16 : S32x10000.Idx → EReal := Main.W18 (F := Ideal) m d (Main.R main_v16)
abbrev v17 : S1x10000.Idx → EReal := Main.W19 (F := Ideal) m d (Main.R main_v17)
abbrev v19 : S2x200064.Idx → BitVec 32 := Main.W23 (F := Ideal) m d (Main.R main_v19)
abbrev v20 : S10000.Idx → EReal := Main.W24 (F := Ideal) m d (Main.R main_v20)
abbrev v21 : S200000.Idx → EReal := Main.W25 (F := Ideal) m d (Main.R main_v21)

theorem W18_v16 : Main.W18 (F := Ideal) m d (Main.R main_v16)
    = Tile2.val2 (F := Ideal) (fun d' => Main.W17 (F := Ideal) m d' (Main.R main_v15)) (fun d' => Main.W17 (F := Ideal) m d' (Main.R main_arg1)) d := by
  unfold Main.W18
  exact Function.update_self _ _ _

theorem W18_keep {r : Ref sig .tc} (h : r ≠ main_v16) : Main.W18 (F := Ideal) m d (Main.R r) = Main.W17 (F := Ideal) m d (Main.R r) := by
  unfold Main.W18
  exact Function.update_of_ne (devRef_ne_of_ne h) _ _

theorem W20_v18 : Main.W20 (F := Ideal) m d (Main.R main_v18)
    = transpose S2x200000 [1, 0] (Main.W19 (F := Ideal) m d (Main.R main_arg2)) transposes_S200000x2_S2x200000_1_0 := by
  unfold Main.W20 Main.hop19
  exact StableHlo.unary_result' _ _ _ _

theorem W20_keep {r : Ref sig .tc} (h : r ≠ main_v18) : Main.W20 (F := Ideal) m d (Main.R r) = Main.W19 (F := Ideal) m d (Main.R r) := by
  unfold Main.W20 Main.hop19
  exact StableHlo.unary_result_ne' _ _ _ _ h

theorem W24_v20 : Main.W24 (F := Ideal) m d (Main.R main_v20)
    = shapeCast S10000 (Main.W23 (F := Ideal) m d (Main.R main_v17)) shapeCasts_S1x10000_S10000 := by
  unfold Main.W24 Main.hop23
  exact StableHlo.reshape_result' _ _ _ _ _

theorem W23_v19 : Main.W23 (F := Ideal) m d (Main.R main_v19)
    = pad S2x200064 ![0, 0] ![0, 64] ![0, 0] (Main.W22 (F := Ideal) m d (Main.R main_v18)) (Main.W22 (F := Ideal) m d (Main.R main_call0_v0))
        pads_S2x200000_S2x200064_000_0640 h_S_ := by
  unfold Main.W23 Main.hop22
  exact StableHlo.binary_result' _ _ _ _ _

theorem W22_c0 : Main.W22 (F := Ideal) m d (Main.R main_call0_v0) = Main.W21 (F := Ideal) m d (Main.R main_c) := by
  unfold Main.W22 Main.hop21
  exact StableHlo.unary_result' _ _ _ _

theorem W21_c : Main.W21 (F := Ideal) m d (Main.R main_c) = constantI S_ 32 0#32 := by
  unfold Main.W21 Main.hop20
  exact StableHlo.nullary_result' _ _ _

theorem W19_v17 : Main.W19 (F := Ideal) m d (Main.R main_v17)
    = k6_pay1 (F := Ideal) (Main.W18 (F := Ideal) m d (Main.R main_v16)) (Main.W18 (F := Ideal) m d (Main.R main_v11_1))
        (Main.W18 (F := Ideal) m d (Main.R main_v14)) (Main.W18 (F := Ideal) m d (Main.R main_v7)) := by
  unfold Main.W19
  exact Function.update_self _ _ _

theorem W19_keep {r : Ref sig .tc} (h : r ≠ main_v17) : Main.W19 (F := Ideal) m d (Main.R r) = Main.W18 (F := Ideal) m d (Main.R r) := by
  unfold Main.W19
  exact Function.update_of_ne (devRef_ne_of_ne h) _ _

theorem W21_keep {r : Ref sig .tc} (h : r ≠ main_c) : Main.W21 (F := Ideal) m d (Main.R r) = Main.W20 (F := Ideal) m d (Main.R r) := by
  unfold Main.W21 Main.hop20
  exact StableHlo.nullary_result_ne' _ _ _ h

theorem W22_keep {r : Ref sig .tc} (h : r ≠ main_call0_v0) : Main.W22 (F := Ideal) m d (Main.R r) = Main.W21 (F := Ideal) m d (Main.R r) := by
  unfold Main.W22 Main.hop21
  exact StableHlo.unary_result_ne' _ _ _ _ h

theorem W23_keep {r : Ref sig .tc} (h : r ≠ main_v19) : Main.W23 (F := Ideal) m d (Main.R r) = Main.W22 (F := Ideal) m d (Main.R r) := by
  unfold Main.W23 Main.hop22
  exact StableHlo.binary_result_ne' _ _ _ _ _ h

theorem W24_keep {r : Ref sig .tc} (h : r ≠ main_v20) : Main.W24 (F := Ideal) m d (Main.R r) = Main.W23 (F := Ideal) m d (Main.R r) := by
  unfold Main.W24 Main.hop23
  exact StableHlo.reshape_result_ne' _ _ _ _ _ h

theorem W25_v21 : Main.W25 (F := Ideal) m d (Main.R main_v21)
    = Tile3.val3 (F := Ideal) (fun d' => Main.W24 (F := Ideal) m d' (Main.R main_v20)) (fun d' => Main.W24 (F := Ideal) m d' (Main.R main_v19)) d := by
  unfold Main.W25
  exact Function.update_self _ _ _

variable
  (hv15 : ∀ i : Fin 10000, Main.W17 (F := Ideal) m d (Main.R main_v15) (ix1 i) = ((Cert.Spec.kgt (IM m d hr1 hr2) i : ℝ) : EReal))
  (hv14 : ∀ i : Fin 10000, Main.W17 (F := Ideal) m d (Main.R main_v14) (ix2 (0 : Fin 1) i) = ((Cert.Spec.kgt (IM m d hr1 hr2) i : ℝ) : EReal))
  (hv11 : ∀ i : Fin 10000, Main.W17 (F := Ideal) m d (Main.R main_v11_1) (ix2 (0 : Fin 1) i) = ((Cert.Spec.dinv (IM m d hr1 hr2) i : ℝ) : EReal))
  (hv7 : Main.W17 (F := Ideal) m d (Main.R main_v7) (ix2 (0 : Fin 1) (0 : Fin 1)) = ((Cert.Spec.kk2 (IM m d hr1 hr2) : ℝ) : EReal))
  (ha1 : Main.W17 (F := Ideal) m d (Main.R main_arg1) = A1 m d)
  (ha2 : Main.W19 (F := Ideal) m d (Main.R main_arg2) = A2 m d)

include hv15 ha1 in
theorem v16_colsum (i : Fin 10000) :
    ∑ w : Fin 32, v16 m d (ix2 w i) = ((Cert.Spec.kp2 (IM m d hr1 hr2) i : ℝ) : EReal) := by
  have hrange : ∀ (d' : Dev nD) j, (ei2 (fun d' => Main.W17 (F := Ideal) m d' (Main.R main_arg1)) d' j).toNat < 10000 := by
    intro d' j
    obtain rfl : d' = d := Subsingleton.elim _ _
    show ((Main.W17 (F := Ideal) m d' (Main.R main_arg1) : S2x320000.Idx → BitVec 32) j).toNat < 10000
    rw [ha1]; exact hr1 j
  have h := val2_colsum (fun d' => Main.W17 (F := Ideal) m d' (Main.R main_v15)) (fun d' => Main.W17 (F := Ideal) m d' (Main.R main_arg1))
    hrange d (Cert.Spec.kgt (IM m d hr1 hr2)) hv15 i
  have e : v16 m d = val2E (fun d' => Main.W17 (F := Ideal) m d' (Main.R main_v15)) (fun d' => Main.W17 (F := Ideal) m d' (Main.R main_arg1)) d :=
    W18_v16 m d
  rw [e, h]
  refine congrArg (fun r : ℝ => (r : EReal)) ?_
  unfold Cert.Spec.kp2
  rw [← into_eq m d hr1 hr2 i]
  have hset : (Finset.univ.filter fun e : Fin 320000 =>
        (ei2 (fun d' => Main.W17 (F := Ideal) m d' (Main.R main_arg1)) d (ix2 (1 : Fin 2) e)).toNat = i.val)
      = Finset.univ.filter fun e : Fin 320000 => (A1 m d (ix2 (1 : Fin 2) e)).toNat = i.val := by
    refine Finset.filter_congr fun e _ => ?_
    show ((Main.W17 (F := Ideal) m d (Main.R main_arg1) : S2x320000.Idx → BitVec 32) (ix2 (1 : Fin 2) e)).toNat = i.val ↔ _
    rw [ha1]
  rw [hset]
  refine Finset.sum_congr rfl fun e _ => congrArg (Cert.Spec.kgt (IM m d hr1 hr2)) (Fin.ext ?_)
  show ((Main.W17 (F := Ideal) m d (Main.R main_arg1) : S2x320000.Idx → BitVec 32) (ix2 (0 : Fin 2) e)).toNat
    = (A1 m d (ix2 (0 : Fin 2) e)).toNat
  rw [ha1]

include hv15 hv14 hv11 hv7 ha1 in
theorem v17_apply (i : Fin 10000) :
    v17 m d (ix2 (0 : Fin 1) i) = ((Cert.Spec.sig (Cert.Spec.kval (IM m d hr1 hr2) i) : ℝ) : EReal) := by
  have e : v17 m d = k6_pay1 (F := Ideal) (v16 m d) (Main.W18 (F := Ideal) m d (Main.R main_v11_1))
      (Main.W18 (F := Ideal) m d (Main.R main_v14)) (Main.W18 (F := Ideal) m d (Main.R main_v7)) := W19_v17 m d
  rw [e]
  refine sig_val (A0 m d) (A1 m d) (A2 m d) (A3 m d) (A4 m d) (A5 m d) (A6 m d) (A7 m d) (A8 m d) hr1 hr2
    (v16 m d) _ _ _ (v16_colsum m d hr1 hr2 hv15 ha1) ?_ ?_ ?_ i
  · intro n; rw [W18_keep m d (by decide)]; exact hv11 n
  · intro n; rw [W18_keep m d (by decide)]; exact hv14 n
  · rw [W18_keep m d (by decide)]; exact hv7

include ha2 in
theorem v19_inside (r : Fin 2) (p : Fin 200064) (hp : p.val < 200000) :
    v19 m d (ix2 r p) = A2 m d (ix2 (⟨p.val, hp⟩ : Fin 200000) r) := by
  have e : v19 m d = pad S2x200064 ![0, 0] ![0, 64] ![0, 0]
      (transpose S2x200000 [1, 0] (A2 m d) transposes_S200000x2_S2x200000_1_0) (Main.W22 (F := Ideal) m d (Main.R main_call0_v0))
      pads_S2x200000_S2x200064_000_0640 h_S_ := by
    show Main.W23 (F := Ideal) m d (Main.R main_v19) = _
    rw [W23_v19, W22_keep m d (by decide), W21_keep m d (by decide), W20_v18, ha2]
  rw [e]
  exact pad_inside (A2 m d) _ r p hp

theorem v19_outside (r : Fin 2) (p : Fin 200064) (hp : 200000 ≤ p.val) : v19 m d (ix2 r p) = 0#32 := by
  have e : v19 m d = pad S2x200064 ![0, 0] ![0, 64] ![0, 0]
      (transpose S2x200000 [1, 0] (Main.W19 (F := Ideal) m d (Main.R main_arg2)) transposes_S200000x2_S2x200000_1_0)
      (constantI S_ 32 0#32) pads_S2x200000_S2x200064_000_0640 h_S_ := by
    show Main.W23 (F := Ideal) m d (Main.R main_v19) = _
    rw [W23_v19, W22_keep m d (by decide), W21_keep m d (by decide), W20_v18, W22_c0, W21_c]
  rw [e, pad_outside _ _ r p hp]
  rfl

include ha2 hr2 in
theorem v19_range (j : S2x200064.Idx) : (v19 m d j).toNat < 10000 := by
  obtain ⟨r, p, rfl⟩ : ∃ (r : Fin 2) (p : Fin 200064), j = ix2 r p := ⟨j 0, j 1, eq_ix2 j⟩
  by_cases hp : p.val < 200000
  · rw [v19_inside m d ha2 r p hp]; exact hr2 _
  · rw [v19_outside m d r p (Nat.le_of_not_lt hp)]; decide

include hv15 hv14 hv11 hv7 ha1 in
theorem v20_apply (n : Fin 10000) :
    v20 m d (ix1 n) = ((Cert.Spec.sig (Cert.Spec.kval (IM m d hr1 hr2) n) : ℝ) : EReal) := by
  have e : v20 m d = shapeCast S10000 (v17 m d) shapeCasts_S1x10000_S10000 := by
    show Main.W24 (F := Ideal) m d (Main.R main_v20) = _
    rw [W24_v20, W23_keep m d (by decide), W22_keep m d (by decide), W21_keep m d (by decide), W20_keep m d (by decide)]
  rw [e, cast_row_vec]
  exact v17_apply m d hr1 hr2 hv15 hv14 hv11 hv7 ha1 n

include hv15 hv14 hv11 hv7 ha1 ha2 in
theorem kernel_value_of :
    Main.W25 (F := Ideal) m d (Main.R main_v21) = fun j => ((Cert.Spec.kout (IM m d hr1 hr2) (j 0) : ℝ) : EReal) := by
  funext j
  obtain ⟨p, rfl⟩ : ∃ p : Fin 200000, j = ix1 p := ⟨j 0, eq_ix1 j⟩
  have hrange : ∀ (d' : Dev nD) j, (pe3 (fun d' => Main.W24 (F := Ideal) m d' (Main.R main_v19)) d' j).toNat < 10000 := by
    intro d' j
    obtain rfl : d' = d := Subsingleton.elim _ _
    show ((Main.W24 (F := Ideal) m d' (Main.R main_v19) : S2x200064.Idx → BitVec 32) j).toNat < 10000
    rw [W24_keep m d' (by decide)]
    exact v19_range m d' hr2 ha2 j
  have h := val3_apply (fun d' => Main.W24 (F := Ideal) m d' (Main.R main_v20)) (fun d' => Main.W24 (F := Ideal) m d' (Main.R main_v19)) hrange d p
  have e : Main.W25 (F := Ideal) m d (Main.R main_v21)
      = val3E (fun d' => Main.W24 (F := Ideal) m d' (Main.R main_v20)) (fun d' => Main.W24 (F := Ideal) m d' (Main.R main_v19)) d := W25_v21 m d
  rw [e]
  refine h.trans ?_
  have hs : ∀ n : Fin 10000, sv3 (fun d' => Main.W24 (F := Ideal) m d' (Main.R main_v20)) d (ix1 n)
      = ((Cert.Spec.sig (Cert.Spec.kval (IM m d hr1 hr2) n) : ℝ) : EReal) :=
    fun n => v20_apply m d hr1 hr2 hv15 hv14 hv11 hv7 ha1 n
  have hpe : ∀ r : Fin 2, pe3 (fun d' => Main.W24 (F := Ideal) m d' (Main.R main_v19)) d (ix2 r (⟨p.val, Nat.lt_trans p.isLt (by decide)⟩ : Fin 200064))
      = A2 m d (ix2 p r) := by
    intro r
    show (Main.W24 (F := Ideal) m d (Main.R main_v19) : S2x200064.Idx → BitVec 32) _ = _
    rw [W24_keep m d (by decide)]
    exact v19_inside m d ha2 r _ p.isLt
  rw [hs, hs, ← EReal.coe_mul]
  refine congrArg (fun r : ℝ => (r : EReal)) ?_
  unfold Cert.Spec.kout
  have e0 := congrArg BitVec.toNat (hpe 0)
  have e1 := congrArg BitVec.toNat (hpe 1)
  exact congrArg₂ (fun a b : Fin 10000 => Cert.Spec.sig (Cert.Spec.kval (IM m d hr1 hr2) a) * Cert.Spec.sig (Cert.Spec.kval (IM m d hr1 hr2) b))
    (Fin.ext e0) (Fin.ext e1)

variable (h0 : ∀ i, ∃ r : ℝ, A0 m d i = (r : EReal)) (h3 : ∀ i, ∃ r : ℝ, A3 m d i = (r : EReal)) (h4 : ∀ i, ∃ r : ℝ, A4 m d i = (r : EReal))
  (h5 : ∀ i, ∃ r : ℝ, A5 m d i = (r : EReal)) (h6 : ∀ i, ∃ r : ℝ, A6 m d i = (r : EReal)) (h7 : ∀ i, ∃ r : ℝ, A7 m d i = (r : EReal))
  (h8 : ∀ i, ∃ r : ℝ, A8 m d i = (r : EReal))

theorem W19_arg2 : Main.W19 (F := Ideal) m d (Main.R main_arg2) = A2 m d := by
  have h := Main.W24_arg2 (F := Ideal) m d
  rw [W24_keep m d (by decide), W23_keep m d (by decide), W22_keep m d (by decide),
    W21_keep m d (by decide), W20_keep m d (by decide)] at h
  exact h

include h0 h3 h4 h5 h6 h7 h8 in
theorem kernel_value :
    Main.W25 (F := Ideal) m d (Main.R main_v21) = fun j => ((Cert.Spec.kout (IM m d hr1 hr2) (j 0) : ℝ) : EReal) :=
  kernel_value_of m d hr1 hr2 (W17_v15 m d hr1 hr2 h0 h3 h4 h5 h7) (W17_v14 m d hr1 hr2 h0 h3 h4 h5 h7) (W17_v11_1 m d hr1 hr2)
    (W17_v7 m d hr1 hr2 h6 h7 h8) (Main.W17_arg1 m d) (W19_arg2 m d)

end Main3

end Cert.KernelIdeal.KVal

end
-- ==== Proof.KValFinal.lean ====
import proofs.«211345_g12773232738731_cont_fleet_1243_15_alg».proof.Proof.KValMain3
import proofs.«211345_g12773232738731_cont_fleet_1243_15_alg».proof.Proof.RefHalf

noncomputable section

namespace Cert.KernelIdeal.KVal

open Idealize.ShloMosaic Idealize.ShloMosaic.ValueIdx
open Cert.KernelIdeal Cert.KernelIdeal.Gen Cert.KernelIdeal.Hand

theorem kernel_value_pre (m : (ℓ : Loc nD τ sig) → Buf (Elt Ideal) ℓ) (hpre : Cert.Pre_KernelIdeal m) (c : Dev nD) :
    Main.W25 (F := Ideal) m c (Main.R main_v21)
      = fun j => ((Cert.Spec.kout (Cert.Proof.RefClaims.kerInp m hpre c) (j 0) : ℝ) : EReal) := by
  obtain ⟨h0, h3, h4, h5, h6, h7, h8⟩ := Cert.InputDomain.pre_fin (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8)) (hpre c)
  exact kernel_value m c (Cert.Proof.RefClaims.ker_range m hpre c).1 (Cert.Proof.RefClaims.ker_range m hpre c).2 h0 h3 h4 h5 h6 h7 h8

end Cert.KernelIdeal.KVal

end
-- ==== Proof.lean ====
/-
  A two-layer graph-convolution link predictor. With deg i one plus the number of edges into node i and
  dinv i = 1 / √(deg i), a convolution is (Âh) i = Σ_{e into i} dinv (src e) · dinv i · h (src e) + dinv i · dinv i · h i.
  The reference applies Â to 16 and then 8 channels, reads out one number per node, takes its logistic and multiplies
  the two scores of each pair; the kernel collapses the weight matrices to one vector and applies Â twice to a scalar
  per node. Both results are one real formula of the inputs (`Cert.Spec.kout`, `Cert.Spec.rout`), joined by
  `Cert.Spec.kout_eq_rout`: sums over the edges into a node commute with the contractions over channels, and
  dinv (src e) · dinv (dst e) splits into a factor inside the sum and one outside. Distributivity fails at infinities,
  so it is used on reals only: the precondition makes every float entry a real and every index a node number.
-/
import proofs.«211345_g12773232738731_cont_fleet_1243_15_alg».proof.Defs
import proofs.«211345_g12773232738731_cont_fleet_1243_15_alg».proof.Proof.Gen.Kernel
import proofs.«211345_g12773232738731_cont_fleet_1243_15_alg».proof.Proof.Gen.KernelIdeal
import proofs.«211345_g12773232738731_cont_fleet_1243_15_alg».proof.Proof.Gen.ReferenceIdeal
import proofs.«211345_g12773232738731_cont_fleet_1243_15_alg».proof.Proof.Gen.Pre_input_domain
import proofs.«211345_g12773232738731_cont_fleet_1243_15_alg».proof.Proof.Algebra
import proofs.«211345_g12773232738731_cont_fleet_1243_15_alg».proof.Proof.RefClaims
import proofs.«211345_g12773232738731_cont_fleet_1243_15_alg».proof.Proof.RefHalf
import proofs.«211345_g12773232738731_cont_fleet_1243_15_alg».proof.Proof.SameProgram
import proofs.«211345_g12773232738731_cont_fleet_1243_15_alg».proof.Proof.HandKernelIdeal.Frame
import proofs.«211345_g12773232738731_cont_fleet_1243_15_alg».proof.Proof.KValFinal
import Idealize.ShloMosaic.Adequacy
import Idealize.ShloMosaic.Init

noncomputable section

namespace Cert.Proof

open Idealize.ShloMosaic Idealize.ShloMosaic.TcCoe Idealize.SL.Sem
open Cert.Proof.RefClaims Cert.ReferenceIdeal.RefValue

theorem ker_value_out (m : (ℓ : Loc Cert.KernelIdeal.nD Cert.KernelIdeal.τ Cert.KernelIdeal.sig) → Buf (Elt Ideal) ℓ)
    (hpre : Cert.Pre_KernelIdeal m) (c : Dev Cert.KernelIdeal.nD)
    (v : Buf (Elt Ideal) ((c.tc : Thread Cert.KernelIdeal.nD Cert.KernelIdeal.τ).loc Cert.KernelIdeal.main_v21))
    (kv : v = fun j => ((Cert.Spec.kout (kerInp m hpre c) (j 0) : ℝ) : EReal)) :
    v = outOf (kerInp m hpre c) := by
  rw [kv, Cert.Spec.kout_eq_rout]
  rfl

theorem frame_ki : Cert.frame_KernelIdeal :=
  fun m ρ hpre => (θ_run (Cert.KernelIdeal.defs (F := Ideal)) _ _).mono (fun _ h c => (h c).2)
    (Cert.KernelIdeal.Hand.Frame.run_args (F := Ideal) m ρ hpre)

theorem algebraic : Cert.algebraic_KernelIdeal_ReferenceIdeal :=
  fun m g m' g' hpre hagree => ⟨fun c => outOf (kerInp m hpre c),
    (θ_run (Cert.KernelIdeal.defs (F := Ideal)) _ _).mono
      (fun _ h c => ⟨ker_value_out m hpre c _ ((h c).1.trans (Cert.KernelIdeal.KVal.kernel_value_pre m hpre c)), (h c).2⟩)
      (Cert.KernelIdeal.Hand.Frame.run_args (F := Ideal) m g hpre),
    ref_half m m' g' hpre hagree⟩

theorem claim : Cert.Claim :=
  ⟨Cert.Kernel.Gen.facts, Cert.KernelIdeal.Gen.facts, Cert.ReferenceIdeal.Gen.facts, Cert.Pre_input_domain.Gen.facts,
    SameProgram.frame_k, frame_ki, frame_ri, trivial, algebraic⟩

end Cert.Proof

end
